-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "inv_t" .f32 0x41200000#32 ((134217728 / 13421773 : ℝ) : EReal)
  ∧ IdealRules.named_const.Statement Cert.KernelIdeal.κ "inv_t" .f32 0x41200000#32 ((134217728 / 13421773 : ℝ) : EReal)
  ∧ IdealRules.named_const.Statement Cert.KernelIdeal.κ "inv_t" .f32 0x41200000#32 ((134217728 / 13421773 : ℝ) : EReal)
  ∧ IdealRules.named_const.Statement Cert.KernelIdeal.κ "inv_t" .f32 0x41200000#32 ((134217728 / 13421773 : ℝ) : EReal)
  ∧ IdealRules.named_const.Statement Cert.KernelIdeal.κ "inv_t" .f32 0x41200000#32 ((134217728 / 13421773 : ℝ) : EReal)
  ∧ IdealRules.named_const.Statement Cert.KernelIdeal.κ "inv_t" .f32 0x41200000#32 ((134217728 / 13421773 : ℝ) : EReal)
  ∧ IdealRules.named_const.Statement Cert.KernelIdeal.κ "inv_t" .f32 0x41200000#32 ((134217728 / 13421773 : ℝ) : EReal)
  ∧ IdealRules.named_const.Statement Cert.KernelIdeal.κ "inv_t" .f32 0x41200000#32 ((134217728 / 13421773 : ℝ) : EReal)
  ∧ IdealRules.named_const.Statement Cert.KernelIdeal.κ "inv_t" .f32 0x41200000#32 ((134217728 / 13421773 : ℝ) : EReal)
  ∧ IdealRules.named_const.Statement Cert.KernelIdeal.κ "inv_t" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x512x512 : Shape := ⟨4, ![8, 1, 512, 512]⟩
abbrev S16x64x256 : Shape := ⟨3, ![16, 64, 256]⟩
abbrev S2x10000x256 : Shape := ⟨3, ![2, 10000, 256]⟩
abbrev S16 : Shape := ⟨1, ![16]⟩
abbrev S_ : Shape := ⟨0, ![]⟩

class Facts : Prop where
  bcast_S_S8x1x512x512 : S_.BroadcastsInDim S8x1x512x512 (![] : Fin 0 → Fin S8x1x512x512.rank)
  reducesTo_S8x1x512x512_S_d0_1_2_3 : S8x1x512x512.ReducesTo [0, 1, 2, 3] S_
  h_S_ : 0 < S_.numel
  bcast_S_S16x64x256 : S_.BroadcastsInDim S16x64x256 (![] : Fin 0 → Fin S16x64x256.rank)
  reducesTo_S16x64x256_S_d0_1_2 : S16x64x256.ReducesTo [0, 1, 2] S_
  bcast_S_S2x10000x256 : S_.BroadcastsInDim S2x10000x256 (![] : Fin 0 → Fin S2x10000x256.rank)
  reducesTo_S2x10000x256_S_d0_1_2 : S2x10000x256.ReducesTo [0, 1, 2] S_
  bcast_S_S16 : S_.BroadcastsInDim S16 (![] : Fin 0 → Fin S16.rank)
  reducesTo_S16_S_d0 : S16.ReducesTo [0] S_

variable [Facts]

def fn_part3 {F : FTy → Type} [FloatOps F] (main_v45 : IVec S_ 1) (main_v50 : IVec S16 1) : IVec S_ 1 :=
  let main_c_19 : IVec S_ 1 := constantI S_ 1 1#1
  let main_v51 : IVec S_ 1 := (fun x v => Host.reduce IntOp.andi x v reducesTo_S16_S_d0 h_S_) main_v50 main_c_19
  let main_v52 : IVec S_ 1 := andi main_v45 main_v51
  main_v52

def fn_part2 {F : FTy → Type} [FloatOps F] (main_arg7 : FVec F S2x10000x256 .f32) (main_arg8 : IVec S16 32) (main_arg9 : IVec S16 32) (main_v33 : IVec S_ 1) : IVec S_ 1 :=
  let main_v34 : FVec F S2x10000x256 .f32 := Host.absf main_arg7
  let main_cst_12 : FVec F S_ .f32 := constant S_ .f32 0x7F800000#32
  let main_v35 : FVec F S2x10000x256 .f32 := broadcastInDim S2x10000x256 ![] bcast_S_S2x10000x256 main_cst_12
  let main_v36 : IVec S2x10000x256 1 := cmpf .olt main_v34 main_v35
  let main_c_13 : IVec S_ 1 := constantI S_ 1 1#1
  let main_v37 : IVec S_ 1 := (fun x v => Host.reduce IntOp.andi x v reducesTo_S2x10000x256_S_d0_1_2 h_S_) main_v36 main_c_13
  let main_v38 : IVec S_ 1 := andi main_v33 main_v37
  let main_c_14 : IVec S_ 32 := constantI S_ 32 0#32
  let main_v39 : IVec S16 32 := broadcastInDim S16 ![] bcast_S_S16 main_c_14
  let main_v40 : IVec S16 1 := cmpi .eq main_arg8 main_v39
  let main_c_15 : IVec S_ 32 := constantI S_ 32 1#32
  let main_v41 : IVec S16 32 := broadcastInDim S16 ![] bcast_S_S16 main_c_15
  let main_v42 : IVec S16 1 := cmpi .eq main_arg8 main_v41
  let main_v43 : IVec S16 1 := ori main_v40 main_v42
  let main_c_16 : IVec S_ 1 := constantI S_ 1 1#1
  let main_v44 : IVec S_ 1 := (fun x v => Host.reduce IntOp.andi x v reducesTo_S16_S_d0 h_S_) main_v43 main_c_16
  let main_v45 : IVec S_ 1 := andi main_v38 main_v44
  let main_c_17 : IVec S_ 32 := constantI S_ 32 0#32
  let main_v46 : IVec S16 32 := broadcastInDim S16 ![] bcast_S_S16 main_c_17
  let main_v47 : IVec S16 1 := cmpi .eq main_arg9 main_v46
  let main_c_18 : IVec S_ 32 := constantI S_ 32 1#32
  let main_v48 : IVec S16 32 := broadcastInDim S16 ![] bcast_S_S16 main_c_18
  let main_v49 : IVec S16 1 := cmpi .eq main_arg9 main_v48
  let main_v50 : IVec S16 1 := ori main_v47 main_v49
  fn_part3 (F := F) main_v45 main_v50

def fn_part1 {F : FTy → Type} [FloatOps F] (main_arg4 : FVec F S16x64x256 .f32) (main_arg5 : FVec F S16x64x256 .f32) (main_arg6 : FVec F S2x10000x256 .f32) (main_arg7 : FVec F S2x10000x256 .f32) (main_arg8 : IVec S16 32) (main_arg9 : IVec S16 32) (main_v13 : IVec S_ 1) (main_v16 : IVec S8x1x512x512 1) : IVec S_ 1 :=
  let main_c_5 : IVec S_ 1 := constantI S_ 1 1#1
  let main_v17 : IVec S_ 1 := (fun x v => Host.reduce IntOp.andi x v reducesTo_S8x1x512x512_S_d0_1_2_3 h_S_) main_v16 main_c_5
  let main_v18 : IVec S_ 1 := andi main_v13 main_v17
  let main_v19 : FVec F S16x64x256 .f32 := Host.absf main_arg4
  let main_cst_6 : FVec F S_ .f32 := constant S_ .f32 0x7F800000#32
  let main_v20 : FVec F S16x64x256 .f32 := broadcastInDim S16x64x256 ![] bcast_S_S16x64x256 main_cst_6
  let main_v21 : IVec S16x64x256 1 := cmpf .olt main_v19 main_v20
  let main_c_7 : IVec S_ 1 := constantI S_ 1 1#1
  let main_v22 : IVec S_ 1 := (fun x v => Host.reduce IntOp.andi x v reducesTo_S16x64x256_S_d0_1_2 h_S_) main_v21 main_c_7
  let main_v23 : IVec S_ 1 := andi main_v18 main_v22
  let main_v24 : FVec F S16x64x256 .f32 := Host.absf main_arg5
  let main_cst_8 : FVec F S_ .f32 := constant S_ .f32 0x7F800000#32
  let main_v25 : FVec F S16x64x256 .f32 := broadcastInDim S16x64x256 ![] bcast_S_S16x64x256 main_cst_8
  let main_v26 : IVec S16x64x256 1 := cmpf .olt main_v24 main_v25
  let main_c_9 : IVec S_ 1 := constantI S_ 1 1#1
  let main_v27 : IVec S_ 1 := (fun x v => Host.reduce IntOp.andi x v reducesTo_S16x64x256_S_d0_1_2 h_S_) main_v26 main_c_9
  let main_v28 : IVec S_ 1 := andi main_v23 main_v27
  let main_v29 : FVec F S2x10000x256 .f32 := Host.absf main_arg6
  let main_cst_10 : FVec F S_ .f32 := constant S_ .f32 0x7F800000#32
  let main_v30 : FVec F S2x10000x256 .f32 := broadcastInDim S2x10000x256 ![] bcast_S_S2x10000x256 main_cst_10
  let main_v31 : IVec S2x10000x256 1 := cmpf .olt main_v29 main_v30
  let main_c_11 : IVec S_ 1 := constantI S_ 1 1#1
  let main_v32 : IVec S_ 1 := (fun x v => Host.reduce IntOp.andi x v reducesTo_S2x10000x256_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S8x1x512x512 .f32) (main_arg1 : FVec F S8x1x512x512 .f32) (main_arg2 : FVec F S8x1x512x512 .f32) (main_arg3 : FVec F S8x1x512x512 .f32) (main_arg4 : FVec F S16x64x256 .f32) (main_arg5 : FVec F S16x64x256 .f32) (main_arg6 : FVec F S2x10000x256 .f32) (main_arg7 : FVec F S2x10000x256 .f32) (main_arg8 : IVec S16 32) (main_arg9 : IVec S16 32) : IVec S_ 1 :=
  let main_v0 : FVec F S8x1x512x512 .f32 := Host.absf main_arg0
  let main_cst : FVec F S_ .f32 := constant S_ .f32 0x7F800000#32
  let main_v1 : FVec F S8x1x512x512 .f32 := broadcastInDim S8x1x512x512 ![] bcast_S_S8x1x512x512 main_cst
  let main_v2 : IVec S8x1x512x512 1 := cmpf .olt main_v0 main_v1
  let main_c : IVec S_ 1 := constantI S_ 1 1#1
  let main_v3 : IVec S_ 1 := (fun x v => Host.reduce IntOp.andi x v reducesTo_S8x1x512x512_S_d0_1_2_3 h_S_) main_v2 main_c
  let main_v4 : FVec F S8x1x512x512 .f32 := Host.absf main_arg1
  let main_cst_0 : FVec F S_ .f32 := constant S_ .f32 0x7F800000#32
  let main_v5 : FVec F S8x1x512x512 .f32 := broadcastInDim S8x1x512x512 ![] bcast_S_S8x1x512x512 main_cst_0
  let main_v6 : IVec S8x1x512x512 1 := cmpf .olt main_v4 main_v5
  let main_c_1 : IVec S_ 1 := constantI S_ 1 1#1
  let main_v7 : IVec S_ 1 := (fun x v => Host.reduce IntOp.andi x v reducesTo_S8x1x512x512_S_d0_1_2_3 h_S_) main_v6 main_c_1
  let main_v8 : IVec S_ 1 := andi main_v3 main_v7
  let main_v9 : FVec F S8x1x512x512 .f32 := Host.absf main_arg2
  let main_cst_2 : FVec F S_ .f32 := constant S_ .f32 0x7F800000#32
  let main_v10 : FVec F S8x1x512x512 .f32 := broadcastInDim S8x1x512x512 ![] bcast_S_S8x1x512x512 main_cst_2
  let main_v11 : IVec S8x1x512x512 1 := cmpf .olt main_v9 main_v10
  let main_c_3 : IVec S_ 1 := constantI S_ 1 1#1
  let main_v12 : IVec S_ 1 := (fun x v => Host.reduce IntOp.andi x v reducesTo_S8x1x512x512_S_d0_1_2_3 h_S_) main_v11 main_c_3
  let main_v13 : IVec S_ 1 := andi main_v8 main_v12
  let main_v14 : FVec F S8x1x512x512 .f32 := Host.absf main_arg3
  let main_cst_4 : FVec F S_ .f32 := constant S_ .f32 0x7F800000#32
  let main_v15 : FVec F S8x1x512x512 .f32 := broadcastInDim S8x1x512x512 ![] bcast_S_S8x1x512x512 main_cst_4
  let main_v16 : IVec S8x1x512x512 1 := cmpf .olt main_v14 main_v15
  fn_part1 (F := F) main_arg4 main_arg5 main_arg6 main_arg7 main_arg8 main_arg9 main_v13 main_v16
-- ==== Kernel.lean ====
abbrev S8x1x512x512 : Shape := ⟨4, ![8, 1, 512, 512]⟩
abbrev S16x64x256 : Shape := ⟨3, ![16, 64, 256]⟩
abbrev S2x10000x256 : Shape := ⟨3, ![2, 10000, 256]⟩
abbrev S16 : Shape := ⟨1, ![16]⟩
abbrev S2x1x1 : Shape := ⟨3, ![2, 1, 1]⟩
abbrev S1x1x512x512 : Shape := ⟨4, ![1, 1, 512, 512]⟩
abbrev S1x1x1 : Shape := ⟨3, ![1, 1, 1]⟩
abbrev S1x1x512 : Shape := ⟨3, ![1, 1, 512]⟩
abbrev S1x1x512x1 : Shape := ⟨4, ![1, 1, 512, 1]⟩
abbrev S1x1x1x1 : Shape := ⟨4, ![1, 1, 1, 1]⟩
abbrev S_ : Shape := ⟨0, ![]⟩
abbrev S1x10000x256 : Shape := ⟨3, ![1, 10000, 256]⟩
abbrev S10000x256 : Shape := ⟨2, ![10000, 256]⟩
abbrev S64x16x256 : Shape := ⟨3, ![64, 16, 256]⟩
abbrev S1024x256 : Shape := ⟨2, ![1024, 256]⟩
abbrev S1x16 : Shape := ⟨2, ![1, 16]⟩
abbrev S64x16 : Shape := ⟨2, ![64, 16]⟩
abbrev S1024 : Shape := ⟨1, ![1024]⟩
abbrev S1x1024 : Shape := ⟨2, ![1, 1024]⟩
abbrev S1x1024x256 : Shape := ⟨3, ![1, 1024, 256]⟩
abbrev S2x1024x256 : Shape := ⟨3, ![2, 1024, 256]⟩
abbrev S1x1x1024 : Shape := ⟨3, ![1, 1, 1024]⟩
abbrev S2x1x1024 : Shape := ⟨3, ![2, 1, 1024]⟩
abbrev S1x2000x256 : Shape := ⟨3, ![1, 2000, 256]⟩
abbrev S1x400x256 : Shape := ⟨3, ![1, 400, 256]⟩
abbrev S400x256 : Shape := ⟨2, ![400, 256]⟩
abbrev S256x1024 : Shape := ⟨2, ![256, 1024]⟩
abbrev S400x1024 : Shape := ⟨2, ![400, 1024]⟩
abbrev S400x1 : Shape := ⟨2, ![400, 1]⟩
abbrev S2 : Shape := ⟨1, ![2]⟩
abbrev S1 : Shape := ⟨1, ![1]⟩

abbrev nBuf : Space → Nat
  | .hbm => 76
  | .vmem => 26
  | .smem => 0
  | _ => 0

abbrev bufTy : (tb : Table) → Fin (tcTables nBuf tb) → BufTy
  | .hbm, ⟨0, _⟩ => ⟨S8x1x512x512, .f32⟩
  | .hbm, ⟨1, _⟩ => ⟨S8x1x512x512, .f32⟩
  | .hbm, ⟨2, _⟩ => ⟨S8x1x512x512, .f32⟩
  | .hbm, ⟨3, _⟩ => ⟨S8x1x512x512, .f32⟩
  | .hbm, ⟨4, _⟩ => ⟨S16x64x256, .f32⟩
  | .hbm, ⟨5, _⟩ => ⟨S16x64x256, .f32⟩
  | .hbm, ⟨6, _⟩ => ⟨S2x10000x256, .f32⟩
  | .hbm, ⟨7, _⟩ => ⟨S2x10000x256, .f32⟩
  | .hbm, ⟨8, _⟩ => ⟨S16, .i32⟩
  | .hbm, ⟨9, _⟩ => ⟨S16, .i32⟩
  | .hbm, ⟨10, _⟩ => ⟨S2x1x1, .f32⟩
  | .hbm, ⟨11, _⟩ => ⟨S2x1x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x10000x256, .f32⟩
  | .hbm, ⟨22, _⟩ => ⟨S10000x256, .f32⟩
  | .hbm, ⟨23, _⟩ => ⟨S10000x256, .bf16⟩
  | .hbm, ⟨24, _⟩ => ⟨S64x16x256, .f32⟩
  | .hbm, ⟨25, _⟩ => ⟨S1024x256, .f32⟩
  | .hbm, ⟨26, _⟩ => ⟨S1024x256, .bf16⟩
  | .hbm, ⟨27, _⟩ => ⟨S1x16, .i32⟩
  | .hbm, ⟨28, _⟩ => ⟨S64x16, .i32⟩
  | .hbm, ⟨29, _⟩ => ⟨S1024, .i32⟩
  | .hbm, ⟨30, _⟩ => ⟨S1x1024, .i32⟩
  | .hbm, ⟨31, _⟩ => ⟨S1x10000x256, .f32⟩
  | .hbm, ⟨32, _⟩ => ⟨S10000x256, .f32⟩
  | .hbm, ⟨33, _⟩ => ⟨S10000x256, .bf16⟩
  | .hbm, ⟨34, _⟩ => ⟨S64x16x256, .f32⟩
  | .hbm, ⟨35, _⟩ => ⟨S1024x256, .f32⟩
  | .hbm, ⟨36, _⟩ => ⟨S1024x256, .bf16⟩
  | .hbm, ⟨37, _⟩ => ⟨S1x16, .i32⟩
  | .hbm, ⟨38, _⟩ => ⟨S64x16, .i32⟩
  | .hbm, ⟨39, _⟩ => ⟨S1024, .i32⟩
  | .hbm, ⟨40, _⟩ => ⟨S1x1024, .i32⟩
  | .hbm, ⟨41, _⟩ => ⟨S1x10000x256, .bf16⟩
  | .hbm, ⟨42, _⟩ => ⟨S1x10000x256, .bf16⟩
  | .hbm, ⟨43, _⟩ => ⟨S2x10000x256, .bf16⟩
  | .hbm, ⟨44, _⟩ => ⟨S1x1024x256, .bf16⟩
  | .hbm, ⟨45, _⟩ => ⟨S1x1024x256, .bf16⟩
  | .hbm, ⟨46, _⟩ => ⟨S2x1024x256, .bf16⟩
  | .hbm, ⟨47, _⟩ => ⟨S1x1x1024, .i32⟩
  | .hbm, ⟨48, _⟩ => ⟨S1x1x1024, .i32⟩
  | .hbm, ⟨49, _⟩ => ⟨S2x1x1024, .i32⟩
  | .hbm, ⟨50, _⟩ => ⟨S2x1x1024, .f32⟩
  | .hbm, ⟨51, _⟩ => ⟨S2x1x1024, .f32⟩
  | .hbm, ⟨52, _⟩ => ⟨S_, .f32⟩
  | .hbm, ⟨53, _⟩ => ⟨S2x1x1024, .f32⟩
  | .hbm, ⟨54, _⟩ => ⟨S2x1x1024, .i1⟩
  | .hbm, ⟨55, _⟩ => ⟨S2x1x1024, .f32⟩
  | .hbm, ⟨56, _⟩ => ⟨S_, .f32⟩
  | .hbm, ⟨57, _⟩ => ⟨S_, .f32⟩
  | .hbm, ⟨58, _⟩ => ⟨S2x1x1024, .f32⟩
  | .hbm, ⟨59, _⟩ => ⟨S2x1x1024, .f32⟩
  | .hbm, ⟨60, _⟩ => ⟨S_, .f32⟩
  | .hbm, ⟨61, _⟩ => ⟨S2x1x1024, .f32⟩
  | .hbm, ⟨62, _⟩ => ⟨S2x1x1024, .f32⟩
  | .hbm, ⟨63, _⟩ => ⟨S_, .f32⟩
  | .hbm, ⟨64, _⟩ => ⟨S2, .f32⟩
  | .hbm, ⟨65, _⟩ => ⟨S_, .f32⟩
  | .hbm, ⟨66, _⟩ => ⟨S2, .f32⟩
  | .hbm, ⟨67, _⟩ => ⟨S2, .f32⟩
  | .hbm, ⟨68, _⟩ => ⟨S1, .f32⟩
  | .hbm, ⟨69, _⟩ => ⟨S_, .f32⟩
  | .hbm, ⟨70, _⟩ => ⟨S1, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .local _ .vmem, ⟨0, _⟩ => ⟨S1x1x512x512, .f32⟩
  | .local _ .vmem, ⟨1, _⟩ => ⟨S1x1x512x512, .f32⟩
  | .local _ .vmem, ⟨2, _⟩ => ⟨S1x1x512x512, .f32⟩
  | .local _ .vmem, ⟨3, _⟩ => ⟨S1x1x512x512, .f32⟩
  | .local _ .vmem, ⟨4, _⟩ => ⟨S1x1x512x512, .f32⟩
  | .local _ .vmem, ⟨5, _⟩ => ⟨S1x1x512x512, .f32⟩
  | .local _ .vmem, ⟨6, _⟩ => ⟨S1x1x512x512, .f32⟩
  | .local _ .vmem, ⟨7, _⟩ => ⟨S1x1x512x512, .f32⟩
  | .local _ .vmem, ⟨8, _⟩ => ⟨S1x1x1, .f32⟩
  | .local _ .vmem, ⟨9, _⟩ => ⟨S1x1x1, .f32⟩
  | .local _ .vmem, ⟨10, _⟩ => ⟨S1x1x1, .f32⟩
  | .local _ .vmem, ⟨11, _⟩ => ⟨S1x1x1, .f32⟩
  | .local _ .vmem, ⟨12, _⟩ => ⟨S1x2000x256, .bf16⟩
  | .local _ .vmem, ⟨13, _⟩ => ⟨S1x2000x256, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x1x1024, .i32⟩
  | .local _ .vmem, ⟨17, _⟩ => ⟨S1x1x1024, .i32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | _, _ => ⟨S8x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_cst_1 : Ref sig .tc := ⟨.hbm, 16, rfl⟩
abbrev main_v3 : Ref sig .tc := ⟨.hbm, 17, rfl⟩
abbrev main_cst_2 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35_0 : Ref sig .tc := ⟨.hbm, 50, rfl⟩
abbrev main_v35_1 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_4 : Ref sig .tc := ⟨.hbm, 56, rfl⟩
abbrev main_call0_v0 : Ref sig .tc := ⟨.hbm, 57, rfl⟩
abbrev main_call0_v1 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc1_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨3, ![2, 2, 5], ![false, false, false]⟩

def k1_cond2 (i : grid1.Coords) : BitVec 1 :=
  let arg1 : BitVec 32 := BitVec.ofNat 32 (i 1).val
  let c0_i32_7 : BitVec 32 := 0#32
  let v9 : BitVec 1 := Scalar.cmpi .eq arg1 c0_i32_7
  let v10 : BitVec 32 := Scalar.extui v9
  let c0_i32_8 : BitVec 32 := 0#32
  let v11 : BitVec 1 := Scalar.cmpi .ne v10 c0_i32_8
  v11

def k1_mult1 : BitVec 32 :=
  let c0_i32_15 : BitVec 32 := 0#32
  let c400_i32 : BitVec 32 := 400#32
  let v25 : BitVec 32 := Scalar.muli c0_i32_15 c400_i32
  v25
def k1_off1 (c0_i32_15 : BitVec 32) : Fin 3 → Nat :=
  let c0_16 : Index := 0#32
  let c400_i32 : BitVec 32 := 400#32
  let v25 : BitVec 32 := Scalar.muli c0_i32_15 c400_i32
  let v26 : BitVec 32 := v25
  let v27 : Index := Scalar.indexCast v26
  let c0_17 : Index := 0#32
  ![0, v27.toNat, 0]
def k1_mult2 : BitVec 32 :=
  let c1_i32_30 : BitVec 32 := 1#32
  let c400_i32_31 : BitVec 32 := 400#32
  let v61 : BitVec 32 := Scalar.muli c1_i32_30 c400_i32_31
  v61
def k1_mult3 : BitVec 32 :=
  let c2_i32 : BitVec 32 := 2#32
  let c400_i32_47 : BitVec 32 := 400#32
  let v97 : BitVec 32 := Scalar.muli c2_i32 c400_i32_47
  v97
def k1_mult4 : BitVec 32 :=
  let c3_i32 : BitVec 32 := 3#32
  let c400_i32_63 : BitVec 32 := 400#32
  let v133 : BitVec 32 := Scalar.muli c3_i32 c400_i32_63
  v133
def k1_mult5 : BitVec 32 :=
  let c4_i32_79 : BitVec 32 := 4#32
  let c400_i32_80 : BitVec 32 := 400#32
  let v169 : BitVec 32 := Scalar.muli c4_i32_79 c400_i32_80
  v169
def k1_cond5 (i : grid1.Coords) : BitVec 1 :=
  let arg1 : BitVec 32 := BitVec.ofNat 32 (i 1).val
  let c1_i32_13 : BitVec 32 := 1#32
  let v22 : BitVec 1 := Scalar.cmpi .eq arg1 c1_i32_13
  let v23 : BitVec 32 := Scalar.extui v22
  let c0_i32_14 : BitVec 32 := 0#32
  let v24 : BitVec 1 := Scalar.cmpi .ne v23 c0_i32_14
  v24

def k1_mult6 : BitVec 32 :=
  let c0_i32_19 : BitVec 32 := 0#32
  let c400_i32 : BitVec 32 := 400#32
  let v28 : BitVec 32 := Scalar.muli c0_i32_19 c400_i32
  v28
def k1_off2 (c0_i32_19 : BitVec 32) : Fin 3 → Nat :=
  let c0_21 : Index := 0#32
  let c400_i32 : BitVec 32 := 400#32
  let v28 : BitVec 32 := Scalar.muli c0_i32_19 c400_i32
  let v29 : BitVec 32 := v28
  let v33 : Index := Scalar.indexCast v29
  let c0_22 : Index := 0#32
  ![0, v33.toNat, 0]
def k1_mult7 : BitVec 32 :=
  let c1_i32_40 : BitVec 32 := 1#32
  let c400_i32_41 : BitVec 32 := 400#32
  let v78 : BitVec 32 := Scalar.muli c1_i32_40 c400_i32_41
  v78
def k1_mult8 : BitVec 32 :=
  let c2_i32 : BitVec 32 := 2#32
  let c400_i32_64 : BitVec 32 := 400#32
  let v128 : BitVec 32 := Scalar.muli c2_i32 c400_i32_64
  v128
def k1_mult9 : BitVec 32 :=
  let c3_i32 : BitVec 32 := 3#32
  let c400_i32_87 : BitVec 32 := 400#32
  let v178 : BitVec 32 := Scalar.muli c3_i32 c400_i32_87
  v178
def k1_mult10 : BitVec 32 :=
  let c4_i32_110 : BitVec 32 := 4#32
  let c400_i32_111 : BitVec 32 := 400#32
  let v228 : BitVec 32 := Scalar.muli c4_i32_110 c400_i32_111
  v228
def k1_cond1 (i : grid1.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k1_cond4 (i : grid1.Coords) : BitVec 1 :=
  let arg1 : BitVec 32 := BitVec.ofNat 32 (i 1).val
  let c1_i32 : BitVec 32 := 1#32
  let v17 : BitVec 1 := Scalar.cmpi .eq arg1 c1_i32
  let arg2 : BitVec 32 := BitVec.ofNat 32 (i 2).val
  let c0_i32_11 : BitVec 32 := 0#32
  let v18 : BitVec 1 := Scalar.cmpi .eq arg2 c0_i32_11
  let v19 : BitVec 1 := Scalar.andi v17 v18
  let v20 : BitVec 32 := Scalar.extui v19
  let c0_i32_12 : BitVec 32 := 0#32
  let v21 : BitVec 1 := Scalar.cmpi .ne v20 c0_i32_12
  v21

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S1x1x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S1x1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

class Facts₀ : Prop where
  inb_S1x1x1_S1x1x1_0_0_0 : ∀ a, (![0, 0, 0] : Fin 3 → Nat) a + S1x1x1.size a ≤ S1x1x1.size a
  h_S1x1x1 : 0 < S1x1x1.numel
  inb_S1x1x512x512_S1x1x512x512_0_0_0_0 : ∀ a, (![0, 0, 0, 0] : Fin 4 → Nat) a + S1x1x512x512.size a ≤ S1x1x512x512.size a
  h_S1x1x512x512 : 0 < S1x1x512x512.numel
  reduces_S1x1x512x512_S1x1x512 : S1x1x512x512.Reduces [3] S1x1x512
  shapeCasts_S1x1x512_S1x1x512x1 : S1x1x512.ShapeCasts S1x1x512x1
  reduces_S1x1x512x1_S1x1x1 : S1x1x512x1.Reduces [2] S1x1x1
  shapeCasts_S1x1x1_S1x1x1x1 : S1x1x1.ShapeCasts S1x1x1x1
  shapeCasts_S1x1x1_S1x1x1 : S1x1x1.ShapeCasts S1x1x1
  shapeCasts_S1x1x1x1_S1x1x1 : S1x1x1x1.ShapeCasts S1x1x1
  reducesTo_S2x1x1_S_d0_1_2 : S2x1x1.ReducesTo [0, 1, 2] S_
  h_S_ : 0 < S_.numel
  slices_S2x10000x256_S1x10000x256_1_0_0 : S2x10000x256.Slices ![1, 0, 0] S1x10000x256
  shapeCasts_S1x10000x256_S10000x256 : S1x10000x256.ShapeCasts S10000x256
  bitsLt_bf16_f32 : FTy.bits .bf16 < FTy.bits .f32
  transposes_S16x64x256_S64x16x256_1_0_2 : S16x64x256.Transposes [1, 0, 2] S64x16x256
  shapeCasts_S64x16x256_S1024x256 : S64x16x256.ShapeCasts S1024x256
  shapeCasts_S16_S1x16 : S16.ShapeCasts S1x16
  bcast_S1x16_S64x16_0_1 : S1x16.BroadcastsInDim S64x16 (![0, 1] : Fin 2 → Fin S64x16.rank)
  shapeCasts_S64x16_S1024 : S64x16.ShapeCasts S1024
  shapeCasts_S1024_S1x1024 : S1024.ShapeCasts S1x1024
  bcast_S10000x256_S1x10000x256_1_2 : S10000x256.BroadcastsInDim S1x10000x256 (![1, 2] : Fin 2 → Fin S1x10000x256.rank)
  concatenates_S1x10000x256_S1x10000x256_S2x10000x256_d0 : Shape.Concatenates [S1x10000x256, S1x10000x256] S2x10000x256 0
  bcast_S1024x256_S1x1024x256_1_2 : S1024x256.BroadcastsInDim S1x1024x256 (![1, 2] : Fin 2 → Fin S1x1024x256.rank)
  concatenates_S1x1024x256_S1x1024x256_S2x1024x256_d0 : Shape.Concatenates [S1x1024x256, S1x1024x256] S2x1024x256 0
  bcast_S1x1024_S1x1x1024_1_2 : S1x1024.BroadcastsInDim S1x1x1024 (![1, 2] : Fin 2 → Fin S1x1x1024.rank)
  concatenates_S1x1x1024_S1x1x1024_S2x1x1024_d0 : Shape.Concatenates [S1x1x1024, S1x1x1024] S2x1x1024 0
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  h_S1x400x256 : 0 < S1x400x256.numel
  shapeCasts_S1x400x256_S400x256 : S1x400x256.ShapeCasts S400x256
  transposes_S1024x256_p1_0_S256x1024 : S1024x256.Transposes [1, 0] S256x1024
  reduces_S400x1024_S1024 : S400x1024.Reduces [0] S1024
  broadcasts_S400x1_S400x1024 : S400x1.Broadcasts S400x1024
  broadcasts_S1x1024_S400x1024 : S1x1024.Broadcasts S400x1024
  natLt_1_32 : 1 < 32
  iota_S1x1024_d1_w32 : S1x1024.Iotas .tc 32 [1]
  iota_S400x1_d0_w32 : S400x1.Iotas .tc 32 [0]
  bcast_S_S2x1x1024 : S_.BroadcastsInDim S2x1x1024 (![] : Fin 0 → Fin S2x1x1024.rank)
  reducesTo_S2x1x1024_S2_d1_2 : S2x1x1024.ReducesTo [1, 2] S2
  bcast_S_S2 : S_.BroadcastsInDim S2 (![] : Fin 0 → Fin S2.rank)
  slices_S2_S1_0 : S2.Slices ![0] S1
  shapeCasts_S1_S_ : S1.ShapeCasts S_
  slices_S2_S1_1 : S2.Slices ![1] S1
  dot_S400x256_S256x1024_S400x1024_1_0_0_1_n_n_wf : DotDims.WF S400x256 S256x1024 S400x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x512.size a ≤ S8x1x512x512.size a
  hwx0_0 : ∀ i : grid0.Coords, EltTy.bits .f32 = 32 ∨ (Rect.block (s := S8x1x512x512) S1x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S8x1x512x512.size a
  hwx0_1 : ∀ i : grid0.Coords, EltTy.bits .f32 = 32 ∨ (Rect.block (s := S8x1x512x512) S1x1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x512.size a ≤ S8x1x512x512.size a
  hwx0_2 : ∀ i : grid0.Coords, EltTy.bits .f32 = 32 ∨ (Rect.block (s := S8x1x512x512) S1x1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x512.size a ≤ S8x1x512x512.size a
  hwx0_3 : ∀ i : grid0.Coords, EltTy.bits .f32 = 32 ∨ (Rect.block (s := S8x1x512x512) S1x1x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)
  hrank1 : 0 < grid1.rank
  k1_mult1_dvd : ∀ i : grid1.Coords, ∀ (k1_h2 : k1_cond2 i = 1#1), 16 ∣ k1_mult1.toNat
  k1_off1_inb : ∀ i : grid1.Coords, ∀ (k1_h2 : k1_cond2 i = 1#1), ∀ (r : Fin 5), ∀ a, (k1_off1 (BitVec.ofNat 32 r.val)) a + S1x400x256.size a ≤ S1x2000x256.size a
  k1_mult2_dvd : ∀ i : grid1.Coords, ∀ (k1_h2 : k1_cond2 i = 1#1), 16 ∣ k1_mult2.toNat
  k1_mult3_dvd : ∀ i : grid1.Coords, ∀ (k1_h2 : k1_cond2 i = 1#1), 16 ∣ k1_mult3.toNat
  k1_mult4_dvd : ∀ i : grid1.Coords, ∀ (k1_h2 : k1_cond2 i = 1#1), 16 ∣ k1_mult4.toNat
  k1_mult5_dvd : ∀ i : grid1.Coords, ∀ (k1_h2 : k1_cond2 i = 1#1), 16 ∣ k1_mult5.toNat
  k1_mult6_dvd : ∀ i : grid1.Coords, ∀ (k1_h5 : k1_cond5 i = 1#1), 16 ∣ k1_mult6.toNat
  k1_off2_inb : ∀ i : grid1.Coords, ∀ (k1_h5 : k1_cond5 i = 1#1), ∀ (r : Fin 5), ∀ a, (k1_off2 (BitVec.ofNat 32 r.val)) a + S1x400x256.size a ≤ S1x2000x256.size a
  k1_mult7_dvd : ∀ i : grid1.Coords, ∀ (k1_h5 : k1_cond5 i = 1#1), 16 ∣ k1_mult7.toNat
  k1_mult8_dvd : ∀ i : grid1.Coords, ∀ (k1_h5 : k1_cond5 i = 1#1), 16 ∣ k1_mult8.toNat
  k1_mult9_dvd : ∀ i : grid1.Coords, ∀ (k1_h5 : k1_cond5 i = 1#1), 16 ∣ k1_mult9.toNat
  k1_mult10_dvd : ∀ i : grid1.Coords, ∀ (k1_h5 : k1_cond5 i = 1#1), 16 ∣ k1_mult10.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2000x256.size a ≤ S2x10000x256.size a
  hwx1_0 : ∀ i : grid1.Coords, EltTy.bits .bf16 = 32 ∨ (Rect.block (s := S2x10000x256) S1x2000x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x256.size a ≤ S2x1024x256.size a
  hwx1_1 : ∀ i : grid1.Coords, EltTy.bits .bf16 = 32 ∨ (Rect.block (s := S2x1024x256) S1x1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024.size a ≤ S2x1x1024.size a
  hwx1_2 : ∀ i : grid1.Coords, EltTy.bits .i32 = 32 ∨ (Rect.block (s := S2x1x1024) S1x1x1024.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1024.size a ≤ S2x1x1024.size a
  hwx1_3 : ∀ i : grid1.Coords, EltTy.bits .f32 = 32 ∨ (Rect.block (s := S2x1x1024) S1x1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1024.size a ≤ S2x1x1024.size a
  hwx1_4 : ∀ i : grid1.Coords, EltTy.bits .f32 = 32 ∨ (Rect.block (s := S2x1x1024) S1x1x1024.size (cc1_transform_4 i) (hinb1_4 i)).WholeWords (EltTy.packing .f32)

variable [Facts₀]

def dot_S400x256_S256x1024_S400x1024_1_0_0_1_n_n : DotDims S400x256 S256x1024 S400x1024 where
  lhsContracting := [1]
  rhsContracting := [0]
  lhsNonContracting := [0]
  rhsNonContracting := [1]
  lhsBatch := []
  rhsBatch := []
  wf := dot_S400x256_S256x1024_S400x1024_1_0_0_1_n_n_wf

abbrev win0_0 : Pipeline.Window sig grid0 :=
  Pipeline.Window.ofSpec (Memref.whole main_arg0) S1x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S1x2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1x1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35_0) S1x1x1024.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v35_1) S1x1x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond1 i == 1#1) && !(k1_cond4 i == 1#1) && !(k1_cond5 i == 1#1) | 4 => fun i => !(k1_cond1 i == 1#1) && !(k1_cond4 i == 1#1) && !(k1_cond5 i == 1#1) | ⟨_ + 5, h⟩ => absurd h (Nat.not_lt.2 (Nat.le_add_left _ _))

class Facts : Prop extends Facts₀ where

variable [Facts]
-- ==== ReferenceIdeal.lean ====
abbrev S8x1x512x512 : Shape := ⟨4, ![8, 1, 512, 512]⟩
abbrev S16x64x256 : Shape := ⟨3, ![16, 64, 256]⟩
abbrev S2x10000x256 : Shape := ⟨3, ![2, 10000, 256]⟩
abbrev S16 : Shape := ⟨1, ![16]⟩
abbrev S_ : Shape := ⟨0, ![]⟩
abbrev S1x10000x256 : Shape := ⟨3, ![1, 10000, 256]⟩
abbrev S10000x256 : Shape := ⟨2, ![10000, 256]⟩
abbrev S20000x256 : Shape := ⟨2, ![20000, 256]⟩
abbrev S1 : Shape := ⟨1, ![1]⟩
abbrev S1x10000 : Shape := ⟨2, ![1, 10000]⟩
abbrev S10000 : Shape := ⟨1, ![10000]⟩
abbrev S20000 : Shape := ⟨1, ![20000]⟩
abbrev S64x16x256 : Shape := ⟨3, ![64, 16, 256]⟩
abbrev S1024x256 : Shape := ⟨2, ![1024, 256]⟩
abbrev S16x1 : Shape := ⟨2, ![16, 1]⟩
abbrev S1x20000 : Shape := ⟨2, ![1, 20000]⟩
abbrev S16x20000 : Shape := ⟨2, ![16, 20000]⟩
abbrev S256x20000 : Shape := ⟨2, ![256, 20000]⟩
abbrev S1024x20000 : Shape := ⟨2, ![1024, 20000]⟩
abbrev S1024 : Shape := ⟨1, ![1024]⟩
abbrev S1024x1 : Shape := ⟨2, ![1024, 1]⟩
abbrev S1x16x1x20000 : Shape := ⟨4, ![1, 16, 1, 20000]⟩
abbrev S64x16x1x20000 : Shape := ⟨4, ![64, 16, 1, 20000]⟩

abbrev nBuf : Space → Nat
  | .hbm => 171
  | .vmem => 0
  | .smem => 0
  | _ => 0

abbrev hbmTy0_0 (i : Nat) : BufTy := match i % 128 with
  | 0 => ⟨S8x1x512x512, .f32⟩
  | 1 => ⟨S8x1x512x512, .f32⟩
  | 2 => ⟨S8x1x512x512, .f32⟩
  | 3 => ⟨S8x1x512x512, .f32⟩
  | 4 => ⟨S16x64x256, .f32⟩
  | 5 => ⟨S16x64x256, .f32⟩
  | 6 => ⟨S2x10000x256, .f32⟩
  | 7 => ⟨S2x10000x256, .f32⟩
  | 8 => ⟨S16, .i32⟩
  | 9 => ⟨S16, .i32⟩
  | 10 => ⟨S8x1x512x512, .f32⟩
  | 11 => ⟨S8x1x512x512, .f32⟩
  | 12 => ⟨S_, .f32⟩
  | 13 => ⟨S_, .f32⟩
  | 14 => ⟨S_, .f32⟩
  | 15 => ⟨S_, .f32⟩
  | 16 => ⟨S8x1x512x512, .f32⟩
  | 17 => ⟨S8x1x512x512, .f32⟩
  | 18 => ⟨S_, .f32⟩
  | 19 => ⟨S_, .f32⟩
  | 20 => ⟨S_, .f32⟩
  | 21 => ⟨S_, .f32⟩
  | 22 => ⟨S_, .f32⟩
  | 23 => ⟨S1x10000x256, .f32⟩
  | 24 => ⟨S10000x256, .f32⟩
  | 25 => ⟨S_, .f32⟩
  | 26 => ⟨S10000x256, .f32⟩
  | 27 => ⟨S20000x256, .f32⟩
  | 28 => ⟨S1, .i32⟩
  | 29 => ⟨S_, .i32⟩
  | 30 => ⟨S1, .i32⟩
  | 31 => ⟨S1, .i32⟩
  | 32 => ⟨S1x10000, .i32⟩
  | 33 => ⟨S10000, .i32⟩
  | 34 => ⟨S_, .i32⟩
  | 35 => ⟨S10000, .i32⟩
  | 36 => ⟨S20000, .i32⟩
  | 37 => ⟨S64x16x256, .f32⟩
  | 38 => ⟨S1024x256, .f32⟩
  | 39 => ⟨S16x1, .i32⟩
  | 40 => ⟨S1x20000, .i32⟩
  | 41 => ⟨S16x20000, .i32⟩
  | 42 => ⟨S16x20000, .i32⟩
  | 43 => ⟨S16x20000, .i1⟩
  | 44 => ⟨S16x20000, .f32⟩
  | 45 => ⟨S256x20000, .f32⟩
  | 46 => ⟨S1024x20000, .f32⟩
  | 47 => ⟨S_, .f32⟩
  | 48 => ⟨S1024x20000, .f32⟩
  | 49 => ⟨S1024x20000, .f32⟩
  | 50 => ⟨S_, .f32⟩
  | 51 => ⟨S1024, .f32⟩
  | 52 => ⟨S1024x1, .f32⟩
  | 53 => ⟨S1024x20000, .f32⟩
  | 54 => ⟨S1024x20000, .f32⟩
  | 55 => ⟨S1x16x1x20000, .f32⟩
  | 56 => ⟨S64x16x1x20000, .f32⟩
  | 57 => ⟨S1024x20000, .f32⟩
  | 58 => ⟨S_, .f32⟩
  | 59 => ⟨S1024x20000, .f32⟩
  | 60 => ⟨S1024x20000, .f32⟩
  | 61 => ⟨S1024, .i32⟩
  | 62 => ⟨S1024x1, .i32⟩
  | 63 => ⟨S20000, .i32⟩
  | 64 => ⟨S1x20000, .i32⟩
  | 65 => ⟨S1024x20000, .i32⟩
  | 66 => ⟨S1024x20000, .i32⟩
  | 67 => ⟨S1024x20000, .i1⟩
  | 68 => ⟨S1024x20000, .f32⟩
  | 69 => ⟨S_, .f32⟩
  | 70 => ⟨S1024x20000, .f32⟩
  | 71 => ⟨S1024x20000, .f32⟩
  | 72 => ⟨S1024x20000, .f32⟩
  | 73 => ⟨S1024x20000, .f32⟩
  | 74 => ⟨S1024x20000, .f32⟩
  | 75 => ⟨S_, .f32⟩
  | 76 => ⟨S1024, .f32⟩
  | 77 => ⟨S1024x1, .f32⟩
  | 78 => ⟨S1024x20000, .f32⟩
  | 79 => ⟨S1024x20000, .f32⟩
  | 80 => ⟨S1024x20000, .f32⟩
  | 81 => ⟨S1024x20000, .f32⟩
  | 82 => ⟨S1024x20000, .f32⟩
  | 83 => ⟨S_, .f32⟩
  | 84 => ⟨S1024, .f32⟩
  | 85 => ⟨S_, .f32⟩
  | 86 => ⟨S1024, .f32⟩
  | 87 => ⟨S1024, .f32⟩
  | 88 => ⟨S_, .f32⟩
  | 89 => ⟨S1024, .f32⟩
  | 90 => ⟨S1024, .f32⟩
  | 91 => ⟨S_, .f32⟩
  | 92 => ⟨S_, .f32⟩
  | 93 => ⟨S_, .f32⟩
  | 94 => ⟨S_, .f32⟩
  | 95 => ⟨S1x10000x256, .f32⟩
  | 96 => ⟨S10000x256, .f32⟩
  | 97 => ⟨S_, .f32⟩
  | 98 => ⟨S10000x256, .f32⟩
  | 99 => ⟨S20000x256, .f32⟩
  | 100 => ⟨S1, .i32⟩
  | 101 => ⟨S_, .i32⟩
  | 102 => ⟨S1, .i32⟩
  | 103 => ⟨S1, .i32⟩
  | 104 => ⟨S1x10000, .i32⟩
  | 105 => ⟨S10000, .i32⟩
  | 106 => ⟨S_, .i32⟩
  | 107 => ⟨S10000, .i32⟩
  | 108 => ⟨S20000, .i32⟩
  | 109 => ⟨S64x16x256, .f32⟩
  | 110 => ⟨S1024x256, .f32⟩
  | 111 => ⟨S16x1, .i32⟩
  | 112 => ⟨S1x20000, .i32⟩
  | 113 => ⟨S16x20000, .i32⟩
  | 114 => ⟨S16x20000, .i32⟩
  | 115 => ⟨S16x20000, .i1⟩
  | 116 => ⟨S16x20000, .f32⟩
  | 117 => ⟨S256x20000, .f32⟩
  | 118 => ⟨S1024x20000, .f32⟩
  | 119 => ⟨S_, .f32⟩
  | 120 => ⟨S1024x20000, .f32⟩
  | 121 => ⟨S1024x20000, .f32⟩
  | 122 => ⟨S_, .f32⟩
  | 123 => ⟨S1024, .f32⟩
  | 124 => ⟨S1024x1, .f32⟩
  | 125 => ⟨S1024x20000, .f32⟩
  | 126 => ⟨S1024x20000, .f32⟩
  | 127 => ⟨S1x16x1x20000, .f32⟩
  | _ => ⟨S8x1x512x512, .f32⟩

abbrev hbmTy0_1 (i : Nat) : BufTy := match i % 128 with
  | 0 => ⟨S64x16x1x20000, .f32⟩
  | 1 => ⟨S1024x20000, .f32⟩
  | 2 => ⟨S_, .f32⟩
  | 3 => ⟨S1024x20000, .f32⟩
  | 4 => ⟨S1024x20000, .f32⟩
  | 5 => ⟨S1024, .i32⟩
  | 6 => ⟨S1024x1, .i32⟩
  | 7 => ⟨S20000, .i32⟩
  | 8 => ⟨S1x20000, .i32⟩
  | 9 => ⟨S1024x20000, .i32⟩
  | 10 => ⟨S1024x20000, .i32⟩
  | 11 => ⟨S1024x20000, .i1⟩
  | 12 => ⟨S1024x20000, .f32⟩
  | 13 => ⟨S_, .f32⟩
  | 14 => ⟨S1024x20000, .f32⟩
  | 15 => ⟨S1024x20000, .f32⟩
  | 16 => ⟨S1024x20000, .f32⟩
  | 17 => ⟨S1024x20000, .f32⟩
  | 18 => ⟨S1024x20000, .f32⟩
  | 19 => ⟨S_, .f32⟩
  | 20 => ⟨S1024, .f32⟩
  | 21 => ⟨S1024x1, .f32⟩
  | 22 => ⟨S1024x20000, .f32⟩
  | 23 => ⟨S1024x20000, .f32⟩
  | 24 => ⟨S1024x20000, .f32⟩
  | 25 => ⟨S1024x20000, .f32⟩
  | 26 => ⟨S1024x20000, .f32⟩
  | 27 => ⟨S_, .f32⟩
  | 28 => ⟨S1024, .f32⟩
  | 29 => ⟨S_, .f32⟩
  | 30 => ⟨S1024, .f32⟩
  | 31 => ⟨S1024, .f32⟩
  | 32 => ⟨S_, .f32⟩
  | 33 => ⟨S1024, .f32⟩
  | 34 => ⟨S1024, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | _ => ⟨S8x1x512x512, .f32⟩

abbrev hbmTy (i : Nat) : BufTy := match i / 128 with
  | 0 => hbmTy0_0 i
  | 1 => hbmTy0_1 i
  | _ => ⟨S8x1x512x512, .f32⟩

abbrev bufTy : (tb : Table) → Fin (tcTables nBuf tb) → BufTy
  | .hbm, ⟨i, _⟩ => hbmTy i
  | _, _ => ⟨S8x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_v64 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_cst_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_16 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_17 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_18 : Ref sig .tc := ⟨.hbm, 119, rfl⟩
abbrev main_v89 : Ref sig .tc := ⟨.hbm, 120, rfl⟩
abbrev main_v90 : Ref sig .tc := ⟨.hbm, 121, rfl⟩
abbrev main_cst_19 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_20 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_21 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_22 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_cst_23 : Ref sig .tc := ⟨.hbm, 155, rfl⟩
abbrev main_v120 : Ref sig .tc := ⟨.hbm, 156, rfl⟩
abbrev main_cst_24 : Ref sig .tc := ⟨.hbm, 157, rfl⟩
abbrev main_v121 : Ref sig .tc := ⟨.hbm, 158, rfl⟩
abbrev main_v122 : Ref sig .tc := ⟨.hbm, 159, rfl⟩
abbrev main_cst_25 : Ref sig .tc := ⟨.hbm, 160, rfl⟩
abbrev main_v123 : Ref sig .tc := ⟨.hbm, 161, rfl⟩
abbrev main_v124 : Ref sig .tc := ⟨.hbm, 162, rfl⟩
abbrev main_cst_26 : Ref sig .tc := ⟨.hbm, 163, rfl⟩
abbrev main_v125 : Ref sig .tc := ⟨.hbm, 164, rfl⟩
abbrev main_cst_27 : Ref sig .tc := ⟨.hbm, 165, rfl⟩
abbrev main_v126 : Ref sig .tc := ⟨.hbm, 166, rfl⟩
abbrev main_v127 : Ref sig .tc := ⟨.hbm, 167, rfl⟩
abbrev main_cst_28 : Ref sig .tc := ⟨.hbm, 168, rfl⟩
abbrev main_v128 : Ref sig .tc := ⟨.hbm, 169, rfl⟩
abbrev main_v129 : Ref sig .tc := ⟨.hbm, 170, rfl⟩

abbrev nD : Nat := 1
abbrev τ : Topo := Topo.v7x

variable {F : FTy → Type} [FloatOps F]

class Facts₀ : Prop where
  reducesTo_S8x1x512x512_S_d0_1_2_3 : S8x1x512x512.ReducesTo [0, 1, 2, 3] S_
  h_S_ : 0 < S_.numel
  slices_S2x10000x256_S1x10000x256_1_0_0 : S2x10000x256.Slices ![1, 0, 0] S1x10000x256
  shapeCasts_S1x10000x256_S10000x256 : S1x10000x256.ShapeCasts S10000x256
  bcast_S_S10000x256 : S_.BroadcastsInDim S10000x256 (![] : Fin 0 → Fin S10000x256.rank)
  concatenates_S10000x256_S10000x256_S20000x256_d0 : Shape.Concatenates [S10000x256, S10000x256] S20000x256 0
  bcast_S_S1 : S_.BroadcastsInDim S1 (![] : Fin 0 → Fin S1.rank)
  bcast_S1_S1x10000_0 : S1.BroadcastsInDim S1x10000 (![0] : Fin 1 → Fin S1x10000.rank)
  shapeCasts_S1x10000_S10000 : S1x10000.ShapeCasts S10000
  bcast_S_S10000 : S_.BroadcastsInDim S10000 (![] : Fin 0 → Fin S10000.rank)
  concatenates_S10000_S10000_S20000_d0 : Shape.Concatenates [S10000, S10000] S20000 0
  transposes_S16x64x256_S64x16x256_1_0_2 : S16x64x256.Transposes [1, 0, 2] S64x16x256
  shapeCasts_S64x16x256_S1024x256 : S64x16x256.ShapeCasts S1024x256
  bcast_S16_S16x1_0 : S16.BroadcastsInDim S16x1 (![0] : Fin 1 → Fin S16x1.rank)
  bcast_S20000_S1x20000_1 : S20000.BroadcastsInDim S1x20000 (![1] : Fin 1 → Fin S1x20000.rank)
  bcast_S16x1_S16x20000_0_1 : S16x1.BroadcastsInDim S16x20000 (![0, 1] : Fin 2 → Fin S16x20000.rank)
  bcast_S1x20000_S16x20000_0_1 : S1x20000.BroadcastsInDim S16x20000 (![0, 1] : Fin 2 → Fin S16x20000.rank)
  transposes_S20000x256_S256x20000_1_0 : S20000x256.Transposes [1, 0] S256x20000
  bcast_S_S1024x20000 : S_.BroadcastsInDim S1024x20000 (![] : Fin 0 → Fin S1024x20000.rank)
  reducesTo_S1024x20000_S1024_d1 : S1024x20000.ReducesTo [1] S1024
  bcast_S1024_S1024x1_0 : S1024.BroadcastsInDim S1024x1 (![0] : Fin 1 → Fin S1024x1.rank)
  bcast_S1024x1_S1024x20000_0_1 : S1024x1.BroadcastsInDim S1024x20000 (![0, 1] : Fin 2 → Fin S1024x20000.rank)
  shapeCasts_S16x20000_S1x16x1x20000 : S16x20000.ShapeCasts S1x16x1x20000
  bcast_S1x16x1x20000_S64x16x1x20000_0_1_2_3 : S1x16x1x20000.BroadcastsInDim S64x16x1x20000 (![0, 1, 2, 3] : Fin 4 → Fin S64x16x1x20000.rank)
  shapeCasts_S64x16x1x20000_S1024x20000 : S64x16x1x20000.ShapeCasts S1024x20000
  bcast_S1x20000_S1024x20000_0_1 : S1x20000.BroadcastsInDim S1024x20000 (![0, 1] : Fin 2 → Fin S1024x20000.rank)
  bcast_S_S1024 : S_.BroadcastsInDim S1024 (![] : Fin 0 → Fin S1024.rank)
  reducesTo_S1024_S_d0 : S1024.ReducesTo [0] S_
  dot_S1024x256_S256x20000_S1024x20000_1_0_0_1_n_n_wf : DotDims.WF S1024x256 S256x20000 S1024x20000 [1] [0] [0] [1] [] []

variable [Facts₀]

def dot_S1024x256_S256x20000_S1024x20000_1_0_0_1_n_n : DotDims S1024x256 S256x20000 S1024x20000 where
  lhsContracting := [1]
  rhsContracting := [0]
  lhsNonContracting := [0]
  rhsNonContracting := [1]
  lhsBatch := []
  rhsBatch := []
  wf := dot_S1024x256_S256x20000_S1024x20000_1_0_0_1_n_n_wf

class Facts : Prop extends Facts₀ where

variable [Facts]
-- ==== Proof.KB.C0.lean ====
import proofs.«401957_j37563783971102_3_alg».proof.Proof.Gen.Kernel.Launch
import proofs.«401957_j37563783971102_3_alg».proof.Proof.Gen.Kernel.Skeleton
import proofs.«401957_j37563783971102_3_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end Region0

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 4 = 0 :=
  (by decide +kernel : ∀ t : Fin grid0.N, cond0_0 (grid0.coords t) ↔ t.val % 4 = 0)

abbrev VO0_4 : View sig .tc .vmem S1x1x1 .f32 := (Memref.whole cc0_stg4_0 : Memref sig .tc .vmem S1x1x1 .f32).view
abbrev VO0_5 : View sig .tc .vmem S1x1x1 .f32 := (Memref.whole cc0_stg5_0 : Memref sig .tc .vmem S1x1x1 .f32).view

abbrev ms0_0 (t : Fin cfg0.N) : Memref sig .tc .vmem S1x1x512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1 .f32 := win0_5.stage (cfg0.slots t 5)
abbrev hs0_5 (t : Fin cfg0.N) : (ms0_5 t).IsWhole := hstage0_5 ((cfg0.slots t 5).cast nbuf0_5)

/-- The six operands of region 0's body, each a whole buffer. -/
structure Ops0 where
  a2 : Memref sig .tc .vmem S1x1x512x512 .f32
  h2 : a2.IsWhole
  a3 : Memref sig .tc .vmem S1x1x512x512 .f32
  h3 : a3.IsWhole
  a4 : Memref sig .tc .vmem S1x1x512x512 .f32
  h4 : a4.IsWhole
  a5 : Memref sig .tc .vmem S1x1x512x512 .f32
  h5 : a5.IsWhole
  a6 : Memref sig .tc .vmem S1x1x1 .f32
  h6 : a6.IsWhole
  a7 : Memref sig .tc .vmem S1x1x1 .f32
  h7 : a7.IsWhole

end Cert.Kernel.Hand

end
-- ==== Proof.KB.R0RunA.lean ====
import proofs.«401957_j37563783971102_3_alg».proof.Proof.KB.C0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def run0A (c : Dev nD) (i : grid0.Coords) (o : Ops0) (hc0 : cond0_0 i)
    (x0 x1 x2 x3 : Vec F S1x1x512x512 .f32) :
    Σ' (L4 : List (View.Piece (Elt F) S1x1x1 .f32)), { L5 : List (View.Piece (Elt F) S1x1x1 .f32) //
      ∀ (E : Set ℕ) (K : PUnit → sProp 𝕄),
        iprop(owns (c : Thread nD τ) o.a2 fullShare x0 ∗ owns (c : Thread nD τ) o.a3 fullShare x1 ∗ owns (c : Thread nD τ) o.a4 fullShare x2 ∗ owns (c : Thread nD τ) o.a5 fullShare x3 ∗ (∃ d, owns (c : Thread nD τ) o.a6 fullShare d) ∗ (∃ d, owns (c : Thread nD τ) o.a7 fullShare d)
            ∗ (iprop(owns (c : Thread nD τ) o.a2 fullShare x0 ∗ owns (c : Thread nD τ) o.a3 fullShare x1 ∗ owns (c : Thread nD τ) o.a4 fullShare x2 ∗ owns (c : Thread nD τ) o.a5 fullShare x3 ∗ (∃ f, o.a6.view.loc (c : Thread nD τ) ↦[o.a6.view.set]{fullShare} o.a6.view.writes (Elt F) f L4) ∗ (∃ f, o.a7.view.loc (c : Thread nD τ) ↦[o.a7.view.set]{fullShare} o.a7.view.writes (Elt F) f L5)) -∗ K ⟨⟩))
          ⊢ wp frame (wpE (defs₀ (F := F)) Variants.none c none) E (cc0__mse_kernel i o.a2 o.h2 o.a3 o.h3 o.a4 o.h4 o.a5 o.h5 o.a6 o.h6 o.a7 o.h7) K } := by
  refine ⟨?_, ?_, fun E K => ?run⟩
  case run =>
    simp only [cc0__mse_kernel_eq_skeleton]; unfold cc0__mse_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := o.h2.eq_unread hf0; obtain rfl := o.h3.eq_unread hf1; obtain rfl := o.h4.eq_unread hf2; obtain rfl := o.h5.eq_unread hf3
    sl_exec (disch := first | exact hc0)
    sl_step
    iapply Hk
    isplitl [H0]
    · iexists _; isplitr; · ipureintro; exact o.h2.read_unread _
      iexact H0
    isplitl [H1]
    · iexists _; isplitr; · ipureintro; exact o.h3.read_unread _
      iexact H1
    isplitl [H2]
    · iexists _; isplitr; · ipureintro; exact o.h4.read_unread _
      iexact H2
    isplitl [H3]
    · iexists _; isplitr; · ipureintro; exact o.h5.read_unread _
      iexact H3
    isplitl [H4]; · iexists _; iexact H4
    iexists _; iexact H5

end Cert.Kernel.Hand

end
-- ==== Proof.KB.R0RunB.lean ====
import proofs.«401957_j37563783971102_3_alg».proof.Proof.KB.R0RunA

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def run0B (c : Dev nD) (i : grid0.Coords) (o : Ops0) (hc0 : ¬cond0_0 i)
    (x0 x1 x2 x3 : Vec F S1x1x512x512 .f32) (xo4 xo5 : Vec F S1x1x1 .f32) :
    Σ' (L4 : List (View.Piece (Elt F) S1x1x1 .f32)), { L5 : List (View.Piece (Elt F) S1x1x1 .f32) //
      ∀ (E : Set ℕ) (K : PUnit → sProp 𝕄),
        iprop(owns (c : Thread nD τ) o.a2 fullShare x0 ∗ owns (c : Thread nD τ) o.a3 fullShare x1 ∗ owns (c : Thread nD τ) o.a4 fullShare x2 ∗ owns (c : Thread nD τ) o.a5 fullShare x3 ∗ owns (c : Thread nD τ) o.a6 fullShare xo4 ∗ owns (c : Thread nD τ) o.a7 fullShare xo5
            ∗ (iprop(owns (c : Thread nD τ) o.a2 fullShare x0 ∗ owns (c : Thread nD τ) o.a3 fullShare x1 ∗ owns (c : Thread nD τ) o.a4 fullShare x2 ∗ owns (c : Thread nD τ) o.a5 fullShare x3 ∗ (∃ f, o.a6.view.loc (c : Thread nD τ) ↦[o.a6.view.set]{fullShare} o.a6.view.writes (Elt F) f L4) ∗ (∃ f, o.a7.view.loc (c : Thread nD τ) ↦[o.a7.view.set]{fullShare} o.a7.view.writes (Elt F) f L5)) -∗ K ⟨⟩))
          ⊢ wp frame (wpE (defs₀ (F := F)) Variants.none c none) E (cc0__mse_kernel i o.a2 o.h2 o.a3 o.h3 o.a4 o.h4 o.a5 o.h5 o.a6 o.h6 o.a7 o.h7) K } := by
  refine ⟨?_, ?_, fun E K => ?run⟩
  case run =>
    simp only [cc0__mse_kernel_eq_skeleton]; unfold cc0__mse_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := o.h2.eq_unread hf0; obtain rfl := o.h3.eq_unread hf1; obtain rfl := o.h4.eq_unread hf2; obtain rfl := o.h5.eq_unread hf3
    obtain rfl := o.h6.eq_unread hf4; obtain rfl := o.h7.eq_unread hf5
    sl_exec (disch := first | exact hc0)
    sl_step
    iapply Hk
    isplitl [H0]
    · iexists _; isplitr; · ipureintro; exact o.h2.read_unread _
      iexact H0
    isplitl [H1]
    · iexists _; isplitr; · ipureintro; exact o.h3.read_unread _
      iexact H1
    isplitl [H2]
    · iexists _; isplitr; · ipureintro; exact o.h4.read_unread _
      iexact H2
    isplitl [H3]
    · iexists _; isplitr; · ipureintro; exact o.h5.read_unread _
      iexact H3
    isplitl [H4]; · iexists _; iexact H4
    iexists _; iexact H5

end Cert.Kernel.Hand

end
-- ==== Proof.KB.R0.lean ====
import proofs.«401957_j37563783971102_3_alg».proof.Proof.KB.R0RunB

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The operands at grid point `t`. -/
abbrev ops0 (t : Fin cfg0.N) : Ops0 :=
  ⟨ms0_0 t, hs0_0 t, ms0_1 t, hs0_1 t, ms0_2 t, hs0_2 t, ms0_3 t, hs0_3 t, ms0_4 t, hs0_4 t, ms0_5 t, hs0_5 t⟩

theorem cover0_A_4 (c : Dev nD) (i : grid0.Coords) (o : Ops0) (hc0 : cond0_0 i)
    (x0 x1 x2 x3 : Vec F S1x1x512x512 .f32) (y : S1x1x1.Idx) :
    ∃ pc ∈ (run0A c i o hc0 x0 x1 x2 x3).1, y ∈ pc.1.set :=
  View.cover_of_tiledL (run0A c i o hc0 x0 x1 x2 x3).1 S1x1x1.size (by sl_kernel_rfl) y

def out0_A_4 (c : Dev nD) (i : grid0.Coords) (o : Ops0) (hc0 : cond0_0 i)
    (x0 x1 x2 x3 : Vec F S1x1x512x512 .f32) : Vec F S1x1x1 .f32 :=
  VO0_4.read (Elt F) (VO0_4.writes (Elt F) VO0_4.junk (run0A c i o hc0 x0 x1 x2 x3).1)

theorem cover0_A_5 (c : Dev nD) (i : grid0.Coords) (o : Ops0) (hc0 : cond0_0 i)
    (x0 x1 x2 x3 : Vec F S1x1x512x512 .f32) (y : S1x1x1.Idx) :
    ∃ pc ∈ (run0A c i o hc0 x0 x1 x2 x3).2.1, y ∈ pc.1.set :=
  View.cover_of_tiledL (run0A c i o hc0 x0 x1 x2 x3).2.1 S1x1x1.size (by sl_kernel_rfl) y

def out0_A_5 (c : Dev nD) (i : grid0.Coords) (o : Ops0) (hc0 : cond0_0 i)
    (x0 x1 x2 x3 : Vec F S1x1x512x512 .f32) : Vec F S1x1x1 .f32 :=
  VO0_5.read (Elt F) (VO0_5.writes (Elt F) VO0_5.junk (run0A c i o hc0 x0 x1 x2 x3).2.1)

theorem cover0_B_4 (c : Dev nD) (i : grid0.Coords) (o : Ops0) (hc0 : ¬cond0_0 i)
    (x0 x1 x2 x3 : Vec F S1x1x512x512 .f32) (xo4 xo5 : Vec F S1x1x1 .f32) (y : S1x1x1.Idx) :
    ∃ pc ∈ (run0B c i o hc0 x0 x1 x2 x3 xo4 xo5).1, y ∈ pc.1.set :=
  View.cover_of_tiledL (run0B c i o hc0 x0 x1 x2 x3 xo4 xo5).1 S1x1x1.size (by sl_kernel_rfl) y

def out0_B_4 (c : Dev nD) (i : grid0.Coords) (o : Ops0) (hc0 : ¬cond0_0 i)
    (x0 x1 x2 x3 : Vec F S1x1x512x512 .f32) (xo4 xo5 : Vec F S1x1x1 .f32) : Vec F S1x1x1 .f32 :=
  VO0_4.read (Elt F) (VO0_4.writes (Elt F) VO0_4.junk (run0B c i o hc0 x0 x1 x2 x3 xo4 xo5).1)

theorem cover0_B_5 (c : Dev nD) (i : grid0.Coords) (o : Ops0) (hc0 : ¬cond0_0 i)
    (x0 x1 x2 x3 : Vec F S1x1x512x512 .f32) (xo4 xo5 : Vec F S1x1x1 .f32) (y : S1x1x1.Idx) :
    ∃ pc ∈ (run0B c i o hc0 x0 x1 x2 x3 xo4 xo5).2.1, y ∈ pc.1.set :=
  View.cover_of_tiledL (run0B c i o hc0 x0 x1 x2 x3 xo4 xo5).2.1 S1x1x1.size (by sl_kernel_rfl) y

def out0_B_5 (c : Dev nD) (i : grid0.Coords) (o : Ops0) (hc0 : ¬cond0_0 i)
    (x0 x1 x2 x3 : Vec F S1x1x512x512 .f32) (xo4 xo5 : Vec F S1x1x1 .f32) : Vec F S1x1x1 .f32 :=
  VO0_5.read (Elt F) (VO0_5.writes (Elt F) VO0_5.junk (run0B c i o hc0 x0 x1 x2 x3 xo4 xo5).2.1)

section Region0
variable (V : (c : Dev nD) → (b : Ref sig .tc) → Buf (Elt F) ((c : Thread nD τ).loc b))

/-- The two accumulators after each point: reset at the multiples of 4, else added to what the point before left. -/
def outsAt0 (c : Dev nD) : (n : ℕ) → n < cfg0.N → Vec F S1x1x1 .f32 × Vec F S1x1x1 .f32
  | 0, hn => (out0_A_4 c (grid0.coords ⟨0, hn⟩) (ops0 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩),
      out0_A_5 c (grid0.coords ⟨0, hn⟩) (ops0 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩))
  | n + 1, hn =>
    if h0 : (n + 1) % 4 = 0 then
      (out0_A_4 c (grid0.coords ⟨n + 1, hn⟩) (ops0 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩),
        out0_A_5 c (grid0.coords ⟨n + 1, hn⟩) (ops0 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩))
    else
      (out0_B_4 c (grid0.coords ⟨n + 1, hn⟩) (ops0 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).1 (outsAt0 c n (Nat.lt_of_succ_lt hn)).2,
        out0_B_5 c (grid0.coords ⟨n + 1, hn⟩) (ops0 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).1 (outsAt0 c n (Nat.lt_of_succ_lt hn)).2)

theorem outsAt0_A (c : Dev nD) (t : Fin cfg0.N) (h0 : t.val % 4 = 0) :
    outsAt0 V c t.val t.isLt = (out0_A_4 c (grid0.coords t) (ops0 t) ((hcond0_0 t).mpr h0) (iblk0 V c 0 t) (iblk0 V c 1 t) (iblk0 V c 2 t) (iblk0 V c 3 t),
      out0_A_5 c (grid0.coords t) (ops0 t) ((hcond0_0 t).mpr h0) (iblk0 V c 0 t) (iblk0 V c 1 t) (iblk0 V c 2 t) (iblk0 V c 3 t)) := by
  obtain ⟨n, hn⟩ := t
  cases n with
  | zero => exact rfl
  | succ n => exact (dif_pos h0).trans rfl

theorem outsAt0_B (c : Dev nD) (t : Fin cfg0.N) (h0 : ¬t.val % 4 = 0) :
    outsAt0 V c t.val t.isLt = (out0_B_4 c (grid0.coords t) (ops0 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2,
      out0_B_5 c (grid0.coords t) (ops0 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

theorem before0_4_B (c : Dev nD) (t : Fin cfg0.N) (h0 : ¬t.val % 4 = 0) (d) :
    (dat0 V c).before 4 t d = (outsAt0 V c (t.val - 1) (Nat.lt_of_le_of_lt (Nat.sub_le _ _) t.isLt)).1 := by
  have hN : t.val < 8 := lt_of_lt_of_eq t.isLt (show cfg0.N = 8 from N_0)
  rw [Dat.before_out_kept _ 4 rfl t (by omega) (Bool.eq_false_iff.mpr fun h => by have := (flush0_4 _).mp h; dsimp only at this; omega)
    (fun _ => rfl) (fun _ _ => rfl)]
  dsimp only [dat0]

theorem before0_5_B (c : Dev nD) (t : Fin cfg0.N) (h0 : ¬t.val % 4 = 0) (d) :
    (dat0 V c).before 5 t d = (outsAt0 V c (t.val - 1) (Nat.lt_of_le_of_lt (Nat.sub_le _ _) t.isLt)).2 := by
  have hN : t.val < 8 := lt_of_lt_of_eq t.isLt (show cfg0.N = 8 from N_0)
  rw [Dat.before_out_kept _ 5 rfl t (by omega) (Bool.eq_false_iff.mpr fun h => by have := (flush0_5 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  have hN : t.val < 8 := lt_of_lt_of_eq t.isLt (show cfg0.N = 8 from N_0)
  by_cases h0 : t.val % 4 = 0
  · rw [outsAt0_A V c t h0]
    dsimp only
    unfold out0_A_4 out0_A_5
    iintro ⟨HΦ, Ho, ⟨%d0, H0⟩, ⟨%d1, H1⟩, ⟨%d2, H2⟩, ⟨%d3, H3⟩, ⟨%d4, H4⟩, ⟨%d5, H5⟩⟩
    iapply ((run0A c (grid0.coords t) (ops0 t) ((hcond0_0 t).mpr h0) (iblk0 V c 0 t) (iblk0 V c 1 t) (iblk0 V c 2 t) (iblk0 V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c (grid0.coords t) (ops0 t) _ _ _ _ _)
    unfold owns; iexists _; isplitr
    swap; · iexact H5
    ipureintro; exact View.read_writes_of_cover _ _ _ _ _ (cover0_A_5 c (grid0.coords t) (ops0 t) _ _ _ _ _)
  · rw [outsAt0_B V c t h0]
    dsimp only
    simp only [before0_4_B V c t h0, before0_5_B V c t h0]
    unfold out0_B_4 out0_B_5
    iintro ⟨HΦ, Ho, ⟨%d0, H0⟩, ⟨%d1, H1⟩, ⟨%d2, H2⟩, ⟨%d3, H3⟩, ⟨%d4, H4⟩, ⟨%d5, H5⟩⟩
    iapply ((run0B c (grid0.coords t) (ops0 t) (fun h => h0 ((hcond0_0 t).mp h)) (iblk0 V c 0 t) (iblk0 V c 1 t) (iblk0 V c 2 t) (iblk0 V c 3 t) _ _).2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c (grid0.coords t) (ops0 t) _ _ _ _ _ _ _)
    unfold owns; iexists _; isplitr
    swap; · iexact H5
    ipureintro; exact View.read_writes_of_cover _ _ _ _ _ (cover0_B_5 c (grid0.coords t) (ops0 t) _ _ _ _ _ _ _)

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KB.Chain0.lean ====
import proofs.«401957_j37563783971102_3_alg».proof.Proof.Gen.Kernel.Launch
import proofs.«401957_j37563783971102_3_alg».proof.Proof.Gen.Kernel.Skeleton
import proofs.«401957_j37563783971102_3_alg».proof.Proof.Gen.Kernel.Points
import proofs.«401957_j37563783971102_3_alg».proof.Proof.Gen.Kernel.Regions
import proofs.«401957_j37563783971102_3_alg».proof.Proof.KB.R0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev V0 : (c : Dev nD) → (b : Ref sig .tc) → Buf (Elt F) ((c : Thread nD τ).loc b) := fun c b => W0 m ρ c b

def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb

abbrev V1 : (c : Dev nD) → (b : Ref sig .tc) → Buf (Elt F) ((c : Thread nD τ).loc b) := fun c b => W1 m ρ c b

theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

abbrev W2 : Dev nD → Valuation τ sig (Elt F) := fun c => StableHlo.after hostOps1 (W1 m ρ c)

abbrev V2 : (c : Dev nD) → (b : Ref sig .tc) → Buf (Elt F) ((c : Thread nD τ).loc b) := fun c b => W2 m ρ c b

theorem W2_of (c : Dev nD) (r : Ref sig .tc) (h : r ∉ (hostOps1_W : List (Ref sig .tc))) :
    W2 m ρ c (Proc.devRef .tc r) = W1 m ρ c (Proc.devRef .tc r) :=
  StableHlo.after_of_writes_sub hostOps1 _ hostOps1_writes h

theorem W1_main_v0_0 (c : Dev nD) : W1 m ρ c (Proc.devRef .tc main_v0_0) = (dat0 (V0 m ρ) c).arrAt 4 cfg0.N := W1_arr m ρ c 4
theorem W1_main_v0_1 (c : Dev nD) : W1 m ρ c (Proc.devRef .tc main_v0_1) = (dat0 (V0 m ρ) c).arrAt 5 cfg0.N := W1_arr m ρ c 5

theorem W1_in (c : Dev nD) (w : Fin cfg0.W) (hin : (cfg0.win w).isOut = false) :
    W1 m ρ c (Proc.devRef .tc (Pipeline.arrRef spec0 w)) = W0 m ρ c (Proc.devRef .tc (Pipeline.arrRef spec0 w)) :=
  (W1_arr m ρ c w).trans (((dat0 (V0 m ρ) c).arrAt_in w hin _).trans (A_eq0 (V0 m ρ) c w))

end Cert.Kernel.Hand

end
-- ==== Proof.KB.C1.lean ====
import proofs.«401957_j37563783971102_3_alg».proof.Proof.Gen.Kernel.Launch
import proofs.«401957_j37563783971102_3_alg».proof.Proof.Gen.Kernel.Skeleton
import proofs.«401957_j37563783971102_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end Blocks

abbrev cond1_0 (i : grid1.Coords) : Prop := k1_cond1 i = 1#1

theorem hcond1_0 : ∀ t : Fin cfg1.N, cond1_0 (grid1.coords t) ↔ t.val % 10 = 0 :=
  (by decide +kernel : ∀ t : Fin grid1.N, cond1_0 (grid1.coords t) ↔ t.val % 10 = 0)

abbrev cond1_1 (i : grid1.Coords) : Prop := k1_cond2 i = 1#1

theorem hcond1_1 : ∀ t : Fin cfg1.N, cond1_1 (grid1.coords t) ↔ (t.val / 5) % 2 = 0 :=
  (by decide +kernel : ∀ t : Fin grid1.N, cond1_1 (grid1.coords t) ↔ (t.val / 5) % 2 = 0)

abbrev cond1_2 (i : grid1.Coords) : Prop :=
  (Scalar.cmpi .ne (Scalar.extui (Scalar.andi (Scalar.cmpi .eq (BitVec.ofNat 32 (i 1).val) 0#32) (Scalar.cmpi .eq (BitVec.ofNat 32 (i 2).val) 4#32))) 0#32) = 1#1

theorem hcond1_2 : ∀ t : Fin cfg1.N, cond1_2 (grid1.coords t) ↔ t.val % 10 = 4 :=
  (by decide +kernel : ∀ t : Fin grid1.N, cond1_2 (grid1.coords t) ↔ t.val % 10 = 4)

abbrev cond1_3 (i : grid1.Coords) : Prop := k1_cond4 i = 1#1

theorem hcond1_3 : ∀ t : Fin cfg1.N, cond1_3 (grid1.coords t) ↔ t.val % 10 = 5 :=
  (by decide +kernel : ∀ t : Fin grid1.N, cond1_3 (grid1.coords t) ↔ t.val % 10 = 5)

abbrev cond1_4 (i : grid1.Coords) : Prop := k1_cond5 i = 1#1

theorem hcond1_4 : ∀ t : Fin cfg1.N, cond1_4 (grid1.coords t) ↔ (t.val / 5) % 2 = 1 :=
  (by decide +kernel : ∀ t : Fin grid1.N, cond1_4 (grid1.coords t) ↔ (t.val / 5) % 2 = 1)

/-- The nine operands of region 1's body, each a whole buffer. -/
structure Ops1 where
  a3 : Memref sig .tc .vmem S1x2000x256 .bf16
  h3 : a3.IsWhole
  a4 : Memref sig .tc .vmem S1x1024x256 .bf16
  h4 : a4.IsWhole
  a5 : Memref sig .tc .vmem S1x1x1024 .i32
  h5 : a5.IsWhole
  a6 : Memref sig .tc .vmem S1x1x1024 .f32
  h6 : a6.IsWhole
  a7 : Memref sig .tc .vmem S1x1x1024 .f32
  h7 : a7.IsWhole
  a8 : Memref sig .tc .vmem S1x1024 .f32
  h8 : a8.IsWhole
  a9 : Memref sig .tc .vmem S1x1024 .f32
  h9 : a9.IsWhole
  a10 : Memref sig .tc .vmem S1x1024 .f32
  h10 : a10.IsWhole
  a11 : Memref sig .tc .vmem S1x1024 .f32
  h11 : a11.IsWhole

/-- The body's five control cases: each is a sign pattern of its five branch conditions. -/
abbrev IsA (i : grid1.Coords) : Prop := cond1_0 i ∧ cond1_1 i ∧ ¬cond1_2 i ∧ ¬cond1_3 i ∧ ¬cond1_4 i
abbrev IsB (i : grid1.Coords) : Prop := ¬cond1_0 i ∧ cond1_1 i ∧ ¬cond1_2 i ∧ ¬cond1_3 i ∧ ¬cond1_4 i
abbrev IsC (i : grid1.Coords) : Prop := ¬cond1_0 i ∧ cond1_1 i ∧ cond1_2 i ∧ ¬cond1_3 i ∧ ¬cond1_4 i
abbrev IsD (i : grid1.Coords) : Prop := ¬cond1_0 i ∧ ¬cond1_1 i ∧ ¬cond1_2 i ∧ cond1_3 i ∧ cond1_4 i
abbrev IsE (i : grid1.Coords) : Prop := ¬cond1_0 i ∧ ¬cond1_1 i ∧ ¬cond1_2 i ∧ ¬cond1_3 i ∧ cond1_4 i

end Cert.Kernel.Hand

end
-- ==== Proof.KB.C1Frame.lean ====
import proofs.«401957_j37563783971102_3_alg».proof.Proof.KB.C1

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem liveAt1_0 : ∀ t : Fin cfg1.N, cfg1.idle 0 (grid1.coords t) = false := by decide +kernel

theorem liveAt1_1 : ∀ t : Fin cfg1.N, cfg1.idle 1 (grid1.coords t) = false := by decide +kernel

theorem liveAt1_2 : ∀ t : Fin cfg1.N, cfg1.idle 2 (grid1.coords t) = false := by decide +kernel

abbrev ms1_0 (t : Fin cfg1.N) : Memref sig .tc .vmem S1x2000x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x1024 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x1024 .f32 := win1_4.stage (cfg1.slots t 4)
abbrev hs1_4 (t : Fin cfg1.N) : (ms1_4 t).IsWhole := hstage1_4 ((cfg1.slots t 4).cast nbuf1_4)

abbrev VO1_3 : View sig .tc .vmem S1x1x1024 .f32 := (Memref.whole cc1_stg3_0 : Memref sig .tc .vmem S1x1x1024 .f32).view
abbrev VO1_4 : View sig .tc .vmem S1x1x1024 .f32 := (Memref.whole cc1_stg4_0 : Memref sig .tc .vmem S1x1x1024 .f32).view

abbrev scM1_0 : Memref sig .tc .vmem S1x1024 .f32 := Memref.whole cc1_scratch0
abbrev scM1_1 : Memref sig .tc .vmem S1x1024 .f32 := Memref.whole cc1_scratch1
abbrev scM1_2 : Memref sig .tc .vmem S1x1024 .f32 := Memref.whole cc1_scratch2
abbrev scM1_3 : Memref sig .tc .vmem S1x1024 .f32 := Memref.whole cc1_scratch3

abbrev VS1_0 : View sig .tc .vmem S1x1024 .f32 := scM1_0.view
abbrev VS1_1 : View sig .tc .vmem S1x1024 .f32 := scM1_1.view
abbrev VS1_2 : View sig .tc .vmem S1x1024 .f32 := scM1_2.view
abbrev VS1_3 : View sig .tc .vmem S1x1024 .f32 := scM1_3.view

abbrev heldSome (c : Dev nD) (b : Ref sig .tc) : sProp 𝕄 :=
  iprop(∃ f : Buf (Elt F) ((c : Thread nD τ).loc b), ((c : Thread nD τ).loc b) ↦{fullShare} f)

def rest1 (c : Dev nD) : sProp 𝕄 :=
  iprop(heldSome (F := F) c cc0_stg0_0 ∗ heldSome (F := F) c cc0_stg0_1 ∗ heldSome (F := F) c cc0_stg1_0 ∗ heldSome (F := F) c cc0_stg1_1 ∗ heldSome (F := F) c cc0_stg2_0 ∗ heldSome (F := F) c cc0_stg2_1 ∗ heldSome (F := F) c cc0_stg3_0 ∗ heldSome (F := F) c cc0_stg3_1 ∗ heldSome (F := F) c cc0_stg4_0 ∗ heldSome (F := F) c cc0_stg4_1 ∗ heldSome (F := F) c cc0_stg5_0 ∗ heldSome (F := F) c cc0_stg5_1)

theorem PhiA1_eq (c : Dev nD) :
    (Pipeline.ΦA spec1 c : sProp 𝕄)
      = iprop(rest1 (F := F) c ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ (∃ r, prngReg c r)) := by
  have hA : ∀ P Q R : sProp 𝕄, iprop((P ∗ Q) ∗ R) = iprop(P ∗ Q ∗ R) :=
    fun P Q R => Idealize.SL.BI.Entails.antisymm Idealize.SL.BI.sep_assoc Idealize.SL.BI.sep_assoc'
  unfold Pipeline.ΦA rest1; rw [scopedRest1_eq]; simp only [scM1_0, scM1_1, scM1_2, scM1_3, owns_whole, hA]; try rfl

section Blocks
variable (V : (c : Dev nD) → (b : Ref sig .tc) → Buf (Elt F) ((c : Thread nD τ).loc b))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.Kernel.Hand

end
-- ==== Proof.KB.R1RunA.lean ====
import proofs.«401957_j37563783971102_3_alg».proof.Proof.KB.C1

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runA (c : Dev nD) {i : grid1.Coords} (o : Ops1) (hc : IsA i)
    (x0 : Vec F S1x2000x256 .bf16) (x1 : Vec F S1x1024x256 .bf16) (x2 : Vec F S1x1x1024 .i32) :
    Σ' (L6 : List (View.Piece (Elt F) S1x1x1024 .f32)), Σ' (L7 : List (View.Piece (Elt F) S1x1x1024 .f32)), Σ' (L8 : List (View.Piece (Elt F) S1x1024 .f32)), { L9 : List (View.Piece (Elt F) S1x1024 .f32) //
      ∀ (xi10 : Vec F S1x1024 .f32) (xi11 : Vec F S1x1024 .f32) (E : Set ℕ) (K : PUnit → sProp 𝕄),
        iprop(owns (c : Thread nD τ) o.a3 fullShare x0 ∗ owns (c : Thread nD τ) o.a4 fullShare x1 ∗ owns (c : Thread nD τ) o.a5 fullShare x2 ∗ (∃ d, owns (c : Thread nD τ) o.a6 fullShare d) ∗ (∃ d, owns (c : Thread nD τ) o.a7 fullShare d) ∗ (∃ d, owns (c : Thread nD τ) o.a8 fullShare d) ∗ (∃ d, owns (c : Thread nD τ) o.a9 fullShare d) ∗ owns (c : Thread nD τ) o.a10 fullShare xi10 ∗ owns (c : Thread nD τ) o.a11 fullShare xi11
            ∗ (iprop(owns (c : Thread nD τ) o.a3 fullShare x0 ∗ owns (c : Thread nD τ) o.a4 fullShare x1 ∗ owns (c : Thread nD τ) o.a5 fullShare x2 ∗ (∃ f, o.a6.view.loc (c : Thread nD τ) ↦[o.a6.view.set]{fullShare} o.a6.view.writes (Elt F) f L6) ∗ (∃ f, o.a7.view.loc (c : Thread nD τ) ↦[o.a7.view.set]{fullShare} o.a7.view.writes (Elt F) f L7) ∗ (∃ f, o.a8.view.loc (c : Thread nD τ) ↦[o.a8.view.set]{fullShare} o.a8.view.writes (Elt F) f L8) ∗ (∃ f, o.a9.view.loc (c : Thread nD τ) ↦[o.a9.view.set]{fullShare} o.a9.view.writes (Elt F) f L9) ∗ owns (c : Thread nD τ) o.a10 fullShare xi10 ∗ owns (c : Thread nD τ) o.a11 fullShare xi11) -∗ K ⟨⟩))
          ⊢ wp frame (wpE (defs₀ (F := F)) Variants.none c none) E (cc1__contrastive_kernel i o.a3 o.h3 o.a4 o.h4 o.a5 o.h5 o.a6 o.h6 o.a7 o.h7 o.a8 o.h8 o.a9 o.h9 o.a10 o.h10 o.a11 o.h11) K } := by
  refine ⟨?_, ?_, ?_, ?_, fun xi10 xi11 E K => ?run⟩
  case run =>
    simp only [cc1__contrastive_kernel_eq_skeleton]; unfold cc1__contrastive_kernel_skel
    unfold owns
    iintro ⟨⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%f10, %hf10, H10⟩, ⟨%f11, %hf11, H11⟩, Hk⟩
    obtain rfl := o.h3.eq_unread hf3; obtain rfl := o.h4.eq_unread hf4; obtain rfl := o.h5.eq_unread hf5; obtain rfl := o.h10.eq_unread hf10; obtain rfl := o.h11.eq_unread hf11
    sl_exec (disch := first | sl_exact hc.1 | sl_exact hc.2.1 | sl_exact hc.2.2.1 | sl_exact hc.2.2.2.1 | sl_exact hc.2.2.2.2)
    sl_step
    iapply Hk
    isplitl [H3]
    · iexists _; isplitr; · ipureintro; exact o.h3.read_unread _
      iexact H3
    isplitl [H4]
    · iexists _; isplitr; · ipureintro; exact o.h4.read_unread _
      iexact H4
    isplitl [H5]
    · iexists _; isplitr; · ipureintro; exact o.h5.read_unread _
      iexact H5
    isplitl [H6]
    · iexists _; iexact H6
    isplitl [H7]
    · iexists _; iexact H7
    isplitl [H8]
    · iexists _; iexact H8
    isplitl [H9]
    · iexists _; iexact H9
    isplitl [H10]
    · iexists _; isplitr; · ipureintro; exact o.h10.read_unread _
      iexact H10
    iexists _; isplitr; · ipureintro; exact o.h11.read_unread _
    iexact H11

end Cert.Kernel.Hand

end
-- ==== Proof.KB.R1RunB.lean ====
import proofs.«401957_j37563783971102_3_alg».proof.Proof.KB.C1

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runB (c : Dev nD) {i : grid1.Coords} (o : Ops1) (hc : IsB i)
    (x0 : Vec F S1x2000x256 .bf16) (x1 : Vec F S1x1024x256 .bf16) (x2 : Vec F S1x1x1024 .i32) (xs8 : Vec F S1x1024 .f32) (xs9 : Vec F S1x1024 .f32) :
    Σ' (L8 : List (View.Piece (Elt F) S1x1024 .f32)), { L9 : List (View.Piece (Elt F) S1x1024 .f32) //
      ∀ (xi6 : Vec F S1x1x1024 .f32) (xi7 : Vec F S1x1x1024 .f32) (xi10 : Vec F S1x1024 .f32) (xi11 : Vec F S1x1024 .f32) (E : Set ℕ) (K : PUnit → sProp 𝕄),
        iprop(owns (c : Thread nD τ) o.a3 fullShare x0 ∗ owns (c : Thread nD τ) o.a4 fullShare x1 ∗ owns (c : Thread nD τ) o.a5 fullShare x2 ∗ owns (c : Thread nD τ) o.a6 fullShare xi6 ∗ owns (c : Thread nD τ) o.a7 fullShare xi7 ∗ owns (c : Thread nD τ) o.a8 fullShare xs8 ∗ owns (c : Thread nD τ) o.a9 fullShare xs9 ∗ owns (c : Thread nD τ) o.a10 fullShare xi10 ∗ owns (c : Thread nD τ) o.a11 fullShare xi11
            ∗ (iprop(owns (c : Thread nD τ) o.a3 fullShare x0 ∗ owns (c : Thread nD τ) o.a4 fullShare x1 ∗ owns (c : Thread nD τ) o.a5 fullShare x2 ∗ owns (c : Thread nD τ) o.a6 fullShare xi6 ∗ owns (c : Thread nD τ) o.a7 fullShare xi7 ∗ (∃ f, o.a8.view.loc (c : Thread nD τ) ↦[o.a8.view.set]{fullShare} o.a8.view.writes (Elt F) f L8) ∗ (∃ f, o.a9.view.loc (c : Thread nD τ) ↦[o.a9.view.set]{fullShare} o.a9.view.writes (Elt F) f L9) ∗ owns (c : Thread nD τ) o.a10 fullShare xi10 ∗ owns (c : Thread nD τ) o.a11 fullShare xi11) -∗ K ⟨⟩))
          ⊢ wp frame (wpE (defs₀ (F := F)) Variants.none c none) E (cc1__contrastive_kernel i o.a3 o.h3 o.a4 o.h4 o.a5 o.h5 o.a6 o.h6 o.a7 o.h7 o.a8 o.h8 o.a9 o.h9 o.a10 o.h10 o.a11 o.h11) K } := by
  refine ⟨?_, ?_, fun xi6 xi7 xi10 xi11 E K => ?run⟩
  case run =>
    simp only [cc1__contrastive_kernel_eq_skeleton]; unfold cc1__contrastive_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := o.h3.eq_unread hf3; obtain rfl := o.h4.eq_unread hf4; obtain rfl := o.h5.eq_unread hf5; obtain rfl := o.h6.eq_unread hf6; obtain rfl := o.h7.eq_unread hf7; obtain rfl := o.h8.eq_unread hf8; obtain rfl := o.h9.eq_unread hf9; obtain rfl := o.h10.eq_unread hf10; obtain rfl := o.h11.eq_unread hf11
    sl_exec (disch := first | sl_exact hc.1 | sl_exact hc.2.1 | sl_exact hc.2.2.1 | sl_exact hc.2.2.2.1 | sl_exact hc.2.2.2.2)
    sl_step
    iapply Hk
    isplitl [H3]
    · iexists _; isplitr; · ipureintro; exact o.h3.read_unread _
      iexact H3
    isplitl [H4]
    · iexists _; isplitr; · ipureintro; exact o.h4.read_unread _
      iexact H4
    isplitl [H5]
    · iexists _; isplitr; · ipureintro; exact o.h5.read_unread _
      iexact H5
    isplitl [H6]
    · iexists _; isplitr; · ipureintro; exact o.h6.read_unread _
      iexact H6
    isplitl [H7]
    · iexists _; isplitr; · ipureintro; exact o.h7.read_unread _
      iexact H7
    isplitl [H8]
    · iexists _; iexact H8
    isplitl [H9]
    · iexists _; iexact H9
    isplitl [H10]
    · iexists _; isplitr; · ipureintro; exact o.h10.read_unread _
      iexact H10
    iexists _; isplitr; · ipureintro; exact o.h11.read_unread _
    iexact H11

end Cert.Kernel.Hand

end
-- ==== Proof.KB.R1RunC.lean ====
import proofs.«401957_j37563783971102_3_alg».proof.Proof.KB.C1

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runC (c : Dev nD) {i : grid1.Coords} (o : Ops1) (hc : IsC i)
    (x0 : Vec F S1x2000x256 .bf16) (x1 : Vec F S1x1024x256 .bf16) (x2 : Vec F S1x1x1024 .i32) (xs8 : Vec F S1x1024 .f32) (xs9 : Vec F S1x1024 .f32) :
    Σ' (L8 : List (View.Piece (Elt F) S1x1024 .f32)), Σ' (L9 : List (View.Piece (Elt F) S1x1024 .f32)), Σ' (L10 : List (View.Piece (Elt F) S1x1024 .f32)), { L11 : List (View.Piece (Elt F) S1x1024 .f32) //
      ∀ (xi6 : Vec F S1x1x1024 .f32) (xi7 : Vec F S1x1x1024 .f32) (E : Set ℕ) (K : PUnit → sProp 𝕄),
        iprop(owns (c : Thread nD τ) o.a3 fullShare x0 ∗ owns (c : Thread nD τ) o.a4 fullShare x1 ∗ owns (c : Thread nD τ) o.a5 fullShare x2 ∗ owns (c : Thread nD τ) o.a6 fullShare xi6 ∗ owns (c : Thread nD τ) o.a7 fullShare xi7 ∗ owns (c : Thread nD τ) o.a8 fullShare xs8 ∗ owns (c : Thread nD τ) o.a9 fullShare xs9 ∗ (∃ d, owns (c : Thread nD τ) o.a10 fullShare d) ∗ (∃ d, owns (c : Thread nD τ) o.a11 fullShare d)
            ∗ (iprop(owns (c : Thread nD τ) o.a3 fullShare x0 ∗ owns (c : Thread nD τ) o.a4 fullShare x1 ∗ owns (c : Thread nD τ) o.a5 fullShare x2 ∗ owns (c : Thread nD τ) o.a6 fullShare xi6 ∗ owns (c : Thread nD τ) o.a7 fullShare xi7 ∗ (∃ f, o.a8.view.loc (c : Thread nD τ) ↦[o.a8.view.set]{fullShare} o.a8.view.writes (Elt F) f L8) ∗ (∃ f, o.a9.view.loc (c : Thread nD τ) ↦[o.a9.view.set]{fullShare} o.a9.view.writes (Elt F) f L9) ∗ (∃ f, o.a10.view.loc (c : Thread nD τ) ↦[o.a10.view.set]{fullShare} o.a10.view.writes (Elt F) f L10) ∗ (∃ f, o.a11.view.loc (c : Thread nD τ) ↦[o.a11.view.set]{fullShare} o.a11.view.writes (Elt F) f L11)) -∗ K ⟨⟩))
          ⊢ wp frame (wpE (defs₀ (F := F)) Variants.none c none) E (cc1__contrastive_kernel i o.a3 o.h3 o.a4 o.h4 o.a5 o.h5 o.a6 o.h6 o.a7 o.h7 o.a8 o.h8 o.a9 o.h9 o.a10 o.h10 o.a11 o.h11) K } := by
  refine ⟨?_, ?_, ?_, ?_, fun xi6 xi7 E K => ?run⟩
  case run =>
    simp only [cc1__contrastive_kernel_eq_skeleton]; unfold cc1__contrastive_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
    obtain rfl := o.h3.eq_unread hf3; obtain rfl := o.h4.eq_unread hf4; obtain rfl := o.h5.eq_unread hf5; obtain rfl := o.h6.eq_unread hf6; obtain rfl := o.h7.eq_unread hf7; obtain rfl := o.h8.eq_unread hf8; obtain rfl := o.h9.eq_unread hf9
    sl_exec (disch := first | sl_exact hc.1 | sl_exact hc.2.1 | sl_exact hc.2.2.1 | sl_exact hc.2.2.2.1 | sl_exact hc.2.2.2.2)
    sl_step
    iapply Hk
    isplitl [H3]
    · iexists _; isplitr; · ipureintro; exact o.h3.read_unread _
      iexact H3
    isplitl [H4]
    · iexists _; isplitr; · ipureintro; exact o.h4.read_unread _
      iexact H4
    isplitl [H5]
    · iexists _; isplitr; · ipureintro; exact o.h5.read_unread _
      iexact H5
    isplitl [H6]
    · iexists _; isplitr; · ipureintro; exact o.h6.read_unread _
      iexact H6
    isplitl [H7]
    · iexists _; isplitr; · ipureintro; exact o.h7.read_unread _
      iexact H7
    isplitl [H8]
    · iexists _; iexact H8
    isplitl [H9]
    · iexists _; iexact H9
    isplitl [H10]
    · iexists _; iexact H10
    iexists _; iexact H11

end Cert.Kernel.Hand

end
-- ==== Proof.KB.R1RunD.lean ====
import proofs.«401957_j37563783971102_3_alg».proof.Proof.KB.C1

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runD (c : Dev nD) {i : grid1.Coords} (o : Ops1) (hc : IsD i)
    (x0 : Vec F S1x2000x256 .bf16) (x1 : Vec F S1x1024x256 .bf16) (x2 : Vec F S1x1x1024 .i32) (xo6 : Vec F S1x1x1024 .f32) (xo7 : Vec F S1x1x1024 .f32) (xs10 : Vec F S1x1024 .f32) (xs11 : Vec F S1x1024 .f32) :
    Σ' (L6 : List (View.Piece (Elt F) S1x1x1024 .f32)), { L7 : List (View.Piece (Elt F) S1x1x1024 .f32) //
      ∀ (xi8 : Vec F S1x1024 .f32) (xi9 : Vec F S1x1024 .f32) (E : Set ℕ) (K : PUnit → sProp 𝕄),
        iprop(owns (c : Thread nD τ) o.a3 fullShare x0 ∗ owns (c : Thread nD τ) o.a4 fullShare x1 ∗ owns (c : Thread nD τ) o.a5 fullShare x2 ∗ owns (c : Thread nD τ) o.a6 fullShare xo6 ∗ owns (c : Thread nD τ) o.a7 fullShare xo7 ∗ owns (c : Thread nD τ) o.a8 fullShare xi8 ∗ owns (c : Thread nD τ) o.a9 fullShare xi9 ∗ owns (c : Thread nD τ) o.a10 fullShare xs10 ∗ owns (c : Thread nD τ) o.a11 fullShare xs11
            ∗ (iprop(owns (c : Thread nD τ) o.a3 fullShare x0 ∗ owns (c : Thread nD τ) o.a4 fullShare x1 ∗ owns (c : Thread nD τ) o.a5 fullShare x2 ∗ (∃ f, o.a6.view.loc (c : Thread nD τ) ↦[o.a6.view.set]{fullShare} o.a6.view.writes (Elt F) f L6) ∗ (∃ f, o.a7.view.loc (c : Thread nD τ) ↦[o.a7.view.set]{fullShare} o.a7.view.writes (Elt F) f L7) ∗ owns (c : Thread nD τ) o.a8 fullShare xi8 ∗ owns (c : Thread nD τ) o.a9 fullShare xi9 ∗ owns (c : Thread nD τ) o.a10 fullShare xs10 ∗ owns (c : Thread nD τ) o.a11 fullShare xs11) -∗ K ⟨⟩))
          ⊢ wp frame (wpE (defs₀ (F := F)) Variants.none c none) E (cc1__contrastive_kernel i o.a3 o.h3 o.a4 o.h4 o.a5 o.h5 o.a6 o.h6 o.a7 o.h7 o.a8 o.h8 o.a9 o.h9 o.a10 o.h10 o.a11 o.h11) K } := by
  refine ⟨?_, ?_, fun xi8 xi9 E K => ?run⟩
  case run =>
    simp only [cc1__contrastive_kernel_eq_skeleton]; unfold cc1__contrastive_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := o.h3.eq_unread hf3; obtain rfl := o.h4.eq_unread hf4; obtain rfl := o.h5.eq_unread hf5; obtain rfl := o.h6.eq_unread hf6; obtain rfl := o.h7.eq_unread hf7; obtain rfl := o.h8.eq_unread hf8; obtain rfl := o.h9.eq_unread hf9; obtain rfl := o.h10.eq_unread hf10; obtain rfl := o.h11.eq_unread hf11
    sl_exec (disch := first | sl_exact hc.1 | sl_exact hc.2.1 | sl_exact hc.2.2.1 | sl_exact hc.2.2.2.1 | sl_exact hc.2.2.2.2)
    sl_step
    iapply Hk
    isplitl [H3]
    · iexists _; isplitr; · ipureintro; exact o.h3.read_unread _
      iexact H3
    isplitl [H4]
    · iexists _; isplitr; · ipureintro; exact o.h4.read_unread _
      iexact H4
    isplitl [H5]
    · iexists _; isplitr; · ipureintro; exact o.h5.read_unread _
      iexact H5
    isplitl [H6]
    · iexists _; iexact H6
    isplitl [H7]
    · iexists _; iexact H7
    isplitl [H8]
    · iexists _; isplitr; · ipureintro; exact o.h8.read_unread _
      iexact H8
    isplitl [H9]
    · iexists _; isplitr; · ipureintro; exact o.h9.read_unread _
      iexact H9
    isplitl [H10]
    · iexists _; isplitr; · ipureintro; exact o.h10.read_unread _
      iexact H10
    iexists _; isplitr; · ipureintro; exact o.h11.read_unread _
    iexact H11

end Cert.Kernel.Hand

end
-- ==== Proof.KB.R1RunE.lean ====
import proofs.«401957_j37563783971102_3_alg».proof.Proof.KB.C1

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runE (c : Dev nD) {i : grid1.Coords} (o : Ops1) (hc : IsE i)
    (x0 : Vec F S1x2000x256 .bf16) (x1 : Vec F S1x1024x256 .bf16) (x2 : Vec F S1x1x1024 .i32) (xo6 : Vec F S1x1x1024 .f32) (xo7 : Vec F S1x1x1024 .f32) (xs10 : Vec F S1x1024 .f32) (xs11 : Vec F S1x1024 .f32) :
    Σ' (L6 : List (View.Piece (Elt F) S1x1x1024 .f32)), { L7 : List (View.Piece (Elt F) S1x1x1024 .f32) //
      ∀ (xi8 : Vec F S1x1024 .f32) (xi9 : Vec F S1x1024 .f32) (E : Set ℕ) (K : PUnit → sProp 𝕄),
        iprop(owns (c : Thread nD τ) o.a3 fullShare x0 ∗ owns (c : Thread nD τ) o.a4 fullShare x1 ∗ owns (c : Thread nD τ) o.a5 fullShare x2 ∗ owns (c : Thread nD τ) o.a6 fullShare xo6 ∗ owns (c : Thread nD τ) o.a7 fullShare xo7 ∗ owns (c : Thread nD τ) o.a8 fullShare xi8 ∗ owns (c : Thread nD τ) o.a9 fullShare xi9 ∗ owns (c : Thread nD τ) o.a10 fullShare xs10 ∗ owns (c : Thread nD τ) o.a11 fullShare xs11
            ∗ (iprop(owns (c : Thread nD τ) o.a3 fullShare x0 ∗ owns (c : Thread nD τ) o.a4 fullShare x1 ∗ owns (c : Thread nD τ) o.a5 fullShare x2 ∗ (∃ f, o.a6.view.loc (c : Thread nD τ) ↦[o.a6.view.set]{fullShare} o.a6.view.writes (Elt F) f L6) ∗ (∃ f, o.a7.view.loc (c : Thread nD τ) ↦[o.a7.view.set]{fullShare} o.a7.view.writes (Elt F) f L7) ∗ owns (c : Thread nD τ) o.a8 fullShare xi8 ∗ owns (c : Thread nD τ) o.a9 fullShare xi9 ∗ owns (c : Thread nD τ) o.a10 fullShare xs10 ∗ owns (c : Thread nD τ) o.a11 fullShare xs11) -∗ K ⟨⟩))
          ⊢ wp frame (wpE (defs₀ (F := F)) Variants.none c none) E (cc1__contrastive_kernel i o.a3 o.h3 o.a4 o.h4 o.a5 o.h5 o.a6 o.h6 o.a7 o.h7 o.a8 o.h8 o.a9 o.h9 o.a10 o.h10 o.a11 o.h11) K } := by
  refine ⟨?_, ?_, fun xi8 xi9 E K => ?run⟩
  case run =>
    simp only [cc1__contrastive_kernel_eq_skeleton]; unfold cc1__contrastive_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := o.h3.eq_unread hf3; obtain rfl := o.h4.eq_unread hf4; obtain rfl := o.h5.eq_unread hf5; obtain rfl := o.h6.eq_unread hf6; obtain rfl := o.h7.eq_unread hf7; obtain rfl := o.h8.eq_unread hf8; obtain rfl := o.h9.eq_unread hf9; obtain rfl := o.h10.eq_unread hf10; obtain rfl := o.h11.eq_unread hf11
    sl_exec (disch := first | sl_exact hc.1 | sl_exact hc.2.1 | sl_exact hc.2.2.1 | sl_exact hc.2.2.2.1 | sl_exact hc.2.2.2.2)
    sl_step
    iapply Hk
    isplitl [H3]
    · iexists _; isplitr; · ipureintro; exact o.h3.read_unread _
      iexact H3
    isplitl [H4]
    · iexists _; isplitr; · ipureintro; exact o.h4.read_unread _
      iexact H4
    isplitl [H5]
    · iexists _; isplitr; · ipureintro; exact o.h5.read_unread _
      iexact H5
    isplitl [H6]
    · iexists _; iexact H6
    isplitl [H7]
    · iexists _; iexact H7
    isplitl [H8]
    · iexists _; isplitr; · ipureintro; exact o.h8.read_unread _
      iexact H8
    isplitl [H9]
    · iexists _; isplitr; · ipureintro; exact o.h9.read_unread _
      iexact H9
    isplitl [H10]
    · iexists _; isplitr; · ipureintro; exact o.h10.read_unread _
      iexact H10
    iexists _; isplitr; · ipureintro; exact o.h11.read_unread _
    iexact H11

end Cert.Kernel.Hand

end
-- ==== Proof.KB.R1Runs.lean ====
import proofs.«401957_j37563783971102_3_alg».proof.Proof.KB.R1RunA
import proofs.«401957_j37563783971102_3_alg».proof.Proof.KB.R1RunB
import proofs.«401957_j37563783971102_3_alg».proof.Proof.KB.R1RunC
import proofs.«401957_j37563783971102_3_alg».proof.Proof.KB.R1RunD
import proofs.«401957_j37563783971102_3_alg».proof.Proof.KB.R1RunE
-- ==== Proof.KB.R1.lean ====
import proofs.«401957_j37563783971102_3_alg».proof.Proof.KB.C1Frame
import proofs.«401957_j37563783971102_3_alg».proof.Proof.KB.R1Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The operands at grid point `t`. -/
abbrev ops1 (t : Fin cfg1.N) : Ops1 :=
  ⟨ms1_0 t, hs1_0 t, ms1_1 t, hs1_1 t, ms1_2 t, hs1_2 t, ms1_3 t, hs1_3 t, ms1_4 t, hs1_4 t,
    scM1_0, Memref.isWhole_whole _, scM1_1, Memref.isWhole_whole _, scM1_2, Memref.isWhole_whole _, scM1_3, Memref.isWhole_whole _⟩

theorem cover1_A_3 (c : Dev nD) {i : grid1.Coords} (o : Ops1) (hc : IsA i)
    (x0 : Vec F S1x2000x256 .bf16) (x1 : Vec F S1x1024x256 .bf16) (x2 : Vec F S1x1x1024 .i32) (y : S1x1x1024.Idx) :
    ∃ pc ∈ (runA c o hc x0 x1 x2).1, y ∈ pc.1.set :=
  View.cover_of_tiledL (runA c o hc x0 x1 x2).1 S1x1x1024.size (by sl_kernel_rfl) y

def out1_A_3 (c : Dev nD) {i : grid1.Coords} (o : Ops1) (hc : IsA i)
    (x0 : Vec F S1x2000x256 .bf16) (x1 : Vec F S1x1024x256 .bf16) (x2 : Vec F S1x1x1024 .i32) : Vec F S1x1x1024 .f32 :=
  VO1_3.read (Elt F) (VO1_3.writes (Elt F) VO1_3.junk (runA c o hc x0 x1 x2).1)

theorem cover1_A_4 (c : Dev nD) {i : grid1.Coords} (o : Ops1) (hc : IsA i)
    (x0 : Vec F S1x2000x256 .bf16) (x1 : Vec F S1x1024x256 .bf16) (x2 : Vec F S1x1x1024 .i32) (y : S1x1x1024.Idx) :
    ∃ pc ∈ (runA c o hc x0 x1 x2).2.1, y ∈ pc.1.set :=
  View.cover_of_tiledL (runA c o hc x0 x1 x2).2.1 S1x1x1024.size (by sl_kernel_rfl) y

def out1_A_4 (c : Dev nD) {i : grid1.Coords} (o : Ops1) (hc : IsA i)
    (x0 : Vec F S1x2000x256 .bf16) (x1 : Vec F S1x1024x256 .bf16) (x2 : Vec F S1x1x1024 .i32) : Vec F S1x1x1024 .f32 :=
  VO1_4.read (Elt F) (VO1_4.writes (Elt F) VO1_4.junk (runA c o hc x0 x1 x2).2.1)

theorem scover1_A_0 (c : Dev nD) {i : grid1.Coords} (o : Ops1) (hc : IsA i)
    (x0 : Vec F S1x2000x256 .bf16) (x1 : Vec F S1x1024x256 .bf16) (x2 : Vec F S1x1x1024 .i32) (y : S1x1024.Idx) :
    ∃ pc ∈ (runA c o hc x0 x1 x2).2.2.1, y ∈ pc.1.set :=
  View.cover_of_tiledL (runA c o hc x0 x1 x2).2.2.1 S1x1024.size (by sl_kernel_rfl) y

def sout1_A_0 (c : Dev nD) {i : grid1.Coords} (o : Ops1) (hc : IsA i)
    (x0 : Vec F S1x2000x256 .bf16) (x1 : Vec F S1x1024x256 .bf16) (x2 : Vec F S1x1x1024 .i32) : Vec F S1x1024 .f32 :=
  VS1_0.read (Elt F) (VS1_0.writes (Elt F) VS1_0.junk (runA c o hc x0 x1 x2).2.2.1)

theorem scover1_A_1 (c : Dev nD) {i : grid1.Coords} (o : Ops1) (hc : IsA i)
    (x0 : Vec F S1x2000x256 .bf16) (x1 : Vec F S1x1024x256 .bf16) (x2 : Vec F S1x1x1024 .i32) (y : S1x1024.Idx) :
    ∃ pc ∈ (runA c o hc x0 x1 x2).2.2.2.1, y ∈ pc.1.set :=
  View.cover_of_tiledL (runA c o hc x0 x1 x2).2.2.2.1 S1x1024.size (by sl_kernel_rfl) y

def sout1_A_1 (c : Dev nD) {i : grid1.Coords} (o : Ops1) (hc : IsA i)
    (x0 : Vec F S1x2000x256 .bf16) (x1 : Vec F S1x1024x256 .bf16) (x2 : Vec F S1x1x1024 .i32) : Vec F S1x1024 .f32 :=
  VS1_1.read (Elt F) (VS1_1.writes (Elt F) VS1_1.junk (runA c o hc x0 x1 x2).2.2.2.1)

theorem scover1_B_0 (c : Dev nD) {i : grid1.Coords} (o : Ops1) (hc : IsB i)
    (x0 : Vec F S1x2000x256 .bf16) (x1 : Vec F S1x1024x256 .bf16) (x2 : Vec F S1x1x1024 .i32) (xs8 : Vec F S1x1024 .f32) (xs9 : Vec F S1x1024 .f32) (y : S1x1024.Idx) :
    ∃ pc ∈ (runB c o hc x0 x1 x2 xs8 xs9).1, y ∈ pc.1.set :=
  View.cover_of_tiledL (runB c o hc x0 x1 x2 xs8 xs9).1 S1x1024.size (by sl_kernel_rfl) y

def sout1_B_0 (c : Dev nD) {i : grid1.Coords} (o : Ops1) (hc : IsB i)
    (x0 : Vec F S1x2000x256 .bf16) (x1 : Vec F S1x1024x256 .bf16) (x2 : Vec F S1x1x1024 .i32) (xs8 : Vec F S1x1024 .f32) (xs9 : Vec F S1x1024 .f32) : Vec F S1x1024 .f32 :=
  VS1_0.read (Elt F) (VS1_0.writes (Elt F) VS1_0.junk (runB c o hc x0 x1 x2 xs8 xs9).1)

theorem scover1_B_1 (c : Dev nD) {i : grid1.Coords} (o : Ops1) (hc : IsB i)
    (x0 : Vec F S1x2000x256 .bf16) (x1 : Vec F S1x1024x256 .bf16) (x2 : Vec F S1x1x1024 .i32) (xs8 : Vec F S1x1024 .f32) (xs9 : Vec F S1x1024 .f32) (y : S1x1024.Idx) :
    ∃ pc ∈ (runB c o hc x0 x1 x2 xs8 xs9).2.1, y ∈ pc.1.set :=
  View.cover_of_tiledL (runB c o hc x0 x1 x2 xs8 xs9).2.1 S1x1024.size (by sl_kernel_rfl) y

def sout1_B_1 (c : Dev nD) {i : grid1.Coords} (o : Ops1) (hc : IsB i)
    (x0 : Vec F S1x2000x256 .bf16) (x1 : Vec F S1x1024x256 .bf16) (x2 : Vec F S1x1x1024 .i32) (xs8 : Vec F S1x1024 .f32) (xs9 : Vec F S1x1024 .f32) : Vec F S1x1024 .f32 :=
  VS1_1.read (Elt F) (VS1_1.writes (Elt F) VS1_1.junk (runB c o hc x0 x1 x2 xs8 xs9).2.1)

theorem scover1_C_0 (c : Dev nD) {i : grid1.Coords} (o : Ops1) (hc : IsC i)
    (x0 : Vec F S1x2000x256 .bf16) (x1 : Vec F S1x1024x256 .bf16) (x2 : Vec F S1x1x1024 .i32) (xs8 : Vec F S1x1024 .f32) (xs9 : Vec F S1x1024 .f32) (y : S1x1024.Idx) :
    ∃ pc ∈ (runC c o hc x0 x1 x2 xs8 xs9).1, y ∈ pc.1.set :=
  View.cover_of_tiledL (runC c o hc x0 x1 x2 xs8 xs9).1 S1x1024.size (by sl_kernel_rfl) y

def sout1_C_0 (c : Dev nD) {i : grid1.Coords} (o : Ops1) (hc : IsC i)
    (x0 : Vec F S1x2000x256 .bf16) (x1 : Vec F S1x1024x256 .bf16) (x2 : Vec F S1x1x1024 .i32) (xs8 : Vec F S1x1024 .f32) (xs9 : Vec F S1x1024 .f32) : Vec F S1x1024 .f32 :=
  VS1_0.read (Elt F) (VS1_0.writes (Elt F) VS1_0.junk (runC c o hc x0 x1 x2 xs8 xs9).1)

theorem scover1_C_1 (c : Dev nD) {i : grid1.Coords} (o : Ops1) (hc : IsC i)
    (x0 : Vec F S1x2000x256 .bf16) (x1 : Vec F S1x1024x256 .bf16) (x2 : Vec F S1x1x1024 .i32) (xs8 : Vec F S1x1024 .f32) (xs9 : Vec F S1x1024 .f32) (y : S1x1024.Idx) :
    ∃ pc ∈ (runC c o hc x0 x1 x2 xs8 xs9).2.1, y ∈ pc.1.set :=
  View.cover_of_tiledL (runC c o hc x0 x1 x2 xs8 xs9).2.1 S1x1024.size (by sl_kernel_rfl) y

def sout1_C_1 (c : Dev nD) {i : grid1.Coords} (o : Ops1) (hc : IsC i)
    (x0 : Vec F S1x2000x256 .bf16) (x1 : Vec F S1x1024x256 .bf16) (x2 : Vec F S1x1x1024 .i32) (xs8 : Vec F S1x1024 .f32) (xs9 : Vec F S1x1024 .f32) : Vec F S1x1024 .f32 :=
  VS1_1.read (Elt F) (VS1_1.writes (Elt F) VS1_1.junk (runC c o hc x0 x1 x2 xs8 xs9).2.1)

theorem scover1_C_2 (c : Dev nD) {i : grid1.Coords} (o : Ops1) (hc : IsC i)
    (x0 : Vec F S1x2000x256 .bf16) (x1 : Vec F S1x1024x256 .bf16) (x2 : Vec F S1x1x1024 .i32) (xs8 : Vec F S1x1024 .f32) (xs9 : Vec F S1x1024 .f32) (y : S1x1024.Idx) :
    ∃ pc ∈ (runC c o hc x0 x1 x2 xs8 xs9).2.2.1, y ∈ pc.1.set :=
  View.cover_of_tiledL (runC c o hc x0 x1 x2 xs8 xs9).2.2.1 S1x1024.size (by sl_kernel_rfl) y

def sout1_C_2 (c : Dev nD) {i : grid1.Coords} (o : Ops1) (hc : IsC i)
    (x0 : Vec F S1x2000x256 .bf16) (x1 : Vec F S1x1024x256 .bf16) (x2 : Vec F S1x1x1024 .i32) (xs8 : Vec F S1x1024 .f32) (xs9 : Vec F S1x1024 .f32) : Vec F S1x1024 .f32 :=
  VS1_2.read (Elt F) (VS1_2.writes (Elt F) VS1_2.junk (runC c o hc x0 x1 x2 xs8 xs9).2.2.1)

theorem scover1_C_3 (c : Dev nD) {i : grid1.Coords} (o : Ops1) (hc : IsC i)
    (x0 : Vec F S1x2000x256 .bf16) (x1 : Vec F S1x1024x256 .bf16) (x2 : Vec F S1x1x1024 .i32) (xs8 : Vec F S1x1024 .f32) (xs9 : Vec F S1x1024 .f32) (y : S1x1024.Idx) :
    ∃ pc ∈ (runC c o hc x0 x1 x2 xs8 xs9).2.2.2.1, y ∈ pc.1.set :=
  View.cover_of_tiledL (runC c o hc x0 x1 x2 xs8 xs9).2.2.2.1 S1x1024.size (by sl_kernel_rfl) y

def sout1_C_3 (c : Dev nD) {i : grid1.Coords} (o : Ops1) (hc : IsC i)
    (x0 : Vec F S1x2000x256 .bf16) (x1 : Vec F S1x1024x256 .bf16) (x2 : Vec F S1x1x1024 .i32) (xs8 : Vec F S1x1024 .f32) (xs9 : Vec F S1x1024 .f32) : Vec F S1x1024 .f32 :=
  VS1_3.read (Elt F) (VS1_3.writes (Elt F) VS1_3.junk (runC c o hc x0 x1 x2 xs8 xs9).2.2.2.1)

theorem cover1_D_3 (c : Dev nD) {i : grid1.Coords} (o : Ops1) (hc : IsD i)
    (x0 : Vec F S1x2000x256 .bf16) (x1 : Vec F S1x1024x256 .bf16) (x2 : Vec F S1x1x1024 .i32) (xo6 : Vec F S1x1x1024 .f32) (xo7 : Vec F S1x1x1024 .f32) (xs10 : Vec F S1x1024 .f32) (xs11 : Vec F S1x1024 .f32) (y : S1x1x1024.Idx) :
    ∃ pc ∈ (runD c o hc x0 x1 x2 xo6 xo7 xs10 xs11).1, y ∈ pc.1.set :=
  View.cover_of_tiledL (runD c o hc x0 x1 x2 xo6 xo7 xs10 xs11).1 S1x1x1024.size (by sl_kernel_rfl) y

def out1_D_3 (c : Dev nD) {i : grid1.Coords} (o : Ops1) (hc : IsD i)
    (x0 : Vec F S1x2000x256 .bf16) (x1 : Vec F S1x1024x256 .bf16) (x2 : Vec F S1x1x1024 .i32) (xo6 : Vec F S1x1x1024 .f32) (xo7 : Vec F S1x1x1024 .f32) (xs10 : Vec F S1x1024 .f32) (xs11 : Vec F S1x1024 .f32) : Vec F S1x1x1024 .f32 :=
  VO1_3.read (Elt F) (VO1_3.writes (Elt F) VO1_3.junk (runD c o hc x0 x1 x2 xo6 xo7 xs10 xs11).1)

theorem cover1_D_4 (c : Dev nD) {i : grid1.Coords} (o : Ops1) (hc : IsD i)
    (x0 : Vec F S1x2000x256 .bf16) (x1 : Vec F S1x1024x256 .bf16) (x2 : Vec F S1x1x1024 .i32) (xo6 : Vec F S1x1x1024 .f32) (xo7 : Vec F S1x1x1024 .f32) (xs10 : Vec F S1x1024 .f32) (xs11 : Vec F S1x1024 .f32) (y : S1x1x1024.Idx) :
    ∃ pc ∈ (runD c o hc x0 x1 x2 xo6 xo7 xs10 xs11).2.1, y ∈ pc.1.set :=
  View.cover_of_tiledL (runD c o hc x0 x1 x2 xo6 xo7 xs10 xs11).2.1 S1x1x1024.size (by sl_kernel_rfl) y

def out1_D_4 (c : Dev nD) {i : grid1.Coords} (o : Ops1) (hc : IsD i)
    (x0 : Vec F S1x2000x256 .bf16) (x1 : Vec F S1x1024x256 .bf16) (x2 : Vec F S1x1x1024 .i32) (xo6 : Vec F S1x1x1024 .f32) (xo7 : Vec F S1x1x1024 .f32) (xs10 : Vec F S1x1024 .f32) (xs11 : Vec F S1x1024 .f32) : Vec F S1x1x1024 .f32 :=
  VO1_4.read (Elt F) (VO1_4.writes (Elt F) VO1_4.junk (runD c o hc x0 x1 x2 xo6 xo7 xs10 xs11).2.1)

theorem cover1_E_3 (c : Dev nD) {i : grid1.Coords} (o : Ops1) (hc : IsE i)
    (x0 : Vec F S1x2000x256 .bf16) (x1 : Vec F S1x1024x256 .bf16) (x2 : Vec F S1x1x1024 .i32) (xo6 : Vec F S1x1x1024 .f32) (xo7 : Vec F S1x1x1024 .f32) (xs10 : Vec F S1x1024 .f32) (xs11 : Vec F S1x1024 .f32) (y : S1x1x1024.Idx) :
    ∃ pc ∈ (runE c o hc x0 x1 x2 xo6 xo7 xs10 xs11).1, y ∈ pc.1.set :=
  View.cover_of_tiledL (runE c o hc x0 x1 x2 xo6 xo7 xs10 xs11).1 S1x1x1024.size (by sl_kernel_rfl) y

def out1_E_3 (c : Dev nD) {i : grid1.Coords} (o : Ops1) (hc : IsE i)
    (x0 : Vec F S1x2000x256 .bf16) (x1 : Vec F S1x1024x256 .bf16) (x2 : Vec F S1x1x1024 .i32) (xo6 : Vec F S1x1x1024 .f32) (xo7 : Vec F S1x1x1024 .f32) (xs10 : Vec F S1x1024 .f32) (xs11 : Vec F S1x1024 .f32) : Vec F S1x1x1024 .f32 :=
  VO1_3.read (Elt F) (VO1_3.writes (Elt F) VO1_3.junk (runE c o hc x0 x1 x2 xo6 xo7 xs10 xs11).1)

theorem cover1_E_4 (c : Dev nD) {i : grid1.Coords} (o : Ops1) (hc : IsE i)
    (x0 : Vec F S1x2000x256 .bf16) (x1 : Vec F S1x1024x256 .bf16) (x2 : Vec F S1x1x1024 .i32) (xo6 : Vec F S1x1x1024 .f32) (xo7 : Vec F S1x1x1024 .f32) (xs10 : Vec F S1x1024 .f32) (xs11 : Vec F S1x1024 .f32) (y : S1x1x1024.Idx) :
    ∃ pc ∈ (runE c o hc x0 x1 x2 xo6 xo7 xs10 xs11).2.1, y ∈ pc.1.set :=
  View.cover_of_tiledL (runE c o hc x0 x1 x2 xo6 xo7 xs10 xs11).2.1 S1x1x1024.size (by sl_kernel_rfl) y

def out1_E_4 (c : Dev nD) {i : grid1.Coords} (o : Ops1) (hc : IsE i)
    (x0 : Vec F S1x2000x256 .bf16) (x1 : Vec F S1x1024x256 .bf16) (x2 : Vec F S1x1x1024 .i32) (xo6 : Vec F S1x1x1024 .f32) (xo7 : Vec F S1x1x1024 .f32) (xs10 : Vec F S1x1024 .f32) (xs11 : Vec F S1x1024 .f32) : Vec F S1x1x1024 .f32 :=
  VO1_4.read (Elt F) (VO1_4.writes (Elt F) VO1_4.junk (runE c o hc x0 x1 x2 xo6 xo7 xs10 xs11).2.1)

theorem hcA (t : Fin cfg1.N) (h : t.val % 10 = 0) :
    IsA (grid1.coords t) :=
  ⟨(hcond1_0 t).mpr (by omega),
    (hcond1_1 t).mpr (by omega),
    fun h' => by have := (hcond1_2 t).mp h'; omega,
    fun h' => by have := (hcond1_3 t).mp h'; omega,
    fun h' => by have := (hcond1_4 t).mp h'; omega⟩

theorem hcB (t : Fin cfg1.N) (h : 1 ≤ t.val % 10 ∧ t.val % 10 ≤ 3) :
    IsB (grid1.coords t) :=
  ⟨fun h' => by have := (hcond1_0 t).mp h'; omega,
    (hcond1_1 t).mpr (by omega),
    fun h' => by have := (hcond1_2 t).mp h'; omega,
    fun h' => by have := (hcond1_3 t).mp h'; omega,
    fun h' => by have := (hcond1_4 t).mp h'; omega⟩

theorem hcC (t : Fin cfg1.N) (h : t.val % 10 = 4) :
    IsC (grid1.coords t) :=
  ⟨fun h' => by have := (hcond1_0 t).mp h'; omega,
    (hcond1_1 t).mpr (by omega),
    (hcond1_2 t).mpr (by omega),
    fun h' => by have := (hcond1_3 t).mp h'; omega,
    fun h' => by have := (hcond1_4 t).mp h'; omega⟩

theorem hcD (t : Fin cfg1.N) (h : t.val % 10 = 5) :
    IsD (grid1.coords t) :=
  ⟨fun h' => by have := (hcond1_0 t).mp h'; omega,
    fun h' => by have := (hcond1_1 t).mp h'; omega,
    fun h' => by have := (hcond1_2 t).mp h'; omega,
    (hcond1_3 t).mpr (by omega),
    (hcond1_4 t).mpr (by omega)⟩

theorem hcE (t : Fin cfg1.N) (h : 6 ≤ t.val % 10) :
    IsE (grid1.coords t) :=
  ⟨fun h' => by have := (hcond1_0 t).mp h'; omega,
    fun h' => by have := (hcond1_1 t).mp h'; omega,
    fun h' => by have := (hcond1_2 t).mp h'; omega,
    fun h' => by have := (hcond1_3 t).mp h'; omega,
    (hcond1_4 t).mpr (by omega)⟩

abbrev Outs1 (F : FTy → Type) : Type :=
  Vec F S1x1x1024 .f32 × Vec F S1x1x1024 .f32 × Vec F S1x1024 .f32 × Vec F S1x1024 .f32 × Vec F S1x1024 .f32 × Vec F S1x1024 .f32

def junk1 : Outs1 F :=
  (VO1_3.read (Elt F) VO1_3.junk, VO1_4.read (Elt F) VO1_4.junk, VS1_0.read (Elt F) VS1_0.junk,
    VS1_1.read (Elt F) VS1_1.junk, VS1_2.read (Elt F) VS1_2.junk, VS1_3.read (Elt F) VS1_3.junk)

section Data
variable (V : (c : Dev nD) → (b : Ref sig .tc) → Buf (Elt F) ((c : Thread nD τ).loc b))

/-- What each case leaves after point `t`, over what the point before left (`prev`). -/
def stepA (c : Dev nD) (t : Fin cfg1.N) (h : t.val % 10 = 0) (prev : Outs1 F) : Outs1 F :=
  (out1_A_3 c (ops1 t) (hcA t h) (iblk1 V c 0 t) (iblk1 V c 1 t) (iblk1 V c 2 t), out1_A_4 c (ops1 t) (hcA t h) (iblk1 V c 0 t) (iblk1 V c 1 t) (iblk1 V c 2 t),
    sout1_A_0 c (ops1 t) (hcA t h) (iblk1 V c 0 t) (iblk1 V c 1 t) (iblk1 V c 2 t), sout1_A_1 c (ops1 t) (hcA t h) (iblk1 V c 0 t) (iblk1 V c 1 t) (iblk1 V c 2 t),
    prev.2.2.2.2.1, prev.2.2.2.2.2)
def stepB (c : Dev nD) (t : Fin cfg1.N) (h : 1 ≤ t.val % 10 ∧ t.val % 10 ≤ 3) (prev : Outs1 F) : Outs1 F :=
  (prev.1, prev.2.1,
    sout1_B_0 c (ops1 t) (hcB t h) (iblk1 V c 0 t) (iblk1 V c 1 t) (iblk1 V c 2 t) prev.2.2.1 prev.2.2.2.1, sout1_B_1 c (ops1 t) (hcB t h) (iblk1 V c 0 t) (iblk1 V c 1 t) (iblk1 V c 2 t) prev.2.2.1 prev.2.2.2.1,
    prev.2.2.2.2.1, prev.2.2.2.2.2)
def stepC (c : Dev nD) (t : Fin cfg1.N) (h : t.val % 10 = 4) (prev : Outs1 F) : Outs1 F :=
  (prev.1, prev.2.1,
    sout1_C_0 c (ops1 t) (hcC t h) (iblk1 V c 0 t) (iblk1 V c 1 t) (iblk1 V c 2 t) prev.2.2.1 prev.2.2.2.1, sout1_C_1 c (ops1 t) (hcC t h) (iblk1 V c 0 t) (iblk1 V c 1 t) (iblk1 V c 2 t) prev.2.2.1 prev.2.2.2.1,
    sout1_C_2 c (ops1 t) (hcC t h) (iblk1 V c 0 t) (iblk1 V c 1 t) (iblk1 V c 2 t) prev.2.2.1 prev.2.2.2.1, sout1_C_3 c (ops1 t) (hcC t h) (iblk1 V c 0 t) (iblk1 V c 1 t) (iblk1 V c 2 t) prev.2.2.1 prev.2.2.2.1)
def stepD (c : Dev nD) (t : Fin cfg1.N) (h : t.val % 10 = 5) (prev : Outs1 F) : Outs1 F :=
  (out1_D_3 c (ops1 t) (hcD t h) (iblk1 V c 0 t) (iblk1 V c 1 t) (iblk1 V c 2 t) prev.1 prev.2.1 prev.2.2.2.2.1 prev.2.2.2.2.2,
    out1_D_4 c (ops1 t) (hcD t h) (iblk1 V c 0 t) (iblk1 V c 1 t) (iblk1 V c 2 t) prev.1 prev.2.1 prev.2.2.2.2.1 prev.2.2.2.2.2,
    prev.2.2.1, prev.2.2.2.1, prev.2.2.2.2.1, prev.2.2.2.2.2)
def stepE (c : Dev nD) (t : Fin cfg1.N) (h : 6 ≤ t.val % 10) (prev : Outs1 F) : Outs1 F :=
  (out1_E_3 c (ops1 t) (hcE t h) (iblk1 V c 0 t) (iblk1 V c 1 t) (iblk1 V c 2 t) prev.1 prev.2.1 prev.2.2.2.2.1 prev.2.2.2.2.2,
    out1_E_4 c (ops1 t) (hcE t h) (iblk1 V c 0 t) (iblk1 V c 1 t) (iblk1 V c 2 t) prev.1 prev.2.1 prev.2.2.2.2.1 prev.2.2.2.2.2,
    prev.2.2.1, prev.2.2.2.1, prev.2.2.2.2.1, prev.2.2.2.2.2)

/-- One grid point: the case the point index selects modulo 10. -/
def step1 (c : Dev nD) (t : Fin cfg1.N) (prev : Outs1 F) : Outs1 F :=
  if hA : t.val % 10 = 0 then stepA V c t hA prev
  else if hB : t.val % 10 ≤ 3 then stepB V c t ⟨Nat.pos_of_ne_zero hA, hB⟩ prev
  else if hC : t.val % 10 = 4 then stepC V c t hC prev
  else if hD : t.val % 10 = 5 then stepD V c t hD prev
  else stepE V c t (by omega) prev

theorem step1_A (c : Dev nD) (t : Fin cfg1.N) (prev : Outs1 F) (h : t.val % 10 = 0) : step1 V c t prev = stepA V c t h prev := by
  unfold step1; exact dif_pos h
theorem step1_B (c : Dev nD) (t : Fin cfg1.N) (prev : Outs1 F) (h : 1 ≤ t.val % 10 ∧ t.val % 10 ≤ 3) : step1 V c t prev = stepB V c t h prev := by
  unfold step1; exact (dif_neg (by omega)).trans (dif_pos h.2)
theorem step1_C (c : Dev nD) (t : Fin cfg1.N) (prev : Outs1 F) (h : t.val % 10 = 4) : step1 V c t prev = stepC V c t h prev := by
  unfold step1; exact (dif_neg (by omega)).trans ((dif_neg (by omega)).trans (dif_pos h))
theorem step1_D (c : Dev nD) (t : Fin cfg1.N) (prev : Outs1 F) (h : t.val % 10 = 5) : step1 V c t prev = stepD V c t h prev := by
  unfold step1; exact (dif_neg (by omega)).trans ((dif_neg (by omega)).trans ((dif_neg (by omega)).trans (dif_pos h)))
theorem step1_E (c : Dev nD) (t : Fin cfg1.N) (prev : Outs1 F) (h : 6 ≤ t.val % 10) : step1 V c t prev = stepE V c t h prev := by
  unfold step1; exact (dif_neg (by omega)).trans ((dif_neg (by omega)).trans ((dif_neg (by omega)).trans (dif_neg (by omega))))

def outsAt1 (c : Dev nD) : (n : ℕ) → n < cfg1.N → Outs1 F
  | 0, hn => step1 V c ⟨0, hn⟩ junk1
  | n + 1, hn => step1 V c ⟨n + 1, hn⟩ (outsAt1 c n (Nat.lt_of_succ_lt hn))

def prev1 (c : Dev nD) (t : Fin cfg1.N) : Outs1 F :=
  match t with
  | ⟨0, _⟩ => junk1
  | ⟨n + 1, hn⟩ => outsAt1 V c n (Nat.lt_of_succ_lt hn)

theorem outsAt1_eq (c : Dev nD) (t : Fin cfg1.N) : outsAt1 V c t.val t.isLt = step1 V c t (prev1 V c t) := by
  obtain ⟨n, hn⟩ := t
  cases n with
  | zero => rfl
  | succ n => rfl

theorem prev1_pos (c : Dev nD) (t : Fin cfg1.N) (h : t.val ≠ 0) :
    prev1 V c t = outsAt1 V c (t.val - 1) (Nat.lt_of_le_of_lt (Nat.sub_le _ _) t.isLt) := by
  obtain ⟨n, hn⟩ := t
  cases n with
  | zero => exact absurd rfl h
  | succ n => rfl

theorem outsAt1_A (c : Dev nD) (t : Fin cfg1.N) (h : t.val % 10 = 0) : outsAt1 V c t.val t.isLt = stepA V c t h (prev1 V c t) :=
  (outsAt1_eq V c t).trans (step1_A V c t _ h)
theorem outsAt1_B (c : Dev nD) (t : Fin cfg1.N) (h : 1 ≤ t.val % 10 ∧ t.val % 10 ≤ 3) : outsAt1 V c t.val t.isLt = stepB V c t h (prev1 V c t) :=
  (outsAt1_eq V c t).trans (step1_B V c t _ h)
theorem outsAt1_C (c : Dev nD) (t : Fin cfg1.N) (h : t.val % 10 = 4) : outsAt1 V c t.val t.isLt = stepC V c t h (prev1 V c t) :=
  (outsAt1_eq V c t).trans (step1_C V c t _ h)
theorem outsAt1_D (c : Dev nD) (t : Fin cfg1.N) (h : t.val % 10 = 5) : outsAt1 V c t.val t.isLt = stepD V c t h (prev1 V c t) :=
  (outsAt1_eq V c t).trans (step1_D V c t _ h)
theorem outsAt1_E (c : Dev nD) (t : Fin cfg1.N) (h : 6 ≤ t.val % 10) : outsAt1 V c t.val t.isLt = stepE V c t h (prev1 V c t) :=
  (outsAt1_eq V c t).trans (step1_E V c t _ h)

/-- The invariant between points: the carried buffers hold what the point before left (the folded pair only once it has been stored). -/
def PhiS1 (c : Dev nD) : (n : ℕ) → n ≤ cfg1.N → sProp 𝕄
  | 0, _ => Pipeline.ΦA spec1 c
  | n + 1, hn =>
    if n < 4 then
      iprop(rest1 (F := F) c ∗ owns (c : Thread nD τ) scM1_0 fullShare (outsAt1 V c n hn).2.2.1 ∗ owns (c : Thread nD τ) scM1_1 fullShare (outsAt1 V c n hn).2.2.2.1 ∗ (∃ d, owns (c : Thread nD τ) scM1_2 fullShare d) ∗ (∃ d, owns (c : Thread nD τ) scM1_3 fullShare d) ∗ (∃ r, prngReg c r))
    else
      iprop(rest1 (F := F) c ∗ owns (c : Thread nD τ) scM1_0 fullShare (outsAt1 V c n hn).2.2.1 ∗ owns (c : Thread nD τ) scM1_1 fullShare (outsAt1 V c n hn).2.2.2.1 ∗ owns (c : Thread nD τ) scM1_2 fullShare (outsAt1 V c n hn).2.2.2.2.1 ∗ owns (c : Thread nD τ) scM1_3 fullShare (outsAt1 V c n hn).2.2.2.2.2 ∗ (∃ r, prngReg c r))

theorem PhiS1_zero (c : Dev nD) (n : ℕ) (h : n ≤ cfg1.N) (hz : n = 0) : PhiS1 V c n h = Pipeline.ΦA spec1 c := by
  subst hz; rfl

theorem PhiS1_succ_early (c : Dev nD) (n : ℕ) (hn : n < cfg1.N) (h4 : n < 4) :
    PhiS1 V c (n + 1) hn = iprop(rest1 (F := F) c ∗ owns (c : Thread nD τ) scM1_0 fullShare (outsAt1 V c n hn).2.2.1 ∗ owns (c : Thread nD τ) scM1_1 fullShare (outsAt1 V c n hn).2.2.2.1 ∗ (∃ d, owns (c : Thread nD τ) scM1_2 fullShare d) ∗ (∃ d, owns (c : Thread nD τ) scM1_3 fullShare d) ∗ (∃ r, prngReg c r)) := if_pos h4

theorem PhiS1_succ_late (c : Dev nD) (n : ℕ) (hn : n < cfg1.N) (h4 : ¬n < 4) :
    PhiS1 V c (n + 1) hn = iprop(rest1 (F := F) c ∗ owns (c : Thread nD τ) scM1_0 fullShare (outsAt1 V c n hn).2.2.1 ∗ owns (c : Thread nD τ) scM1_1 fullShare (outsAt1 V c n hn).2.2.2.1 ∗ owns (c : Thread nD τ) scM1_2 fullShare (outsAt1 V c n hn).2.2.2.2.1 ∗ owns (c : Thread nD τ) scM1_3 fullShare (outsAt1 V c n hn).2.2.2.2.2 ∗ (∃ r, prngReg c r)) := if_neg h4

theorem PhiS1_pos_early (c : Dev nD) (n : ℕ) (h : n ≤ cfg1.N) (hz : n ≠ 0) (h4 : n ≤ 4) :
    PhiS1 V c n h = iprop(rest1 (F := F) c ∗ owns (c : Thread nD τ) scM1_0 fullShare (outsAt1 V c (n - 1) (by omega)).2.2.1 ∗ owns (c : Thread nD τ) scM1_1 fullShare (outsAt1 V c (n - 1) (by omega)).2.2.2.1 ∗ (∃ d, owns (c : Thread nD τ) scM1_2 fullShare d) ∗ (∃ d, owns (c : Thread nD τ) scM1_3 fullShare d) ∗ (∃ r, prngReg c r)) := by
  cases n with
  | zero => exact absurd rfl hz
  | succ n => exact if_pos (by omega)

theorem PhiS1_pos_late (c : Dev nD) (n : ℕ) (h : n ≤ cfg1.N) (h5 : 5 ≤ n) :
    PhiS1 V c n h = iprop(rest1 (F := F) c ∗ owns (c : Thread nD τ) scM1_0 fullShare (outsAt1 V c (n - 1) (by omega)).2.2.1 ∗ owns (c : Thread nD τ) scM1_1 fullShare (outsAt1 V c (n - 1) (by omega)).2.2.2.1 ∗ owns (c : Thread nD τ) scM1_2 fullShare (outsAt1 V c (n - 1) (by omega)).2.2.2.2.1 ∗ owns (c : Thread nD τ) scM1_3 fullShare (outsAt1 V c (n - 1) (by omega)).2.2.2.2.2 ∗ (∃ r, prngReg c r)) := by
  cases n with
  | zero => exact absurd h5 (by omega)
  | succ n => exact if_neg (by omega)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

theorem idle1_3_iff : ∀ t : Fin cfg1.N, cfg1.idle 3 (grid1.coords t) = true ↔ (1 ≤ t.val % 10 ∧ t.val % 10 ≤ 4) :=
  (by decide +kernel : ∀ t : Fin grid1.N, idle1 3 (grid1.coords t) = true ↔ (1 ≤ t.val % 10 ∧ t.val % 10 ≤ 4))
theorem idle1_4_iff : ∀ t : Fin cfg1.N, cfg1.idle 4 (grid1.coords t) = true ↔ (1 ≤ t.val % 10 ∧ t.val % 10 ≤ 4) :=
  (by decide +kernel : ∀ t : Fin grid1.N, idle1 4 (grid1.coords t) = true ↔ (1 ≤ t.val % 10 ∧ t.val % 10 ≤ 4))

theorem idleAt1_3 (t : Fin cfg1.N) (h : 1 ≤ t.val % 10 ∧ t.val % 10 ≤ 4) : cfg1.idle 3 (grid1.coords t) = true := (idle1_3_iff t).mpr h
theorem idleAt1_4 (t : Fin cfg1.N) (h : 1 ≤ t.val % 10 ∧ t.val % 10 ≤ 4) : cfg1.idle 4 (grid1.coords t) = true := (idle1_4_iff t).mpr h
theorem liveAt1_3 (t : Fin cfg1.N) (h : ¬(1 ≤ t.val % 10 ∧ t.val % 10 ≤ 4)) : cfg1.idle 3 (grid1.coords t) = false :=
  Bool.eq_false_iff.mpr fun h' => h ((idle1_3_iff t).mp h')
theorem liveAt1_4 (t : Fin cfg1.N) (h : ¬(1 ≤ t.val % 10 ∧ t.val % 10 ≤ 4)) : cfg1.idle 4 (grid1.coords t) = false :=
  Bool.eq_false_iff.mpr fun h' => h ((idle1_4_iff t).mp h')
theorem noFlush1_3 (t : Fin cfg1.N) (h : t.val % 10 ≠ 9) : (cfg1.win 3).flush t = false :=
  Bool.eq_false_iff.mpr fun h' => h ((flush1_3 t).mp h')
theorem noFlush1_4 (t : Fin cfg1.N) (h : t.val % 10 ≠ 9) : (cfg1.win 4).flush t = false :=
  Bool.eq_false_iff.mpr fun h' => h ((flush1_4 t).mp h')

section LookBack
variable {c : Dev nD} (dat : Dat τ (Elt F) Unit ℕ (UR sig nD τ) ℕ cfg1 c)

theorem before1_of_idle (w : Fin cfg1.W) (hw : (cfg1.win w).isOut = true) (t : Fin cfg1.N) (ht : t.val ≠ 0)
    (hfl : (cfg1.win w).flush ⟨t.val - 1, Nat.lt_of_le_of_lt (Nat.sub_le _ _) t.isLt⟩ = false)
    (hi : cfg1.idle w (cfg1.grid.coords ⟨t.val - 1, Nat.lt_of_le_of_lt (Nat.sub_le _ _) t.isLt⟩) = true) (d) :
    dat.before w t d = dat.before w ⟨t.val - 1, Nat.lt_of_le_of_lt (Nat.sub_le _ _) t.isLt⟩ d := by
  rw [dat.before_of_pos w t ht ((cfg1.win w).fetch_out hw t), hfl, if_neg Bool.false_ne_true]
  unfold Dat.left; rw [hi]

theorem before1_of_live (w : Fin cfg1.W) (hw : (cfg1.win w).isOut = true) (t : Fin cfg1.N) (ht : t.val ≠ 0)
    (hfl : (cfg1.win w).flush ⟨t.val - 1, Nat.lt_of_le_of_lt (Nat.sub_le _ _) t.isLt⟩ = false)
    (hi : cfg1.idle w (cfg1.grid.coords ⟨t.val - 1, Nat.lt_of_le_of_lt (Nat.sub_le _ _) t.isLt⟩) = false)
    (hclip : ∀ (i : cfg1.grid.Coords) a, (cfg1.win w).clip i a = none) (d) :
    dat.before w t d = dat.after w ⟨t.val - 1, Nat.lt_of_le_of_lt (Nat.sub_le _ _) t.isLt⟩ := by
  rw [dat.before_of_pos w t ht ((cfg1.win w).fetch_out hw t), hfl, if_neg Bool.false_ne_true]
  unfold Dat.left; rw [hi]
  unfold Dat.kept
  rw [Pipeline.fill_of_clip_none (cfg := cfg1) w _ (hclip _) d (dat.after w _), Window.fill_cut]

end LookBack

theorem carry1_3 (c : Dev nD) (t : Fin cfg1.N) (h : 1 ≤ t.val % 10 ∧ t.val % 10 ≤ 4) :
    (outsAt1 V c t.val t.isLt).1 = (outsAt1 V c (t.val - 1) (Nat.lt_of_le_of_lt (Nat.sub_le _ _) t.isLt)).1 := by
  have hz : t.val ≠ 0 := fun h0 => by rw [h0] at h; omega
  by_cases h3 : t.val % 10 ≤ 3
  · rw [outsAt1_B V c t ⟨h.1, h3⟩, stepB, prev1_pos V c t hz]
  · rw [outsAt1_C V c t (by omega), stepC, prev1_pos V c t hz]

theorem before1_3_aux (c : Dev nD) : ∀ (n : ℕ) (hn : n < cfg1.N), n % 10 ≠ 0 → ∀ d,
    (dat1 V c).before 3 ⟨n, hn⟩ d = (outsAt1 V c (n - 1) (Nat.lt_of_le_of_lt (Nat.sub_le _ _) hn)).1
  | 0, _, h, _ => absurd (Nat.zero_mod 10) h
  | n + 1, hn, h, d => by
    have hN : n + 1 < 20 := lt_of_lt_of_eq hn (show cfg1.N = 20 from N_1)
    have hfl : (cfg1.win 3).flush ⟨n, Nat.lt_of_succ_lt hn⟩ = false := noFlush1_3 ⟨n, Nat.lt_of_succ_lt hn⟩ (by dsimp only; omega)
    by_cases hi : 1 ≤ n % 10 ∧ n % 10 ≤ 4
    · refine (before1_of_idle (dat1 V c) 3 rfl ⟨n + 1, hn⟩ (Nat.succ_ne_zero n) hfl (idleAt1_3 ⟨n, Nat.lt_of_succ_lt hn⟩ hi) d).trans ?_
      refine (before1_3_aux c n (Nat.lt_of_succ_lt hn) (by omega) d).trans ?_
      exact (carry1_3 V c ⟨n, Nat.lt_of_succ_lt hn⟩ hi).symm
    · refine (before1_of_live (dat1 V c) 3 rfl ⟨n + 1, hn⟩ (Nat.succ_ne_zero n) hfl (liveAt1_3 ⟨n, Nat.lt_of_succ_lt hn⟩ hi) (fun _ _ => rfl) d).trans ?_
      exact after1_3 V c ⟨n, Nat.lt_of_succ_lt hn⟩

theorem before1_3 (c : Dev nD) (t : Fin cfg1.N) (h : t.val % 10 ≠ 0) (d) :
    (dat1 V c).before 3 t d = (outsAt1 V c (t.val - 1) (Nat.lt_of_le_of_lt (Nat.sub_le _ _) t.isLt)).1 :=
  before1_3_aux V c t.val t.isLt h d

theorem carry1_4 (c : Dev nD) (t : Fin cfg1.N) (h : 1 ≤ t.val % 10 ∧ t.val % 10 ≤ 4) :
    (outsAt1 V c t.val t.isLt).2.1 = (outsAt1 V c (t.val - 1) (Nat.lt_of_le_of_lt (Nat.sub_le _ _) t.isLt)).2.1 := by
  have hz : t.val ≠ 0 := fun h0 => by rw [h0] at h; omega
  by_cases h3 : t.val % 10 ≤ 3
  · rw [outsAt1_B V c t ⟨h.1, h3⟩, stepB, prev1_pos V c t hz]
  · rw [outsAt1_C V c t (by omega), stepC, prev1_pos V c t hz]

theorem before1_4_aux (c : Dev nD) : ∀ (n : ℕ) (hn : n < cfg1.N), n % 10 ≠ 0 → ∀ d,
    (dat1 V c).before 4 ⟨n, hn⟩ d = (outsAt1 V c (n - 1) (Nat.lt_of_le_of_lt (Nat.sub_le _ _) hn)).2.1
  | 0, _, h, _ => absurd (Nat.zero_mod 10) h
  | n + 1, hn, h, d => by
    have hN : n + 1 < 20 := lt_of_lt_of_eq hn (show cfg1.N = 20 from N_1)
    have hfl : (cfg1.win 4).flush ⟨n, Nat.lt_of_succ_lt hn⟩ = false := noFlush1_4 ⟨n, Nat.lt_of_succ_lt hn⟩ (by dsimp only; omega)
    by_cases hi : 1 ≤ n % 10 ∧ n % 10 ≤ 4
    · refine (before1_of_idle (dat1 V c) 4 rfl ⟨n + 1, hn⟩ (Nat.succ_ne_zero n) hfl (idleAt1_4 ⟨n, Nat.lt_of_succ_lt hn⟩ hi) d).trans ?_
      refine (before1_4_aux c n (Nat.lt_of_succ_lt hn) (by omega) d).trans ?_
      exact (carry1_4 V c ⟨n, Nat.lt_of_succ_lt hn⟩ hi).symm
    · refine (before1_of_live (dat1 V c) 4 rfl ⟨n + 1, hn⟩ (Nat.succ_ne_zero n) hfl (liveAt1_4 ⟨n, Nat.lt_of_succ_lt hn⟩ hi) (fun _ _ => rfl) d).trans ?_
      exact after1_4 V c ⟨n, Nat.lt_of_succ_lt hn⟩

theorem before1_4 (c : Dev nD) (t : Fin cfg1.N) (h : t.val % 10 ≠ 0) (d) :
    (dat1 V c).before 4 t d = (outsAt1 V c (t.val - 1) (Nat.lt_of_le_of_lt (Nat.sub_le _ _) t.isLt)).2.1 :=
  before1_4_aux V c t.val t.isLt h d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: by the residue of the point index one case's run applies, and its stores, tiling each buffer, are what the next point finds. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl]
  have hN : t.val < 20 := lt_of_lt_of_eq t.isLt (show cfg1.N = 20 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases hA : t.val % 10 = 0
  ·
    have hc := hcA t hA
    rw [show (dat1 V c).leavesExact 3 t = owns (c : Thread nD τ) (ms1_3 t) fullShare ((dat1 V c).after 3 t) from by
      unfold Dat.leavesExact; rw [liveAt1_3 t (by omega)], after1_3]
    rw [show (dat1 V c).leavesExact 4 t = owns (c : Thread nD τ) (ms1_4 t) fullShare ((dat1 V c).after 4 t) from by
      unfold Dat.leavesExact; rw [liveAt1_4 t (by omega)], after1_4]
    by_cases hz : t.val = 0
    · rw [PhiS1_castSucc V c t, PhiS1_zero V c _ _ hz, PhiA1_eq, PhiS1_succ_early V c t.val t.isLt (by omega)]
      rw [outsAt1_A V c t hA, stepA]
      dsimp only
      unfold out1_A_3 out1_A_4 sout1_A_0 sout1_A_1
      iintro ⟨⟨Hr, ⟨%ds0, HS0⟩, ⟨%ds1, HS1⟩, ⟨%ds2, HS2⟩, ⟨%ds3, HS3⟩, Hg⟩, Ho, ⟨%d0, H0⟩, ⟨%d1, H1⟩, ⟨%d2, H2⟩, ⟨%d3, H3⟩, ⟨%d4, H4⟩⟩
      iapply ((runA c (ops1 t) hc (iblk1 V c 0 t) (iblk1 V c 1 t) (iblk1 V c 2 t)).2.2.2.2 _ _ Set.univ _)
      isplitl [H0]; · iexact H0
      isplitl [H1]; · iexact H1
      isplitl [H2]; · iexact H2
      isplitl [H3]; · iexists _; iexact H3
      isplitl [H4]; · iexists _; iexact H4
      isplitl [HS0]; · iexists _; iexact HS0
      isplitl [HS1]; · iexists _; iexact HS1
      isplitl [HS2]; · iexact HS2
      isplitl [HS3]; · iexact HS3
      iintro ⟨H0, H1, H2, ⟨%e6, H3⟩, ⟨%e7, H4⟩, ⟨%e8, HS0⟩, ⟨%e9, HS1⟩, HS2, HS3⟩
      isplitl [Hr HS0 HS1 HS2 HS3 Hg]
      · isplitl [Hr]; · iexact Hr
        isplitl [HS0]
        · unfold owns; iexists _; isplitr
          swap; · iexact HS0
          ipureintro; exact View.read_writes_of_cover _ _ _ _ _ (scover1_A_0 c (ops1 t) hc (iblk1 V c 0 t) (iblk1 V c 1 t) (iblk1 V c 2 t))
        isplitl [HS1]
        · unfold owns; iexists _; isplitr
          swap; · iexact HS1
          ipureintro; exact View.read_writes_of_cover _ _ _ _ _ (scover1_A_1 c (ops1 t) hc (iblk1 V c 0 t) (iblk1 V c 1 t) (iblk1 V c 2 t))
        isplitl [HS2]
        · iexists _; iexact HS2
        isplitl [HS3]
        · iexists _; iexact HS3
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_A_3 c (ops1 t) hc (iblk1 V c 0 t) (iblk1 V c 1 t) (iblk1 V c 2 t))
      unfold owns; iexists _; isplitr
      swap; · iexact H4
      ipureintro; exact View.read_writes_of_cover _ _ _ _ _ (cover1_A_4 c (ops1 t) hc (iblk1 V c 0 t) (iblk1 V c 1 t) (iblk1 V c 2 t))
    · rw [PhiS1_castSucc V c t, PhiS1_pos_late V c _ _ (by omega), PhiS1_succ_late V c t.val t.isLt (by omega)]
      rw [outsAt1_A V c t hA, stepA, prev1_pos V c t hz]
      dsimp only
      unfold out1_A_3 out1_A_4 sout1_A_0 sout1_A_1
      iintro ⟨⟨Hr, HS0, HS1, HS2, HS3, Hg⟩, Ho, ⟨%d0, H0⟩, ⟨%d1, H1⟩, ⟨%d2, H2⟩, ⟨%d3, H3⟩, ⟨%d4, H4⟩⟩
      iapply ((runA c (ops1 t) hc (iblk1 V c 0 t) (iblk1 V c 1 t) (iblk1 V c 2 t)).2.2.2.2 _ _ Set.univ _)
      isplitl [H0]; · iexact H0
      isplitl [H1]; · iexact H1
      isplitl [H2]; · iexact H2
      isplitl [H3]; · iexists _; iexact H3
      isplitl [H4]; · iexists _; iexact H4
      isplitl [HS0]; · iexists _; iexact HS0
      isplitl [HS1]; · iexists _; iexact HS1
      isplitl [HS2]; · iexact HS2
      isplitl [HS3]; · iexact HS3
      iintro ⟨H0, H1, H2, ⟨%e6, H3⟩, ⟨%e7, H4⟩, ⟨%e8, HS0⟩, ⟨%e9, HS1⟩, HS2, HS3⟩
      isplitl [Hr HS0 HS1 HS2 HS3 Hg]
      · isplitl [Hr]; · iexact Hr
        isplitl [HS0]
        · unfold owns; iexists _; isplitr
          swap; · iexact HS0
          ipureintro; exact View.read_writes_of_cover _ _ _ _ _ (scover1_A_0 c (ops1 t) hc (iblk1 V c 0 t) (iblk1 V c 1 t) (iblk1 V c 2 t))
        isplitl [HS1]
        · unfold owns; iexists _; isplitr
          swap; · iexact HS1
          ipureintro; exact View.read_writes_of_cover _ _ _ _ _ (scover1_A_1 c (ops1 t) hc (iblk1 V c 0 t) (iblk1 V c 1 t) (iblk1 V c 2 t))
        isplitl [HS2]
        · iexact HS2
        isplitl [HS3]
        · iexact HS3
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_A_3 c (ops1 t) hc (iblk1 V c 0 t) (iblk1 V c 1 t) (iblk1 V c 2 t))
      unfold owns; iexists _; isplitr
      swap; · iexact H4
      ipureintro; exact View.read_writes_of_cover _ _ _ _ _ (cover1_A_4 c (ops1 t) hc (iblk1 V c 0 t) (iblk1 V c 1 t) (iblk1 V c 2 t))
  by_cases hB : 1 ≤ t.val % 10 ∧ t.val % 10 ≤ 3
  ·
    have hc := hcB t hB
    have hz : t.val ≠ 0 := fun h0 => by rw [h0] at hA; exact hA rfl
    rw [Dat.leavesExact_idle (dat1 V c) 3 t (idleAt1_3 t (by omega)) (noFlush1_3 t (by omega))]
    rw [Dat.leavesExact_idle (dat1 V c) 4 t (idleAt1_4 t (by omega)) (noFlush1_4 t (by omega))]
    by_cases he : t.val < 4
    · rw [PhiS1_castSucc V c t, PhiS1_pos_early V c _ _ hz (by omega), PhiS1_succ_early V c t.val t.isLt he]
      rw [outsAt1_B V c t hB, stepB, prev1_pos V c t hz]
      dsimp only
      unfold sout1_B_0 sout1_B_1
      iintro ⟨⟨Hr, HS0, HS1, ⟨%ds2, HS2⟩, ⟨%ds3, HS3⟩, Hg⟩, Ho, ⟨%d0, H0⟩, ⟨%d1, H1⟩, ⟨%d2, H2⟩, ⟨%d3, H3⟩, ⟨%d4, H4⟩⟩
      iapply ((runB c (ops1 t) hc (iblk1 V c 0 t) (iblk1 V c 1 t) (iblk1 V c 2 t) _ _).2.2 _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%e8, HS0⟩, ⟨%e9, HS1⟩, HS2, HS3⟩
      isplitl [Hr HS0 HS1 HS2 HS3 Hg]
      · isplitl [Hr]; · iexact Hr
        isplitl [HS0]
        · unfold owns; iexists _; isplitr
          swap; · iexact HS0
          ipureintro; exact View.read_writes_of_cover _ _ _ _ _ (scover1_B_0 c (ops1 t) hc (iblk1 V c 0 t) (iblk1 V c 1 t) (iblk1 V c 2 t) _ _)
        isplitl [HS1]
        · unfold owns; iexists _; isplitr
          swap; · iexact HS1
          ipureintro; exact View.read_writes_of_cover _ _ _ _ _ (scover1_B_1 c (ops1 t) hc (iblk1 V c 0 t) (iblk1 V c 1 t) (iblk1 V c 2 t) _ _)
        isplitl [HS2]
        · iexists _; iexact HS2
        isplitl [HS3]
        · iexists _; iexact HS3
        iexact Hg
      isplitl [Ho]; · iexact Ho
      isplitl [H0]; · iexact H0
      isplitl [H1]; · iexact H1
      isplitl [H2]; · iexact H2
      isplitl [H3]
      · iexists _; iexact H3
      iexists _; iexact H4
    · rw [PhiS1_castSucc V c t, PhiS1_pos_late V c _ _ (by omega), PhiS1_succ_late V c t.val t.isLt he]
      rw [outsAt1_B V c t hB, stepB, prev1_pos V c t hz]
      dsimp only
      unfold sout1_B_0 sout1_B_1
      iintro ⟨⟨Hr, HS0, HS1, HS2, HS3, Hg⟩, Ho, ⟨%d0, H0⟩, ⟨%d1, H1⟩, ⟨%d2, H2⟩, ⟨%d3, H3⟩, ⟨%d4, H4⟩⟩
      iapply ((runB c (ops1 t) hc (iblk1 V c 0 t) (iblk1 V c 1 t) (iblk1 V c 2 t) _ _).2.2 _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%e8, HS0⟩, ⟨%e9, HS1⟩, HS2, HS3⟩
      isplitl [Hr HS0 HS1 HS2 HS3 Hg]
      · isplitl [Hr]; · iexact Hr
        isplitl [HS0]
        · unfold owns; iexists _; isplitr
          swap; · iexact HS0
          ipureintro; exact View.read_writes_of_cover _ _ _ _ _ (scover1_B_0 c (ops1 t) hc (iblk1 V c 0 t) (iblk1 V c 1 t) (iblk1 V c 2 t) _ _)
        isplitl [HS1]
        · unfold owns; iexists _; isplitr
          swap; · iexact HS1
          ipureintro; exact View.read_writes_of_cover _ _ _ _ _ (scover1_B_1 c (ops1 t) hc (iblk1 V c 0 t) (iblk1 V c 1 t) (iblk1 V c 2 t) _ _)
        isplitl [HS2]
        · iexact HS2
        isplitl [HS3]
        · iexact HS3
        iexact Hg
      isplitl [Ho]; · iexact Ho
      isplitl [H0]; · iexact H0
      isplitl [H1]; · iexact H1
      isplitl [H2]; · iexact H2
      isplitl [H3]
      · iexists _; iexact H3
      iexists _; iexact H4
  by_cases hC : t.val % 10 = 4
  ·
    have hc := hcC t hC
    have hz : t.val ≠ 0 := fun h0 => by rw [h0] at hC; omega
    rw [Dat.leavesExact_idle (dat1 V c) 3 t (idleAt1_3 t (by omega)) (noFlush1_3 t (by omega))]
    rw [Dat.leavesExact_idle (dat1 V c) 4 t (idleAt1_4 t (by omega)) (noFlush1_4 t (by omega))]
    by_cases he : t.val ≤ 4
    · rw [PhiS1_castSucc V c t, PhiS1_pos_early V c _ _ hz he, PhiS1_succ_late V c t.val t.isLt (by omega)]
      rw [outsAt1_C V c t hC, stepC, prev1_pos V c t hz]
      dsimp only
      unfold sout1_C_0 sout1_C_1 sout1_C_2 sout1_C_3
      iintro ⟨⟨Hr, HS0, HS1, ⟨%ds2, HS2⟩, ⟨%ds3, HS3⟩, Hg⟩, Ho, ⟨%d0, H0⟩, ⟨%d1, H1⟩, ⟨%d2, H2⟩, ⟨%d3, H3⟩, ⟨%d4, H4⟩⟩
      iapply ((runC c (ops1 t) hc (iblk1 V c 0 t) (iblk1 V c 1 t) (iblk1 V c 2 t) _ _).2.2.2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexists _; iexact HS2
      isplitl [HS3]; · iexists _; iexact HS3
      iintro ⟨H0, H1, H2, H3, H4, ⟨%e8, HS0⟩, ⟨%e9, HS1⟩, ⟨%e10, HS2⟩, ⟨%e11, HS3⟩⟩
      isplitl [Hr HS0 HS1 HS2 HS3 Hg]
      · isplitl [Hr]; · iexact Hr
        isplitl [HS0]
        · unfold owns; iexists _; isplitr
          swap; · iexact HS0
          ipureintro; exact View.read_writes_of_cover _ _ _ _ _ (scover1_C_0 c (ops1 t) hc (iblk1 V c 0 t) (iblk1 V c 1 t) (iblk1 V c 2 t) _ _)
        isplitl [HS1]
        · unfold owns; iexists _; isplitr
          swap; · iexact HS1
          ipureintro; exact View.read_writes_of_cover _ _ _ _ _ (scover1_C_1 c (ops1 t) hc (iblk1 V c 0 t) (iblk1 V c 1 t) (iblk1 V c 2 t) _ _)
        isplitl [HS2]
        · unfold owns; iexists _; isplitr
          swap; · iexact HS2
          ipureintro; exact View.read_writes_of_cover _ _ _ _ _ (scover1_C_2 c (ops1 t) hc (iblk1 V c 0 t) (iblk1 V c 1 t) (iblk1 V c 2 t) _ _)
        isplitl [HS3]
        · unfold owns; iexists _; isplitr
          swap; · iexact HS3
          ipureintro; exact View.read_writes_of_cover _ _ _ _ _ (scover1_C_3 c (ops1 t) hc (iblk1 V c 0 t) (iblk1 V c 1 t) (iblk1 V c 2 t) _ _)
        iexact Hg
      isplitl [Ho]; · iexact Ho
      isplitl [H0]; · iexact H0
      isplitl [H1]; · iexact H1
      isplitl [H2]; · iexact H2
      isplitl [H3]
      · iexists _; iexact H3
      iexists _; iexact H4
    · rw [PhiS1_castSucc V c t, PhiS1_pos_late V c _ _ (by omega), PhiS1_succ_late V c t.val t.isLt (by omega)]
      rw [outsAt1_C V c t hC, stepC, prev1_pos V c t hz]
      dsimp only
      unfold sout1_C_0 sout1_C_1 sout1_C_2 sout1_C_3
      iintro ⟨⟨Hr, HS0, HS1, HS2, HS3, Hg⟩, Ho, ⟨%d0, H0⟩, ⟨%d1, H1⟩, ⟨%d2, H2⟩, ⟨%d3, H3⟩, ⟨%d4, H4⟩⟩
      iapply ((runC c (ops1 t) hc (iblk1 V c 0 t) (iblk1 V c 1 t) (iblk1 V c 2 t) _ _).2.2.2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexists _; iexact HS2
      isplitl [HS3]; · iexists _; iexact HS3
      iintro ⟨H0, H1, H2, H3, H4, ⟨%e8, HS0⟩, ⟨%e9, HS1⟩, ⟨%e10, HS2⟩, ⟨%e11, HS3⟩⟩
      isplitl [Hr HS0 HS1 HS2 HS3 Hg]
      · isplitl [Hr]; · iexact Hr
        isplitl [HS0]
        · unfold owns; iexists _; isplitr
          swap; · iexact HS0
          ipureintro; exact View.read_writes_of_cover _ _ _ _ _ (scover1_C_0 c (ops1 t) hc (iblk1 V c 0 t) (iblk1 V c 1 t) (iblk1 V c 2 t) _ _)
        isplitl [HS1]
        · unfold owns; iexists _; isplitr
          swap; · iexact HS1
          ipureintro; exact View.read_writes_of_cover _ _ _ _ _ (scover1_C_1 c (ops1 t) hc (iblk1 V c 0 t) (iblk1 V c 1 t) (iblk1 V c 2 t) _ _)
        isplitl [HS2]
        · unfold owns; iexists _; isplitr
          swap; · iexact HS2
          ipureintro; exact View.read_writes_of_cover _ _ _ _ _ (scover1_C_2 c (ops1 t) hc (iblk1 V c 0 t) (iblk1 V c 1 t) (iblk1 V c 2 t) _ _)
        isplitl [HS3]
        · unfold owns; iexists _; isplitr
          swap; · iexact HS3
          ipureintro; exact View.read_writes_of_cover _ _ _ _ _ (scover1_C_3 c (ops1 t) hc (iblk1 V c 0 t) (iblk1 V c 1 t) (iblk1 V c 2 t) _ _)
        iexact Hg
      isplitl [Ho]; · iexact Ho
      isplitl [H0]; · iexact H0
      isplitl [H1]; · iexact H1
      isplitl [H2]; · iexact H2
      isplitl [H3]
      · iexists _; iexact H3
      iexists _; iexact H4
  by_cases hD : t.val % 10 = 5
  ·
    have hc := hcD t hD
    have hz : t.val ≠ 0 := fun h0 => by rw [h0] at hD; omega
    rw [show (dat1 V c).leavesExact 3 t = owns (c : Thread nD τ) (ms1_3 t) fullShare ((dat1 V c).after 3 t) from by
      unfold Dat.leavesExact; rw [liveAt1_3 t (by omega)], after1_3]
    rw [show (dat1 V c).leavesExact 4 t = owns (c : Thread nD τ) (ms1_4 t) fullShare ((dat1 V c).after 4 t) from by
      unfold Dat.leavesExact; rw [liveAt1_4 t (by omega)], after1_4]
    simp only [before1_3 V c t hA, before1_4 V c t hA]
    rw [PhiS1_castSucc V c t, PhiS1_pos_late V c _ _ (by omega), PhiS1_succ_late V c t.val t.isLt (by omega)]
    rw [outsAt1_D V c t hD, stepD, prev1_pos V c t hz]
    dsimp only
    unfold out1_D_3 out1_D_4
    iintro ⟨⟨Hr, HS0, HS1, HS2, HS3, Hg⟩, Ho, ⟨%d0, H0⟩, ⟨%d1, H1⟩, ⟨%d2, H2⟩, ⟨%d3, H3⟩, ⟨%d4, H4⟩⟩
    iapply ((runD c (ops1 t) hc (iblk1 V c 0 t) (iblk1 V c 1 t) (iblk1 V c 2 t) _ _ _ _).2.2 _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, ⟨%e6, H3⟩, ⟨%e7, H4⟩, HS0, HS1, HS2, HS3⟩
    isplitl [Hr HS0 HS1 HS2 HS3 Hg]
    · isplitl [Hr]; · iexact Hr
      isplitl [HS0]
      · iexact HS0
      isplitl [HS1]
      · iexact HS1
      isplitl [HS2]
      · iexact HS2
      isplitl [HS3]
      · iexact HS3
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_D_3 c (ops1 t) hc (iblk1 V c 0 t) (iblk1 V c 1 t) (iblk1 V c 2 t) _ _ _ _)
    unfold owns; iexists _; isplitr
    swap; · iexact H4
    ipureintro; exact View.read_writes_of_cover _ _ _ _ _ (cover1_D_4 c (ops1 t) hc (iblk1 V c 0 t) (iblk1 V c 1 t) (iblk1 V c 2 t) _ _ _ _)
  ·
    have hE : 6 ≤ t.val % 10 := by omega
    have hc := hcE t hE
    have hz : t.val ≠ 0 := fun h0 => by rw [h0] at hE; omega
    rw [show (dat1 V c).leavesExact 3 t = owns (c : Thread nD τ) (ms1_3 t) fullShare ((dat1 V c).after 3 t) from by
      unfold Dat.leavesExact; rw [liveAt1_3 t (by omega)], after1_3]
    rw [show (dat1 V c).leavesExact 4 t = owns (c : Thread nD τ) (ms1_4 t) fullShare ((dat1 V c).after 4 t) from by
      unfold Dat.leavesExact; rw [liveAt1_4 t (by omega)], after1_4]
    simp only [before1_3 V c t hA, before1_4 V c t hA]
    rw [PhiS1_castSucc V c t, PhiS1_pos_late V c _ _ (by omega), PhiS1_succ_late V c t.val t.isLt (by omega)]
    rw [outsAt1_E V c t hE, stepE, prev1_pos V c t hz]
    dsimp only
    unfold out1_E_3 out1_E_4
    iintro ⟨⟨Hr, HS0, HS1, HS2, HS3, Hg⟩, Ho, ⟨%d0, H0⟩, ⟨%d1, H1⟩, ⟨%d2, H2⟩, ⟨%d3, H3⟩, ⟨%d4, H4⟩⟩
    iapply ((runE c (ops1 t) hc (iblk1 V c 0 t) (iblk1 V c 1 t) (iblk1 V c 2 t) _ _ _ _).2.2 _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, ⟨%e6, H3⟩, ⟨%e7, H4⟩, HS0, HS1, HS2, HS3⟩
    isplitl [Hr HS0 HS1 HS2 HS3 Hg]
    · isplitl [Hr]; · iexact Hr
      isplitl [HS0]
      · iexact HS0
      isplitl [HS1]
      · iexact HS1
      isplitl [HS2]
      · iexact HS2
      isplitl [HS3]
      · iexact HS3
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_E_3 c (ops1 t) hc (iblk1 V c 0 t) (iblk1 V c 1 t) (iblk1 V c 2 t) _ _ _ _)
    unfold owns; iexists _; isplitr
    swap; · iexact H4
    ipureintro; exact View.read_writes_of_cover _ _ _ _ _ (cover1_E_4 c (ops1 t) hc (iblk1 V c 0 t) (iblk1 V c 1 t) (iblk1 V c 2 t) _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]

theorem Phi_out1 (c : Dev nD) (t : Fin (cfg1.N + 1)) (ht : 5 ≤ t.val) : (dat1 V c).Φ t ⊢ Pipeline.ΦA spec1 c := by
  rw [show (dat1 V c).Φ t = PhiS1 V c t.val (Nat.le_of_lt_succ t.isLt) from rfl, PhiS1_pos_late V c _ _ ht, PhiA1_eq]
  iintro ⟨Hr, HS0, HS1, HS2, HS3, Hg⟩
  isplitl [Hr]; · iexact Hr
  isplitl [HS0]; · iexists _; iexact HS0
  isplitl [HS1]; · iexists _; iexact HS1
  isplitl [HS2]; · iexists _; iexact HS2
  isplitl [HS3]; · iexists _; iexact HS3
  iexact Hg

theorem hout1 (c : Dev nD) : (dat1 V c).Φ (Fin.last cfg1.N) ⊢ Pipeline.ΦA spec1 c :=
  Phi_out1 V c _ (by rw [Fin.val_last]; have : cfg1.N = 20 := N_1; omega)

end Data

end Cert.Kernel.Hand

end
-- ==== Proof.KB.Chain.lean ====
import proofs.«401957_j37563783971102_3_alg».proof.Proof.KB.Chain0
import proofs.«401957_j37563783971102_3_alg».proof.Proof.KB.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

abbrev W4 : Dev nD → Valuation τ sig (Elt F) := fun c => StableHlo.after hostOps2 (W3 m ρ c)
abbrev W5 : Dev nD → Valuation τ sig (Elt F) := fun c => StableHlo.after hostOps2_1 (W4 m ρ c)
abbrev W6 : Dev nD → Valuation τ sig (Elt F) := fun c => StableHlo.after hostOps2_2 (W5 m ρ c)

theorem W4_of (c : Dev nD) (r : Ref sig .tc) (h : r ∉ (hostOps2_W : List (Ref sig .tc))) :
    W4 m ρ c (Proc.devRef .tc r) = W3 m ρ c (Proc.devRef .tc r) :=
  StableHlo.after_of_writes_sub hostOps2 _ hostOps2_writes h
theorem W5_of (c : Dev nD) (r : Ref sig .tc) (h : r ∉ (hostOps2_1_W : List (Ref sig .tc))) :
    W5 m ρ c (Proc.devRef .tc r) = W4 m ρ c (Proc.devRef .tc r) :=
  StableHlo.after_of_writes_sub hostOps2_1 _ hostOps2_1_writes h
theorem W6_of (c : Dev nD) (r : Ref sig .tc) (h : r ∉ (hostOps2_2_W : List (Ref sig .tc))) :
    W6 m ρ c (Proc.devRef .tc r) = W5 m ρ c (Proc.devRef .tc r) :=
  StableHlo.after_of_writes_sub hostOps2_2 _ hostOps2_2_writes h

theorem W3_main_v35_0 (c : Dev nD) : W3 m ρ c (Proc.devRef .tc main_v35_0) = (dat1 (V2 m ρ) c).arrAt 3 cfg1.N := W3_arr m ρ c 3
theorem W3_main_v35_1 (c : Dev nD) : W3 m ρ c (Proc.devRef .tc main_v35_1) = (dat1 (V2 m ρ) c).arrAt 4 cfg1.N := W3_arr m ρ c 4

theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hin _).trans (A_eq1 (V2 m ρ) c w))

/-- A buffer that neither region 1 nor a host operation writes ends holding what region 0 left in it. -/
theorem W6_keep (c : Dev nD) (r : Ref sig .tc) (h2 : r ∉ (hostOps2_2_W : List (Ref sig .tc))) (h1 : r ∉ (hostOps2_1_W : List (Ref sig .tc)))
    (h0 : r ∉ (hostOps2_W : List (Ref sig .tc))) (h3 : ∀ w, Pipeline.arrRef spec1 w ≠ r) (h : r ∉ (hostOps1_W : List (Ref sig .tc))) :
    W6 m ρ c (Proc.devRef .tc r) = W1 m ρ c (Proc.devRef .tc r) :=
  (W6_of m ρ c r h2).trans ((W5_of m ρ c r h1).trans ((W4_of m ρ c r h0).trans ((W3_of_ne m ρ c r h3).trans (W2_of m ρ c r h))))
theorem W6_main_arg0 (c : Dev nD) : W6 m ρ c (Proc.devRef .tc main_arg0) = m ((c : Thread nD τ).loc main_arg0) :=
  (W6_keep m ρ c main_arg0 (by decide) (by decide) (by decide) (by decide) (by decide)).trans (W1_in m ρ c 0 rfl)
theorem W6_main_arg1 (c : Dev nD) : W6 m ρ c (Proc.devRef .tc main_arg1) = m ((c : Thread nD τ).loc main_arg1) :=
  (W6_keep m ρ c main_arg1 (by decide) (by decide) (by decide) (by decide) (by decide)).trans (W1_in m ρ c 2 rfl)
theorem W6_main_arg2 (c : Dev nD) : W6 m ρ c (Proc.devRef .tc main_arg2) = m ((c : Thread nD τ).loc main_arg2) :=
  (W6_keep m ρ c main_arg2 (by decide) (by decide) (by decide) (by decide) (by decide)).trans (W1_in m ρ c 1 rfl)
theorem W6_main_arg3 (c : Dev nD) : W6 m ρ c (Proc.devRef .tc main_arg3) = m ((c : Thread nD τ).loc main_arg3) :=
  (W6_keep m ρ c main_arg3 (by decide) (by decide) (by decide) (by decide) (by decide)).trans (W1_in m ρ c 3 rfl)
theorem W6_main_arg4 (c : Dev nD) : W6 m ρ c (Proc.devRef .tc main_arg4) = m ((c : Thread nD τ).loc main_arg4) :=
  (W6_keep m ρ c main_arg4 (by decide) (by decide) (by decide) (by decide) (by decide)).trans (W1_of_ne m ρ c main_arg4 (by decide))
theorem W6_main_arg5 (c : Dev nD) : W6 m ρ c (Proc.devRef .tc main_arg5) = m ((c : Thread nD τ).loc main_arg5) :=
  (W6_keep m ρ c main_arg5 (by decide) (by decide) (by decide) (by decide) (by decide)).trans (W1_of_ne m ρ c main_arg5 (by decide))
theorem W6_main_arg6 (c : Dev nD) : W6 m ρ c (Proc.devRef .tc main_arg6) = m ((c : Thread nD τ).loc main_arg6) :=
  (W6_keep m ρ c main_arg6 (by decide) (by decide) (by decide) (by decide) (by decide)).trans (W1_of_ne m ρ c main_arg6 (by decide))
theorem W6_main_arg7 (c : Dev nD) : W6 m ρ c (Proc.devRef .tc main_arg7) = m ((c : Thread nD τ).loc main_arg7) :=
  (W6_keep m ρ c main_arg7 (by decide) (by decide) (by decide) (by decide) (by decide)).trans (W1_of_ne m ρ c main_arg7 (by decide))
theorem W6_main_arg8 (c : Dev nD) : W6 m ρ c (Proc.devRef .tc main_arg8) = m ((c : Thread nD τ).loc main_arg8) :=
  (W6_keep m ρ c main_arg8 (by decide) (by decide) (by decide) (by decide) (by decide)).trans (W1_of_ne m ρ c main_arg8 (by decide))
theorem W6_main_arg9 (c : Dev nD) : W6 m ρ c (Proc.devRef .tc main_arg9) = m ((c : Thread nD τ).loc main_arg9) :=
  (W6_keep m ρ c main_arg9 (by decide) (by decide) (by decide) (by decide) (by decide)).trans (W1_of_ne m ρ c main_arg9 (by decide))

end Cert.Kernel.Hand

end
-- ==== Proof.KB.Main.lean ====
import proofs.«401957_j37563783971102_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W6 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .host (hseg hostOps2_1 hostOps2_1_sub hostOps2_1_fresh (W4 m ρ)),
    .host (hseg hostOps2_2 hostOps2_2_sub hostOps2_2_fresh (W5 m ρ)) ]

theorem main_run (c : Dev nD) : main (F := F) c = Pipeline.Seg.run (segs m ρ) := by
  rw [main_chain c, Pipeline.Seg.run_eq_chain]; rfl

set_option backward.isDefEq.respectTransparency.types false in
/-- The whole program: two regions and the host operations around them, each from the memory the one before left. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c =>
      show iprop(StableHlo.held (c : Thread nD τ) (Pipeline.ucRefs τ sig) (W6 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h => h)

theorem mem_uc_main_v51 : Proc.devRef .tc main_v51 ∈ Pipeline.ucRefs τ sig := mem_uc main_v51 (by decide)

theorem run_result : θ_run defs (onTc (τ := τ) (main (F := F))) ⟨m, fun _ => 0, ρ⟩ (fun r => ∀ c : Dev nD,
      r.2.mem ((c.tc : Thread nD τ).loc main_v51) = W6 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ mem_uc_main_v51,
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_result m ρ)

end Cert.Kernel.Hand

end
-- ==== Proof.KI.C0.lean ====
import proofs.«401957_j37563783971102_3_alg».proof.Proof.Gen.KernelIdeal.Launch
import proofs.«401957_j37563783971102_3_alg».proof.Proof.Gen.KernelIdeal.Skeleton
import proofs.«401957_j37563783971102_3_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end Region0

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 4 = 0 :=
  (by decide +kernel : ∀ t : Fin grid0.N, cond0_0 (grid0.coords t) ↔ t.val % 4 = 0)

abbrev VO0_4 : View sig .tc .vmem S1x1x1 .f32 := (Memref.whole cc0_stg4_0 : Memref sig .tc .vmem S1x1x1 .f32).view
abbrev VO0_5 : View sig .tc .vmem S1x1x1 .f32 := (Memref.whole cc0_stg5_0 : Memref sig .tc .vmem S1x1x1 .f32).view

abbrev ms0_0 (t : Fin cfg0.N) : Memref sig .tc .vmem S1x1x512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1 .f32 := win0_5.stage (cfg0.slots t 5)
abbrev hs0_5 (t : Fin cfg0.N) : (ms0_5 t).IsWhole := hstage0_5 ((cfg0.slots t 5).cast nbuf0_5)

/-- The six operands of region 0's body, each a whole buffer. -/
structure Ops0 where
  a2 : Memref sig .tc .vmem S1x1x512x512 .f32
  h2 : a2.IsWhole
  a3 : Memref sig .tc .vmem S1x1x512x512 .f32
  h3 : a3.IsWhole
  a4 : Memref sig .tc .vmem S1x1x512x512 .f32
  h4 : a4.IsWhole
  a5 : Memref sig .tc .vmem S1x1x512x512 .f32
  h5 : a5.IsWhole
  a6 : Memref sig .tc .vmem S1x1x1 .f32
  h6 : a6.IsWhole
  a7 : Memref sig .tc .vmem S1x1x1 .f32
  h7 : a7.IsWhole

end Cert.KernelIdeal.Hand

end
-- ==== Proof.KI.R0RunA.lean ====
import proofs.«401957_j37563783971102_3_alg».proof.Proof.KI.C0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
noncomputable def run0A (c : Dev nD) (i : grid0.Coords) (o : Ops0) (hc0 : cond0_0 i)
    (x0 x1 x2 x3 : Vec F S1x1x512x512 .f32) :
    Σ' (L4 : List (View.Piece (Elt F) S1x1x1 .f32)), { L5 : List (View.Piece (Elt F) S1x1x1 .f32) //
      ∀ (E : Set ℕ) (K : PUnit → sProp 𝕄),
        iprop(owns (c : Thread nD τ) o.a2 fullShare x0 ∗ owns (c : Thread nD τ) o.a3 fullShare x1 ∗ owns (c : Thread nD τ) o.a4 fullShare x2 ∗ owns (c : Thread nD τ) o.a5 fullShare x3 ∗ (∃ d, owns (c : Thread nD τ) o.a6 fullShare d) ∗ (∃ d, owns (c : Thread nD τ) o.a7 fullShare d)
            ∗ (iprop(owns (c : Thread nD τ) o.a2 fullShare x0 ∗ owns (c : Thread nD τ) o.a3 fullShare x1 ∗ owns (c : Thread nD τ) o.a4 fullShare x2 ∗ owns (c : Thread nD τ) o.a5 fullShare x3 ∗ (∃ f, o.a6.view.loc (c : Thread nD τ) ↦[o.a6.view.set]{fullShare} o.a6.view.writes (Elt F) f L4) ∗ (∃ f, o.a7.view.loc (c : Thread nD τ) ↦[o.a7.view.set]{fullShare} o.a7.view.writes (Elt F) f L5)) -∗ K ⟨⟩))
          ⊢ wp frame (wpE (defs₀ (F := F)) Variants.none c none) E (cc0__mse_kernel i o.a2 o.h2 o.a3 o.h3 o.a4 o.h4 o.a5 o.h5 o.a6 o.h6 o.a7 o.h7) K } := by
  refine ⟨?_, ?_, fun E K => ?run⟩
  case run =>
    simp only [cc0__mse_kernel_eq_skeleton]; unfold cc0__mse_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := o.h2.eq_unread hf0; obtain rfl := o.h3.eq_unread hf1; obtain rfl := o.h4.eq_unread hf2; obtain rfl := o.h5.eq_unread hf3
    sl_exec (disch := first | exact hc0)
    sl_step
    iapply Hk
    isplitl [H0]
    · iexists _; isplitr; · ipureintro; exact o.h2.read_unread _
      iexact H0
    isplitl [H1]
    · iexists _; isplitr; · ipureintro; exact o.h3.read_unread _
      iexact H1
    isplitl [H2]
    · iexists _; isplitr; · ipureintro; exact o.h4.read_unread _
      iexact H2
    isplitl [H3]
    · iexists _; isplitr; · ipureintro; exact o.h5.read_unread _
      iexact H3
    isplitl [H4]; · iexists _; iexact H4
    iexists _; iexact H5

end Cert.KernelIdeal.Hand

end
-- ==== Proof.KI.R0RunB.lean ====
import proofs.«401957_j37563783971102_3_alg».proof.Proof.KI.R0RunA

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
noncomputable def run0B (c : Dev nD) (i : grid0.Coords) (o : Ops0) (hc0 : ¬cond0_0 i)
    (x0 x1 x2 x3 : Vec F S1x1x512x512 .f32) (xo4 xo5 : Vec F S1x1x1 .f32) :
    Σ' (L4 : List (View.Piece (Elt F) S1x1x1 .f32)), { L5 : List (View.Piece (Elt F) S1x1x1 .f32) //
      ∀ (E : Set ℕ) (K : PUnit → sProp 𝕄),
        iprop(owns (c : Thread nD τ) o.a2 fullShare x0 ∗ owns (c : Thread nD τ) o.a3 fullShare x1 ∗ owns (c : Thread nD τ) o.a4 fullShare x2 ∗ owns (c : Thread nD τ) o.a5 fullShare x3 ∗ owns (c : Thread nD τ) o.a6 fullShare xo4 ∗ owns (c : Thread nD τ) o.a7 fullShare xo5
            ∗ (iprop(owns (c : Thread nD τ) o.a2 fullShare x0 ∗ owns (c : Thread nD τ) o.a3 fullShare x1 ∗ owns (c : Thread nD τ) o.a4 fullShare x2 ∗ owns (c : Thread nD τ) o.a5 fullShare x3 ∗ (∃ f, o.a6.view.loc (c : Thread nD τ) ↦[o.a6.view.set]{fullShare} o.a6.view.writes (Elt F) f L4) ∗ (∃ f, o.a7.view.loc (c : Thread nD τ) ↦[o.a7.view.set]{fullShare} o.a7.view.writes (Elt F) f L5)) -∗ K ⟨⟩))
          ⊢ wp frame (wpE (defs₀ (F := F)) Variants.none c none) E (cc0__mse_kernel i o.a2 o.h2 o.a3 o.h3 o.a4 o.h4 o.a5 o.h5 o.a6 o.h6 o.a7 o.h7) K } := by
  refine ⟨?_, ?_, fun E K => ?run⟩
  case run =>
    simp only [cc0__mse_kernel_eq_skeleton]; unfold cc0__mse_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := o.h2.eq_unread hf0; obtain rfl := o.h3.eq_unread hf1; obtain rfl := o.h4.eq_unread hf2; obtain rfl := o.h5.eq_unread hf3
    obtain rfl := o.h6.eq_unread hf4; obtain rfl := o.h7.eq_unread hf5
    sl_exec (disch := first | exact hc0)
    sl_step
    iapply Hk
    isplitl [H0]
    · iexists _; isplitr; · ipureintro; exact o.h2.read_unread _
      iexact H0
    isplitl [H1]
    · iexists _; isplitr; · ipureintro; exact o.h3.read_unread _
      iexact H1
    isplitl [H2]
    · iexists _; isplitr; · ipureintro; exact o.h4.read_unread _
      iexact H2
    isplitl [H3]
    · iexists _; isplitr; · ipureintro; exact o.h5.read_unread _
      iexact H3
    isplitl [H4]; · iexists _; iexact H4
    iexists _; iexact H5

end Cert.KernelIdeal.Hand

end
-- ==== Proof.KI.R0.lean ====
import proofs.«401957_j37563783971102_3_alg».proof.Proof.KI.R0RunB

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The operands at grid point `t`. -/
abbrev ops0 (t : Fin cfg0.N) : Ops0 :=
  ⟨ms0_0 t, hs0_0 t, ms0_1 t, hs0_1 t, ms0_2 t, hs0_2 t, ms0_3 t, hs0_3 t, ms0_4 t, hs0_4 t, ms0_5 t, hs0_5 t⟩

theorem cover0_A_4 (c : Dev nD) (i : grid0.Coords) (o : Ops0) (hc0 : cond0_0 i)
    (x0 x1 x2 x3 : Vec F S1x1x512x512 .f32) (y : S1x1x1.Idx) :
    ∃ pc ∈ (run0A c i o hc0 x0 x1 x2 x3).1, y ∈ pc.1.set :=
  View.cover_of_tiledL (run0A c i o hc0 x0 x1 x2 x3).1 S1x1x1.size (by sl_kernel_rfl) y

def out0_A_4 (c : Dev nD) (i : grid0.Coords) (o : Ops0) (hc0 : cond0_0 i)
    (x0 x1 x2 x3 : Vec F S1x1x512x512 .f32) : Vec F S1x1x1 .f32 :=
  VO0_4.read (Elt F) (VO0_4.writes (Elt F) VO0_4.junk (run0A c i o hc0 x0 x1 x2 x3).1)

theorem cover0_A_5 (c : Dev nD) (i : grid0.Coords) (o : Ops0) (hc0 : cond0_0 i)
    (x0 x1 x2 x3 : Vec F S1x1x512x512 .f32) (y : S1x1x1.Idx) :
    ∃ pc ∈ (run0A c i o hc0 x0 x1 x2 x3).2.1, y ∈ pc.1.set :=
  View.cover_of_tiledL (run0A c i o hc0 x0 x1 x2 x3).2.1 S1x1x1.size (by sl_kernel_rfl) y

def out0_A_5 (c : Dev nD) (i : grid0.Coords) (o : Ops0) (hc0 : cond0_0 i)
    (x0 x1 x2 x3 : Vec F S1x1x512x512 .f32) : Vec F S1x1x1 .f32 :=
  VO0_5.read (Elt F) (VO0_5.writes (Elt F) VO0_5.junk (run0A c i o hc0 x0 x1 x2 x3).2.1)

theorem cover0_B_4 (c : Dev nD) (i : grid0.Coords) (o : Ops0) (hc0 : ¬cond0_0 i)
    (x0 x1 x2 x3 : Vec F S1x1x512x512 .f32) (xo4 xo5 : Vec F S1x1x1 .f32) (y : S1x1x1.Idx) :
    ∃ pc ∈ (run0B c i o hc0 x0 x1 x2 x3 xo4 xo5).1, y ∈ pc.1.set :=
  View.cover_of_tiledL (run0B c i o hc0 x0 x1 x2 x3 xo4 xo5).1 S1x1x1.size (by sl_kernel_rfl) y

def out0_B_4 (c : Dev nD) (i : grid0.Coords) (o : Ops0) (hc0 : ¬cond0_0 i)
    (x0 x1 x2 x3 : Vec F S1x1x512x512 .f32) (xo4 xo5 : Vec F S1x1x1 .f32) : Vec F S1x1x1 .f32 :=
  VO0_4.read (Elt F) (VO0_4.writes (Elt F) VO0_4.junk (run0B c i o hc0 x0 x1 x2 x3 xo4 xo5).1)

theorem cover0_B_5 (c : Dev nD) (i : grid0.Coords) (o : Ops0) (hc0 : ¬cond0_0 i)
    (x0 x1 x2 x3 : Vec F S1x1x512x512 .f32) (xo4 xo5 : Vec F S1x1x1 .f32) (y : S1x1x1.Idx) :
    ∃ pc ∈ (run0B c i o hc0 x0 x1 x2 x3 xo4 xo5).2.1, y ∈ pc.1.set :=
  View.cover_of_tiledL (run0B c i o hc0 x0 x1 x2 x3 xo4 xo5).2.1 S1x1x1.size (by sl_kernel_rfl) y

def out0_B_5 (c : Dev nD) (i : grid0.Coords) (o : Ops0) (hc0 : ¬cond0_0 i)
    (x0 x1 x2 x3 : Vec F S1x1x512x512 .f32) (xo4 xo5 : Vec F S1x1x1 .f32) : Vec F S1x1x1 .f32 :=
  VO0_5.read (Elt F) (VO0_5.writes (Elt F) VO0_5.junk (run0B c i o hc0 x0 x1 x2 x3 xo4 xo5).2.1)

section Region0
variable (V : (c : Dev nD) → (b : Ref sig .tc) → Buf (Elt F) ((c : Thread nD τ).loc b))

/-- The two accumulators after each point: reset at the multiples of 4, else added to what the point before left. -/
def outsAt0 (c : Dev nD) : (n : ℕ) → n < cfg0.N → Vec F S1x1x1 .f32 × Vec F S1x1x1 .f32
  | 0, hn => (out0_A_4 c (grid0.coords ⟨0, hn⟩) (ops0 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩),
      out0_A_5 c (grid0.coords ⟨0, hn⟩) (ops0 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩))
  | n + 1, hn =>
    if h0 : (n + 1) % 4 = 0 then
      (out0_A_4 c (grid0.coords ⟨n + 1, hn⟩) (ops0 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩),
        out0_A_5 c (grid0.coords ⟨n + 1, hn⟩) (ops0 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩))
    else
      (out0_B_4 c (grid0.coords ⟨n + 1, hn⟩) (ops0 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).1 (outsAt0 c n (Nat.lt_of_succ_lt hn)).2,
        out0_B_5 c (grid0.coords ⟨n + 1, hn⟩) (ops0 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).1 (outsAt0 c n (Nat.lt_of_succ_lt hn)).2)

theorem outsAt0_A (c : Dev nD) (t : Fin cfg0.N) (h0 : t.val % 4 = 0) :
    outsAt0 V c t.val t.isLt = (out0_A_4 c (grid0.coords t) (ops0 t) ((hcond0_0 t).mpr h0) (iblk0 V c 0 t) (iblk0 V c 1 t) (iblk0 V c 2 t) (iblk0 V c 3 t),
      out0_A_5 c (grid0.coords t) (ops0 t) ((hcond0_0 t).mpr h0) (iblk0 V c 0 t) (iblk0 V c 1 t) (iblk0 V c 2 t) (iblk0 V c 3 t)) := by
  obtain ⟨n, hn⟩ := t
  cases n with
  | zero => exact rfl
  | succ n => exact (dif_pos h0).trans rfl

theorem outsAt0_B (c : Dev nD) (t : Fin cfg0.N) (h0 : ¬t.val % 4 = 0) :
    outsAt0 V c t.val t.isLt = (out0_B_4 c (grid0.coords t) (ops0 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2,
      out0_B_5 c (grid0.coords t) (ops0 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

theorem before0_4_B (c : Dev nD) (t : Fin cfg0.N) (h0 : ¬t.val % 4 = 0) (d) :
    (dat0 V c).before 4 t d = (outsAt0 V c (t.val - 1) (Nat.lt_of_le_of_lt (Nat.sub_le _ _) t.isLt)).1 := by
  have hN : t.val < 8 := lt_of_lt_of_eq t.isLt (show cfg0.N = 8 from N_0)
  rw [Dat.before_out_kept _ 4 rfl t (by omega) (Bool.eq_false_iff.mpr fun h => by have := (flush0_4 _).mp h; dsimp only at this; omega)
    (fun _ => rfl) (fun _ _ => rfl)]
  dsimp only [dat0]

theorem before0_5_B (c : Dev nD) (t : Fin cfg0.N) (h0 : ¬t.val % 4 = 0) (d) :
    (dat0 V c).before 5 t d = (outsAt0 V c (t.val - 1) (Nat.lt_of_le_of_lt (Nat.sub_le _ _) t.isLt)).2 := by
  have hN : t.val < 8 := lt_of_lt_of_eq t.isLt (show cfg0.N = 8 from N_0)
  rw [Dat.before_out_kept _ 5 rfl t (by omega) (Bool.eq_false_iff.mpr fun h => by have := (flush0_5 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  have hN : t.val < 8 := lt_of_lt_of_eq t.isLt (show cfg0.N = 8 from N_0)
  by_cases h0 : t.val % 4 = 0
  · rw [outsAt0_A V c t h0]
    dsimp only
    unfold out0_A_4 out0_A_5
    iintro ⟨HΦ, Ho, ⟨%d0, H0⟩, ⟨%d1, H1⟩, ⟨%d2, H2⟩, ⟨%d3, H3⟩, ⟨%d4, H4⟩, ⟨%d5, H5⟩⟩
    iapply ((run0A c (grid0.coords t) (ops0 t) ((hcond0_0 t).mpr h0) (iblk0 V c 0 t) (iblk0 V c 1 t) (iblk0 V c 2 t) (iblk0 V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c (grid0.coords t) (ops0 t) _ _ _ _ _)
    unfold owns; iexists _; isplitr
    swap; · iexact H5
    ipureintro; exact View.read_writes_of_cover _ _ _ _ _ (cover0_A_5 c (grid0.coords t) (ops0 t) _ _ _ _ _)
  · rw [outsAt0_B V c t h0]
    dsimp only
    simp only [before0_4_B V c t h0, before0_5_B V c t h0]
    unfold out0_B_4 out0_B_5
    iintro ⟨HΦ, Ho, ⟨%d0, H0⟩, ⟨%d1, H1⟩, ⟨%d2, H2⟩, ⟨%d3, H3⟩, ⟨%d4, H4⟩, ⟨%d5, H5⟩⟩
    iapply ((run0B c (grid0.coords t) (ops0 t) (fun h => h0 ((hcond0_0 t).mp h)) (iblk0 V c 0 t) (iblk0 V c 1 t) (iblk0 V c 2 t) (iblk0 V c 3 t) _ _).2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c (grid0.coords t) (ops0 t) _ _ _ _ _ _ _)
    unfold owns; iexists _; isplitr
    swap; · iexact H5
    ipureintro; exact View.read_writes_of_cover _ _ _ _ _ (cover0_B_5 c (grid0.coords t) (ops0 t) _ _ _ _ _ _ _)

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Chain0.lean ====
import proofs.«401957_j37563783971102_3_alg».proof.Proof.Gen.KernelIdeal.Launch
import proofs.«401957_j37563783971102_3_alg».proof.Proof.Gen.KernelIdeal.Skeleton
import proofs.«401957_j37563783971102_3_alg».proof.Proof.Gen.KernelIdeal.Points
import proofs.«401957_j37563783971102_3_alg».proof.Proof.Gen.KernelIdeal.Regions
import proofs.«401957_j37563783971102_3_alg».proof.Proof.KI.R0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev V0 : (c : Dev nD) → (b : Ref sig .tc) → Buf (Elt F) ((c : Thread nD τ).loc b) := fun c b => W0 m ρ c b

def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb

abbrev V1 : (c : Dev nD) → (b : Ref sig .tc) → Buf (Elt F) ((c : Thread nD τ).loc b) := fun c b => W1 m ρ c b

theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

abbrev W2 : Dev nD → Valuation τ sig (Elt F) := fun c => StableHlo.after hostOps1 (W1 m ρ c)

abbrev V2 : (c : Dev nD) → (b : Ref sig .tc) → Buf (Elt F) ((c : Thread nD τ).loc b) := fun c b => W2 m ρ c b

theorem W2_of (c : Dev nD) (r : Ref sig .tc) (h : r ∉ (hostOps1_W : List (Ref sig .tc))) :
    W2 m ρ c (Proc.devRef .tc r) = W1 m ρ c (Proc.devRef .tc r) :=
  StableHlo.after_of_writes_sub hostOps1 _ hostOps1_writes h

theorem W1_main_v0_0 (c : Dev nD) : W1 m ρ c (Proc.devRef .tc main_v0_0) = (dat0 (V0 m ρ) c).arrAt 4 cfg0.N := W1_arr m ρ c 4
theorem W1_main_v0_1 (c : Dev nD) : W1 m ρ c (Proc.devRef .tc main_v0_1) = (dat0 (V0 m ρ) c).arrAt 5 cfg0.N := W1_arr m ρ c 5

theorem W1_in (c : Dev nD) (w : Fin cfg0.W) (hin : (cfg0.win w).isOut = false) :
    W1 m ρ c (Proc.devRef .tc (Pipeline.arrRef spec0 w)) = W0 m ρ c (Proc.devRef .tc (Pipeline.arrRef spec0 w)) :=
  (W1_arr m ρ c w).trans (((dat0 (V0 m ρ) c).arrAt_in w hin _).trans (A_eq0 (V0 m ρ) c w))

end Cert.KernelIdeal.Hand

end
-- ==== Proof.KI.C1.lean ====
import proofs.«401957_j37563783971102_3_alg».proof.Proof.Gen.KernelIdeal.Launch
import proofs.«401957_j37563783971102_3_alg».proof.Proof.Gen.KernelIdeal.Skeleton
import proofs.«401957_j37563783971102_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Blocks
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end Blocks

abbrev cond1_0 (i : grid1.Coords) : Prop := k1_cond1 i = 1#1

theorem hcond1_0 : ∀ t : Fin cfg1.N, cond1_0 (grid1.coords t) ↔ t.val % 10 = 0 :=
  (by decide +kernel : ∀ t : Fin grid1.N, cond1_0 (grid1.coords t) ↔ t.val % 10 = 0)

abbrev cond1_1 (i : grid1.Coords) : Prop := k1_cond2 i = 1#1

theorem hcond1_1 : ∀ t : Fin cfg1.N, cond1_1 (grid1.coords t) ↔ (t.val / 5) % 2 = 0 :=
  (by decide +kernel : ∀ t : Fin grid1.N, cond1_1 (grid1.coords t) ↔ (t.val / 5) % 2 = 0)

abbrev cond1_2 (i : grid1.Coords) : Prop :=
  (Scalar.cmpi .ne (Scalar.extui (Scalar.andi (Scalar.cmpi .eq (BitVec.ofNat 32 (i 1).val) 0#32) (Scalar.cmpi .eq (BitVec.ofNat 32 (i 2).val) 4#32))) 0#32) = 1#1

theorem hcond1_2 : ∀ t : Fin cfg1.N, cond1_2 (grid1.coords t) ↔ t.val % 10 = 4 :=
  (by decide +kernel : ∀ t : Fin grid1.N, cond1_2 (grid1.coords t) ↔ t.val % 10 = 4)

abbrev cond1_3 (i : grid1.Coords) : Prop := k1_cond4 i = 1#1

theorem hcond1_3 : ∀ t : Fin cfg1.N, cond1_3 (grid1.coords t) ↔ t.val % 10 = 5 :=
  (by decide +kernel : ∀ t : Fin grid1.N, cond1_3 (grid1.coords t) ↔ t.val % 10 = 5)

abbrev cond1_4 (i : grid1.Coords) : Prop := k1_cond5 i = 1#1

theorem hcond1_4 : ∀ t : Fin cfg1.N, cond1_4 (grid1.coords t) ↔ (t.val / 5) % 2 = 1 :=
  (by decide +kernel : ∀ t : Fin grid1.N, cond1_4 (grid1.coords t) ↔ (t.val / 5) % 2 = 1)

/-- The nine operands of region 1's body, each a whole buffer. -/
structure Ops1 where
  a3 : Memref sig .tc .vmem S1x2000x256 .bf16
  h3 : a3.IsWhole
  a4 : Memref sig .tc .vmem S1x1024x256 .bf16
  h4 : a4.IsWhole
  a5 : Memref sig .tc .vmem S1x1x1024 .i32
  h5 : a5.IsWhole
  a6 : Memref sig .tc .vmem S1x1x1024 .f32
  h6 : a6.IsWhole
  a7 : Memref sig .tc .vmem S1x1x1024 .f32
  h7 : a7.IsWhole
  a8 : Memref sig .tc .vmem S1x1024 .f32
  h8 : a8.IsWhole
  a9 : Memref sig .tc .vmem S1x1024 .f32
  h9 : a9.IsWhole
  a10 : Memref sig .tc .vmem S1x1024 .f32
  h10 : a10.IsWhole
  a11 : Memref sig .tc .vmem S1x1024 .f32
  h11 : a11.IsWhole

/-- The body's five control cases: each is a sign pattern of its five branch conditions. -/
abbrev IsA (i : grid1.Coords) : Prop := cond1_0 i ∧ cond1_1 i ∧ ¬cond1_2 i ∧ ¬cond1_3 i ∧ ¬cond1_4 i
abbrev IsB (i : grid1.Coords) : Prop := ¬cond1_0 i ∧ cond1_1 i ∧ ¬cond1_2 i ∧ ¬cond1_3 i ∧ ¬cond1_4 i
abbrev IsC (i : grid1.Coords) : Prop := ¬cond1_0 i ∧ cond1_1 i ∧ cond1_2 i ∧ ¬cond1_3 i ∧ ¬cond1_4 i
abbrev IsD (i : grid1.Coords) : Prop := ¬cond1_0 i ∧ ¬cond1_1 i ∧ ¬cond1_2 i ∧ cond1_3 i ∧ cond1_4 i
abbrev IsE (i : grid1.Coords) : Prop := ¬cond1_0 i ∧ ¬cond1_1 i ∧ ¬cond1_2 i ∧ ¬cond1_3 i ∧ cond1_4 i

end Cert.KernelIdeal.Hand

end
-- ==== Proof.KI.C1Frame.lean ====
import proofs.«401957_j37563783971102_3_alg».proof.Proof.KI.C1

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem liveAt1_0 : ∀ t : Fin cfg1.N, cfg1.idle 0 (grid1.coords t) = false := by decide +kernel

theorem liveAt1_1 : ∀ t : Fin cfg1.N, cfg1.idle 1 (grid1.coords t) = false := by decide +kernel

theorem liveAt1_2 : ∀ t : Fin cfg1.N, cfg1.idle 2 (grid1.coords t) = false := by decide +kernel

abbrev ms1_0 (t : Fin cfg1.N) : Memref sig .tc .vmem S1x2000x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x1024 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x1024 .f32 := win1_4.stage (cfg1.slots t 4)
abbrev hs1_4 (t : Fin cfg1.N) : (ms1_4 t).IsWhole := hstage1_4 ((cfg1.slots t 4).cast nbuf1_4)

abbrev VO1_3 : View sig .tc .vmem S1x1x1024 .f32 := (Memref.whole cc1_stg3_0 : Memref sig .tc .vmem S1x1x1024 .f32).view
abbrev VO1_4 : View sig .tc .vmem S1x1x1024 .f32 := (Memref.whole cc1_stg4_0 : Memref sig .tc .vmem S1x1x1024 .f32).view

abbrev scM1_0 : Memref sig .tc .vmem S1x1024 .f32 := Memref.whole cc1_scratch0
abbrev scM1_1 : Memref sig .tc .vmem S1x1024 .f32 := Memref.whole cc1_scratch1
abbrev scM1_2 : Memref sig .tc .vmem S1x1024 .f32 := Memref.whole cc1_scratch2
abbrev scM1_3 : Memref sig .tc .vmem S1x1024 .f32 := Memref.whole cc1_scratch3

abbrev VS1_0 : View sig .tc .vmem S1x1024 .f32 := scM1_0.view
abbrev VS1_1 : View sig .tc .vmem S1x1024 .f32 := scM1_1.view
abbrev VS1_2 : View sig .tc .vmem S1x1024 .f32 := scM1_2.view
abbrev VS1_3 : View sig .tc .vmem S1x1024 .f32 := scM1_3.view

abbrev heldSome (c : Dev nD) (b : Ref sig .tc) : sProp 𝕄 :=
  iprop(∃ f : Buf (Elt F) ((c : Thread nD τ).loc b), ((c : Thread nD τ).loc b) ↦{fullShare} f)

def rest1 (c : Dev nD) : sProp 𝕄 :=
  iprop(heldSome (F := F) c cc0_stg0_0 ∗ heldSome (F := F) c cc0_stg0_1 ∗ heldSome (F := F) c cc0_stg1_0 ∗ heldSome (F := F) c cc0_stg1_1 ∗ heldSome (F := F) c cc0_stg2_0 ∗ heldSome (F := F) c cc0_stg2_1 ∗ heldSome (F := F) c cc0_stg3_0 ∗ heldSome (F := F) c cc0_stg3_1 ∗ heldSome (F := F) c cc0_stg4_0 ∗ heldSome (F := F) c cc0_stg4_1 ∗ heldSome (F := F) c cc0_stg5_0 ∗ heldSome (F := F) c cc0_stg5_1)

theorem PhiA1_eq (c : Dev nD) :
    (Pipeline.ΦA spec1 c : sProp 𝕄)
      = iprop(rest1 (F := F) c ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ (∃ r, prngReg c r)) := by
  have hA : ∀ P Q R : sProp 𝕄, iprop((P ∗ Q) ∗ R) = iprop(P ∗ Q ∗ R) :=
    fun P Q R => Idealize.SL.BI.Entails.antisymm Idealize.SL.BI.sep_assoc Idealize.SL.BI.sep_assoc'
  unfold Pipeline.ΦA rest1; rw [scopedRest1_eq]; simp only [scM1_0, scM1_1, scM1_2, scM1_3, owns_whole, hA]; try rfl

section Blocks
variable (V : (c : Dev nD) → (b : Ref sig .tc) → Buf (Elt F) ((c : Thread nD τ).loc b))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.KernelIdeal.Hand

end
-- ==== Proof.KI.R1RunA.lean ====
import proofs.«401957_j37563783971102_3_alg».proof.Proof.KI.C1

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def runA (c : Dev nD) {i : grid1.Coords} (o : Ops1) (hc : IsA i)
    (x0 : Vec F S1x2000x256 .bf16) (x1 : Vec F S1x1024x256 .bf16) (x2 : Vec F S1x1x1024 .i32) :
    Σ' (L6 : List (View.Piece (Elt F) S1x1x1024 .f32)), Σ' (L7 : List (View.Piece (Elt F) S1x1x1024 .f32)), Σ' (L8 : List (View.Piece (Elt F) S1x1024 .f32)), { L9 : List (View.Piece (Elt F) S1x1024 .f32) //
      ∀ (xi10 : Vec F S1x1024 .f32) (xi11 : Vec F S1x1024 .f32) (E : Set ℕ) (K : PUnit → sProp 𝕄),
        iprop(owns (c : Thread nD τ) o.a3 fullShare x0 ∗ owns (c : Thread nD τ) o.a4 fullShare x1 ∗ owns (c : Thread nD τ) o.a5 fullShare x2 ∗ (∃ d, owns (c : Thread nD τ) o.a6 fullShare d) ∗ (∃ d, owns (c : Thread nD τ) o.a7 fullShare d) ∗ (∃ d, owns (c : Thread nD τ) o.a8 fullShare d) ∗ (∃ d, owns (c : Thread nD τ) o.a9 fullShare d) ∗ owns (c : Thread nD τ) o.a10 fullShare xi10 ∗ owns (c : Thread nD τ) o.a11 fullShare xi11
            ∗ (iprop(owns (c : Thread nD τ) o.a3 fullShare x0 ∗ owns (c : Thread nD τ) o.a4 fullShare x1 ∗ owns (c : Thread nD τ) o.a5 fullShare x2 ∗ (∃ f, o.a6.view.loc (c : Thread nD τ) ↦[o.a6.view.set]{fullShare} o.a6.view.writes (Elt F) f L6) ∗ (∃ f, o.a7.view.loc (c : Thread nD τ) ↦[o.a7.view.set]{fullShare} o.a7.view.writes (Elt F) f L7) ∗ (∃ f, o.a8.view.loc (c : Thread nD τ) ↦[o.a8.view.set]{fullShare} o.a8.view.writes (Elt F) f L8) ∗ (∃ f, o.a9.view.loc (c : Thread nD τ) ↦[o.a9.view.set]{fullShare} o.a9.view.writes (Elt F) f L9) ∗ owns (c : Thread nD τ) o.a10 fullShare xi10 ∗ owns (c : Thread nD τ) o.a11 fullShare xi11) -∗ K ⟨⟩))
          ⊢ wp frame (wpE (defs₀ (F := F)) Variants.none c none) E (cc1__contrastive_kernel i o.a3 o.h3 o.a4 o.h4 o.a5 o.h5 o.a6 o.h6 o.a7 o.h7 o.a8 o.h8 o.a9 o.h9 o.a10 o.h10 o.a11 o.h11) K } := by
  refine ⟨?_, ?_, ?_, ?_, fun xi10 xi11 E K => ?run⟩
  case run =>
    simp only [cc1__contrastive_kernel_eq_skeleton]; unfold cc1__contrastive_kernel_skel
    unfold owns
    iintro ⟨⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%f10, %hf10, H10⟩, ⟨%f11, %hf11, H11⟩, Hk⟩
    obtain rfl := o.h3.eq_unread hf3; obtain rfl := o.h4.eq_unread hf4; obtain rfl := o.h5.eq_unread hf5; obtain rfl := o.h10.eq_unread hf10; obtain rfl := o.h11.eq_unread hf11
    sl_exec (disch := first | sl_exact hc.1 | sl_exact hc.2.1 | sl_exact hc.2.2.1 | sl_exact hc.2.2.2.1 | sl_exact hc.2.2.2.2)
    sl_step
    iapply Hk
    isplitl [H3]
    · iexists _; isplitr; · ipureintro; exact o.h3.read_unread _
      iexact H3
    isplitl [H4]
    · iexists _; isplitr; · ipureintro; exact o.h4.read_unread _
      iexact H4
    isplitl [H5]
    · iexists _; isplitr; · ipureintro; exact o.h5.read_unread _
      iexact H5
    isplitl [H6]
    · iexists _; iexact H6
    isplitl [H7]
    · iexists _; iexact H7
    isplitl [H8]
    · iexists _; iexact H8
    isplitl [H9]
    · iexists _; iexact H9
    isplitl [H10]
    · iexists _; isplitr; · ipureintro; exact o.h10.read_unread _
      iexact H10
    iexists _; isplitr; · ipureintro; exact o.h11.read_unread _
    iexact H11

end Cert.KernelIdeal.Hand

end
-- ==== Proof.KI.R1RunB.lean ====
import proofs.«401957_j37563783971102_3_alg».proof.Proof.KI.C1

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def runB (c : Dev nD) {i : grid1.Coords} (o : Ops1) (hc : IsB i)
    (x0 : Vec F S1x2000x256 .bf16) (x1 : Vec F S1x1024x256 .bf16) (x2 : Vec F S1x1x1024 .i32) (xs8 : Vec F S1x1024 .f32) (xs9 : Vec F S1x1024 .f32) :
    Σ' (L8 : List (View.Piece (Elt F) S1x1024 .f32)), { L9 : List (View.Piece (Elt F) S1x1024 .f32) //
      ∀ (xi6 : Vec F S1x1x1024 .f32) (xi7 : Vec F S1x1x1024 .f32) (xi10 : Vec F S1x1024 .f32) (xi11 : Vec F S1x1024 .f32) (E : Set ℕ) (K : PUnit → sProp 𝕄),
        iprop(owns (c : Thread nD τ) o.a3 fullShare x0 ∗ owns (c : Thread nD τ) o.a4 fullShare x1 ∗ owns (c : Thread nD τ) o.a5 fullShare x2 ∗ owns (c : Thread nD τ) o.a6 fullShare xi6 ∗ owns (c : Thread nD τ) o.a7 fullShare xi7 ∗ owns (c : Thread nD τ) o.a8 fullShare xs8 ∗ owns (c : Thread nD τ) o.a9 fullShare xs9 ∗ owns (c : Thread nD τ) o.a10 fullShare xi10 ∗ owns (c : Thread nD τ) o.a11 fullShare xi11
            ∗ (iprop(owns (c : Thread nD τ) o.a3 fullShare x0 ∗ owns (c : Thread nD τ) o.a4 fullShare x1 ∗ owns (c : Thread nD τ) o.a5 fullShare x2 ∗ owns (c : Thread nD τ) o.a6 fullShare xi6 ∗ owns (c : Thread nD τ) o.a7 fullShare xi7 ∗ (∃ f, o.a8.view.loc (c : Thread nD τ) ↦[o.a8.view.set]{fullShare} o.a8.view.writes (Elt F) f L8) ∗ (∃ f, o.a9.view.loc (c : Thread nD τ) ↦[o.a9.view.set]{fullShare} o.a9.view.writes (Elt F) f L9) ∗ owns (c : Thread nD τ) o.a10 fullShare xi10 ∗ owns (c : Thread nD τ) o.a11 fullShare xi11) -∗ K ⟨⟩))
          ⊢ wp frame (wpE (defs₀ (F := F)) Variants.none c none) E (cc1__contrastive_kernel i o.a3 o.h3 o.a4 o.h4 o.a5 o.h5 o.a6 o.h6 o.a7 o.h7 o.a8 o.h8 o.a9 o.h9 o.a10 o.h10 o.a11 o.h11) K } := by
  refine ⟨?_, ?_, fun xi6 xi7 xi10 xi11 E K => ?run⟩
  case run =>
    simp only [cc1__contrastive_kernel_eq_skeleton]; unfold cc1__contrastive_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := o.h3.eq_unread hf3; obtain rfl := o.h4.eq_unread hf4; obtain rfl := o.h5.eq_unread hf5; obtain rfl := o.h6.eq_unread hf6; obtain rfl := o.h7.eq_unread hf7; obtain rfl := o.h8.eq_unread hf8; obtain rfl := o.h9.eq_unread hf9; obtain rfl := o.h10.eq_unread hf10; obtain rfl := o.h11.eq_unread hf11
    sl_exec (disch := first | sl_exact hc.1 | sl_exact hc.2.1 | sl_exact hc.2.2.1 | sl_exact hc.2.2.2.1 | sl_exact hc.2.2.2.2)
    sl_step
    iapply Hk
    isplitl [H3]
    · iexists _; isplitr; · ipureintro; exact o.h3.read_unread _
      iexact H3
    isplitl [H4]
    · iexists _; isplitr; · ipureintro; exact o.h4.read_unread _
      iexact H4
    isplitl [H5]
    · iexists _; isplitr; · ipureintro; exact o.h5.read_unread _
      iexact H5
    isplitl [H6]
    · iexists _; isplitr; · ipureintro; exact o.h6.read_unread _
      iexact H6
    isplitl [H7]
    · iexists _; isplitr; · ipureintro; exact o.h7.read_unread _
      iexact H7
    isplitl [H8]
    · iexists _; iexact H8
    isplitl [H9]
    · iexists _; iexact H9
    isplitl [H10]
    · iexists _; isplitr; · ipureintro; exact o.h10.read_unread _
      iexact H10
    iexists _; isplitr; · ipureintro; exact o.h11.read_unread _
    iexact H11

end Cert.KernelIdeal.Hand

end
-- ==== Proof.KI.R1RunC.lean ====
import proofs.«401957_j37563783971102_3_alg».proof.Proof.KI.C1

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def runC (c : Dev nD) {i : grid1.Coords} (o : Ops1) (hc : IsC i)
    (x0 : Vec F S1x2000x256 .bf16) (x1 : Vec F S1x1024x256 .bf16) (x2 : Vec F S1x1x1024 .i32) (xs8 : Vec F S1x1024 .f32) (xs9 : Vec F S1x1024 .f32) :
    Σ' (L8 : List (View.Piece (Elt F) S1x1024 .f32)), Σ' (L9 : List (View.Piece (Elt F) S1x1024 .f32)), Σ' (L10 : List (View.Piece (Elt F) S1x1024 .f32)), { L11 : List (View.Piece (Elt F) S1x1024 .f32) //
      ∀ (xi6 : Vec F S1x1x1024 .f32) (xi7 : Vec F S1x1x1024 .f32) (E : Set ℕ) (K : PUnit → sProp 𝕄),
        iprop(owns (c : Thread nD τ) o.a3 fullShare x0 ∗ owns (c : Thread nD τ) o.a4 fullShare x1 ∗ owns (c : Thread nD τ) o.a5 fullShare x2 ∗ owns (c : Thread nD τ) o.a6 fullShare xi6 ∗ owns (c : Thread nD τ) o.a7 fullShare xi7 ∗ owns (c : Thread nD τ) o.a8 fullShare xs8 ∗ owns (c : Thread nD τ) o.a9 fullShare xs9 ∗ (∃ d, owns (c : Thread nD τ) o.a10 fullShare d) ∗ (∃ d, owns (c : Thread nD τ) o.a11 fullShare d)
            ∗ (iprop(owns (c : Thread nD τ) o.a3 fullShare x0 ∗ owns (c : Thread nD τ) o.a4 fullShare x1 ∗ owns (c : Thread nD τ) o.a5 fullShare x2 ∗ owns (c : Thread nD τ) o.a6 fullShare xi6 ∗ owns (c : Thread nD τ) o.a7 fullShare xi7 ∗ (∃ f, o.a8.view.loc (c : Thread nD τ) ↦[o.a8.view.set]{fullShare} o.a8.view.writes (Elt F) f L8) ∗ (∃ f, o.a9.view.loc (c : Thread nD τ) ↦[o.a9.view.set]{fullShare} o.a9.view.writes (Elt F) f L9) ∗ (∃ f, o.a10.view.loc (c : Thread nD τ) ↦[o.a10.view.set]{fullShare} o.a10.view.writes (Elt F) f L10) ∗ (∃ f, o.a11.view.loc (c : Thread nD τ) ↦[o.a11.view.set]{fullShare} o.a11.view.writes (Elt F) f L11)) -∗ K ⟨⟩))
          ⊢ wp frame (wpE (defs₀ (F := F)) Variants.none c none) E (cc1__contrastive_kernel i o.a3 o.h3 o.a4 o.h4 o.a5 o.h5 o.a6 o.h6 o.a7 o.h7 o.a8 o.h8 o.a9 o.h9 o.a10 o.h10 o.a11 o.h11) K } := by
  refine ⟨?_, ?_, ?_, ?_, fun xi6 xi7 E K => ?run⟩
  case run =>
    simp only [cc1__contrastive_kernel_eq_skeleton]; unfold cc1__contrastive_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
    obtain rfl := o.h3.eq_unread hf3; obtain rfl := o.h4.eq_unread hf4; obtain rfl := o.h5.eq_unread hf5; obtain rfl := o.h6.eq_unread hf6; obtain rfl := o.h7.eq_unread hf7; obtain rfl := o.h8.eq_unread hf8; obtain rfl := o.h9.eq_unread hf9
    sl_exec (disch := first | sl_exact hc.1 | sl_exact hc.2.1 | sl_exact hc.2.2.1 | sl_exact hc.2.2.2.1 | sl_exact hc.2.2.2.2)
    sl_step
    iapply Hk
    isplitl [H3]
    · iexists _; isplitr; · ipureintro; exact o.h3.read_unread _
      iexact H3
    isplitl [H4]
    · iexists _; isplitr; · ipureintro; exact o.h4.read_unread _
      iexact H4
    isplitl [H5]
    · iexists _; isplitr; · ipureintro; exact o.h5.read_unread _
      iexact H5
    isplitl [H6]
    · iexists _; isplitr; · ipureintro; exact o.h6.read_unread _
      iexact H6
    isplitl [H7]
    · iexists _; isplitr; · ipureintro; exact o.h7.read_unread _
      iexact H7
    isplitl [H8]
    · iexists _; iexact H8
    isplitl [H9]
    · iexists _; iexact H9
    isplitl [H10]
    · iexists _; iexact H10
    iexists _; iexact H11

end Cert.KernelIdeal.Hand

end
-- ==== Proof.KI.R1RunD.lean ====
import proofs.«401957_j37563783971102_3_alg».proof.Proof.KI.C1

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def runD (c : Dev nD) {i : grid1.Coords} (o : Ops1) (hc : IsD i)
    (x0 : Vec F S1x2000x256 .bf16) (x1 : Vec F S1x1024x256 .bf16) (x2 : Vec F S1x1x1024 .i32) (xo6 : Vec F S1x1x1024 .f32) (xo7 : Vec F S1x1x1024 .f32) (xs10 : Vec F S1x1024 .f32) (xs11 : Vec F S1x1024 .f32) :
    Σ' (L6 : List (View.Piece (Elt F) S1x1x1024 .f32)), { L7 : List (View.Piece (Elt F) S1x1x1024 .f32) //
      ∀ (xi8 : Vec F S1x1024 .f32) (xi9 : Vec F S1x1024 .f32) (E : Set ℕ) (K : PUnit → sProp 𝕄),
        iprop(owns (c : Thread nD τ) o.a3 fullShare x0 ∗ owns (c : Thread nD τ) o.a4 fullShare x1 ∗ owns (c : Thread nD τ) o.a5 fullShare x2 ∗ owns (c : Thread nD τ) o.a6 fullShare xo6 ∗ owns (c : Thread nD τ) o.a7 fullShare xo7 ∗ owns (c : Thread nD τ) o.a8 fullShare xi8 ∗ owns (c : Thread nD τ) o.a9 fullShare xi9 ∗ owns (c : Thread nD τ) o.a10 fullShare xs10 ∗ owns (c : Thread nD τ) o.a11 fullShare xs11
            ∗ (iprop(owns (c : Thread nD τ) o.a3 fullShare x0 ∗ owns (c : Thread nD τ) o.a4 fullShare x1 ∗ owns (c : Thread nD τ) o.a5 fullShare x2 ∗ (∃ f, o.a6.view.loc (c : Thread nD τ) ↦[o.a6.view.set]{fullShare} o.a6.view.writes (Elt F) f L6) ∗ (∃ f, o.a7.view.loc (c : Thread nD τ) ↦[o.a7.view.set]{fullShare} o.a7.view.writes (Elt F) f L7) ∗ owns (c : Thread nD τ) o.a8 fullShare xi8 ∗ owns (c : Thread nD τ) o.a9 fullShare xi9 ∗ owns (c : Thread nD τ) o.a10 fullShare xs10 ∗ owns (c : Thread nD τ) o.a11 fullShare xs11) -∗ K ⟨⟩))
          ⊢ wp frame (wpE (defs₀ (F := F)) Variants.none c none) E (cc1__contrastive_kernel i o.a3 o.h3 o.a4 o.h4 o.a5 o.h5 o.a6 o.h6 o.a7 o.h7 o.a8 o.h8 o.a9 o.h9 o.a10 o.h10 o.a11 o.h11) K } := by
  refine ⟨?_, ?_, fun xi8 xi9 E K => ?run⟩
  case run =>
    simp only [cc1__contrastive_kernel_eq_skeleton]; unfold cc1__contrastive_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := o.h3.eq_unread hf3; obtain rfl := o.h4.eq_unread hf4; obtain rfl := o.h5.eq_unread hf5; obtain rfl := o.h6.eq_unread hf6; obtain rfl := o.h7.eq_unread hf7; obtain rfl := o.h8.eq_unread hf8; obtain rfl := o.h9.eq_unread hf9; obtain rfl := o.h10.eq_unread hf10; obtain rfl := o.h11.eq_unread hf11
    sl_exec (disch := first | sl_exact hc.1 | sl_exact hc.2.1 | sl_exact hc.2.2.1 | sl_exact hc.2.2.2.1 | sl_exact hc.2.2.2.2)
    sl_step
    iapply Hk
    isplitl [H3]
    · iexists _; isplitr; · ipureintro; exact o.h3.read_unread _
      iexact H3
    isplitl [H4]
    · iexists _; isplitr; · ipureintro; exact o.h4.read_unread _
      iexact H4
    isplitl [H5]
    · iexists _; isplitr; · ipureintro; exact o.h5.read_unread _
      iexact H5
    isplitl [H6]
    · iexists _; iexact H6
    isplitl [H7]
    · iexists _; iexact H7
    isplitl [H8]
    · iexists _; isplitr; · ipureintro; exact o.h8.read_unread _
      iexact H8
    isplitl [H9]
    · iexists _; isplitr; · ipureintro; exact o.h9.read_unread _
      iexact H9
    isplitl [H10]
    · iexists _; isplitr; · ipureintro; exact o.h10.read_unread _
      iexact H10
    iexists _; isplitr; · ipureintro; exact o.h11.read_unread _
    iexact H11

end Cert.KernelIdeal.Hand

end
-- ==== Proof.KI.R1RunE.lean ====
import proofs.«401957_j37563783971102_3_alg».proof.Proof.KI.C1

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def runE (c : Dev nD) {i : grid1.Coords} (o : Ops1) (hc : IsE i)
    (x0 : Vec F S1x2000x256 .bf16) (x1 : Vec F S1x1024x256 .bf16) (x2 : Vec F S1x1x1024 .i32) (xo6 : Vec F S1x1x1024 .f32) (xo7 : Vec F S1x1x1024 .f32) (xs10 : Vec F S1x1024 .f32) (xs11 : Vec F S1x1024 .f32) :
    Σ' (L6 : List (View.Piece (Elt F) S1x1x1024 .f32)), { L7 : List (View.Piece (Elt F) S1x1x1024 .f32) //
      ∀ (xi8 : Vec F S1x1024 .f32) (xi9 : Vec F S1x1024 .f32) (E : Set ℕ) (K : PUnit → sProp 𝕄),
        iprop(owns (c : Thread nD τ) o.a3 fullShare x0 ∗ owns (c : Thread nD τ) o.a4 fullShare x1 ∗ owns (c : Thread nD τ) o.a5 fullShare x2 ∗ owns (c : Thread nD τ) o.a6 fullShare xo6 ∗ owns (c : Thread nD τ) o.a7 fullShare xo7 ∗ owns (c : Thread nD τ) o.a8 fullShare xi8 ∗ owns (c : Thread nD τ) o.a9 fullShare xi9 ∗ owns (c : Thread nD τ) o.a10 fullShare xs10 ∗ owns (c : Thread nD τ) o.a11 fullShare xs11
            ∗ (iprop(owns (c : Thread nD τ) o.a3 fullShare x0 ∗ owns (c : Thread nD τ) o.a4 fullShare x1 ∗ owns (c : Thread nD τ) o.a5 fullShare x2 ∗ (∃ f, o.a6.view.loc (c : Thread nD τ) ↦[o.a6.view.set]{fullShare} o.a6.view.writes (Elt F) f L6) ∗ (∃ f, o.a7.view.loc (c : Thread nD τ) ↦[o.a7.view.set]{fullShare} o.a7.view.writes (Elt F) f L7) ∗ owns (c : Thread nD τ) o.a8 fullShare xi8 ∗ owns (c : Thread nD τ) o.a9 fullShare xi9 ∗ owns (c : Thread nD τ) o.a10 fullShare xs10 ∗ owns (c : Thread nD τ) o.a11 fullShare xs11) -∗ K ⟨⟩))
          ⊢ wp frame (wpE (defs₀ (F := F)) Variants.none c none) E (cc1__contrastive_kernel i o.a3 o.h3 o.a4 o.h4 o.a5 o.h5 o.a6 o.h6 o.a7 o.h7 o.a8 o.h8 o.a9 o.h9 o.a10 o.h10 o.a11 o.h11) K } := by
  refine ⟨?_, ?_, fun xi8 xi9 E K => ?run⟩
  case run =>
    simp only [cc1__contrastive_kernel_eq_skeleton]; unfold cc1__contrastive_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := o.h3.eq_unread hf3; obtain rfl := o.h4.eq_unread hf4; obtain rfl := o.h5.eq_unread hf5; obtain rfl := o.h6.eq_unread hf6; obtain rfl := o.h7.eq_unread hf7; obtain rfl := o.h8.eq_unread hf8; obtain rfl := o.h9.eq_unread hf9; obtain rfl := o.h10.eq_unread hf10; obtain rfl := o.h11.eq_unread hf11
    sl_exec (disch := first | sl_exact hc.1 | sl_exact hc.2.1 | sl_exact hc.2.2.1 | sl_exact hc.2.2.2.1 | sl_exact hc.2.2.2.2)
    sl_step
    iapply Hk
    isplitl [H3]
    · iexists _; isplitr; · ipureintro; exact o.h3.read_unread _
      iexact H3
    isplitl [H4]
    · iexists _; isplitr; · ipureintro; exact o.h4.read_unread _
      iexact H4
    isplitl [H5]
    · iexists _; isplitr; · ipureintro; exact o.h5.read_unread _
      iexact H5
    isplitl [H6]
    · iexists _; iexact H6
    isplitl [H7]
    · iexists _; iexact H7
    isplitl [H8]
    · iexists _; isplitr; · ipureintro; exact o.h8.read_unread _
      iexact H8
    isplitl [H9]
    · iexists _; isplitr; · ipureintro; exact o.h9.read_unread _
      iexact H9
    isplitl [H10]
    · iexists _; isplitr; · ipureintro; exact o.h10.read_unread _
      iexact H10
    iexists _; isplitr; · ipureintro; exact o.h11.read_unread _
    iexact H11

end Cert.KernelIdeal.Hand

end
-- ==== Proof.KI.R1Runs.lean ====
import proofs.«401957_j37563783971102_3_alg».proof.Proof.KI.R1RunA
import proofs.«401957_j37563783971102_3_alg».proof.Proof.KI.R1RunB
import proofs.«401957_j37563783971102_3_alg».proof.Proof.KI.R1RunC
import proofs.«401957_j37563783971102_3_alg».proof.Proof.KI.R1RunD
import proofs.«401957_j37563783971102_3_alg».proof.Proof.KI.R1RunE
-- ==== Proof.KI.R1.lean ====
import proofs.«401957_j37563783971102_3_alg».proof.Proof.KI.C1Frame
import proofs.«401957_j37563783971102_3_alg».proof.Proof.KI.R1Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The operands at grid point `t`. -/
abbrev ops1 (t : Fin cfg1.N) : Ops1 :=
  ⟨ms1_0 t, hs1_0 t, ms1_1 t, hs1_1 t, ms1_2 t, hs1_2 t, ms1_3 t, hs1_3 t, ms1_4 t, hs1_4 t,
    scM1_0, Memref.isWhole_whole _, scM1_1, Memref.isWhole_whole _, scM1_2, Memref.isWhole_whole _, scM1_3, Memref.isWhole_whole _⟩

theorem cover1_A_3 (c : Dev nD) {i : grid1.Coords} (o : Ops1) (hc : IsA i)
    (x0 : Vec F S1x2000x256 .bf16) (x1 : Vec F S1x1024x256 .bf16) (x2 : Vec F S1x1x1024 .i32) (y : S1x1x1024.Idx) :
    ∃ pc ∈ (runA c o hc x0 x1 x2).1, y ∈ pc.1.set :=
  View.cover_of_tiledL (runA c o hc x0 x1 x2).1 S1x1x1024.size (by sl_kernel_rfl) y

def out1_A_3 (c : Dev nD) {i : grid1.Coords} (o : Ops1) (hc : IsA i)
    (x0 : Vec F S1x2000x256 .bf16) (x1 : Vec F S1x1024x256 .bf16) (x2 : Vec F S1x1x1024 .i32) : Vec F S1x1x1024 .f32 :=
  VO1_3.read (Elt F) (VO1_3.writes (Elt F) VO1_3.junk (runA c o hc x0 x1 x2).1)

theorem cover1_A_4 (c : Dev nD) {i : grid1.Coords} (o : Ops1) (hc : IsA i)
    (x0 : Vec F S1x2000x256 .bf16) (x1 : Vec F S1x1024x256 .bf16) (x2 : Vec F S1x1x1024 .i32) (y : S1x1x1024.Idx) :
    ∃ pc ∈ (runA c o hc x0 x1 x2).2.1, y ∈ pc.1.set :=
  View.cover_of_tiledL (runA c o hc x0 x1 x2).2.1 S1x1x1024.size (by sl_kernel_rfl) y

def out1_A_4 (c : Dev nD) {i : grid1.Coords} (o : Ops1) (hc : IsA i)
    (x0 : Vec F S1x2000x256 .bf16) (x1 : Vec F S1x1024x256 .bf16) (x2 : Vec F S1x1x1024 .i32) : Vec F S1x1x1024 .f32 :=
  VO1_4.read (Elt F) (VO1_4.writes (Elt F) VO1_4.junk (runA c o hc x0 x1 x2).2.1)

theorem scover1_A_0 (c : Dev nD) {i : grid1.Coords} (o : Ops1) (hc : IsA i)
    (x0 : Vec F S1x2000x256 .bf16) (x1 : Vec F S1x1024x256 .bf16) (x2 : Vec F S1x1x1024 .i32) (y : S1x1024.Idx) :
    ∃ pc ∈ (runA c o hc x0 x1 x2).2.2.1, y ∈ pc.1.set :=
  View.cover_of_tiledL (runA c o hc x0 x1 x2).2.2.1 S1x1024.size (by sl_kernel_rfl) y

def sout1_A_0 (c : Dev nD) {i : grid1.Coords} (o : Ops1) (hc : IsA i)
    (x0 : Vec F S1x2000x256 .bf16) (x1 : Vec F S1x1024x256 .bf16) (x2 : Vec F S1x1x1024 .i32) : Vec F S1x1024 .f32 :=
  VS1_0.read (Elt F) (VS1_0.writes (Elt F) VS1_0.junk (runA c o hc x0 x1 x2).2.2.1)

theorem scover1_A_1 (c : Dev nD) {i : grid1.Coords} (o : Ops1) (hc : IsA i)
    (x0 : Vec F S1x2000x256 .bf16) (x1 : Vec F S1x1024x256 .bf16) (x2 : Vec F S1x1x1024 .i32) (y : S1x1024.Idx) :
    ∃ pc ∈ (runA c o hc x0 x1 x2).2.2.2.1, y ∈ pc.1.set :=
  View.cover_of_tiledL (runA c o hc x0 x1 x2).2.2.2.1 S1x1024.size (by sl_kernel_rfl) y

def sout1_A_1 (c : Dev nD) {i : grid1.Coords} (o : Ops1) (hc : IsA i)
    (x0 : Vec F S1x2000x256 .bf16) (x1 : Vec F S1x1024x256 .bf16) (x2 : Vec F S1x1x1024 .i32) : Vec F S1x1024 .f32 :=
  VS1_1.read (Elt F) (VS1_1.writes (Elt F) VS1_1.junk (runA c o hc x0 x1 x2).2.2.2.1)

theorem scover1_B_0 (c : Dev nD) {i : grid1.Coords} (o : Ops1) (hc : IsB i)
    (x0 : Vec F S1x2000x256 .bf16) (x1 : Vec F S1x1024x256 .bf16) (x2 : Vec F S1x1x1024 .i32) (xs8 : Vec F S1x1024 .f32) (xs9 : Vec F S1x1024 .f32) (y : S1x1024.Idx) :
    ∃ pc ∈ (runB c o hc x0 x1 x2 xs8 xs9).1, y ∈ pc.1.set :=
  View.cover_of_tiledL (runB c o hc x0 x1 x2 xs8 xs9).1 S1x1024.size (by sl_kernel_rfl) y

def sout1_B_0 (c : Dev nD) {i : grid1.Coords} (o : Ops1) (hc : IsB i)
    (x0 : Vec F S1x2000x256 .bf16) (x1 : Vec F S1x1024x256 .bf16) (x2 : Vec F S1x1x1024 .i32) (xs8 : Vec F S1x1024 .f32) (xs9 : Vec F S1x1024 .f32) : Vec F S1x1024 .f32 :=
  VS1_0.read (Elt F) (VS1_0.writes (Elt F) VS1_0.junk (runB c o hc x0 x1 x2 xs8 xs9).1)

theorem scover1_B_1 (c : Dev nD) {i : grid1.Coords} (o : Ops1) (hc : IsB i)
    (x0 : Vec F S1x2000x256 .bf16) (x1 : Vec F S1x1024x256 .bf16) (x2 : Vec F S1x1x1024 .i32) (xs8 : Vec F S1x1024 .f32) (xs9 : Vec F S1x1024 .f32) (y : S1x1024.Idx) :
    ∃ pc ∈ (runB c o hc x0 x1 x2 xs8 xs9).2.1, y ∈ pc.1.set :=
  View.cover_of_tiledL (runB c o hc x0 x1 x2 xs8 xs9).2.1 S1x1024.size (by sl_kernel_rfl) y

def sout1_B_1 (c : Dev nD) {i : grid1.Coords} (o : Ops1) (hc : IsB i)
    (x0 : Vec F S1x2000x256 .bf16) (x1 : Vec F S1x1024x256 .bf16) (x2 : Vec F S1x1x1024 .i32) (xs8 : Vec F S1x1024 .f32) (xs9 : Vec F S1x1024 .f32) : Vec F S1x1024 .f32 :=
  VS1_1.read (Elt F) (VS1_1.writes (Elt F) VS1_1.junk (runB c o hc x0 x1 x2 xs8 xs9).2.1)

theorem scover1_C_0 (c : Dev nD) {i : grid1.Coords} (o : Ops1) (hc : IsC i)
    (x0 : Vec F S1x2000x256 .bf16) (x1 : Vec F S1x1024x256 .bf16) (x2 : Vec F S1x1x1024 .i32) (xs8 : Vec F S1x1024 .f32) (xs9 : Vec F S1x1024 .f32) (y : S1x1024.Idx) :
    ∃ pc ∈ (runC c o hc x0 x1 x2 xs8 xs9).1, y ∈ pc.1.set :=
  View.cover_of_tiledL (runC c o hc x0 x1 x2 xs8 xs9).1 S1x1024.size (by sl_kernel_rfl) y

def sout1_C_0 (c : Dev nD) {i : grid1.Coords} (o : Ops1) (hc : IsC i)
    (x0 : Vec F S1x2000x256 .bf16) (x1 : Vec F S1x1024x256 .bf16) (x2 : Vec F S1x1x1024 .i32) (xs8 : Vec F S1x1024 .f32) (xs9 : Vec F S1x1024 .f32) : Vec F S1x1024 .f32 :=
  VS1_0.read (Elt F) (VS1_0.writes (Elt F) VS1_0.junk (runC c o hc x0 x1 x2 xs8 xs9).1)

theorem scover1_C_1 (c : Dev nD) {i : grid1.Coords} (o : Ops1) (hc : IsC i)
    (x0 : Vec F S1x2000x256 .bf16) (x1 : Vec F S1x1024x256 .bf16) (x2 : Vec F S1x1x1024 .i32) (xs8 : Vec F S1x1024 .f32) (xs9 : Vec F S1x1024 .f32) (y : S1x1024.Idx) :
    ∃ pc ∈ (runC c o hc x0 x1 x2 xs8 xs9).2.1, y ∈ pc.1.set :=
  View.cover_of_tiledL (runC c o hc x0 x1 x2 xs8 xs9).2.1 S1x1024.size (by sl_kernel_rfl) y

def sout1_C_1 (c : Dev nD) {i : grid1.Coords} (o : Ops1) (hc : IsC i)
    (x0 : Vec F S1x2000x256 .bf16) (x1 : Vec F S1x1024x256 .bf16) (x2 : Vec F S1x1x1024 .i32) (xs8 : Vec F S1x1024 .f32) (xs9 : Vec F S1x1024 .f32) : Vec F S1x1024 .f32 :=
  VS1_1.read (Elt F) (VS1_1.writes (Elt F) VS1_1.junk (runC c o hc x0 x1 x2 xs8 xs9).2.1)

theorem scover1_C_2 (c : Dev nD) {i : grid1.Coords} (o : Ops1) (hc : IsC i)
    (x0 : Vec F S1x2000x256 .bf16) (x1 : Vec F S1x1024x256 .bf16) (x2 : Vec F S1x1x1024 .i32) (xs8 : Vec F S1x1024 .f32) (xs9 : Vec F S1x1024 .f32) (y : S1x1024.Idx) :
    ∃ pc ∈ (runC c o hc x0 x1 x2 xs8 xs9).2.2.1, y ∈ pc.1.set :=
  View.cover_of_tiledL (runC c o hc x0 x1 x2 xs8 xs9).2.2.1 S1x1024.size (by sl_kernel_rfl) y

def sout1_C_2 (c : Dev nD) {i : grid1.Coords} (o : Ops1) (hc : IsC i)
    (x0 : Vec F S1x2000x256 .bf16) (x1 : Vec F S1x1024x256 .bf16) (x2 : Vec F S1x1x1024 .i32) (xs8 : Vec F S1x1024 .f32) (xs9 : Vec F S1x1024 .f32) : Vec F S1x1024 .f32 :=
  VS1_2.read (Elt F) (VS1_2.writes (Elt F) VS1_2.junk (runC c o hc x0 x1 x2 xs8 xs9).2.2.1)

theorem scover1_C_3 (c : Dev nD) {i : grid1.Coords} (o : Ops1) (hc : IsC i)
    (x0 : Vec F S1x2000x256 .bf16) (x1 : Vec F S1x1024x256 .bf16) (x2 : Vec F S1x1x1024 .i32) (xs8 : Vec F S1x1024 .f32) (xs9 : Vec F S1x1024 .f32) (y : S1x1024.Idx) :
    ∃ pc ∈ (runC c o hc x0 x1 x2 xs8 xs9).2.2.2.1, y ∈ pc.1.set :=
  View.cover_of_tiledL (runC c o hc x0 x1 x2 xs8 xs9).2.2.2.1 S1x1024.size (by sl_kernel_rfl) y

def sout1_C_3 (c : Dev nD) {i : grid1.Coords} (o : Ops1) (hc : IsC i)
    (x0 : Vec F S1x2000x256 .bf16) (x1 : Vec F S1x1024x256 .bf16) (x2 : Vec F S1x1x1024 .i32) (xs8 : Vec F S1x1024 .f32) (xs9 : Vec F S1x1024 .f32) : Vec F S1x1024 .f32 :=
  VS1_3.read (Elt F) (VS1_3.writes (Elt F) VS1_3.junk (runC c o hc x0 x1 x2 xs8 xs9).2.2.2.1)

theorem cover1_D_3 (c : Dev nD) {i : grid1.Coords} (o : Ops1) (hc : IsD i)
    (x0 : Vec F S1x2000x256 .bf16) (x1 : Vec F S1x1024x256 .bf16) (x2 : Vec F S1x1x1024 .i32) (xo6 : Vec F S1x1x1024 .f32) (xo7 : Vec F S1x1x1024 .f32) (xs10 : Vec F S1x1024 .f32) (xs11 : Vec F S1x1024 .f32) (y : S1x1x1024.Idx) :
    ∃ pc ∈ (runD c o hc x0 x1 x2 xo6 xo7 xs10 xs11).1, y ∈ pc.1.set :=
  View.cover_of_tiledL (runD c o hc x0 x1 x2 xo6 xo7 xs10 xs11).1 S1x1x1024.size (by sl_kernel_rfl) y

def out1_D_3 (c : Dev nD) {i : grid1.Coords} (o : Ops1) (hc : IsD i)
    (x0 : Vec F S1x2000x256 .bf16) (x1 : Vec F S1x1024x256 .bf16) (x2 : Vec F S1x1x1024 .i32) (xo6 : Vec F S1x1x1024 .f32) (xo7 : Vec F S1x1x1024 .f32) (xs10 : Vec F S1x1024 .f32) (xs11 : Vec F S1x1024 .f32) : Vec F S1x1x1024 .f32 :=
  VO1_3.read (Elt F) (VO1_3.writes (Elt F) VO1_3.junk (runD c o hc x0 x1 x2 xo6 xo7 xs10 xs11).1)

theorem cover1_D_4 (c : Dev nD) {i : grid1.Coords} (o : Ops1) (hc : IsD i)
    (x0 : Vec F S1x2000x256 .bf16) (x1 : Vec F S1x1024x256 .bf16) (x2 : Vec F S1x1x1024 .i32) (xo6 : Vec F S1x1x1024 .f32) (xo7 : Vec F S1x1x1024 .f32) (xs10 : Vec F S1x1024 .f32) (xs11 : Vec F S1x1024 .f32) (y : S1x1x1024.Idx) :
    ∃ pc ∈ (runD c o hc x0 x1 x2 xo6 xo7 xs10 xs11).2.1, y ∈ pc.1.set :=
  View.cover_of_tiledL (runD c o hc x0 x1 x2 xo6 xo7 xs10 xs11).2.1 S1x1x1024.size (by sl_kernel_rfl) y

def out1_D_4 (c : Dev nD) {i : grid1.Coords} (o : Ops1) (hc : IsD i)
    (x0 : Vec F S1x2000x256 .bf16) (x1 : Vec F S1x1024x256 .bf16) (x2 : Vec F S1x1x1024 .i32) (xo6 : Vec F S1x1x1024 .f32) (xo7 : Vec F S1x1x1024 .f32) (xs10 : Vec F S1x1024 .f32) (xs11 : Vec F S1x1024 .f32) : Vec F S1x1x1024 .f32 :=
  VO1_4.read (Elt F) (VO1_4.writes (Elt F) VO1_4.junk (runD c o hc x0 x1 x2 xo6 xo7 xs10 xs11).2.1)

theorem cover1_E_3 (c : Dev nD) {i : grid1.Coords} (o : Ops1) (hc : IsE i)
    (x0 : Vec F S1x2000x256 .bf16) (x1 : Vec F S1x1024x256 .bf16) (x2 : Vec F S1x1x1024 .i32) (xo6 : Vec F S1x1x1024 .f32) (xo7 : Vec F S1x1x1024 .f32) (xs10 : Vec F S1x1024 .f32) (xs11 : Vec F S1x1024 .f32) (y : S1x1x1024.Idx) :
    ∃ pc ∈ (runE c o hc x0 x1 x2 xo6 xo7 xs10 xs11).1, y ∈ pc.1.set :=
  View.cover_of_tiledL (runE c o hc x0 x1 x2 xo6 xo7 xs10 xs11).1 S1x1x1024.size (by sl_kernel_rfl) y

def out1_E_3 (c : Dev nD) {i : grid1.Coords} (o : Ops1) (hc : IsE i)
    (x0 : Vec F S1x2000x256 .bf16) (x1 : Vec F S1x1024x256 .bf16) (x2 : Vec F S1x1x1024 .i32) (xo6 : Vec F S1x1x1024 .f32) (xo7 : Vec F S1x1x1024 .f32) (xs10 : Vec F S1x1024 .f32) (xs11 : Vec F S1x1024 .f32) : Vec F S1x1x1024 .f32 :=
  VO1_3.read (Elt F) (VO1_3.writes (Elt F) VO1_3.junk (runE c o hc x0 x1 x2 xo6 xo7 xs10 xs11).1)

theorem cover1_E_4 (c : Dev nD) {i : grid1.Coords} (o : Ops1) (hc : IsE i)
    (x0 : Vec F S1x2000x256 .bf16) (x1 : Vec F S1x1024x256 .bf16) (x2 : Vec F S1x1x1024 .i32) (xo6 : Vec F S1x1x1024 .f32) (xo7 : Vec F S1x1x1024 .f32) (xs10 : Vec F S1x1024 .f32) (xs11 : Vec F S1x1024 .f32) (y : S1x1x1024.Idx) :
    ∃ pc ∈ (runE c o hc x0 x1 x2 xo6 xo7 xs10 xs11).2.1, y ∈ pc.1.set :=
  View.cover_of_tiledL (runE c o hc x0 x1 x2 xo6 xo7 xs10 xs11).2.1 S1x1x1024.size (by sl_kernel_rfl) y

def out1_E_4 (c : Dev nD) {i : grid1.Coords} (o : Ops1) (hc : IsE i)
    (x0 : Vec F S1x2000x256 .bf16) (x1 : Vec F S1x1024x256 .bf16) (x2 : Vec F S1x1x1024 .i32) (xo6 : Vec F S1x1x1024 .f32) (xo7 : Vec F S1x1x1024 .f32) (xs10 : Vec F S1x1024 .f32) (xs11 : Vec F S1x1024 .f32) : Vec F S1x1x1024 .f32 :=
  VO1_4.read (Elt F) (VO1_4.writes (Elt F) VO1_4.junk (runE c o hc x0 x1 x2 xo6 xo7 xs10 xs11).2.1)

theorem hcA (t : Fin cfg1.N) (h : t.val % 10 = 0) :
    IsA (grid1.coords t) :=
  ⟨(hcond1_0 t).mpr (by omega),
    (hcond1_1 t).mpr (by omega),
    fun h' => by have := (hcond1_2 t).mp h'; omega,
    fun h' => by have := (hcond1_3 t).mp h'; omega,
    fun h' => by have := (hcond1_4 t).mp h'; omega⟩

theorem hcB (t : Fin cfg1.N) (h : 1 ≤ t.val % 10 ∧ t.val % 10 ≤ 3) :
    IsB (grid1.coords t) :=
  ⟨fun h' => by have := (hcond1_0 t).mp h'; omega,
    (hcond1_1 t).mpr (by omega),
    fun h' => by have := (hcond1_2 t).mp h'; omega,
    fun h' => by have := (hcond1_3 t).mp h'; omega,
    fun h' => by have := (hcond1_4 t).mp h'; omega⟩

theorem hcC (t : Fin cfg1.N) (h : t.val % 10 = 4) :
    IsC (grid1.coords t) :=
  ⟨fun h' => by have := (hcond1_0 t).mp h'; omega,
    (hcond1_1 t).mpr (by omega),
    (hcond1_2 t).mpr (by omega),
    fun h' => by have := (hcond1_3 t).mp h'; omega,
    fun h' => by have := (hcond1_4 t).mp h'; omega⟩

theorem hcD (t : Fin cfg1.N) (h : t.val % 10 = 5) :
    IsD (grid1.coords t) :=
  ⟨fun h' => by have := (hcond1_0 t).mp h'; omega,
    fun h' => by have := (hcond1_1 t).mp h'; omega,
    fun h' => by have := (hcond1_2 t).mp h'; omega,
    (hcond1_3 t).mpr (by omega),
    (hcond1_4 t).mpr (by omega)⟩

theorem hcE (t : Fin cfg1.N) (h : 6 ≤ t.val % 10) :
    IsE (grid1.coords t) :=
  ⟨fun h' => by have := (hcond1_0 t).mp h'; omega,
    fun h' => by have := (hcond1_1 t).mp h'; omega,
    fun h' => by have := (hcond1_2 t).mp h'; omega,
    fun h' => by have := (hcond1_3 t).mp h'; omega,
    (hcond1_4 t).mpr (by omega)⟩

abbrev Outs1 (F : FTy → Type) : Type :=
  Vec F S1x1x1024 .f32 × Vec F S1x1x1024 .f32 × Vec F S1x1024 .f32 × Vec F S1x1024 .f32 × Vec F S1x1024 .f32 × Vec F S1x1024 .f32

def junk1 : Outs1 F :=
  (VO1_3.read (Elt F) VO1_3.junk, VO1_4.read (Elt F) VO1_4.junk, VS1_0.read (Elt F) VS1_0.junk,
    VS1_1.read (Elt F) VS1_1.junk, VS1_2.read (Elt F) VS1_2.junk, VS1_3.read (Elt F) VS1_3.junk)

section Data
variable (V : (c : Dev nD) → (b : Ref sig .tc) → Buf (Elt F) ((c : Thread nD τ).loc b))

/-- What each case leaves after point `t`, over what the point before left (`prev`). -/
def stepA (c : Dev nD) (t : Fin cfg1.N) (h : t.val % 10 = 0) (prev : Outs1 F) : Outs1 F :=
  (out1_A_3 c (ops1 t) (hcA t h) (iblk1 V c 0 t) (iblk1 V c 1 t) (iblk1 V c 2 t), out1_A_4 c (ops1 t) (hcA t h) (iblk1 V c 0 t) (iblk1 V c 1 t) (iblk1 V c 2 t),
    sout1_A_0 c (ops1 t) (hcA t h) (iblk1 V c 0 t) (iblk1 V c 1 t) (iblk1 V c 2 t), sout1_A_1 c (ops1 t) (hcA t h) (iblk1 V c 0 t) (iblk1 V c 1 t) (iblk1 V c 2 t),
    prev.2.2.2.2.1, prev.2.2.2.2.2)
def stepB (c : Dev nD) (t : Fin cfg1.N) (h : 1 ≤ t.val % 10 ∧ t.val % 10 ≤ 3) (prev : Outs1 F) : Outs1 F :=
  (prev.1, prev.2.1,
    sout1_B_0 c (ops1 t) (hcB t h) (iblk1 V c 0 t) (iblk1 V c 1 t) (iblk1 V c 2 t) prev.2.2.1 prev.2.2.2.1, sout1_B_1 c (ops1 t) (hcB t h) (iblk1 V c 0 t) (iblk1 V c 1 t) (iblk1 V c 2 t) prev.2.2.1 prev.2.2.2.1,
    prev.2.2.2.2.1, prev.2.2.2.2.2)
def stepC (c : Dev nD) (t : Fin cfg1.N) (h : t.val % 10 = 4) (prev : Outs1 F) : Outs1 F :=
  (prev.1, prev.2.1,
    sout1_C_0 c (ops1 t) (hcC t h) (iblk1 V c 0 t) (iblk1 V c 1 t) (iblk1 V c 2 t) prev.2.2.1 prev.2.2.2.1, sout1_C_1 c (ops1 t) (hcC t h) (iblk1 V c 0 t) (iblk1 V c 1 t) (iblk1 V c 2 t) prev.2.2.1 prev.2.2.2.1,
    sout1_C_2 c (ops1 t) (hcC t h) (iblk1 V c 0 t) (iblk1 V c 1 t) (iblk1 V c 2 t) prev.2.2.1 prev.2.2.2.1, sout1_C_3 c (ops1 t) (hcC t h) (iblk1 V c 0 t) (iblk1 V c 1 t) (iblk1 V c 2 t) prev.2.2.1 prev.2.2.2.1)
def stepD (c : Dev nD) (t : Fin cfg1.N) (h : t.val % 10 = 5) (prev : Outs1 F) : Outs1 F :=
  (out1_D_3 c (ops1 t) (hcD t h) (iblk1 V c 0 t) (iblk1 V c 1 t) (iblk1 V c 2 t) prev.1 prev.2.1 prev.2.2.2.2.1 prev.2.2.2.2.2,
    out1_D_4 c (ops1 t) (hcD t h) (iblk1 V c 0 t) (iblk1 V c 1 t) (iblk1 V c 2 t) prev.1 prev.2.1 prev.2.2.2.2.1 prev.2.2.2.2.2,
    prev.2.2.1, prev.2.2.2.1, prev.2.2.2.2.1, prev.2.2.2.2.2)
def stepE (c : Dev nD) (t : Fin cfg1.N) (h : 6 ≤ t.val % 10) (prev : Outs1 F) : Outs1 F :=
  (out1_E_3 c (ops1 t) (hcE t h) (iblk1 V c 0 t) (iblk1 V c 1 t) (iblk1 V c 2 t) prev.1 prev.2.1 prev.2.2.2.2.1 prev.2.2.2.2.2,
    out1_E_4 c (ops1 t) (hcE t h) (iblk1 V c 0 t) (iblk1 V c 1 t) (iblk1 V c 2 t) prev.1 prev.2.1 prev.2.2.2.2.1 prev.2.2.2.2.2,
    prev.2.2.1, prev.2.2.2.1, prev.2.2.2.2.1, prev.2.2.2.2.2)

/-- One grid point: the case the point index selects modulo 10. -/
def step1 (c : Dev nD) (t : Fin cfg1.N) (prev : Outs1 F) : Outs1 F :=
  if hA : t.val % 10 = 0 then stepA V c t hA prev
  else if hB : t.val % 10 ≤ 3 then stepB V c t ⟨Nat.pos_of_ne_zero hA, hB⟩ prev
  else if hC : t.val % 10 = 4 then stepC V c t hC prev
  else if hD : t.val % 10 = 5 then stepD V c t hD prev
  else stepE V c t (by omega) prev

theorem step1_A (c : Dev nD) (t : Fin cfg1.N) (prev : Outs1 F) (h : t.val % 10 = 0) : step1 V c t prev = stepA V c t h prev := by
  unfold step1; exact dif_pos h
theorem step1_B (c : Dev nD) (t : Fin cfg1.N) (prev : Outs1 F) (h : 1 ≤ t.val % 10 ∧ t.val % 10 ≤ 3) : step1 V c t prev = stepB V c t h prev := by
  unfold step1; exact (dif_neg (by omega)).trans (dif_pos h.2)
theorem step1_C (c : Dev nD) (t : Fin cfg1.N) (prev : Outs1 F) (h : t.val % 10 = 4) : step1 V c t prev = stepC V c t h prev := by
  unfold step1; exact (dif_neg (by omega)).trans ((dif_neg (by omega)).trans (dif_pos h))
theorem step1_D (c : Dev nD) (t : Fin cfg1.N) (prev : Outs1 F) (h : t.val % 10 = 5) : step1 V c t prev = stepD V c t h prev := by
  unfold step1; exact (dif_neg (by omega)).trans ((dif_neg (by omega)).trans ((dif_neg (by omega)).trans (dif_pos h)))
theorem step1_E (c : Dev nD) (t : Fin cfg1.N) (prev : Outs1 F) (h : 6 ≤ t.val % 10) : step1 V c t prev = stepE V c t h prev := by
  unfold step1; exact (dif_neg (by omega)).trans ((dif_neg (by omega)).trans ((dif_neg (by omega)).trans (dif_neg (by omega))))

def outsAt1 (c : Dev nD) : (n : ℕ) → n < cfg1.N → Outs1 F
  | 0, hn => step1 V c ⟨0, hn⟩ junk1
  | n + 1, hn => step1 V c ⟨n + 1, hn⟩ (outsAt1 c n (Nat.lt_of_succ_lt hn))

def prev1 (c : Dev nD) (t : Fin cfg1.N) : Outs1 F :=
  match t with
  | ⟨0, _⟩ => junk1
  | ⟨n + 1, hn⟩ => outsAt1 V c n (Nat.lt_of_succ_lt hn)

theorem outsAt1_eq (c : Dev nD) (t : Fin cfg1.N) : outsAt1 V c t.val t.isLt = step1 V c t (prev1 V c t) := by
  obtain ⟨n, hn⟩ := t
  cases n with
  | zero => rfl
  | succ n => rfl

theorem prev1_pos (c : Dev nD) (t : Fin cfg1.N) (h : t.val ≠ 0) :
    prev1 V c t = outsAt1 V c (t.val - 1) (Nat.lt_of_le_of_lt (Nat.sub_le _ _) t.isLt) := by
  obtain ⟨n, hn⟩ := t
  cases n with
  | zero => exact absurd rfl h
  | succ n => rfl

theorem outsAt1_A (c : Dev nD) (t : Fin cfg1.N) (h : t.val % 10 = 0) : outsAt1 V c t.val t.isLt = stepA V c t h (prev1 V c t) :=
  (outsAt1_eq V c t).trans (step1_A V c t _ h)
theorem outsAt1_B (c : Dev nD) (t : Fin cfg1.N) (h : 1 ≤ t.val % 10 ∧ t.val % 10 ≤ 3) : outsAt1 V c t.val t.isLt = stepB V c t h (prev1 V c t) :=
  (outsAt1_eq V c t).trans (step1_B V c t _ h)
theorem outsAt1_C (c : Dev nD) (t : Fin cfg1.N) (h : t.val % 10 = 4) : outsAt1 V c t.val t.isLt = stepC V c t h (prev1 V c t) :=
  (outsAt1_eq V c t).trans (step1_C V c t _ h)
theorem outsAt1_D (c : Dev nD) (t : Fin cfg1.N) (h : t.val % 10 = 5) : outsAt1 V c t.val t.isLt = stepD V c t h (prev1 V c t) :=
  (outsAt1_eq V c t).trans (step1_D V c t _ h)
theorem outsAt1_E (c : Dev nD) (t : Fin cfg1.N) (h : 6 ≤ t.val % 10) : outsAt1 V c t.val t.isLt = stepE V c t h (prev1 V c t) :=
  (outsAt1_eq V c t).trans (step1_E V c t _ h)

/-- The invariant between points: the carried buffers hold what the point before left (the folded pair only once it has been stored). -/
def PhiS1 (c : Dev nD) : (n : ℕ) → n ≤ cfg1.N → sProp 𝕄
  | 0, _ => Pipeline.ΦA spec1 c
  | n + 1, hn =>
    if n < 4 then
      iprop(rest1 (F := F) c ∗ owns (c : Thread nD τ) scM1_0 fullShare (outsAt1 V c n hn).2.2.1 ∗ owns (c : Thread nD τ) scM1_1 fullShare (outsAt1 V c n hn).2.2.2.1 ∗ (∃ d, owns (c : Thread nD τ) scM1_2 fullShare d) ∗ (∃ d, owns (c : Thread nD τ) scM1_3 fullShare d) ∗ (∃ r, prngReg c r))
    else
      iprop(rest1 (F := F) c ∗ owns (c : Thread nD τ) scM1_0 fullShare (outsAt1 V c n hn).2.2.1 ∗ owns (c : Thread nD τ) scM1_1 fullShare (outsAt1 V c n hn).2.2.2.1 ∗ owns (c : Thread nD τ) scM1_2 fullShare (outsAt1 V c n hn).2.2.2.2.1 ∗ owns (c : Thread nD τ) scM1_3 fullShare (outsAt1 V c n hn).2.2.2.2.2 ∗ (∃ r, prngReg c r))

theorem PhiS1_zero (c : Dev nD) (n : ℕ) (h : n ≤ cfg1.N) (hz : n = 0) : PhiS1 V c n h = Pipeline.ΦA spec1 c := by
  subst hz; rfl

theorem PhiS1_succ_early (c : Dev nD) (n : ℕ) (hn : n < cfg1.N) (h4 : n < 4) :
    PhiS1 V c (n + 1) hn = iprop(rest1 (F := F) c ∗ owns (c : Thread nD τ) scM1_0 fullShare (outsAt1 V c n hn).2.2.1 ∗ owns (c : Thread nD τ) scM1_1 fullShare (outsAt1 V c n hn).2.2.2.1 ∗ (∃ d, owns (c : Thread nD τ) scM1_2 fullShare d) ∗ (∃ d, owns (c : Thread nD τ) scM1_3 fullShare d) ∗ (∃ r, prngReg c r)) := if_pos h4

theorem PhiS1_succ_late (c : Dev nD) (n : ℕ) (hn : n < cfg1.N) (h4 : ¬n < 4) :
    PhiS1 V c (n + 1) hn = iprop(rest1 (F := F) c ∗ owns (c : Thread nD τ) scM1_0 fullShare (outsAt1 V c n hn).2.2.1 ∗ owns (c : Thread nD τ) scM1_1 fullShare (outsAt1 V c n hn).2.2.2.1 ∗ owns (c : Thread nD τ) scM1_2 fullShare (outsAt1 V c n hn).2.2.2.2.1 ∗ owns (c : Thread nD τ) scM1_3 fullShare (outsAt1 V c n hn).2.2.2.2.2 ∗ (∃ r, prngReg c r)) := if_neg h4

theorem PhiS1_pos_early (c : Dev nD) (n : ℕ) (h : n ≤ cfg1.N) (hz : n ≠ 0) (h4 : n ≤ 4) :
    PhiS1 V c n h = iprop(rest1 (F := F) c ∗ owns (c : Thread nD τ) scM1_0 fullShare (outsAt1 V c (n - 1) (by omega)).2.2.1 ∗ owns (c : Thread nD τ) scM1_1 fullShare (outsAt1 V c (n - 1) (by omega)).2.2.2.1 ∗ (∃ d, owns (c : Thread nD τ) scM1_2 fullShare d) ∗ (∃ d, owns (c : Thread nD τ) scM1_3 fullShare d) ∗ (∃ r, prngReg c r)) := by
  cases n with
  | zero => exact absurd rfl hz
  | succ n => exact if_pos (by omega)

theorem PhiS1_pos_late (c : Dev nD) (n : ℕ) (h : n ≤ cfg1.N) (h5 : 5 ≤ n) :
    PhiS1 V c n h = iprop(rest1 (F := F) c ∗ owns (c : Thread nD τ) scM1_0 fullShare (outsAt1 V c (n - 1) (by omega)).2.2.1 ∗ owns (c : Thread nD τ) scM1_1 fullShare (outsAt1 V c (n - 1) (by omega)).2.2.2.1 ∗ owns (c : Thread nD τ) scM1_2 fullShare (outsAt1 V c (n - 1) (by omega)).2.2.2.2.1 ∗ owns (c : Thread nD τ) scM1_3 fullShare (outsAt1 V c (n - 1) (by omega)).2.2.2.2.2 ∗ (∃ r, prngReg c r)) := by
  cases n with
  | zero => exact absurd h5 (by omega)
  | succ n => exact if_neg (by omega)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

theorem idle1_3_iff : ∀ t : Fin cfg1.N, cfg1.idle 3 (grid1.coords t) = true ↔ (1 ≤ t.val % 10 ∧ t.val % 10 ≤ 4) :=
  (by decide +kernel : ∀ t : Fin grid1.N, idle1 3 (grid1.coords t) = true ↔ (1 ≤ t.val % 10 ∧ t.val % 10 ≤ 4))
theorem idle1_4_iff : ∀ t : Fin cfg1.N, cfg1.idle 4 (grid1.coords t) = true ↔ (1 ≤ t.val % 10 ∧ t.val % 10 ≤ 4) :=
  (by decide +kernel : ∀ t : Fin grid1.N, idle1 4 (grid1.coords t) = true ↔ (1 ≤ t.val % 10 ∧ t.val % 10 ≤ 4))

theorem idleAt1_3 (t : Fin cfg1.N) (h : 1 ≤ t.val % 10 ∧ t.val % 10 ≤ 4) : cfg1.idle 3 (grid1.coords t) = true := (idle1_3_iff t).mpr h
theorem idleAt1_4 (t : Fin cfg1.N) (h : 1 ≤ t.val % 10 ∧ t.val % 10 ≤ 4) : cfg1.idle 4 (grid1.coords t) = true := (idle1_4_iff t).mpr h
theorem liveAt1_3 (t : Fin cfg1.N) (h : ¬(1 ≤ t.val % 10 ∧ t.val % 10 ≤ 4)) : cfg1.idle 3 (grid1.coords t) = false :=
  Bool.eq_false_iff.mpr fun h' => h ((idle1_3_iff t).mp h')
theorem liveAt1_4 (t : Fin cfg1.N) (h : ¬(1 ≤ t.val % 10 ∧ t.val % 10 ≤ 4)) : cfg1.idle 4 (grid1.coords t) = false :=
  Bool.eq_false_iff.mpr fun h' => h ((idle1_4_iff t).mp h')
theorem noFlush1_3 (t : Fin cfg1.N) (h : t.val % 10 ≠ 9) : (cfg1.win 3).flush t = false :=
  Bool.eq_false_iff.mpr fun h' => h ((flush1_3 t).mp h')
theorem noFlush1_4 (t : Fin cfg1.N) (h : t.val % 10 ≠ 9) : (cfg1.win 4).flush t = false :=
  Bool.eq_false_iff.mpr fun h' => h ((flush1_4 t).mp h')

section LookBack
variable {c : Dev nD} (dat : Dat τ (Elt F) Unit ℕ (UR sig nD τ) ℕ cfg1 c)

theorem before1_of_idle (w : Fin cfg1.W) (hw : (cfg1.win w).isOut = true) (t : Fin cfg1.N) (ht : t.val ≠ 0)
    (hfl : (cfg1.win w).flush ⟨t.val - 1, Nat.lt_of_le_of_lt (Nat.sub_le _ _) t.isLt⟩ = false)
    (hi : cfg1.idle w (cfg1.grid.coords ⟨t.val - 1, Nat.lt_of_le_of_lt (Nat.sub_le _ _) t.isLt⟩) = true) (d) :
    dat.before w t d = dat.before w ⟨t.val - 1, Nat.lt_of_le_of_lt (Nat.sub_le _ _) t.isLt⟩ d := by
  rw [dat.before_of_pos w t ht ((cfg1.win w).fetch_out hw t), hfl, if_neg Bool.false_ne_true]
  unfold Dat.left; rw [hi]

theorem before1_of_live (w : Fin cfg1.W) (hw : (cfg1.win w).isOut = true) (t : Fin cfg1.N) (ht : t.val ≠ 0)
    (hfl : (cfg1.win w).flush ⟨t.val - 1, Nat.lt_of_le_of_lt (Nat.sub_le _ _) t.isLt⟩ = false)
    (hi : cfg1.idle w (cfg1.grid.coords ⟨t.val - 1, Nat.lt_of_le_of_lt (Nat.sub_le _ _) t.isLt⟩) = false)
    (hclip : ∀ (i : cfg1.grid.Coords) a, (cfg1.win w).clip i a = none) (d) :
    dat.before w t d = dat.after w ⟨t.val - 1, Nat.lt_of_le_of_lt (Nat.sub_le _ _) t.isLt⟩ := by
  rw [dat.before_of_pos w t ht ((cfg1.win w).fetch_out hw t), hfl, if_neg Bool.false_ne_true]
  unfold Dat.left; rw [hi]
  unfold Dat.kept
  rw [Pipeline.fill_of_clip_none (cfg := cfg1) w _ (hclip _) d (dat.after w _), Window.fill_cut]

end LookBack

theorem carry1_3 (c : Dev nD) (t : Fin cfg1.N) (h : 1 ≤ t.val % 10 ∧ t.val % 10 ≤ 4) :
    (outsAt1 V c t.val t.isLt).1 = (outsAt1 V c (t.val - 1) (Nat.lt_of_le_of_lt (Nat.sub_le _ _) t.isLt)).1 := by
  have hz : t.val ≠ 0 := fun h0 => by rw [h0] at h; omega
  by_cases h3 : t.val % 10 ≤ 3
  · rw [outsAt1_B V c t ⟨h.1, h3⟩, stepB, prev1_pos V c t hz]
  · rw [outsAt1_C V c t (by omega), stepC, prev1_pos V c t hz]

theorem before1_3_aux (c : Dev nD) : ∀ (n : ℕ) (hn : n < cfg1.N), n % 10 ≠ 0 → ∀ d,
    (dat1 V c).before 3 ⟨n, hn⟩ d = (outsAt1 V c (n - 1) (Nat.lt_of_le_of_lt (Nat.sub_le _ _) hn)).1
  | 0, _, h, _ => absurd (Nat.zero_mod 10) h
  | n + 1, hn, h, d => by
    have hN : n + 1 < 20 := lt_of_lt_of_eq hn (show cfg1.N = 20 from N_1)
    have hfl : (cfg1.win 3).flush ⟨n, Nat.lt_of_succ_lt hn⟩ = false := noFlush1_3 ⟨n, Nat.lt_of_succ_lt hn⟩ (by dsimp only; omega)
    by_cases hi : 1 ≤ n % 10 ∧ n % 10 ≤ 4
    · refine (before1_of_idle (dat1 V c) 3 rfl ⟨n + 1, hn⟩ (Nat.succ_ne_zero n) hfl (idleAt1_3 ⟨n, Nat.lt_of_succ_lt hn⟩ hi) d).trans ?_
      refine (before1_3_aux c n (Nat.lt_of_succ_lt hn) (by omega) d).trans ?_
      exact (carry1_3 V c ⟨n, Nat.lt_of_succ_lt hn⟩ hi).symm
    · refine (before1_of_live (dat1 V c) 3 rfl ⟨n + 1, hn⟩ (Nat.succ_ne_zero n) hfl (liveAt1_3 ⟨n, Nat.lt_of_succ_lt hn⟩ hi) (fun _ _ => rfl) d).trans ?_
      exact after1_3 V c ⟨n, Nat.lt_of_succ_lt hn⟩

theorem before1_3 (c : Dev nD) (t : Fin cfg1.N) (h : t.val % 10 ≠ 0) (d) :
    (dat1 V c).before 3 t d = (outsAt1 V c (t.val - 1) (Nat.lt_of_le_of_lt (Nat.sub_le _ _) t.isLt)).1 :=
  before1_3_aux V c t.val t.isLt h d

theorem carry1_4 (c : Dev nD) (t : Fin cfg1.N) (h : 1 ≤ t.val % 10 ∧ t.val % 10 ≤ 4) :
    (outsAt1 V c t.val t.isLt).2.1 = (outsAt1 V c (t.val - 1) (Nat.lt_of_le_of_lt (Nat.sub_le _ _) t.isLt)).2.1 := by
  have hz : t.val ≠ 0 := fun h0 => by rw [h0] at h; omega
  by_cases h3 : t.val % 10 ≤ 3
  · rw [outsAt1_B V c t ⟨h.1, h3⟩, stepB, prev1_pos V c t hz]
  · rw [outsAt1_C V c t (by omega), stepC, prev1_pos V c t hz]

theorem before1_4_aux (c : Dev nD) : ∀ (n : ℕ) (hn : n < cfg1.N), n % 10 ≠ 0 → ∀ d,
    (dat1 V c).before 4 ⟨n, hn⟩ d = (outsAt1 V c (n - 1) (Nat.lt_of_le_of_lt (Nat.sub_le _ _) hn)).2.1
  | 0, _, h, _ => absurd (Nat.zero_mod 10) h
  | n + 1, hn, h, d => by
    have hN : n + 1 < 20 := lt_of_lt_of_eq hn (show cfg1.N = 20 from N_1)
    have hfl : (cfg1.win 4).flush ⟨n, Nat.lt_of_succ_lt hn⟩ = false := noFlush1_4 ⟨n, Nat.lt_of_succ_lt hn⟩ (by dsimp only; omega)
    by_cases hi : 1 ≤ n % 10 ∧ n % 10 ≤ 4
    · refine (before1_of_idle (dat1 V c) 4 rfl ⟨n + 1, hn⟩ (Nat.succ_ne_zero n) hfl (idleAt1_4 ⟨n, Nat.lt_of_succ_lt hn⟩ hi) d).trans ?_
      refine (before1_4_aux c n (Nat.lt_of_succ_lt hn) (by omega) d).trans ?_
      exact (carry1_4 V c ⟨n, Nat.lt_of_succ_lt hn⟩ hi).symm
    · refine (before1_of_live (dat1 V c) 4 rfl ⟨n + 1, hn⟩ (Nat.succ_ne_zero n) hfl (liveAt1_4 ⟨n, Nat.lt_of_succ_lt hn⟩ hi) (fun _ _ => rfl) d).trans ?_
      exact after1_4 V c ⟨n, Nat.lt_of_succ_lt hn⟩

theorem before1_4 (c : Dev nD) (t : Fin cfg1.N) (h : t.val % 10 ≠ 0) (d) :
    (dat1 V c).before 4 t d = (outsAt1 V c (t.val - 1) (Nat.lt_of_le_of_lt (Nat.sub_le _ _) t.isLt)).2.1 :=
  before1_4_aux V c t.val t.isLt h d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: by the residue of the point index one case's run applies, and its stores, tiling each buffer, are what the next point finds. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl]
  have hN : t.val < 20 := lt_of_lt_of_eq t.isLt (show cfg1.N = 20 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases hA : t.val % 10 = 0
  ·
    have hc := hcA t hA
    rw [show (dat1 V c).leavesExact 3 t = owns (c : Thread nD τ) (ms1_3 t) fullShare ((dat1 V c).after 3 t) from by
      unfold Dat.leavesExact; rw [liveAt1_3 t (by omega)], after1_3]
    rw [show (dat1 V c).leavesExact 4 t = owns (c : Thread nD τ) (ms1_4 t) fullShare ((dat1 V c).after 4 t) from by
      unfold Dat.leavesExact; rw [liveAt1_4 t (by omega)], after1_4]
    by_cases hz : t.val = 0
    · rw [PhiS1_castSucc V c t, PhiS1_zero V c _ _ hz, PhiA1_eq, PhiS1_succ_early V c t.val t.isLt (by omega)]
      rw [outsAt1_A V c t hA, stepA]
      dsimp only
      unfold out1_A_3 out1_A_4 sout1_A_0 sout1_A_1
      iintro ⟨⟨Hr, ⟨%ds0, HS0⟩, ⟨%ds1, HS1⟩, ⟨%ds2, HS2⟩, ⟨%ds3, HS3⟩, Hg⟩, Ho, ⟨%d0, H0⟩, ⟨%d1, H1⟩, ⟨%d2, H2⟩, ⟨%d3, H3⟩, ⟨%d4, H4⟩⟩
      iapply ((runA c (ops1 t) hc (iblk1 V c 0 t) (iblk1 V c 1 t) (iblk1 V c 2 t)).2.2.2.2 _ _ Set.univ _)
      isplitl [H0]; · iexact H0
      isplitl [H1]; · iexact H1
      isplitl [H2]; · iexact H2
      isplitl [H3]; · iexists _; iexact H3
      isplitl [H4]; · iexists _; iexact H4
      isplitl [HS0]; · iexists _; iexact HS0
      isplitl [HS1]; · iexists _; iexact HS1
      isplitl [HS2]; · iexact HS2
      isplitl [HS3]; · iexact HS3
      iintro ⟨H0, H1, H2, ⟨%e6, H3⟩, ⟨%e7, H4⟩, ⟨%e8, HS0⟩, ⟨%e9, HS1⟩, HS2, HS3⟩
      isplitl [Hr HS0 HS1 HS2 HS3 Hg]
      · isplitl [Hr]; · iexact Hr
        isplitl [HS0]
        · unfold owns; iexists _; isplitr
          swap; · iexact HS0
          ipureintro; exact View.read_writes_of_cover _ _ _ _ _ (scover1_A_0 c (ops1 t) hc (iblk1 V c 0 t) (iblk1 V c 1 t) (iblk1 V c 2 t))
        isplitl [HS1]
        · unfold owns; iexists _; isplitr
          swap; · iexact HS1
          ipureintro; exact View.read_writes_of_cover _ _ _ _ _ (scover1_A_1 c (ops1 t) hc (iblk1 V c 0 t) (iblk1 V c 1 t) (iblk1 V c 2 t))
        isplitl [HS2]
        · iexists _; iexact HS2
        isplitl [HS3]
        · iexists _; iexact HS3
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_A_3 c (ops1 t) hc (iblk1 V c 0 t) (iblk1 V c 1 t) (iblk1 V c 2 t))
      unfold owns; iexists _; isplitr
      swap; · iexact H4
      ipureintro; exact View.read_writes_of_cover _ _ _ _ _ (cover1_A_4 c (ops1 t) hc (iblk1 V c 0 t) (iblk1 V c 1 t) (iblk1 V c 2 t))
    · rw [PhiS1_castSucc V c t, PhiS1_pos_late V c _ _ (by omega), PhiS1_succ_late V c t.val t.isLt (by omega)]
      rw [outsAt1_A V c t hA, stepA, prev1_pos V c t hz]
      dsimp only
      unfold out1_A_3 out1_A_4 sout1_A_0 sout1_A_1
      iintro ⟨⟨Hr, HS0, HS1, HS2, HS3, Hg⟩, Ho, ⟨%d0, H0⟩, ⟨%d1, H1⟩, ⟨%d2, H2⟩, ⟨%d3, H3⟩, ⟨%d4, H4⟩⟩
      iapply ((runA c (ops1 t) hc (iblk1 V c 0 t) (iblk1 V c 1 t) (iblk1 V c 2 t)).2.2.2.2 _ _ Set.univ _)
      isplitl [H0]; · iexact H0
      isplitl [H1]; · iexact H1
      isplitl [H2]; · iexact H2
      isplitl [H3]; · iexists _; iexact H3
      isplitl [H4]; · iexists _; iexact H4
      isplitl [HS0]; · iexists _; iexact HS0
      isplitl [HS1]; · iexists _; iexact HS1
      isplitl [HS2]; · iexact HS2
      isplitl [HS3]; · iexact HS3
      iintro ⟨H0, H1, H2, ⟨%e6, H3⟩, ⟨%e7, H4⟩, ⟨%e8, HS0⟩, ⟨%e9, HS1⟩, HS2, HS3⟩
      isplitl [Hr HS0 HS1 HS2 HS3 Hg]
      · isplitl [Hr]; · iexact Hr
        isplitl [HS0]
        · unfold owns; iexists _; isplitr
          swap; · iexact HS0
          ipureintro; exact View.read_writes_of_cover _ _ _ _ _ (scover1_A_0 c (ops1 t) hc (iblk1 V c 0 t) (iblk1 V c 1 t) (iblk1 V c 2 t))
        isplitl [HS1]
        · unfold owns; iexists _; isplitr
          swap; · iexact HS1
          ipureintro; exact View.read_writes_of_cover _ _ _ _ _ (scover1_A_1 c (ops1 t) hc (iblk1 V c 0 t) (iblk1 V c 1 t) (iblk1 V c 2 t))
        isplitl [HS2]
        · iexact HS2
        isplitl [HS3]
        · iexact HS3
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_A_3 c (ops1 t) hc (iblk1 V c 0 t) (iblk1 V c 1 t) (iblk1 V c 2 t))
      unfold owns; iexists _; isplitr
      swap; · iexact H4
      ipureintro; exact View.read_writes_of_cover _ _ _ _ _ (cover1_A_4 c (ops1 t) hc (iblk1 V c 0 t) (iblk1 V c 1 t) (iblk1 V c 2 t))
  by_cases hB : 1 ≤ t.val % 10 ∧ t.val % 10 ≤ 3
  ·
    have hc := hcB t hB
    have hz : t.val ≠ 0 := fun h0 => by rw [h0] at hA; exact hA rfl
    rw [Dat.leavesExact_idle (dat1 V c) 3 t (idleAt1_3 t (by omega)) (noFlush1_3 t (by omega))]
    rw [Dat.leavesExact_idle (dat1 V c) 4 t (idleAt1_4 t (by omega)) (noFlush1_4 t (by omega))]
    by_cases he : t.val < 4
    · rw [PhiS1_castSucc V c t, PhiS1_pos_early V c _ _ hz (by omega), PhiS1_succ_early V c t.val t.isLt he]
      rw [outsAt1_B V c t hB, stepB, prev1_pos V c t hz]
      dsimp only
      unfold sout1_B_0 sout1_B_1
      iintro ⟨⟨Hr, HS0, HS1, ⟨%ds2, HS2⟩, ⟨%ds3, HS3⟩, Hg⟩, Ho, ⟨%d0, H0⟩, ⟨%d1, H1⟩, ⟨%d2, H2⟩, ⟨%d3, H3⟩, ⟨%d4, H4⟩⟩
      iapply ((runB c (ops1 t) hc (iblk1 V c 0 t) (iblk1 V c 1 t) (iblk1 V c 2 t) _ _).2.2 _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%e8, HS0⟩, ⟨%e9, HS1⟩, HS2, HS3⟩
      isplitl [Hr HS0 HS1 HS2 HS3 Hg]
      · isplitl [Hr]; · iexact Hr
        isplitl [HS0]
        · unfold owns; iexists _; isplitr
          swap; · iexact HS0
          ipureintro; exact View.read_writes_of_cover _ _ _ _ _ (scover1_B_0 c (ops1 t) hc (iblk1 V c 0 t) (iblk1 V c 1 t) (iblk1 V c 2 t) _ _)
        isplitl [HS1]
        · unfold owns; iexists _; isplitr
          swap; · iexact HS1
          ipureintro; exact View.read_writes_of_cover _ _ _ _ _ (scover1_B_1 c (ops1 t) hc (iblk1 V c 0 t) (iblk1 V c 1 t) (iblk1 V c 2 t) _ _)
        isplitl [HS2]
        · iexists _; iexact HS2
        isplitl [HS3]
        · iexists _; iexact HS3
        iexact Hg
      isplitl [Ho]; · iexact Ho
      isplitl [H0]; · iexact H0
      isplitl [H1]; · iexact H1
      isplitl [H2]; · iexact H2
      isplitl [H3]
      · iexists _; iexact H3
      iexists _; iexact H4
    · rw [PhiS1_castSucc V c t, PhiS1_pos_late V c _ _ (by omega), PhiS1_succ_late V c t.val t.isLt he]
      rw [outsAt1_B V c t hB, stepB, prev1_pos V c t hz]
      dsimp only
      unfold sout1_B_0 sout1_B_1
      iintro ⟨⟨Hr, HS0, HS1, HS2, HS3, Hg⟩, Ho, ⟨%d0, H0⟩, ⟨%d1, H1⟩, ⟨%d2, H2⟩, ⟨%d3, H3⟩, ⟨%d4, H4⟩⟩
      iapply ((runB c (ops1 t) hc (iblk1 V c 0 t) (iblk1 V c 1 t) (iblk1 V c 2 t) _ _).2.2 _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%e8, HS0⟩, ⟨%e9, HS1⟩, HS2, HS3⟩
      isplitl [Hr HS0 HS1 HS2 HS3 Hg]
      · isplitl [Hr]; · iexact Hr
        isplitl [HS0]
        · unfold owns; iexists _; isplitr
          swap; · iexact HS0
          ipureintro; exact View.read_writes_of_cover _ _ _ _ _ (scover1_B_0 c (ops1 t) hc (iblk1 V c 0 t) (iblk1 V c 1 t) (iblk1 V c 2 t) _ _)
        isplitl [HS1]
        · unfold owns; iexists _; isplitr
          swap; · iexact HS1
          ipureintro; exact View.read_writes_of_cover _ _ _ _ _ (scover1_B_1 c (ops1 t) hc (iblk1 V c 0 t) (iblk1 V c 1 t) (iblk1 V c 2 t) _ _)
        isplitl [HS2]
        · iexact HS2
        isplitl [HS3]
        · iexact HS3
        iexact Hg
      isplitl [Ho]; · iexact Ho
      isplitl [H0]; · iexact H0
      isplitl [H1]; · iexact H1
      isplitl [H2]; · iexact H2
      isplitl [H3]
      · iexists _; iexact H3
      iexists _; iexact H4
  by_cases hC : t.val % 10 = 4
  ·
    have hc := hcC t hC
    have hz : t.val ≠ 0 := fun h0 => by rw [h0] at hC; omega
    rw [Dat.leavesExact_idle (dat1 V c) 3 t (idleAt1_3 t (by omega)) (noFlush1_3 t (by omega))]
    rw [Dat.leavesExact_idle (dat1 V c) 4 t (idleAt1_4 t (by omega)) (noFlush1_4 t (by omega))]
    by_cases he : t.val ≤ 4
    · rw [PhiS1_castSucc V c t, PhiS1_pos_early V c _ _ hz he, PhiS1_succ_late V c t.val t.isLt (by omega)]
      rw [outsAt1_C V c t hC, stepC, prev1_pos V c t hz]
      dsimp only
      unfold sout1_C_0 sout1_C_1 sout1_C_2 sout1_C_3
      iintro ⟨⟨Hr, HS0, HS1, ⟨%ds2, HS2⟩, ⟨%ds3, HS3⟩, Hg⟩, Ho, ⟨%d0, H0⟩, ⟨%d1, H1⟩, ⟨%d2, H2⟩, ⟨%d3, H3⟩, ⟨%d4, H4⟩⟩
      iapply ((runC c (ops1 t) hc (iblk1 V c 0 t) (iblk1 V c 1 t) (iblk1 V c 2 t) _ _).2.2.2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexists _; iexact HS2
      isplitl [HS3]; · iexists _; iexact HS3
      iintro ⟨H0, H1, H2, H3, H4, ⟨%e8, HS0⟩, ⟨%e9, HS1⟩, ⟨%e10, HS2⟩, ⟨%e11, HS3⟩⟩
      isplitl [Hr HS0 HS1 HS2 HS3 Hg]
      · isplitl [Hr]; · iexact Hr
        isplitl [HS0]
        · unfold owns; iexists _; isplitr
          swap; · iexact HS0
          ipureintro; exact View.read_writes_of_cover _ _ _ _ _ (scover1_C_0 c (ops1 t) hc (iblk1 V c 0 t) (iblk1 V c 1 t) (iblk1 V c 2 t) _ _)
        isplitl [HS1]
        · unfold owns; iexists _; isplitr
          swap; · iexact HS1
          ipureintro; exact View.read_writes_of_cover _ _ _ _ _ (scover1_C_1 c (ops1 t) hc (iblk1 V c 0 t) (iblk1 V c 1 t) (iblk1 V c 2 t) _ _)
        isplitl [HS2]
        · unfold owns; iexists _; isplitr
          swap; · iexact HS2
          ipureintro; exact View.read_writes_of_cover _ _ _ _ _ (scover1_C_2 c (ops1 t) hc (iblk1 V c 0 t) (iblk1 V c 1 t) (iblk1 V c 2 t) _ _)
        isplitl [HS3]
        · unfold owns; iexists _; isplitr
          swap; · iexact HS3
          ipureintro; exact View.read_writes_of_cover _ _ _ _ _ (scover1_C_3 c (ops1 t) hc (iblk1 V c 0 t) (iblk1 V c 1 t) (iblk1 V c 2 t) _ _)
        iexact Hg
      isplitl [Ho]; · iexact Ho
      isplitl [H0]; · iexact H0
      isplitl [H1]; · iexact H1
      isplitl [H2]; · iexact H2
      isplitl [H3]
      · iexists _; iexact H3
      iexists _; iexact H4
    · rw [PhiS1_castSucc V c t, PhiS1_pos_late V c _ _ (by omega), PhiS1_succ_late V c t.val t.isLt (by omega)]
      rw [outsAt1_C V c t hC, stepC, prev1_pos V c t hz]
      dsimp only
      unfold sout1_C_0 sout1_C_1 sout1_C_2 sout1_C_3
      iintro ⟨⟨Hr, HS0, HS1, HS2, HS3, Hg⟩, Ho, ⟨%d0, H0⟩, ⟨%d1, H1⟩, ⟨%d2, H2⟩, ⟨%d3, H3⟩, ⟨%d4, H4⟩⟩
      iapply ((runC c (ops1 t) hc (iblk1 V c 0 t) (iblk1 V c 1 t) (iblk1 V c 2 t) _ _).2.2.2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexists _; iexact HS2
      isplitl [HS3]; · iexists _; iexact HS3
      iintro ⟨H0, H1, H2, H3, H4, ⟨%e8, HS0⟩, ⟨%e9, HS1⟩, ⟨%e10, HS2⟩, ⟨%e11, HS3⟩⟩
      isplitl [Hr HS0 HS1 HS2 HS3 Hg]
      · isplitl [Hr]; · iexact Hr
        isplitl [HS0]
        · unfold owns; iexists _; isplitr
          swap; · iexact HS0
          ipureintro; exact View.read_writes_of_cover _ _ _ _ _ (scover1_C_0 c (ops1 t) hc (iblk1 V c 0 t) (iblk1 V c 1 t) (iblk1 V c 2 t) _ _)
        isplitl [HS1]
        · unfold owns; iexists _; isplitr
          swap; · iexact HS1
          ipureintro; exact View.read_writes_of_cover _ _ _ _ _ (scover1_C_1 c (ops1 t) hc (iblk1 V c 0 t) (iblk1 V c 1 t) (iblk1 V c 2 t) _ _)
        isplitl [HS2]
        · unfold owns; iexists _; isplitr
          swap; · iexact HS2
          ipureintro; exact View.read_writes_of_cover _ _ _ _ _ (scover1_C_2 c (ops1 t) hc (iblk1 V c 0 t) (iblk1 V c 1 t) (iblk1 V c 2 t) _ _)
        isplitl [HS3]
        · unfold owns; iexists _; isplitr
          swap; · iexact HS3
          ipureintro; exact View.read_writes_of_cover _ _ _ _ _ (scover1_C_3 c (ops1 t) hc (iblk1 V c 0 t) (iblk1 V c 1 t) (iblk1 V c 2 t) _ _)
        iexact Hg
      isplitl [Ho]; · iexact Ho
      isplitl [H0]; · iexact H0
      isplitl [H1]; · iexact H1
      isplitl [H2]; · iexact H2
      isplitl [H3]
      · iexists _; iexact H3
      iexists _; iexact H4
  by_cases hD : t.val % 10 = 5
  ·
    have hc := hcD t hD
    have hz : t.val ≠ 0 := fun h0 => by rw [h0] at hD; omega
    rw [show (dat1 V c).leavesExact 3 t = owns (c : Thread nD τ) (ms1_3 t) fullShare ((dat1 V c).after 3 t) from by
      unfold Dat.leavesExact; rw [liveAt1_3 t (by omega)], after1_3]
    rw [show (dat1 V c).leavesExact 4 t = owns (c : Thread nD τ) (ms1_4 t) fullShare ((dat1 V c).after 4 t) from by
      unfold Dat.leavesExact; rw [liveAt1_4 t (by omega)], after1_4]
    simp only [before1_3 V c t hA, before1_4 V c t hA]
    rw [PhiS1_castSucc V c t, PhiS1_pos_late V c _ _ (by omega), PhiS1_succ_late V c t.val t.isLt (by omega)]
    rw [outsAt1_D V c t hD, stepD, prev1_pos V c t hz]
    dsimp only
    unfold out1_D_3 out1_D_4
    iintro ⟨⟨Hr, HS0, HS1, HS2, HS3, Hg⟩, Ho, ⟨%d0, H0⟩, ⟨%d1, H1⟩, ⟨%d2, H2⟩, ⟨%d3, H3⟩, ⟨%d4, H4⟩⟩
    iapply ((runD c (ops1 t) hc (iblk1 V c 0 t) (iblk1 V c 1 t) (iblk1 V c 2 t) _ _ _ _).2.2 _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, ⟨%e6, H3⟩, ⟨%e7, H4⟩, HS0, HS1, HS2, HS3⟩
    isplitl [Hr HS0 HS1 HS2 HS3 Hg]
    · isplitl [Hr]; · iexact Hr
      isplitl [HS0]
      · iexact HS0
      isplitl [HS1]
      · iexact HS1
      isplitl [HS2]
      · iexact HS2
      isplitl [HS3]
      · iexact HS3
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_D_3 c (ops1 t) hc (iblk1 V c 0 t) (iblk1 V c 1 t) (iblk1 V c 2 t) _ _ _ _)
    unfold owns; iexists _; isplitr
    swap; · iexact H4
    ipureintro; exact View.read_writes_of_cover _ _ _ _ _ (cover1_D_4 c (ops1 t) hc (iblk1 V c 0 t) (iblk1 V c 1 t) (iblk1 V c 2 t) _ _ _ _)
  ·
    have hE : 6 ≤ t.val % 10 := by omega
    have hc := hcE t hE
    have hz : t.val ≠ 0 := fun h0 => by rw [h0] at hE; omega
    rw [show (dat1 V c).leavesExact 3 t = owns (c : Thread nD τ) (ms1_3 t) fullShare ((dat1 V c).after 3 t) from by
      unfold Dat.leavesExact; rw [liveAt1_3 t (by omega)], after1_3]
    rw [show (dat1 V c).leavesExact 4 t = owns (c : Thread nD τ) (ms1_4 t) fullShare ((dat1 V c).after 4 t) from by
      unfold Dat.leavesExact; rw [liveAt1_4 t (by omega)], after1_4]
    simp only [before1_3 V c t hA, before1_4 V c t hA]
    rw [PhiS1_castSucc V c t, PhiS1_pos_late V c _ _ (by omega), PhiS1_succ_late V c t.val t.isLt (by omega)]
    rw [outsAt1_E V c t hE, stepE, prev1_pos V c t hz]
    dsimp only
    unfold out1_E_3 out1_E_4
    iintro ⟨⟨Hr, HS0, HS1, HS2, HS3, Hg⟩, Ho, ⟨%d0, H0⟩, ⟨%d1, H1⟩, ⟨%d2, H2⟩, ⟨%d3, H3⟩, ⟨%d4, H4⟩⟩
    iapply ((runE c (ops1 t) hc (iblk1 V c 0 t) (iblk1 V c 1 t) (iblk1 V c 2 t) _ _ _ _).2.2 _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, ⟨%e6, H3⟩, ⟨%e7, H4⟩, HS0, HS1, HS2, HS3⟩
    isplitl [Hr HS0 HS1 HS2 HS3 Hg]
    · isplitl [Hr]; · iexact Hr
      isplitl [HS0]
      · iexact HS0
      isplitl [HS1]
      · iexact HS1
      isplitl [HS2]
      · iexact HS2
      isplitl [HS3]
      · iexact HS3
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_E_3 c (ops1 t) hc (iblk1 V c 0 t) (iblk1 V c 1 t) (iblk1 V c 2 t) _ _ _ _)
    unfold owns; iexists _; isplitr
    swap; · iexact H4
    ipureintro; exact View.read_writes_of_cover _ _ _ _ _ (cover1_E_4 c (ops1 t) hc (iblk1 V c 0 t) (iblk1 V c 1 t) (iblk1 V c 2 t) _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]

theorem Phi_out1 (c : Dev nD) (t : Fin (cfg1.N + 1)) (ht : 5 ≤ t.val) : (dat1 V c).Φ t ⊢ Pipeline.ΦA spec1 c := by
  rw [show (dat1 V c).Φ t = PhiS1 V c t.val (Nat.le_of_lt_succ t.isLt) from rfl, PhiS1_pos_late V c _ _ ht, PhiA1_eq]
  iintro ⟨Hr, HS0, HS1, HS2, HS3, Hg⟩
  isplitl [Hr]; · iexact Hr
  isplitl [HS0]; · iexists _; iexact HS0
  isplitl [HS1]; · iexists _; iexact HS1
  isplitl [HS2]; · iexists _; iexact HS2
  isplitl [HS3]; · iexists _; iexact HS3
  iexact Hg

theorem hout1 (c : Dev nD) : (dat1 V c).Φ (Fin.last cfg1.N) ⊢ Pipeline.ΦA spec1 c :=
  Phi_out1 V c _ (by rw [Fin.val_last]; have : cfg1.N = 20 := N_1; omega)

end Data

end Cert.KernelIdeal.Hand

end
-- ==== Proof.KI.Chain.lean ====
import proofs.«401957_j37563783971102_3_alg».proof.Proof.KI.Chain0
import proofs.«401957_j37563783971102_3_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

abbrev W4 : Dev nD → Valuation τ sig (Elt F) := fun c => StableHlo.after hostOps2 (W3 m ρ c)
abbrev W5 : Dev nD → Valuation τ sig (Elt F) := fun c => StableHlo.after hostOps2_1 (W4 m ρ c)
abbrev W6 : Dev nD → Valuation τ sig (Elt F) := fun c => StableHlo.after hostOps2_2 (W5 m ρ c)

theorem W4_of (c : Dev nD) (r : Ref sig .tc) (h : r ∉ (hostOps2_W : List (Ref sig .tc))) :
    W4 m ρ c (Proc.devRef .tc r) = W3 m ρ c (Proc.devRef .tc r) :=
  StableHlo.after_of_writes_sub hostOps2 _ hostOps2_writes h
theorem W5_of (c : Dev nD) (r : Ref sig .tc) (h : r ∉ (hostOps2_1_W : List (Ref sig .tc))) :
    W5 m ρ c (Proc.devRef .tc r) = W4 m ρ c (Proc.devRef .tc r) :=
  StableHlo.after_of_writes_sub hostOps2_1 _ hostOps2_1_writes h
theorem W6_of (c : Dev nD) (r : Ref sig .tc) (h : r ∉ (hostOps2_2_W : List (Ref sig .tc))) :
    W6 m ρ c (Proc.devRef .tc r) = W5 m ρ c (Proc.devRef .tc r) :=
  StableHlo.after_of_writes_sub hostOps2_2 _ hostOps2_2_writes h

theorem W3_main_v35_0 (c : Dev nD) : W3 m ρ c (Proc.devRef .tc main_v35_0) = (dat1 (V2 m ρ) c).arrAt 3 cfg1.N := W3_arr m ρ c 3
theorem W3_main_v35_1 (c : Dev nD) : W3 m ρ c (Proc.devRef .tc main_v35_1) = (dat1 (V2 m ρ) c).arrAt 4 cfg1.N := W3_arr m ρ c 4

theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hin _).trans (A_eq1 (V2 m ρ) c w))

/-- A buffer that neither region 1 nor a host operation writes ends holding what region 0 left in it. -/
theorem W6_keep (c : Dev nD) (r : Ref sig .tc) (h2 : r ∉ (hostOps2_2_W : List (Ref sig .tc))) (h1 : r ∉ (hostOps2_1_W : List (Ref sig .tc)))
    (h0 : r ∉ (hostOps2_W : List (Ref sig .tc))) (h3 : ∀ w, Pipeline.arrRef spec1 w ≠ r) (h : r ∉ (hostOps1_W : List (Ref sig .tc))) :
    W6 m ρ c (Proc.devRef .tc r) = W1 m ρ c (Proc.devRef .tc r) :=
  (W6_of m ρ c r h2).trans ((W5_of m ρ c r h1).trans ((W4_of m ρ c r h0).trans ((W3_of_ne m ρ c r h3).trans (W2_of m ρ c r h))))
theorem W6_main_arg0 (c : Dev nD) : W6 m ρ c (Proc.devRef .tc main_arg0) = m ((c : Thread nD τ).loc main_arg0) :=
  (W6_keep m ρ c main_arg0 (by decide) (by decide) (by decide) (by decide) (by decide)).trans (W1_in m ρ c 0 rfl)
theorem W6_main_arg1 (c : Dev nD) : W6 m ρ c (Proc.devRef .tc main_arg1) = m ((c : Thread nD τ).loc main_arg1) :=
  (W6_keep m ρ c main_arg1 (by decide) (by decide) (by decide) (by decide) (by decide)).trans (W1_in m ρ c 2 rfl)
theorem W6_main_arg2 (c : Dev nD) : W6 m ρ c (Proc.devRef .tc main_arg2) = m ((c : Thread nD τ).loc main_arg2) :=
  (W6_keep m ρ c main_arg2 (by decide) (by decide) (by decide) (by decide) (by decide)).trans (W1_in m ρ c 1 rfl)
theorem W6_main_arg3 (c : Dev nD) : W6 m ρ c (Proc.devRef .tc main_arg3) = m ((c : Thread nD τ).loc main_arg3) :=
  (W6_keep m ρ c main_arg3 (by decide) (by decide) (by decide) (by decide) (by decide)).trans (W1_in m ρ c 3 rfl)
theorem W6_main_arg4 (c : Dev nD) : W6 m ρ c (Proc.devRef .tc main_arg4) = m ((c : Thread nD τ).loc main_arg4) :=
  (W6_keep m ρ c main_arg4 (by decide) (by decide) (by decide) (by decide) (by decide)).trans (W1_of_ne m ρ c main_arg4 (by decide))
theorem W6_main_arg5 (c : Dev nD) : W6 m ρ c (Proc.devRef .tc main_arg5) = m ((c : Thread nD τ).loc main_arg5) :=
  (W6_keep m ρ c main_arg5 (by decide) (by decide) (by decide) (by decide) (by decide)).trans (W1_of_ne m ρ c main_arg5 (by decide))
theorem W6_main_arg6 (c : Dev nD) : W6 m ρ c (Proc.devRef .tc main_arg6) = m ((c : Thread nD τ).loc main_arg6) :=
  (W6_keep m ρ c main_arg6 (by decide) (by decide) (by decide) (by decide) (by decide)).trans (W1_of_ne m ρ c main_arg6 (by decide))
theorem W6_main_arg7 (c : Dev nD) : W6 m ρ c (Proc.devRef .tc main_arg7) = m ((c : Thread nD τ).loc main_arg7) :=
  (W6_keep m ρ c main_arg7 (by decide) (by decide) (by decide) (by decide) (by decide)).trans (W1_of_ne m ρ c main_arg7 (by decide))
theorem W6_main_arg8 (c : Dev nD) : W6 m ρ c (Proc.devRef .tc main_arg8) = m ((c : Thread nD τ).loc main_arg8) :=
  (W6_keep m ρ c main_arg8 (by decide) (by decide) (by decide) (by decide) (by decide)).trans (W1_of_ne m ρ c main_arg8 (by decide))
theorem W6_main_arg9 (c : Dev nD) : W6 m ρ c (Proc.devRef .tc main_arg9) = m ((c : Thread nD τ).loc main_arg9) :=
  (W6_keep m ρ c main_arg9 (by decide) (by decide) (by decide) (by decide) (by decide)).trans (W1_of_ne m ρ c main_arg9 (by decide))

end Cert.KernelIdeal.Hand

end
-- ==== Proof.KI.Main.lean ====
import proofs.«401957_j37563783971102_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W6 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .host (hseg hostOps2_1 hostOps2_1_sub hostOps2_1_fresh (W4 m ρ)),
    .host (hseg hostOps2_2 hostOps2_2_sub hostOps2_2_fresh (W5 m ρ)) ]

theorem main_run (c : Dev nD) : main (F := F) c = Pipeline.Seg.run (segs m ρ) := by
  rw [main_chain c, Pipeline.Seg.run_eq_chain]; rfl

set_option backward.isDefEq.respectTransparency.types false in
/-- The whole program: two regions and the host operations around them, each from the memory the one before left. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c =>
      show iprop(StableHlo.held (c : Thread nD τ) (Pipeline.ucRefs τ sig) (W6 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h => h)

theorem mem_uc_main_v51 : Proc.devRef .tc main_v51 ∈ Pipeline.ucRefs τ sig := mem_uc main_v51 (by decide)

theorem run_result : θ_run defs (onTc (τ := τ) (main (F := F))) ⟨m, fun _ => 0, ρ⟩ (fun r => ∀ c : Dev nD,
      r.2.mem ((c.tc : Thread nD τ).loc main_v51) = W6 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ mem_uc_main_v51,
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_result m ρ)

end Cert.KernelIdeal.Hand

end
-- ==== Proof.Val.R0Pay.lean ====
import proofs.«401957_j37563783971102_3_alg».proof.Proof.Gen.KernelIdeal.Skeleton
import Idealize.ShloMosaic.PureOps.Ideal.Laws
import Idealize.ShloMosaic.Lib.Pipeline.Value
import Idealize.ShloMosaic.Lib.ValueLayout
import Idealize.ShloMosaic.Lib.ValueIdx

noncomputable section

open Idealize.ShloMosaic Idealize.SL.Sem Idealize.ShloMosaic.ValueIdx
open scoped BigOperators

namespace Cert.Val.R0

open Cert.KernelIdeal Cert.KernelIdeal.Gen

def sq (x y : S1x1x512x512.Idx → EReal) : EReal :=
  ∑ h : Fin 512, ∑ w : Fin 512,
    (x (ix4 (0 : Fin 1) (0 : Fin 1) h w) - y (ix4 (0 : Fin 1) (0 : Fin 1) h w))
      * (x (ix4 (0 : Fin 1) (0 : Fin 1) h w) - y (ix4 (0 : Fin 1) (0 : Fin 1) h w))

theorem idx111 (j : S1x1x1.Idx) : j = ix3 (0 : Fin 1) (0 : Fin 1) (0 : Fin 1) := by
  funext a
  match a with
  | ⟨0, _⟩ => exact Fin.ext (by have h : (j 0).val < 1 := (j 0).isLt; show (j 0).val = 0; omega)
  | ⟨1, _⟩ => exact Fin.ext (by have h : (j 1).val < 1 := (j 1).isLt; show (j 1).val = 0; omega)
  | ⟨2, _⟩ => exact Fin.ext (by have h : (j 2).val < 1 := (j 2).isLt; show (j 2).val = 0; omega)

def red {F : FTy → Type} [FloatOps F] (x y : Vec F S1x1x512x512 .f32) : FVec F S1x1x1 .f32 :=
  multiReduction .add [2] S1x1x1
    (shapeCast S1x1x512x1
      (multiReduction .add [3] S1x1x512 (mulf (subf x y) (subf x y)) 0x00000000#32 reduces_S1x1x512x512_S1x1x512 (.inl rfl) rfl)
      shapeCasts_S1x1x512_S1x1x512x1)
    0x00000000#32 reduces_S1x1x512x1_S1x1x1 (.inl rfl) rfl

theorem pay4_eq {F : FTy → Type} [FloatOps F] [Named F] (v6 v7 : Vec F S1x1x512x512 .f32) :
    k0_pay4 v6 v7 = shapeCast S1x1x1x1 (red v6 v7) shapeCasts_S1x1x1_S1x1x1x1 := rfl

theorem pay5_eq {F : FTy → Type} [FloatOps F] [Named F] (v3 v4 : Vec F S1x1x512x512 .f32) (v19 : Vec F S1x1x1 .f32) :
    k0_pay5 v3 v4 v19 = addf v19 (red v3 v4) := by
  unfold k0_pay5
  dsimp only
  rw [shapeCast_self, shapeCast_shapeCast]
  rfl

theorem pay1_eq {F : FTy → Type} [FloatOps F] [Named F] (v6 v7 : Vec F S1x1x512x512 .f32) (v24 : Vec F S1x1x1 .f32) :
    k0_pay1 (k0_pay4 v6 v7) v24 = addf v24 (red v6 v7) := by
  unfold k0_pay1 k0_pay4
  dsimp only
  rw [shapeCast_self, shapeCast_shapeCast]
  rfl

abbrev zero {F : FTy → Type} [FloatOps F] : Vec F S1x1x1 .f32 := broadcast S1x1x1 (Scalar.ofBits .f32 0x00000000#32)

theorem pay2_eq {F : FTy → Type} [FloatOps F] [Named F] : k0_pay2 (F := F) = zero := rfl
theorem pay3_eq {F : FTy → Type} [FloatOps F] [Named F] : k0_pay3 (F := F) = zero := rfl

theorem red_apply (x y : Vec Ideal S1x1x512x512 .f32) (j : S1x1x1.Idx) : red (F := Ideal) x y j = sq x y := by
  rw [idx111 j]
  unfold red
  refine (Ideal.multiReduction_add_single _ _ reduces_S1x1x512x1_S1x1x1 _ _ _).trans ?_
  unfold sq
  refine Finset.sum_congr rfl fun h _ => ?_
  refine (shapeCast_apply _ shapeCasts_S1x1x512_S1x1x512x1 _ (ix3 (0 : Fin 1) (0 : Fin 1) h) ?_).trans ?_
  · rw [Shape.rowMajor_val_three, Shape.rowMajor_val_four]
    show (0 * 1 + 0) * 512 + h.val = ((0 * 1 + 0) * 512 + h.val) * 1 + 0
    omega
  refine (Ideal.multiReduction_add_single _ _ reduces_S1x1x512x512_S1x1x512 _ _ _).trans ?_
  refine Finset.sum_congr rfl fun w _ => ?_
  have e : reduces_S1x1x512x512_S1x1x512.lift (ix3 (0 : Fin 1) (0 : Fin 1) h) w = ix4 (0 : Fin 1) (0 : Fin 1) h w :=
    funext fun a => match a with | ⟨0, _⟩ => rfl | ⟨1, _⟩ => rfl | ⟨2, _⟩ => rfl | ⟨3, _⟩ => rfl
  rw [e]
  rfl

theorem zero_apply (j : S1x1x1.Idx) : (zero (F := Ideal)) j = 0 := Ideal.ofBits_zero_f32

end Cert.Val.R0
-- ==== Proof.Val.R0Core.lean ====
import proofs.«401957_j37563783971102_3_alg».proof.KernelIdeal
import Idealize.ShloMosaic.PureOps.Ideal
import Idealize.ShloMosaic.Lib.ValueIdx
import Mathlib.Algebra.BigOperators.Fin

noncomputable section

open Idealize.ShloMosaic Idealize.ShloMosaic.ValueIdx
open scoped BigOperators

namespace Cert.Val.R0

open Cert.KernelIdeal

def sqImg (S T : S8x1x512x512.Idx → EReal) (n : Fin 8) : EReal :=
  ∑ h : Fin 512, ∑ w : Fin 512,
    (S (ix4 n (0 : Fin 1) h w) - T (ix4 n (0 : Fin 1) h w)) * (S (ix4 n (0 : Fin 1) h w) - T (ix4 n (0 : Fin 1) h w))

def imgOf (k : Fin 2) (b : Fin 4) : Fin 8 := ⟨4 * k.val + b.val, by omega⟩

def mseCoreAt (S T : S8x1x512x512.Idx → EReal) (k : Fin 2) : EReal :=
  (((0 + sqImg S T (imgOf k 0)) + sqImg S T (imgOf k 1)) + sqImg S T (imgOf k 2)) + sqImg S T (imgOf k 3)

def mseCore (S T : S8x1x512x512.Idx → EReal) : S2x1x1.Idx → EReal := fun i => mseCoreAt S T (i 0)

theorem mseCore_apply (S T : S8x1x512x512.Idx → EReal) (k : Fin 2) (u v : Fin 1) :
    mseCore S T (ix3 k u v) = mseCoreAt S T k := rfl

theorem mseCoreAt_eq_sum (S T : S8x1x512x512.Idx → EReal) (k : Fin 2) :
    mseCoreAt S T k = ∑ b : Fin 4, sqImg S T (imgOf k b) := by
  unfold mseCoreAt
  rw [Fin.sum_univ_four, zero_add]

theorem mseCoreAt_eq_sum3 (S T : S8x1x512x512.Idx → EReal) (k : Fin 2) :
    mseCoreAt S T k = ∑ b : Fin 4, ∑ h : Fin 512, ∑ w : Fin 512,
      (S (ix4 (imgOf k b) (0 : Fin 1) h w) - T (ix4 (imgOf k b) (0 : Fin 1) h w))
        * (S (ix4 (imgOf k b) (0 : Fin 1) h w) - T (ix4 (imgOf k b) (0 : Fin 1) h w)) :=
  mseCoreAt_eq_sum S T k

theorem mseCore_eq_sum3 (S T : S8x1x512x512.Idx → EReal) (i : S2x1x1.Idx) :
    mseCore S T i = ∑ b : Fin 4, ∑ h : Fin 512, ∑ w : Fin 512,
      (S (ix4 (imgOf (i 0) b) (0 : Fin 1) h w) - T (ix4 (imgOf (i 0) b) (0 : Fin 1) h w))
        * (S (ix4 (imgOf (i 0) b) (0 : Fin 1) h w) - T (ix4 (imgOf (i 0) b) (0 : Fin 1) h w)) :=
  mseCoreAt_eq_sum S T (i 0)

theorem mseCoreAt_add (S T : S8x1x512x512.Idx → EReal) :
    mseCoreAt S T 0 + mseCoreAt S T 1 = ∑ n : Fin 8, sqImg S T n := by
  rw [mseCoreAt_eq_sum, mseCoreAt_eq_sum, Fin.sum_univ_four, Fin.sum_univ_four, Fin.sum_univ_eight]
  show sqImg S T 0 + sqImg S T 1 + sqImg S T 2 + sqImg S T 3 + (sqImg S T 4 + sqImg S T 5 + sqImg S T 6 + sqImg S T 7) = _
  simp only [add_assoc]

theorem sum_mseCoreAt (S T : S8x1x512x512.Idx → EReal) :
    ∑ k : Fin 2, mseCoreAt S T k = ∑ n : Fin 8, sqImg S T n := by
  rw [Fin.sum_univ_two]
  exact mseCoreAt_add S T

end Cert.Val.R0
-- ==== Proof.Val.R0Blk.lean ====
import proofs.«401957_j37563783971102_3_alg».proof.Proof.KI.C0
import proofs.«401957_j37563783971102_3_alg».proof.Proof.Val.R0Pay
import proofs.«401957_j37563783971102_3_alg».proof.Proof.Val.R0Core
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.Val.R0

open Cert.KernelIdeal Cert.KernelIdeal.Gen Cert.KernelIdeal.Hand

theorem blockIndex_of_point : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 4) = t.val ∧ win0_2.index t (1 : Fin 4) = 0 ∧ win0_2.index t (2 : Fin 4) = 0 ∧ win0_2.index t (3 : Fin 4) = 0
    ∧ win0_3.index t (0 : Fin 4) = t.val ∧ win0_3.index t (1 : Fin 4) = 0 ∧ win0_3.index t (2 : Fin 4) = 0 ∧ win0_3.index t (3 : Fin 4) = 0
    ∧ win0_4.index t (0 : Fin 3) = t.val / 4 ∧ win0_4.index t (1 : Fin 3) = 0 ∧ win0_4.index t (2 : Fin 3) = 0
    ∧ win0_5.index t (0 : Fin 3) = t.val / 4 ∧ win0_5.index t (1 : Fin 3) = 0 ∧ win0_5.index t (2 : Fin 3) = 0 :=
  (by decide +kernel : ∀ t : Fin grid0.N, _)

def imgAt (t : Fin cfg0.N) : Fin 8 := ⟨t.val, Nat.lt_of_lt_of_eq t.isLt N_0⟩

section Blocks
variable {F : FTy → Type} [FloatOps F] [Named F]
variable (V : (c : Dev nD) → (b : Ref sig .tc) → Buf (Elt F) ((c : Thread nD τ).loc b))

abbrev arr0 (c : Dev nD) : Vec F S8x1x512x512 .f32 := V c main_arg0
abbrev arr1 (c : Dev nD) : Vec F S8x1x512x512 .f32 := V c main_arg2
abbrev arr2 (c : Dev nD) : Vec F S8x1x512x512 .f32 := V c main_arg1
abbrev arr3 (c : Dev nD) : Vec F S8x1x512x512 .f32 := V c main_arg3
abbrev xb0 (c : Dev nD) (t : Fin cfg0.N) : Vec F S1x1x512x512 .f32 := iblk0 V c 0 t
abbrev xb1 (c : Dev nD) (t : Fin cfg0.N) : Vec F S1x1x512x512 .f32 := iblk0 V c 1 t
abbrev xb2 (c : Dev nD) (t : Fin cfg0.N) : Vec F S1x1x512x512 .f32 := iblk0 V c 2 t
abbrev xb3 (c : Dev nD) (t : Fin cfg0.N) : Vec F S1x1x512x512 .f32 := iblk0 V c 3 t

theorem xb0_apply (c : Dev nD) (t : Fin cfg0.N) (h w : Fin 512) :
    xb0 V c t (ix4 (0 : Fin 1) (0 : Fin 1) h w) = arr0 V c (ix4 (imgAt t) (0 : Fin 1) h w) := by
  obtain ⟨e0, e1, e2, e3, -⟩ := blockIndex_of_point t
  show iblk0 V c 0 t _ = _
  unfold iblk0
  rw [View.read_apply]
  show V c main_arg0 _ = V c main_arg0 _
  congr 1
  funext a
  apply Fin.ext
  match a with
  | ⟨0, _⟩ => show win0_0.index t (0 : Fin 4) * 1 + 1 * 0 = t.val; omega
  | ⟨1, _⟩ => show win0_0.index t (1 : Fin 4) * 1 + 1 * 0 = 0; omega
  | ⟨2, _⟩ => show win0_0.index t (2 : Fin 4) * 512 + 1 * h.val = h.val; omega
  | ⟨3, _⟩ => show win0_0.index t (3 : Fin 4) * 512 + 1 * w.val = w.val; omega

theorem xb1_apply (c : Dev nD) (t : Fin cfg0.N) (h w : Fin 512) :
    xb1 V c t (ix4 (0 : Fin 1) (0 : Fin 1) h w) = arr1 V c (ix4 (imgAt t) (0 : Fin 1) h w) := by
  obtain ⟨-, -, -, -, e0, e1, e2, e3, -⟩ := blockIndex_of_point t
  show iblk0 V c 1 t _ = _
  unfold iblk0
  rw [View.read_apply]
  show V c main_arg2 _ = V c main_arg2 _
  congr 1
  funext a
  apply Fin.ext
  match a with
  | ⟨0, _⟩ => show win0_1.index t (0 : Fin 4) * 1 + 1 * 0 = t.val; omega
  | ⟨1, _⟩ => show win0_1.index t (1 : Fin 4) * 1 + 1 * 0 = 0; omega
  | ⟨2, _⟩ => show win0_1.index t (2 : Fin 4) * 512 + 1 * h.val = h.val; omega
  | ⟨3, _⟩ => show win0_1.index t (3 : Fin 4) * 512 + 1 * w.val = w.val; omega

theorem xb2_apply (c : Dev nD) (t : Fin cfg0.N) (h w : Fin 512) :
    xb2 V c t (ix4 (0 : Fin 1) (0 : Fin 1) h w) = arr2 V c (ix4 (imgAt t) (0 : Fin 1) h w) := by
  obtain ⟨-, -, -, -, -, -, -, -, e0, e1, e2, e3, -⟩ := blockIndex_of_point t
  show iblk0 V c 2 t _ = _
  unfold iblk0
  rw [View.read_apply]
  show V c main_arg1 _ = V c main_arg1 _
  congr 1
  funext a
  apply Fin.ext
  match a with
  | ⟨0, _⟩ => show win0_2.index t (0 : Fin 4) * 1 + 1 * 0 = t.val; omega
  | ⟨1, _⟩ => show win0_2.index t (1 : Fin 4) * 1 + 1 * 0 = 0; omega
  | ⟨2, _⟩ => show win0_2.index t (2 : Fin 4) * 512 + 1 * h.val = h.val; omega
  | ⟨3, _⟩ => show win0_2.index t (3 : Fin 4) * 512 + 1 * w.val = w.val; omega

theorem xb3_apply (c : Dev nD) (t : Fin cfg0.N) (h w : Fin 512) :
    xb3 V c t (ix4 (0 : Fin 1) (0 : Fin 1) h w) = arr3 V c (ix4 (imgAt t) (0 : Fin 1) h w) := by
  obtain ⟨-, -, -, -, -, -, -, -, -, -, -, -, e0, e1, e2, e3, -⟩ := blockIndex_of_point t
  show iblk0 V c 3 t _ = _
  unfold iblk0
  rw [View.read_apply]
  show V c main_arg3 _ = V c main_arg3 _
  congr 1
  funext a
  apply Fin.ext
  match a with
  | ⟨0, _⟩ => show win0_3.index t (0 : Fin 4) * 1 + 1 * 0 = t.val; omega
  | ⟨1, _⟩ => show win0_3.index t (1 : Fin 4) * 1 + 1 * 0 = 0; omega
  | ⟨2, _⟩ => show win0_3.index t (2 : Fin 4) * 512 + 1 * h.val = h.val; omega
  | ⟨3, _⟩ => show win0_3.index t (3 : Fin 4) * 512 + 1 * w.val = w.val; omega

end Blocks

section AtIdeal
variable (V : (c : Dev nD) → (b : Ref sig .tc) → Buf (Elt Ideal) ((c : Thread nD τ).loc b))

theorem sq_xb01 (c : Dev nD) (t : Fin cfg0.N) :
    sq (xb0 V c t) (xb1 V c t) = sqImg (arr0 V c) (arr1 V c) (imgAt t) := by
  unfold sq sqImg
  refine Finset.sum_congr rfl fun h _ => Finset.sum_congr rfl fun w _ => ?_
  rw [xb0_apply V c t h w, xb1_apply V c t h w]

theorem sq_xb23 (c : Dev nD) (t : Fin cfg0.N) :
    sq (xb2 V c t) (xb3 V c t) = sqImg (arr2 V c) (arr3 V c) (imgAt t) := by
  unfold sq sqImg
  refine Finset.sum_congr rfl fun h _ => Finset.sum_congr rfl fun w _ => ?_
  rw [xb2_apply V c t h w, xb3_apply V c t h w]

end AtIdeal

theorem cover4 (i : S2x1x1.Idx) : ∃ t : Fin cfg0.N, (cfg0.win 4).flush t = true ∧ i ∈ ((cfg0.win 4).blk t).view.set := by
  have h0 : (i 0).val < 2 := (i 0).isLt
  have h1 : (i 1).val < 1 := (i 1).isLt
  have h2 : (i 2).val < 1 := (i 2).isLt
  have hN : 4 * (i 0).val + 3 < cfg0.N := by rw [show cfg0.N = 8 from N_0]; omega
  refine ⟨⟨4 * (i 0).val + 3, hN⟩, (flush0_4 _).mpr (by show (4 * (i 0).val + 3) % 4 = 3; omega), ?_⟩
  obtain ⟨-, -, -, -, -, -, -, -, -, -, -, -, -, -, -, -, e0, e1, e2, -⟩ := blockIndex_of_point ⟨4 * (i 0).val + 3, hN⟩
  show i ∈ ((View.whole main_v0_0).slice (win0_4.rect ⟨4 * (i 0).val + 3, hN⟩)).set
  rw [View.set_slice_whole, Rect.mem_set_unit]
  intro a
  match a with
  | ⟨0, _⟩ => show win0_4.index ⟨4 * (i 0).val + 3, hN⟩ (0 : Fin 3) * 1 ≤ (i 0).val ∧ (i 0).val < win0_4.index ⟨4 * (i 0).val + 3, hN⟩ (0 : Fin 3) * 1 + 1
              rw [e0]; show (4 * (i 0).val + 3) / 4 * 1 ≤ (i 0).val ∧ (i 0).val < (4 * (i 0).val + 3) / 4 * 1 + 1; omega
  | ⟨1, _⟩ => show win0_4.index ⟨4 * (i 0).val + 3, hN⟩ (1 : Fin 3) * 1 ≤ (i 1).val ∧ (i 1).val < win0_4.index ⟨4 * (i 0).val + 3, hN⟩ (1 : Fin 3) * 1 + 1
              rw [e1]; omega
  | ⟨2, _⟩ => show win0_4.index ⟨4 * (i 0).val + 3, hN⟩ (2 : Fin 3) * 1 ≤ (i 2).val ∧ (i 2).val < win0_4.index ⟨4 * (i 0).val + 3, hN⟩ (2 : Fin 3) * 1 + 1
              rw [e2]; omega

theorem cover5 (i : S2x1x1.Idx) : ∃ t : Fin cfg0.N, (cfg0.win 5).flush t = true ∧ i ∈ ((cfg0.win 5).blk t).view.set := by
  have h0 : (i 0).val < 2 := (i 0).isLt
  have h1 : (i 1).val < 1 := (i 1).isLt
  have h2 : (i 2).val < 1 := (i 2).isLt
  have hN : 4 * (i 0).val + 3 < cfg0.N := by rw [show cfg0.N = 8 from N_0]; omega
  refine ⟨⟨4 * (i 0).val + 3, hN⟩, (flush0_5 _).mpr (by show (4 * (i 0).val + 3) % 4 = 3; omega), ?_⟩
  obtain ⟨-, -, -, -, -, -, -, -, -, -, -, -, -, -, -, -, -, -, -, e0, e1, e2⟩ := blockIndex_of_point ⟨4 * (i 0).val + 3, hN⟩
  show i ∈ ((View.whole main_v0_1).slice (win0_5.rect ⟨4 * (i 0).val + 3, hN⟩)).set
  rw [View.set_slice_whole, Rect.mem_set_unit]
  intro a
  match a with
  | ⟨0, _⟩ => show win0_5.index ⟨4 * (i 0).val + 3, hN⟩ (0 : Fin 3) * 1 ≤ (i 0).val ∧ (i 0).val < win0_5.index ⟨4 * (i 0).val + 3, hN⟩ (0 : Fin 3) * 1 + 1
              rw [e0]; show (4 * (i 0).val + 3) / 4 * 1 ≤ (i 0).val ∧ (i 0).val < (4 * (i 0).val + 3) / 4 * 1 + 1; omega
  | ⟨1, _⟩ => show win0_5.index ⟨4 * (i 0).val + 3, hN⟩ (1 : Fin 3) * 1 ≤ (i 1).val ∧ (i 1).val < win0_5.index ⟨4 * (i 0).val + 3, hN⟩ (1 : Fin 3) * 1 + 1
              rw [e1]; omega
  | ⟨2, _⟩ => show win0_5.index ⟨4 * (i 0).val + 3, hN⟩ (2 : Fin 3) * 1 ≤ (i 2).val ∧ (i 2).val < win0_5.index ⟨4 * (i 0).val + 3, hN⟩ (2 : Fin 3) * 1 + 1
              rw [e2]; omega

theorem emb4_zero (t : Fin cfg0.N) (j : ((cfg0.win 4).xblock (cfg0.grid.coords t)).Idx) :
    ((((cfg0.win 4).blk t).view.emb j) 0).val = t.val / 4 := by
  obtain ⟨-, -, -, -, -, -, -, -, -, -, -, -, -, -, -, -, e0, -⟩ := blockIndex_of_point t
  have hj : (j 0).val < 1 := (j 0).isLt
  show win0_4.index t (0 : Fin 3) * 1 + 1 * (j 0).val = t.val / 4
  omega

theorem emb5_zero (t : Fin cfg0.N) (j : ((cfg0.win 5).xblock (cfg0.grid.coords t)).Idx) :
    ((((cfg0.win 5).blk t).view.emb j) 0).val = t.val / 4 := by
  obtain ⟨-, -, -, -, -, -, -, -, -, -, -, -, -, -, -, -, -, -, -, e0, -⟩ := blockIndex_of_point t
  have hj : (j 0).val < 1 := (j 0).isLt
  show win0_5.index t (0 : Fin 3) * 1 + 1 * (j 0).val = t.val / 4
  omega

end Cert.Val.R0
-- ==== Proof.Val.R0Val.lean ====
import proofs.«401957_j37563783971102_3_alg».proof.Proof.KI.R0
import proofs.«401957_j37563783971102_3_alg».proof.Proof.Val.R0Blk
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.Val.R0

open Cert.KernelIdeal Cert.KernelIdeal.Gen Cert.KernelIdeal.Hand

section Pieces
variable {F : FTy → Type} [FloatOps F] [Named F]

theorem origin3 : (![0, 0, 0] : Fin 3 → Nat) = fun _ => 0 := funext fun a => by fin_cases a <;> rfl
theorem origin4 : (![0, 0, 0, 0] : Fin 4 → Nat) = fun _ => 0 := funext fun a => by fin_cases a <;> rfl

theorem out_A_4 (c : Dev nD) (i : grid0.Coords) (o : Ops0) (hc0 : cond0_0 i)
    (x0 x1 x2 x3 : Vec F S1x1x512x512 .f32) :
    out0_A_4 c i o hc0 x0 x1 x2 x3 = addf zero (red x0 x1) := by
  unfold out0_A_4
  rw [View.read_writes_eq_canon _ _ _ (cover0_A_4 c i o hc0 x0 x1 x2 x3)]
  unfold run0A
  dsimp only
  sl_unfold_words
  rw [View.canon_cons_unit_zero (S := S1x1x1) origin3, View.readCov_unit_zero (S := S1x1x1) _ origin3]
  simp only [View.readAt_eq_ld, o.h2.read_unread, o.h3.read_unread, View.ld_unit_zero (S := S1x1x512x512) origin4, View.ld_unit_zero (S := S1x1x1) origin3]
  rw [shapeCast_self, shapeCast_shapeCast]
  rfl

theorem out_A_5 (c : Dev nD) (i : grid0.Coords) (o : Ops0) (hc0 : cond0_0 i)
    (x0 x1 x2 x3 : Vec F S1x1x512x512 .f32) :
    out0_A_5 c i o hc0 x0 x1 x2 x3 = addf zero (red x2 x3) := by
  unfold out0_A_5
  rw [View.read_writes_eq_canon _ _ _ (cover0_A_5 c i o hc0 x0 x1 x2 x3)]
  unfold run0A
  dsimp only
  sl_unfold_words
  rw [View.canon_cons_unit_zero (S := S1x1x1) origin3, View.readCov_unit_zero (S := S1x1x1) _ origin3]
  simp only [View.readAt_eq_ld, o.h4.read_unread, o.h5.read_unread, View.ld_unit_zero (S := S1x1x512x512) origin4, View.ld_unit_zero (S := S1x1x1) origin3]
  exact pay1_eq x2 x3 _

theorem out_B_4 (c : Dev nD) (i : grid0.Coords) (o : Ops0) (hc0 : ¬cond0_0 i)
    (x0 x1 x2 x3 : Vec F S1x1x512x512 .f32) (xo4 xo5 : Vec F S1x1x1 .f32) :
    out0_B_4 c i o hc0 x0 x1 x2 x3 xo4 xo5 = addf xo4 (red x0 x1) := by
  unfold out0_B_4
  rw [View.read_writes_eq_canon _ _ _ (cover0_B_4 c i o hc0 x0 x1 x2 x3 xo4 xo5)]
  unfold run0B
  dsimp only
  sl_unfold_words
  rw [View.canon_unit_zero origin3]
  simp only [View.readAt_eq_ld, o.h2.read_unread, o.h3.read_unread, o.h6.read_unread, View.ld_unit_zero (S := S1x1x512x512) origin4, View.ld_unit_zero (S := S1x1x1) origin3]
  rw [shapeCast_self, shapeCast_shapeCast]
  rfl

theorem out_B_5 (c : Dev nD) (i : grid0.Coords) (o : Ops0) (hc0 : ¬cond0_0 i)
    (x0 x1 x2 x3 : Vec F S1x1x512x512 .f32) (xo4 xo5 : Vec F S1x1x1 .f32) :
    out0_B_5 c i o hc0 x0 x1 x2 x3 xo4 xo5 = addf xo5 (red x2 x3) := by
  unfold out0_B_5
  rw [View.read_writes_eq_canon _ _ _ (cover0_B_5 c i o hc0 x0 x1 x2 x3 xo4 xo5)]
  unfold run0B
  dsimp only
  sl_unfold_words
  rw [View.canon_unit_zero origin3]
  simp only [View.readAt_eq_ld, o.h4.read_unread, o.h5.read_unread, o.h7.read_unread, View.ld_unit_zero (S := S1x1x512x512) origin4, View.ld_unit_zero (S := S1x1x1) origin3]
  exact pay1_eq x2 x3 _

end Pieces

section Chain
variable {F : FTy → Type} [FloatOps F] [Named F]
variable (V : (c : Dev nD) → (b : Ref sig .tc) → Buf (Elt F) ((c : Thread nD τ).loc b))

def acc (c : Dev nD) : (n : ℕ) → n < cfg0.N → Vec F S1x1x1 .f32 × Vec F S1x1x1 .f32
  | 0, h => (addf zero (red (xb0 V c ⟨0, h⟩) (xb1 V c ⟨0, h⟩)), addf zero (red (xb2 V c ⟨0, h⟩) (xb3 V c ⟨0, h⟩)))
  | n + 1, h =>
    if (n + 1) % 4 = 0 then
      (addf zero (red (xb0 V c ⟨n + 1, h⟩) (xb1 V c ⟨n + 1, h⟩)), addf zero (red (xb2 V c ⟨n + 1, h⟩) (xb3 V c ⟨n + 1, h⟩)))
    else
      (addf (acc c n (Nat.lt_of_succ_lt h)).1 (red (xb0 V c ⟨n + 1, h⟩) (xb1 V c ⟨n + 1, h⟩)),
        addf (acc c n (Nat.lt_of_succ_lt h)).2 (red (xb2 V c ⟨n + 1, h⟩) (xb3 V c ⟨n + 1, h⟩)))

theorem outsAt_eq (c : Dev nD) : ∀ (n : ℕ) (h : n < cfg0.N), outsAt0 V c n h = acc V c n h
  | 0, h => by
    refine (outsAt0_A V c ⟨0, h⟩ (Nat.zero_mod 4)).trans ?_
    rw [out_A_4, out_A_5]
    rfl
  | n + 1, h => by
    by_cases h0 : (n + 1) % 4 = 0
    · rw [outsAt0_A V c ⟨n + 1, h⟩ h0, out_A_4, out_A_5, acc, if_pos h0]
    · rw [outsAt0_B V c ⟨n + 1, h⟩ h0, out_B_4, out_B_5, acc, if_neg h0]
      show (addf (outsAt0 V c n _).1 _, addf (outsAt0 V c n _).2 _) = (addf (acc V c n _).1 _, addf (acc V c n _).2 _)
      rw [outsAt_eq c n]

end Chain

section AtIdeal
variable (V : (c : Dev nD) → (b : Ref sig .tc) → Buf (Elt Ideal) ((c : Thread nD τ).loc b))

theorem lt3 : 3 < cfg0.N := Nat.lt_of_lt_of_eq (by decide : 3 < 8) N_0.symm
theorem lt7 : 7 < cfg0.N := Nat.lt_of_lt_of_eq (by decide : 7 < 8) N_0.symm

theorem addf_apply (x y : FVec Ideal S1x1x1 .f32) (j : S1x1x1.Idx) : addf x y j = x j + y j := rfl

theorem acc3_fst (c : Dev nD) (h : 3 < cfg0.N) (j : S1x1x1.Idx) :
    (acc V c 3 h).1 j = mseCoreAt (arr0 V c) (arr1 V c) 0 := by
  show addf (addf (addf (addf zero (red (xb0 V c ⟨0, _⟩) (xb1 V c ⟨0, _⟩))) (red (xb0 V c ⟨1, _⟩) (xb1 V c ⟨1, _⟩)))
    (red (xb0 V c ⟨2, _⟩) (xb1 V c ⟨2, _⟩))) (red (xb0 V c ⟨3, _⟩) (xb1 V c ⟨3, _⟩)) j = _
  rw [addf_apply, addf_apply, addf_apply, addf_apply, zero_apply, red_apply, red_apply, red_apply, red_apply,
    sq_xb01, sq_xb01, sq_xb01, sq_xb01]
  rfl

theorem acc3_snd (c : Dev nD) (h : 3 < cfg0.N) (j : S1x1x1.Idx) :
    (acc V c 3 h).2 j = mseCoreAt (arr2 V c) (arr3 V c) 0 := by
  show addf (addf (addf (addf zero (red (xb2 V c ⟨0, _⟩) (xb3 V c ⟨0, _⟩))) (red (xb2 V c ⟨1, _⟩) (xb3 V c ⟨1, _⟩)))
    (red (xb2 V c ⟨2, _⟩) (xb3 V c ⟨2, _⟩))) (red (xb2 V c ⟨3, _⟩) (xb3 V c ⟨3, _⟩)) j = _
  rw [addf_apply, addf_apply, addf_apply, addf_apply, zero_apply, red_apply, red_apply, red_apply, red_apply,
    sq_xb23, sq_xb23, sq_xb23, sq_xb23]
  rfl

theorem acc7_fst (c : Dev nD) (h : 7 < cfg0.N) (j : S1x1x1.Idx) :
    (acc V c 7 h).1 j = mseCoreAt (arr0 V c) (arr1 V c) 1 := by
  show addf (addf (addf (addf zero (red (xb0 V c ⟨4, _⟩) (xb1 V c ⟨4, _⟩))) (red (xb0 V c ⟨5, _⟩) (xb1 V c ⟨5, _⟩)))
    (red (xb0 V c ⟨6, _⟩) (xb1 V c ⟨6, _⟩))) (red (xb0 V c ⟨7, _⟩) (xb1 V c ⟨7, _⟩)) j = _
  rw [addf_apply, addf_apply, addf_apply, addf_apply, zero_apply, red_apply, red_apply, red_apply, red_apply,
    sq_xb01, sq_xb01, sq_xb01, sq_xb01]
  rfl

theorem acc7_snd (c : Dev nD) (h : 7 < cfg0.N) (j : S1x1x1.Idx) :
    (acc V c 7 h).2 j = mseCoreAt (arr2 V c) (arr3 V c) 1 := by
  show addf (addf (addf (addf zero (red (xb2 V c ⟨4, _⟩) (xb3 V c ⟨4, _⟩))) (red (xb2 V c ⟨5, _⟩) (xb3 V c ⟨5, _⟩)))
    (red (xb2 V c ⟨6, _⟩) (xb3 V c ⟨6, _⟩))) (red (xb2 V c ⟨7, _⟩) (xb3 V c ⟨7, _⟩)) j = _
  rw [addf_apply, addf_apply, addf_apply, addf_apply, zero_apply, red_apply, red_apply, red_apply, red_apply,
    sq_xb23, sq_xb23, sq_xb23, sq_xb23]
  rfl

theorem flushed4_eq (c : Dev nD) (t : Fin cfg0.N) (hf : (cfg0.win 4).flush t = true) :
    (dat0 V c).flushed 4 t = ((cfg0.win 4).blk t).view.read (Elt Ideal) (mseCore (arr0 V c) (arr1 V c)) := by
  have h3 : t.val % 4 = 3 := (flush0_4 t).mp hf
  have hN : cfg0.N = 8 := N_0
  show (cfg0.win 4).cut (grid0.coords t) ((dat0 V c).after 4 t) = _
  rw [after0_4, outsAt_eq]
  funext j
  rw [View.read_apply]
  have ht : t.val = 3 ∨ t.val = 7 := by have := t.isLt; omega
  rcases ht with ht | ht
  · obtain rfl : t = ⟨3, lt3⟩ := Fin.ext ht
    refine (acc3_fst V c _ _).trans ?_
    exact congrArg (mseCoreAt (arr0 V c) (arr1 V c)) (Fin.ext (emb4_zero ⟨3, lt3⟩ j).symm)
  · obtain rfl : t = ⟨7, lt7⟩ := Fin.ext ht
    refine (acc7_fst V c _ _).trans ?_
    exact congrArg (mseCoreAt (arr0 V c) (arr1 V c)) (Fin.ext (emb4_zero ⟨7, lt7⟩ j).symm)

theorem flushed5_eq (c : Dev nD) (t : Fin cfg0.N) (hf : (cfg0.win 5).flush t = true) :
    (dat0 V c).flushed 5 t = ((cfg0.win 5).blk t).view.read (Elt Ideal) (mseCore (arr2 V c) (arr3 V c)) := by
  have h3 : t.val % 4 = 3 := (flush0_5 t).mp hf
  have hN : cfg0.N = 8 := N_0
  show (cfg0.win 5).cut (grid0.coords t) ((dat0 V c).after 5 t) = _
  rw [after0_5, outsAt_eq]
  funext j
  rw [View.read_apply]
  have ht : t.val = 3 ∨ t.val = 7 := by have := t.isLt; omega
  rcases ht with ht | ht
  · obtain rfl : t = ⟨3, lt3⟩ := Fin.ext ht
    refine (acc3_snd V c _ _).trans ?_
    exact congrArg (mseCoreAt (arr2 V c) (arr3 V c)) (Fin.ext (emb5_zero ⟨3, lt3⟩ j).symm)
  · obtain rfl : t = ⟨7, lt7⟩ := Fin.ext ht
    refine (acc7_snd V c _ _).trans ?_
    exact congrArg (mseCoreAt (arr2 V c) (arr3 V c)) (Fin.ext (emb5_zero ⟨7, lt7⟩ j).symm)

theorem final4 (c : Dev nD) : (dat0 V c).arrAt 4 cfg0.N = mseCore (arr0 V c) (arr1 V c) :=
  (dat0 V c).arrAt_eq_of_cover 4 (mseCore (arr0 V c) (arr1 V c)) (flushed4_eq V c) cover4

theorem final5 (c : Dev nD) : (dat0 V c).arrAt 5 cfg0.N = mseCore (arr2 V c) (arr3 V c) :=
  (dat0 V c).arrAt_eq_of_cover 5 (mseCore (arr2 V c) (arr3 V c)) (flushed5_eq V c) cover5

end AtIdeal

end Cert.Val.R0
-- ==== Proof.Val.R1Blocks.lean ====
import proofs.«401957_j37563783971102_3_alg».proof.Proof.KI.C1
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Val.R1

open Cert.KernelIdeal Cert.KernelIdeal.Gen Cert.KernelIdeal.Hand

theorem blockIndex_of_point : ∀ t : Fin cfg1.N,
    win1_0.index t (0 : Fin 3) = t.val / 10 ∧ win1_0.index t (1 : Fin 3) = t.val % 5 ∧ win1_0.index t (2 : Fin 3) = 0
    ∧ win1_1.index t (0 : Fin 3) = t.val / 10 ∧ win1_1.index t (1 : Fin 3) = 0 ∧ win1_1.index t (2 : Fin 3) = 0
    ∧ win1_2.index t (0 : Fin 3) = t.val / 10 ∧ win1_2.index t (1 : Fin 3) = 0 ∧ win1_2.index t (2 : Fin 3) = 0
    ∧ win1_3.index t (0 : Fin 3) = t.val / 10 ∧ win1_3.index t (1 : Fin 3) = 0 ∧ win1_3.index t (2 : Fin 3) = 0
    ∧ win1_4.index t (0 : Fin 3) = t.val / 10 ∧ win1_4.index t (1 : Fin 3) = 0 ∧ win1_4.index t (2 : Fin 3) = 0 :=
  (by decide +kernel : ∀ t : Fin grid1.N, _)

def probOf (t : Fin cfg1.N) : Fin 2 := ⟨t.val / 10, by have := Nat.lt_of_lt_of_eq t.isLt N_1; omega⟩

def tileOf (t : Fin cfg1.N) : Fin 5 := ⟨t.val % 5, Nat.mod_lt _ (by decide)⟩

def rowAt (t : Fin cfg1.N) (r : Fin 2000) : Fin 10000 :=
  ⟨2000 * (t.val % 5) + r.val, by have := Nat.mod_lt t.val (show 0 < 5 by decide); have := r.isLt; omega⟩

theorem probOf_val (t : Fin cfg1.N) : (probOf t).val = t.val / 10 := rfl
theorem tileOf_val (t : Fin cfg1.N) : (tileOf t).val = t.val % 5 := rfl
theorem rowAt_val (t : Fin cfg1.N) (r : Fin 2000) : (rowAt t r).val = 2000 * (t.val % 5) + r.val := rfl

section Blocks
variable {F : FTy → Type} [FloatOps F] [Named F]
variable (V : (d : Dev nD) → (b : Ref sig .tc) → Buf (Elt F) ((d : Thread nD τ).loc b))

abbrev xarr (d : Dev nD) : Vec F S2x10000x256 .bf16 := V d main_v28
abbrev aarr (d : Dev nD) : Vec F S2x1024x256 .bf16 := V d main_v31
abbrev yarr (d : Dev nD) : Vec F S2x1x1024 .i32 := V d main_v34
abbrev xblk (d : Dev nD) (t : Fin cfg1.N) : Vec F S1x2000x256 .bf16 := iblk1 V d 0 t
abbrev ablk (d : Dev nD) (t : Fin cfg1.N) : Vec F S1x1024x256 .bf16 := iblk1 V d 1 t
abbrev yblk (d : Dev nD) (t : Fin cfg1.N) : Vec F S1x1x1024 .i32 := iblk1 V d 2 t

theorem xblk_apply (d : Dev nD) (t : Fin cfg1.N) (r : Fin 2000) (k : Fin 256) :
    xblk V d t (ix3 (0 : Fin 1) r k) = xarr V d (ix3 (probOf t) (rowAt t r) k) := by
  obtain ⟨e0, e1, e2, -⟩ := blockIndex_of_point t
  show iblk1 V d 0 t _ = _
  unfold iblk1
  rw [View.read_apply]
  show V d main_v28 _ = V d main_v28 _
  congr 1
  funext a
  apply Fin.ext
  match a with
  | ⟨0, _⟩ => show win1_0.index t (0 : Fin 3) * 1 + 1 * 0 = t.val / 10; omega
  | ⟨1, _⟩ => show win1_0.index t (1 : Fin 3) * 2000 + 1 * r.val = 2000 * (t.val % 5) + r.val; omega
  | ⟨2, _⟩ => show win1_0.index t (2 : Fin 3) * 256 + 1 * k.val = k.val; omega

theorem ablk_apply (d : Dev nD) (t : Fin cfg1.N) (n : Fin 1024) (k : Fin 256) :
    ablk V d t (ix3 (0 : Fin 1) n k) = aarr V d (ix3 (probOf t) n k) := by
  obtain ⟨-, -, -, e0, e1, e2, -⟩ := blockIndex_of_point t
  show iblk1 V d 1 t _ = _
  unfold iblk1
  rw [View.read_apply]
  show V d main_v31 _ = V d main_v31 _
  congr 1
  funext a
  apply Fin.ext
  match a with
  | ⟨0, _⟩ => show win1_1.index t (0 : Fin 3) * 1 + 1 * 0 = t.val / 10; omega
  | ⟨1, _⟩ => show win1_1.index t (1 : Fin 3) * 1024 + 1 * n.val = n.val; omega
  | ⟨2, _⟩ => show win1_1.index t (2 : Fin 3) * 256 + 1 * k.val = k.val; omega

theorem yblk_apply (d : Dev nD) (t : Fin cfg1.N) (n : Fin 1024) :
    yblk V d t (ix3 (0 : Fin 1) (0 : Fin 1) n) = yarr V d (ix3 (probOf t) (0 : Fin 1) n) := by
  obtain ⟨-, -, -, -, -, -, e0, e1, e2, -⟩ := blockIndex_of_point t
  show iblk1 V d 2 t _ = _
  unfold iblk1
  rw [View.read_apply]
  show V d main_v34 _ = V d main_v34 _
  congr 1
  funext a
  apply Fin.ext
  match a with
  | ⟨0, _⟩ => show win1_2.index t (0 : Fin 3) * 1 + 1 * 0 = t.val / 10; omega
  | ⟨1, _⟩ => show win1_2.index t (1 : Fin 3) * 1 + 1 * 0 = 0; omega
  | ⟨2, _⟩ => show win1_2.index t (2 : Fin 3) * 1024 + 1 * n.val = n.val; omega

end Blocks

section AtIdeal
variable (V : (d : Dev nD) → (b : Ref sig .tc) → Buf (Elt Ideal) ((d : Thread nD τ).loc b))

def Xp (d : Dev nD) (p : Fin 2) (j : Fin 10000) (k : Fin 256) : EReal := xarr V d (ix3 p j k)

def Ap (d : Dev nD) (p : Fin 2) (n : Fin 1024) (k : Fin 256) : EReal := aarr V d (ix3 p n k)

def yp (d : Dev nD) (p : Fin 2) (n : Fin 1024) : BitVec 32 := yarr V d (ix3 p (0 : Fin 1) n)

theorem xblk_Xp (d : Dev nD) (t : Fin cfg1.N) (r : Fin 2000) (k : Fin 256) :
    xblk V d t (ix3 (0 : Fin 1) r k) = Xp V d (probOf t) (rowAt t r) k := xblk_apply V d t r k

theorem ablk_Ap (d : Dev nD) (t : Fin cfg1.N) (n : Fin 1024) (k : Fin 256) :
    ablk V d t (ix3 (0 : Fin 1) n k) = Ap V d (probOf t) n k := ablk_apply V d t n k

theorem yblk_yp (d : Dev nD) (t : Fin cfg1.N) (n : Fin 1024) :
    yblk V d t (ix3 (0 : Fin 1) (0 : Fin 1) n) = yp V d (probOf t) n := yblk_apply V d t n

end AtIdeal

end Cert.Val.R1

end
-- ==== Proof.Val.R1Cover.lean ====
import proofs.«401957_j37563783971102_3_alg».proof.Proof.Val.R1Blocks

noncomputable section

open Idealize.ShloMosaic Idealize.ShloMosaic.TcCoe Idealize.SL.Sem Idealize.ShloMosaic.ValueIdx
open Idealize.ShloMosaic.Pipeline (Dat)

namespace Cert.Val.R1

open Cert.KernelIdeal Cert.KernelIdeal.Gen Cert.KernelIdeal.Hand

section
variable {F : FTy → Type} [FloatOps F] [Named F]
variable {c : Dev nD} (dat : Dat τ (Elt F) Unit ℕ (UR sig nD τ) ℕ cfg1 c)

theorem mem_blk3 (t : Fin cfg1.N) (i : S2x1x1024.Idx) :
    i ∈ ((cfg1.win 3).blk t).view.set ↔ ∀ a : Fin 3, win1_3.index t a * S1x1x1024.size a ≤ (i a).val
      ∧ (i a).val < win1_3.index t a * S1x1x1024.size a + S1x1x1024.size a := by
  show i ∈ ((View.whole main_v35_0).slice (win1_3.rect t)).set ↔ _
  rw [View.set_slice_whole, Rect.mem_set_unit]
  exact Iff.rfl

theorem flushed3_eq (G : S2x1x1024.Idx → Elt F .f32)
    (h : ∀ t : Fin cfg1.N, t.val % 10 = 9 → ∀ n : Fin 1024,
      dat.after 3 t (ix3 (0 : Fin 1) (0 : Fin 1) n) = G (ix3 (probOf t) (0 : Fin 1) n))
    (t : Fin cfg1.N) (hf : (cfg1.win 3).flush t = true) :
    dat.flushed 3 t = ((cfg1.win 3).blk t).view.read (Elt F) G := by
  have h9 : t.val % 10 = 9 := (flush1_3 t).mp hf
  obtain ⟨-, -, -, -, -, -, -, -, -, e0, e1, e2, -⟩ := blockIndex_of_point t
  show (cfg1.win 3).cut (grid1.coords t) (dat.after 3 t) = _
  funext j
  have hj0 : (j 0).val < 1 := (j 0).isLt
  have hj1 : (j 1).val < 1 := (j 1).isLt
  have hj2 : (j 2).val < 1024 := (j 2).isLt
  have hL : (cfg1.win 3).xinj (grid1.coords t) j = ix3 (0 : Fin 1) (0 : Fin 1) (⟨(j 2).val, hj2⟩ : Fin 1024) := by
    funext a; apply Fin.ext
    match a with
    | ⟨0, _⟩ => show (j 0).val = 0; omega
    | ⟨1, _⟩ => show (j 1).val = 0; omega
    | ⟨2, _⟩ => rfl
  have hR : ((cfg1.win 3).blk t).view.emb j = ix3 (probOf t) (0 : Fin 1) (⟨(j 2).val, hj2⟩ : Fin 1024) := by
    funext a; apply Fin.ext
    match a with
    | ⟨0, _⟩ => show win1_3.index t (0 : Fin 3) * 1 + 1 * (j 0).val = t.val / 10; omega
    | ⟨1, _⟩ => show win1_3.index t (1 : Fin 3) * 1 + 1 * (j 1).val = 0; omega
    | ⟨2, _⟩ => show win1_3.index t (2 : Fin 3) * 1024 + 1 * (j 2).val = (j 2).val; omega
  show dat.after 3 t ((cfg1.win 3).xinj (grid1.coords t) j) = G (((cfg1.win 3).blk t).view.emb j)
  refine (congrArg (dat.after 3 t) hL).trans ?_
  refine (h t h9 ⟨(j 2).val, hj2⟩).trans ?_
  exact (congrArg G hR).symm

theorem cover3 (i : S2x1x1024.Idx) :
    ∃ t : Fin cfg1.N, (cfg1.win 3).flush t = true ∧ i ∈ ((cfg1.win 3).blk t).view.set := by
  have hi0 : (i 0).val < 2 := (i 0).isLt
  have hi1 : (i 1).val < 1 := (i 1).isLt
  have hi2 : (i 2).val < 1024 := (i 2).isLt
  have hN : cfg1.N = 20 := N_1
  have ht : 10 * (i 0).val + 9 < cfg1.N := by omega
  obtain ⟨-, -, -, -, -, -, -, -, -, e0, e1, e2, -⟩ := blockIndex_of_point ⟨10 * (i 0).val + 9, ht⟩
  have tv : (⟨10 * (i 0).val + 9, ht⟩ : Fin cfg1.N).val = 10 * (i 0).val + 9 := rfl
  refine ⟨⟨10 * (i 0).val + 9, ht⟩, (flush1_3 _).mpr (by omega), ?_⟩
  rw [mem_blk3]
  intro a
  match a with
  | ⟨0, _⟩ =>
    show win1_3.index ⟨10 * (i 0).val + 9, ht⟩ (0 : Fin 3) * 1 ≤ (i 0).val
      ∧ (i 0).val < win1_3.index ⟨10 * (i 0).val + 9, ht⟩ (0 : Fin 3) * 1 + 1
    omega
  | ⟨1, _⟩ =>
    show win1_3.index ⟨10 * (i 0).val + 9, ht⟩ (1 : Fin 3) * 1 ≤ (i 1).val
      ∧ (i 1).val < win1_3.index ⟨10 * (i 0).val + 9, ht⟩ (1 : Fin 3) * 1 + 1
    omega
  | ⟨2, _⟩ =>
    show win1_3.index ⟨10 * (i 0).val + 9, ht⟩ (2 : Fin 3) * 1024 ≤ (i 2).val
      ∧ (i 2).val < win1_3.index ⟨10 * (i 0).val + 9, ht⟩ (2 : Fin 3) * 1024 + 1024
    omega

theorem arrAt3_of (G : S2x1x1024.Idx → Elt F .f32)
    (h : ∀ t : Fin cfg1.N, t.val % 10 = 9 → ∀ n : Fin 1024,
      dat.after 3 t (ix3 (0 : Fin 1) (0 : Fin 1) n) = G (ix3 (probOf t) (0 : Fin 1) n)) :
    dat.arrAt 3 cfg1.N = G :=
  dat.arrAt_eq_of_cover 3 G (flushed3_eq dat G h) cover3

theorem mem_blk4 (t : Fin cfg1.N) (i : S2x1x1024.Idx) :
    i ∈ ((cfg1.win 4).blk t).view.set ↔ ∀ a : Fin 3, win1_4.index t a * S1x1x1024.size a ≤ (i a).val
      ∧ (i a).val < win1_4.index t a * S1x1x1024.size a + S1x1x1024.size a := by
  show i ∈ ((View.whole main_v35_1).slice (win1_4.rect t)).set ↔ _
  rw [View.set_slice_whole, Rect.mem_set_unit]
  exact Iff.rfl

theorem flushed4_eq (G : S2x1x1024.Idx → Elt F .f32)
    (h : ∀ t : Fin cfg1.N, t.val % 10 = 9 → ∀ n : Fin 1024,
      dat.after 4 t (ix3 (0 : Fin 1) (0 : Fin 1) n) = G (ix3 (probOf t) (0 : Fin 1) n))
    (t : Fin cfg1.N) (hf : (cfg1.win 4).flush t = true) :
    dat.flushed 4 t = ((cfg1.win 4).blk t).view.read (Elt F) G := by
  have h9 : t.val % 10 = 9 := (flush1_4 t).mp hf
  obtain ⟨-, -, -, -, -, -, -, -, -, -, -, -, e0, e1, e2⟩ := blockIndex_of_point t
  show (cfg1.win 4).cut (grid1.coords t) (dat.after 4 t) = _
  funext j
  have hj0 : (j 0).val < 1 := (j 0).isLt
  have hj1 : (j 1).val < 1 := (j 1).isLt
  have hj2 : (j 2).val < 1024 := (j 2).isLt
  have hL : (cfg1.win 4).xinj (grid1.coords t) j = ix3 (0 : Fin 1) (0 : Fin 1) (⟨(j 2).val, hj2⟩ : Fin 1024) := by
    funext a; apply Fin.ext
    match a with
    | ⟨0, _⟩ => show (j 0).val = 0; omega
    | ⟨1, _⟩ => show (j 1).val = 0; omega
    | ⟨2, _⟩ => rfl
  have hR : ((cfg1.win 4).blk t).view.emb j = ix3 (probOf t) (0 : Fin 1) (⟨(j 2).val, hj2⟩ : Fin 1024) := by
    funext a; apply Fin.ext
    match a with
    | ⟨0, _⟩ => show win1_4.index t (0 : Fin 3) * 1 + 1 * (j 0).val = t.val / 10; omega
    | ⟨1, _⟩ => show win1_4.index t (1 : Fin 3) * 1 + 1 * (j 1).val = 0; omega
    | ⟨2, _⟩ => show win1_4.index t (2 : Fin 3) * 1024 + 1 * (j 2).val = (j 2).val; omega
  show dat.after 4 t ((cfg1.win 4).xinj (grid1.coords t) j) = G (((cfg1.win 4).blk t).view.emb j)
  refine (congrArg (dat.after 4 t) hL).trans ?_
  refine (h t h9 ⟨(j 2).val, hj2⟩).trans ?_
  exact (congrArg G hR).symm

theorem cover4 (i : S2x1x1024.Idx) :
    ∃ t : Fin cfg1.N, (cfg1.win 4).flush t = true ∧ i ∈ ((cfg1.win 4).blk t).view.set := by
  have hi0 : (i 0).val < 2 := (i 0).isLt
  have hi1 : (i 1).val < 1 := (i 1).isLt
  have hi2 : (i 2).val < 1024 := (i 2).isLt
  have hN : cfg1.N = 20 := N_1
  have ht : 10 * (i 0).val + 9 < cfg1.N := by omega
  obtain ⟨-, -, -, -, -, -, -, -, -, -, -, -, e0, e1, e2⟩ := blockIndex_of_point ⟨10 * (i 0).val + 9, ht⟩
  have tv : (⟨10 * (i 0).val + 9, ht⟩ : Fin cfg1.N).val = 10 * (i 0).val + 9 := rfl
  refine ⟨⟨10 * (i 0).val + 9, ht⟩, (flush1_4 _).mpr (by omega), ?_⟩
  rw [mem_blk4]
  intro a
  match a with
  | ⟨0, _⟩ =>
    show win1_4.index ⟨10 * (i 0).val + 9, ht⟩ (0 : Fin 3) * 1 ≤ (i 0).val
      ∧ (i 0).val < win1_4.index ⟨10 * (i 0).val + 9, ht⟩ (0 : Fin 3) * 1 + 1
    omega
  | ⟨1, _⟩ =>
    show win1_4.index ⟨10 * (i 0).val + 9, ht⟩ (1 : Fin 3) * 1 ≤ (i 1).val
      ∧ (i 1).val < win1_4.index ⟨10 * (i 0).val + 9, ht⟩ (1 : Fin 3) * 1 + 1
    omega
  | ⟨2, _⟩ =>
    show win1_4.index ⟨10 * (i 0).val + 9, ht⟩ (2 : Fin 3) * 1024 ≤ (i 2).val
      ∧ (i 2).val < win1_4.index ⟨10 * (i 0).val + 9, ht⟩ (2 : Fin 3) * 1024 + 1024
    omega

theorem arrAt4_of (G : S2x1x1024.Idx → Elt F .f32)
    (h : ∀ t : Fin cfg1.N, t.val % 10 = 9 → ∀ n : Fin 1024,
      dat.after 4 t (ix3 (0 : Fin 1) (0 : Fin 1) n) = G (ix3 (probOf t) (0 : Fin 1) n)) :
    dat.arrAt 4 cfg1.N = G :=
  dat.arrAt_eq_of_cover 4 G (flushed4_eq dat G h) cover4

end

end Cert.Val.R1

end
-- ==== Proof.Spec.lean ====
import Idealize.ShloMosaic.PureOps.Ideal

noncomputable section

open scoped BigOperators

namespace Cert.Spec

open Idealize.ShloMosaic

def κ : EReal := ((134217728 / 13421773 : ℝ) : EReal)

variable (X : Fin 10000 → Fin 256 → EReal) (A : Fin 1024 → Fin 256 → EReal) (y : Fin 1024 → BitVec 32)

def dot (j : Fin 10000) (n : Fin 1024) : EReal := ∑ k : Fin 256, X j k * A n k

def logit (j : Fin 10000) (n : Fin 1024) : EReal := dot X A j n * κ

def row (T : Fin 25) (j : Fin 400) : Fin 10000 := ⟨T.val * 400 + j.val, by have := T.isLt; have := j.isLt; omega⟩

def Lt (T : Fin 25) (j : Fin 400) (n : Fin 1024) : EReal := logit X A (row T j) n

def neg1 (n : Fin 1024) : EReal := if y n = 1#32 then 0 else 1

def pos1 (n : Fin 1024) : EReal := if y n = 1#32 then 1 else 0

def neg0 (n : Fin 1024) : EReal := if y n = 0#32 then 0 else 1

def pos0 (n : Fin 1024) : EReal := if y n = 0#32 then 1 else 0

def tileMax (T : Fin 25) (n : Fin 1024) : EReal := (Finset.univ : Finset (Fin 400)).fold max ⊥ (fun j => Lt X A T j n)

def stepA (T : Fin 25) (ms : (Fin 1024 → EReal) × (Fin 1024 → EReal)) : (Fin 1024 → EReal) × (Fin 1024 → EReal) :=
  (fun n => max (ms.1 n) (tileMax X A T n),
   fun n => Ideal.exp (ms.1 n - max (ms.1 n) (tileMax X A T n)) * ms.2 n
      + ∑ j : Fin 400, Ideal.exp (Lt X A T j n - max (ms.1 n) (tileMax X A T n)) * neg1 y n)

def passA : ℕ → (Fin 1024 → EReal) × (Fin 1024 → EReal)
  | 0 => (fun _ => ⊥, fun _ => 0)
  | k + 1 => if h : k < 25 then stepA X A y ⟨k, h⟩ (passA k) else passA k

def m0 (n : Fin 1024) : EReal := max ((passA X A y 25).1 n) 0

def sf (n : Fin 1024) : EReal :=
  (passA X A y 25).2 n * Ideal.exp ((passA X A y 25).1 n - m0 X A y n) + 10000 * Ideal.exp (-(m0 X A y n)) * neg0 y n

def zlp (n : Fin 1024) : EReal := -(m0 X A y n) - Ideal.log (Ideal.exp (-(m0 X A y n)) + sf X A y n)

def lp (T : Fin 25) (j : Fin 400) (n : Fin 1024) : EReal :=
  (Lt X A T j n - m0 X A y n) - Ideal.log (Ideal.exp (Lt X A T j n - m0 X A y n) + sf X A y n)

def maskB (T : Fin 25) (j : Fin 400) (n : Fin 1024) : EReal := if y n = 1#32 ∧ (row T j).val ≠ n.val then 1 else 0

def stepB (T : Fin 25) (pc : (Fin 1024 → EReal) × (Fin 1024 → EReal)) : (Fin 1024 → EReal) × (Fin 1024 → EReal) :=
  (fun n => pc.1 n + ∑ j : Fin 400, maskB y T j n * lp X A y T j n,
   fun n => pc.2 n + ∑ j : Fin 400, maskB y T j n)

def passB : ℕ → (Fin 1024 → EReal) × (Fin 1024 → EReal)
  | 0 => (fun n => 0 + 10000 * pos0 y n * zlp X A y n, fun n => 0 + 10000 * pos0 y n)
  | k + 1 => if h : k < 25 then stepB X A y ⟨k, h⟩ (passB k) else passB k

def posK (n : Fin 1024) : EReal := (passB X A y 25).1 n
def cntK (n : Fin 1024) : EReal := (passB X A y 25).2 n

def mlppK (n : Fin 1024) : EReal := if 0 < cntK X A y n then Ideal.div (posK X A y n) (cntK X A y n) else 0
def lossK (cT : EReal) : EReal := Ideal.div (0 + ∑ n : Fin 1024, cT * mlppK X A y n) 1024

def rlogit (r : Fin 20000) (n : Fin 1024) : EReal :=
  if h : r.val < 10000 then Ideal.div (∑ k : Fin 256, A n k * X ⟨r.val, h⟩ k) ((13421773 / 134217728 : ℝ) : EReal)
  else Ideal.div (∑ k : Fin 256, A n k * 0) ((13421773 / 134217728 : ℝ) : EReal)

def rsame (r : Fin 20000) (n : Fin 1024) : EReal :=
  if y n = (if r.val < 10000 then 1#32 else 0#32) then 1 else 0
def refMax (n : Fin 1024) : EReal := (Finset.univ : Finset (Fin 20000)).fold max ⊥ (fun r => rlogit X A r n)
def refNeg (n : Fin 1024) : EReal :=
  0 + ∑ r : Fin 20000, Ideal.exp (rlogit X A r n - refMax X A n) * (1 - rsame y r n)
def rlp (r : Fin 20000) (n : Fin 1024) : EReal :=
  (rlogit X A r n - refMax X A n) - Ideal.log (Ideal.exp (rlogit X A r n - refMax X A n) + refNeg X A y n)
def rmask (r : Fin 20000) (n : Fin 1024) : EReal := rsame y r n * (1 - (if n.val = r.val then 1 else 0))
def refPos (n : Fin 1024) : EReal := 0 + ∑ r : Fin 20000, rmask y r n * rlp X A y r n
def refCnt (n : Fin 1024) : EReal := 0 + ∑ r : Fin 20000, rmask y r n
def lossR (cT : EReal) : EReal := Ideal.div (0 + ∑ n : Fin 1024, cT * Ideal.div (refPos X A y n) (refCnt y n)) 1024

def Bridge (cT : EReal) : Prop :=
  (∀ j k, ∃ r : ℝ, X j k = (r : EReal)) → (∀ n k, ∃ r : ℝ, A n k = (r : EReal)) → (∀ n, y n = 0#32 ∨ y n = 1#32) →
    lossK X A y cT = lossR X A y cT

end Cert.Spec

end
-- ==== Proof.Val.R1Final.lean ====
import proofs.«401957_j37563783971102_3_alg».proof.Proof.KI.R1
import proofs.«401957_j37563783971102_3_alg».proof.Proof.Val.R1Cover
import proofs.«401957_j37563783971102_3_alg».proof.Proof.Spec

noncomputable section

open Idealize.ShloMosaic Idealize.ShloMosaic.TcCoe Idealize.SL.Sem Idealize.ShloMosaic.ValueIdx
open Idealize.ShloMosaic.Pipeline (Dat)

namespace Cert.Val.R1

open Cert.KernelIdeal Cert.KernelIdeal.Gen Cert.KernelIdeal.Hand

variable (V : (d : Dev nD) → (b : Ref sig .tc) → Buf (Elt Ideal) ((d : Thread nD τ).loc b))

def posArr (d : Dev nD) : S2x1x1024.Idx → EReal :=
  fun i => Spec.posK (Xp V d (i 0)) (Ap V d (i 0)) (yp V d (i 0)) (i 2)

def cntArr (d : Dev nD) : S2x1x1024.Idx → EReal :=
  fun i => Spec.cntK (Xp V d (i 0)) (Ap V d (i 0)) (yp V d (i 0)) (i 2)

theorem posArr_apply (d : Dev nD) (p : Fin 2) (n : Fin 1024) :
    posArr V d (ix3 p (0 : Fin 1) n) = Spec.posK (Xp V d p) (Ap V d p) (yp V d p) n := rfl

theorem cntArr_apply (d : Dev nD) (p : Fin 2) (n : Fin 1024) :
    cntArr V d (ix3 p (0 : Fin 1) n) = Spec.cntK (Xp V d p) (Ap V d p) (yp V d p) n := rfl

section
variable (d : Dev nD)
  (outs_final : ∀ t : Fin cfg1.N, t.val % 10 = 9 → ∀ n : Fin 1024,
    (outsAt1 V d t.val t.isLt).1 (ix3 (0 : Fin 1) (0 : Fin 1) n)
        = Spec.posK (Xp V d (probOf t)) (Ap V d (probOf t)) (yp V d (probOf t)) n
      ∧ (outsAt1 V d t.val t.isLt).2.1 (ix3 (0 : Fin 1) (0 : Fin 1) n)
        = Spec.cntK (Xp V d (probOf t)) (Ap V d (probOf t)) (yp V d (probOf t)) n)
include outs_final

theorem arrAt3_eq : (dat1 V d).arrAt 3 cfg1.N = posArr V d :=
  arrAt3_of (dat1 V d) (posArr V d) fun t h9 n =>
    (congrFun (after1_3 V d t) (ix3 (0 : Fin 1) (0 : Fin 1) n)).trans (outs_final t h9 n).1

theorem arrAt4_eq : (dat1 V d).arrAt 4 cfg1.N = cntArr V d :=
  arrAt4_of (dat1 V d) (cntArr V d) fun t h9 n =>
    (congrFun (after1_4 V d t) (ix3 (0 : Fin 1) (0 : Fin 1) n)).trans (outs_final t h9 n).2

end

end Cert.Val.R1

end
-- ==== Proof.Val.R1Inv.lean ====
import proofs.«401957_j37563783971102_3_alg».proof.Proof.KI.R1
import proofs.«401957_j37563783971102_3_alg».proof.Proof.Val.R1Blocks
import proofs.«401957_j37563783971102_3_alg».proof.Proof.Spec

noncomputable section

namespace Cert.Val.R1

open Idealize.ShloMosaic Idealize.ShloMosaic.ValueIdx Idealize.ShloMosaic.TcCoe Cert.KernelIdeal Cert.KernelIdeal.Gen Cert.KernelIdeal.Hand

variable (V : (d : Dev nD) → (b : Ref sig .tc) → Buf (Elt Ideal) ((d : Thread nD τ).loc b))

abbrev XT (d : Dev nD) (t : Fin cfg1.N) : Fin 10000 → Fin 256 → EReal := Xp V d (probOf t)
abbrev AT (d : Dev nD) (t : Fin cfg1.N) : Fin 1024 → Fin 256 → EReal := Ap V d (probOf t)
abbrev yT (d : Dev nD) (t : Fin cfg1.N) : Fin 1024 → BitVec 32 := yp V d (probOf t)

def Inv (d : Dev nD) (t : Fin cfg1.N) (o : Outs1 Ideal) : Prop :=
  (t.val % 10 ≤ 4 →
      (∀ k : Fin 1024, o.1 (ix3 (0 : Fin 1) (0 : Fin 1) k) = 0)
      ∧ (∀ k : Fin 1024, o.2.1 (ix3 (0 : Fin 1) (0 : Fin 1) k) = 0)
      ∧ (∀ k : Fin 1024, o.2.2.1 (ix2 (0 : Fin 1) k) = (Spec.passA (XT V d t) (AT V d t) (yT V d t) (5 * (t.val % 10) + 5)).1 k)
      ∧ (∀ k : Fin 1024, o.2.2.2.1 (ix2 (0 : Fin 1) k) = (Spec.passA (XT V d t) (AT V d t) (yT V d t) (5 * (t.val % 10) + 5)).2 k))
  ∧ (4 ≤ t.val % 10 →
      (∀ k : Fin 1024, o.2.2.2.2.1 (ix2 (0 : Fin 1) k) = Spec.m0 (XT V d t) (AT V d t) (yT V d t) k)
      ∧ (∀ k : Fin 1024, o.2.2.2.2.2 (ix2 (0 : Fin 1) k) = Spec.sf (XT V d t) (AT V d t) (yT V d t) k))
  ∧ (5 ≤ t.val % 10 →
      (∀ k : Fin 1024, o.1 (ix3 (0 : Fin 1) (0 : Fin 1) k) = (Spec.passB (XT V d t) (AT V d t) (yT V d t) (5 * (t.val % 10 - 5) + 5)).1 k)
      ∧ (∀ k : Fin 1024, o.2.1 (ix3 (0 : Fin 1) (0 : Fin 1) k) = (Spec.passB (XT V d t) (AT V d t) (yT V d t) (5 * (t.val % 10 - 5) + 5)).2 k))

theorem probOf_pred (t t' : Fin cfg1.N) (ht' : t'.val + 1 = t.val) (h0 : t.val % 10 ≠ 0) : probOf t' = probOf t :=
  Fin.ext (by show t'.val / 10 = t.val / 10; omega)

end Cert.Val.R1

end
-- ==== Proof.Val.R1PayA0.lean ====
import proofs.«401957_j37563783971102_3_alg».proof.Proof.Gen.KernelIdeal.Skeleton
import proofs.«401957_j37563783971102_3_alg».proof.Proof.Spec
import Idealize.ShloMosaic.Lib.ValueIdx
import Idealize.ShloMosaic.Lib.ValueLayout
import Idealize.ShloMosaic.PureOps.Ideal.Laws

noncomputable section

open scoped BigOperators

namespace Cert.Val.R1

open Idealize.ShloMosaic Idealize.ShloMosaic.ValueIdx Cert.KernelIdeal Cert.KernelIdeal.Gen

theorem inv_t : Named.named (F := Ideal) Cert.KernelIdeal.κ "inv_t" (φ := .f32) 0x41200000#32 = Cert.Spec.κ :=
  IdealRules.named_const.ideal_named_scalar _ _ _ _ rfl

theorem ofBits_ninf : Ideal.ofBits .f32 0xFF800000#32 = ⊥ := by simp [Ideal.ofBits, Ideal.ieee]

theorem ofBits_1e4 : Ideal.ofBits .f32 0x461C4000#32 = 10000 := by
  simp [Ideal.ofBits, Ideal.ieee, -EReal.coe_mul]; norm_num; norm_cast

theorem sitofp_zero32 : (FloatOps.sitofp .f32 (0#32) : Ideal .f32) = 0 := by
  show (((0#32 : BitVec 32).toInt : ℝ) : EReal) = 0
  simp
theorem sitofp_one32 : (FloatOps.sitofp .f32 (1#32) : Ideal .f32) = 1 := by
  show (((1#32 : BitVec 32).toInt : ℝ) : EReal) = 1
  have h : (1#32 : BitVec 32).toInt = 1 := by decide
  rw [h]; simp

theorem neg1_word (w : BitVec 32) :
    (FloatOps.sitofp .f32 ((IntOp.cmpi .ne 1#32 w).setWidth 32) : Ideal .f32) = if w = 1#32 then 0 else 1 := by
  by_cases h : w = 1#32
  · subst h; simp [IntOp.cmpi, sitofp_zero32]
  · have : (1#32 != w) = true := by simp [bne_iff_ne, Ne.symm h]
    simp [IntOp.cmpi, this, h, sitofp_one32]

theorem neg0_word (w : BitVec 32) :
    (FloatOps.sitofp .f32 ((IntOp.cmpi .ne w 0#32).setWidth 32) : Ideal .f32) = if w = 0#32 then 0 else 1 := by
  by_cases h : w = 0#32
  · subst h; simp [IntOp.cmpi, sitofp_zero32]
  · have : (w != 0#32) = true := by simp [bne_iff_ne, h]
    simp [IntOp.cmpi, this, h, sitofp_one32]

theorem pos0_word (w : BitVec 32) :
    (FloatOps.sitofp .f32 ((IntOp.cmpi .eq w 0#32).setWidth 32) : Ideal .f32) = if w = 0#32 then 1 else 0 := by
  by_cases h : w = 0#32
  · subst h; simp [IntOp.cmpi, sitofp_one32]
  · have : (w == 0#32) = false := by simp [h]
    simp [IntOp.cmpi, this, h, sitofp_zero32]

theorem pay5_apply (v5 : Vec Ideal S1x1024x256 .bf16) (n : Fin 1024) (k : Fin 256) :
    k1_pay5 v5 (ix2 n k) = v5 (ix3 (0 : Fin 1) n k) := by
  unfold k1_pay5
  exact shapeCast_1ab_ab_apply v5 _ n k

theorem pay6_apply (v7 : Vec Ideal S1x1x1024 .i32) (n : Fin 1024) :
    k1_pay6 (F := Ideal) v7 (ix2 (0 : Fin 1) n) = v7 (ix3 (0 : Fin 1) (0 : Fin 1) n) := by
  unfold k1_pay6
  exact shapeCast_1ab_ab_apply v7 _ (0 : Fin 1) n

theorem pay1_apply (n : Fin 1024) : (k1_pay1 (F := Ideal)) (ix2 (0 : Fin 1) n) = ⊥ := by
  unfold k1_pay1
  refine (congrFun (shapeCast_self _ _) _).trans ?_
  exact ofBits_ninf

theorem pay2_apply (n : Fin 1024) : (k1_pay2 (F := Ideal)) (ix2 (0 : Fin 1) n) = 0 := by
  unfold k1_pay2
  refine (congrFun (shapeCast_self _ _) _).trans ?_
  exact Ideal.ofBits_zero_f32

theorem pay3_apply (n : Fin 1024) : (k1_pay3 (F := Ideal)) (ix3 (0 : Fin 1) (0 : Fin 1) n) = 0 := by
  unfold k1_pay3
  refine (shapeCast_ab_1ab_apply _ _ (0 : Fin 1) (0 : Fin 1) n).trans ?_
  exact Ideal.ofBits_zero_f32
theorem pay4_apply (n : Fin 1024) : (k1_pay4 (F := Ideal)) (ix3 (0 : Fin 1) (0 : Fin 1) n) = 0 := by
  unfold k1_pay4
  refine (shapeCast_ab_1ab_apply _ _ (0 : Fin 1) (0 : Fin 1) n).trans ?_
  exact Ideal.ofBits_zero_f32

theorem lhs_dot_0 (i : S400x1024.Idx) (q : dot_S400x256_S256x1024_S400x1024_1_0_0_1_n_n.contr.Idx) :
    (dot_S400x256_S256x1024_S400x1024_1_0_0_1_n_n.lhsIdx i q 0).val = (i 0).val := by
  unfold DotDims.lhsIdx
  rw [dif_neg (show ¬(0 : Fin S400x256.rank) ∈ dot_S400x256_S256x1024_S400x1024_1_0_0_1_n_n.lhsBatch by decide), dif_pos (show (0 : Fin S400x256.rank) ∈ dot_S400x256_S256x1024_S400x1024_1_0_0_1_n_n.lhsNonContracting by decide)]
  rfl
theorem lhs_dot_1 (i : S400x1024.Idx) (q : dot_S400x256_S256x1024_S400x1024_1_0_0_1_n_n.contr.Idx) :
    (dot_S400x256_S256x1024_S400x1024_1_0_0_1_n_n.lhsIdx i q 1).val = (q ⟨0, by decide⟩).val :=
  dot_S400x256_S256x1024_S400x1024_1_0_0_1_n_n.lhsIdx_val_of_single rfl i q
theorem rhs_dot_0 (i : S400x1024.Idx) (q : dot_S400x256_S256x1024_S400x1024_1_0_0_1_n_n.contr.Idx) :
    (dot_S400x256_S256x1024_S400x1024_1_0_0_1_n_n.rhsIdx i q 0).val = (q ⟨0, by decide⟩).val :=
  dot_S400x256_S256x1024_S400x1024_1_0_0_1_n_n.rhsIdx_val_of_single rfl i q
theorem rhs_dot_1 (i : S400x1024.Idx) (q : dot_S400x256_S256x1024_S400x1024_1_0_0_1_n_n.contr.Idx) :
    (dot_S400x256_S256x1024_S400x1024_1_0_0_1_n_n.rhsIdx i q 1).val = (i 1).val := by
  unfold DotDims.rhsIdx
  rw [dif_neg (show ¬(1 : Fin S256x1024.rank) ∈ dot_S400x256_S256x1024_S400x1024_1_0_0_1_n_n.rhsBatch by decide), dif_pos (show (1 : Fin S256x1024.rank) ∈ dot_S400x256_S256x1024_S400x1024_1_0_0_1_n_n.rhsNonContracting by decide)]
  rfl

theorem matmul_rows_apply (xs : FVec Ideal S400x256 .bf16) (at_ : FVec Ideal S256x1024 .bf16) (j : Fin 400) (n : Fin 1024) :
    FloatOps.matmul dot_S400x256_S256x1024_S400x1024_1_0_0_1_n_n none xs at_ (constant S400x1024 .f32 0x00000000#32) (ix2 j n)
      = ∑ k : Fin 256, xs (ix2 j k) * at_ (ix2 k n) := by
  rw [Ideal.matmul_constant_zero_apply, ← Equiv.sum_comp (contrEquiv1 dot_S400x256_S256x1024_S400x1024_1_0_0_1_n_n 256 rfl rfl).symm]
  refine Finset.sum_congr rfl fun k _ => ?_
  have hk := contrEquiv1_symm_val dot_S400x256_S256x1024_S400x1024_1_0_0_1_n_n 256 rfl rfl k
  have el : dot_S400x256_S256x1024_S400x1024_1_0_0_1_n_n.lhsIdx (ix2 j n) ((contrEquiv1 dot_S400x256_S256x1024_S400x1024_1_0_0_1_n_n 256 rfl rfl).symm k) = ix2 j k := funext fun a => Fin.ext (by
    match a with
    | ⟨0, _⟩ => exact lhs_dot_0 _ _
    | ⟨1, _⟩ => exact (lhs_dot_1 _ _).trans hk)
  have er : dot_S400x256_S256x1024_S400x1024_1_0_0_1_n_n.rhsIdx (ix2 j n) ((contrEquiv1 dot_S400x256_S256x1024_S400x1024_1_0_0_1_n_n 256 rfl rfl).symm k) = ix2 k n := funext fun a => Fin.ext (by
    match a with
    | ⟨0, _⟩ => exact (rhs_dot_0 _ _).trans hk
    | ⟨1, _⟩ => exact rhs_dot_1 _ _)
  rw [el, er]

theorem logits_apply (v6 : FVec Ideal S1024x256 .bf16) (vX : Vec Ideal S1x400x256 .bf16) (j : Fin 400) (n : Fin 1024) :
    k1_pay18 v6 vX (ix2 j n) = (∑ k : Fin 256, vX (ix3 (0 : Fin 1) j k) * v6 (ix2 n k)) * Cert.Spec.κ := by
  unfold k1_pay18
  show FloatOps.matmul dot_S400x256_S256x1024_S400x1024_1_0_0_1_n_n none (shapeCast S400x256 vX shapeCasts_S1x400x256_S400x256)
      (transpose S256x1024 [1, 0] v6 transposes_S1024x256_p1_0_S256x1024) (constant S400x1024 .f32 0x00000000#32) (ix2 j n)
      * Named.named (F := Ideal) Cert.KernelIdeal.κ "inv_t" (φ := .f32) 0x41200000#32 = _
  rw [inv_t, matmul_rows_apply]
  refine congrArg (· * Cert.Spec.κ) (Finset.sum_congr rfl fun k _ => ?_)
  rw [shapeCast_1ab_ab_apply, transpose_ix2_apply]

end Cert.Val.R1

end
-- ==== Proof.Val.R1PayA1.lean ====
import proofs.«401957_j37563783971102_3_alg».proof.Proof.Gen.KernelIdeal.Skeleton
import proofs.«401957_j37563783971102_3_alg».proof.Proof.Spec
import proofs.«401957_j37563783971102_3_alg».proof.Proof.Val.R1PayA0
import Idealize.ShloMosaic.Lib.ValueIdx
import Idealize.ShloMosaic.Lib.ValueLayout
import Idealize.ShloMosaic.PureOps.Ideal.Laws

noncomputable section

open scoped BigOperators

namespace Cert.Val.R1

open Idealize.ShloMosaic Idealize.ShloMosaic.ValueIdx Cert.KernelIdeal Cert.KernelIdeal.Gen

def mUpd (L : FVec Ideal S400x1024 .f32) (m : Vec Ideal S1x1024 .f32) : FVec Ideal S1x1024 .f32 :=
  maximumf m (shapeCast S1x1024 (multiReduction .maximumf [0] S1024 L 0xFF800000#32 reduces_S400x1024_S1024 (.inl rfl) rfl) shapeCasts_S1024_S1x1024)

def sUpd (v8 : IVec S1x1024 32) (L : FVec Ideal S400x1024 .f32) (m s : Vec Ideal S1x1024 .f32) : FVec Ideal S1x1024 .f32 :=
  addf (mulf (exp (subf m (mUpd L m))) s)
    (shapeCast S1x1024 (multiReduction .add [0] S1024
      (mulf (exp (subf L (broadcastTo S400x1024 (mUpd L m) broadcasts_S1x1024_S400x1024)))
        (sitofp .f32 (extui 32 (cmpi .ne (broadcastTo S400x1024 (broadcast S400x1 1#32) broadcasts_S400x1_S400x1024)
          (broadcastTo S400x1024 v8 broadcasts_S1x1024_S400x1024)) natLt_1_32)))
      0x00000000#32 reduces_S400x1024_S1024 (.inl rfl) rfl) shapeCasts_S1024_S1x1024)

theorem lift_rows (n : Fin 1024) (j : Fin 400) : reduces_S400x1024_S1024.lift (ix1 n) j = ix2 j n :=
  funext fun a => Fin.ext (by match a with | ⟨0, _⟩ => rfl | ⟨1, _⟩ => rfl)

theorem mUpd_apply (L : FVec Ideal S400x1024 .f32) (m : Vec Ideal S1x1024 .f32) (n : Fin 1024) :
    mUpd L m (ix2 (0 : Fin 1) n) = max (m (ix2 (0 : Fin 1) n)) ((Finset.univ : Finset (Fin 400)).fold max ⊥ (fun j => L (ix2 j n))) := by
  unfold mUpd
  refine congrArg (max (m (ix2 (0 : Fin 1) n))) ?_
  refine (shapeCast_a_1a_apply _ _ (0 : Fin 1) n).trans ?_
  refine (Ideal.multiReduction_maximumf_single L 0xFF800000#32 reduces_S400x1024_S1024 (.inl rfl) rfl (ix1 n)).trans ?_
  have hf : (L ∘ reduces_S400x1024_S1024.lift (ix1 n)) = fun j : Fin 400 => L (ix2 j n) := funext fun j => congrArg L (lift_rows n j)
  rw [hf]
  exact congrArg (fun b => Finset.fold max b (fun j : Fin 400 => L (ix2 j n)) Finset.univ) ofBits_ninf

theorem sUpd_apply (v8 : IVec S1x1024 32) (L : FVec Ideal S400x1024 .f32) (m s : Vec Ideal S1x1024 .f32) (n : Fin 1024) :
    sUpd v8 L m s (ix2 (0 : Fin 1) n)
      = Ideal.exp (m (ix2 (0 : Fin 1) n) - mUpd L m (ix2 (0 : Fin 1) n)) * s (ix2 (0 : Fin 1) n)
        + ∑ j : Fin 400, Ideal.exp (L (ix2 j n) - mUpd L m (ix2 (0 : Fin 1) n)) * (if v8 (ix2 (0 : Fin 1) n) = 1#32 then 0 else 1) := by
  unfold sUpd
  refine congrArg (Ideal.exp (m (ix2 (0 : Fin 1) n) - mUpd L m (ix2 (0 : Fin 1) n)) * s (ix2 (0 : Fin 1) n) + ·) ?_
  refine (shapeCast_a_1a_apply _ _ (0 : Fin 1) n).trans ?_
  refine (Ideal.multiReduction_add_single _ 0x00000000#32 reduces_S400x1024_S1024 (.inl rfl) rfl (ix1 n)).trans ?_
  refine Finset.sum_congr rfl fun (j : Fin 400) _ => ?_
  rw [show reduces_S400x1024_S1024.lift (ix1 n) j = ix2 j n from lift_rows n j]
  show Ideal.exp (L (ix2 j n) - broadcastTo S400x1024 (mUpd L m) broadcasts_S1x1024_S400x1024 (ix2 j n))
      * (FloatOps.sitofp .f32 ((IntOp.cmpi .ne 1#32 (broadcastTo S400x1024 v8 broadcasts_S1x1024_S400x1024 (ix2 j n))).setWidth 32) : Ideal .f32) = _
  rw [broadcastTo_1b_ab_apply, broadcastTo_1b_ab_apply, neg1_word]

theorem pay19_eq (v6 : FVec Ideal S1024x256 .bf16) (vX : Vec Ideal S1x400x256 .bf16) (m : Vec Ideal S1x1024 .f32) :
    k1_pay19 v6 vX m = mUpd (k1_pay18 v6 vX) m := rfl
theorem pay21_eq (v6 : FVec Ideal S1024x256 .bf16) (vX : Vec Ideal S1x400x256 .bf16) (m : Vec Ideal S1x1024 .f32) :
    k1_pay21 v6 vX m = mUpd (k1_pay18 v6 vX) m := by
  unfold k1_pay21; exact shapeCast_self _ _
theorem pay20_eq (v6 : FVec Ideal S1024x256 .bf16) (v8 : IVec S1x1024 32) (vX : Vec Ideal S1x400x256 .bf16) (m s : Vec Ideal S1x1024 .f32) :
    k1_pay20 v6 v8 vX m s = sUpd v8 (k1_pay18 v6 vX) m s := by
  unfold k1_pay20; exact shapeCast_self _ _

theorem pay22_eq (v6 : FVec Ideal S1024x256 .bf16) (vX : Vec Ideal S1x400x256 .bf16) : k1_pay22 v6 vX = k1_pay18 v6 vX := rfl
theorem pay25_eq (v6 : FVec Ideal S1024x256 .bf16) (vX : Vec Ideal S1x400x256 .bf16) (m : Vec Ideal S1x1024 .f32) :
    k1_pay25 v6 vX m = mUpd (k1_pay18 v6 vX) m := by
  unfold k1_pay25; exact shapeCast_self _ _
theorem pay24_eq (v6 : FVec Ideal S1024x256 .bf16) (v8 : IVec S1x1024 32) (vX : Vec Ideal S1x400x256 .bf16) (m s : Vec Ideal S1x1024 .f32) :
    k1_pay24 v6 v8 vX m s = sUpd v8 (k1_pay18 v6 vX) m s := by
  unfold k1_pay24; exact shapeCast_self _ _

theorem pay28_eq (v6 : FVec Ideal S1024x256 .bf16) (vX : Vec Ideal S1x400x256 .bf16) :
    k1_pay28 (k1_pay26 vX) (k1_pay27 v6) = k1_pay18 v6 vX := rfl
theorem pay31_eq (v6 : FVec Ideal S1024x256 .bf16) (vX : Vec Ideal S1x400x256 .bf16) (m : Vec Ideal S1x1024 .f32) :
    k1_pay31 (k1_pay26 vX) (k1_pay27 v6) m = mUpd (k1_pay18 v6 vX) m := by
  unfold k1_pay31; exact shapeCast_self _ _
theorem pay30_eq (v6 : FVec Ideal S1024x256 .bf16) (v8 : IVec S1x1024 32) (vX : Vec Ideal S1x400x256 .bf16) (m s : Vec Ideal S1x1024 .f32) :
    k1_pay30 v8 (k1_pay26 vX) (k1_pay27 v6) m s = sUpd v8 (k1_pay18 v6 vX) m s := by
  unfold k1_pay30; exact shapeCast_self _ _

theorem pay32_eq (v6 : FVec Ideal S1024x256 .bf16) (vX : Vec Ideal S1x400x256 .bf16) : k1_pay32 v6 vX = k1_pay18 v6 vX := rfl
theorem pay35_eq (v6 : FVec Ideal S1024x256 .bf16) (vX : Vec Ideal S1x400x256 .bf16) (m : Vec Ideal S1x1024 .f32) :
    k1_pay35 (k1_pay32 v6 vX) m = mUpd (k1_pay18 v6 vX) m := by
  unfold k1_pay35; exact shapeCast_self _ _
theorem pay34_eq (v6 : FVec Ideal S1024x256 .bf16) (v8 : IVec S1x1024 32) (vX : Vec Ideal S1x400x256 .bf16) (m s : Vec Ideal S1x1024 .f32) :
    k1_pay34 v8 (k1_pay32 v6 vX) m s = sUpd v8 (k1_pay18 v6 vX) m s := by
  unfold k1_pay34; exact shapeCast_self _ _

theorem pay36_eq (v6 : FVec Ideal S1024x256 .bf16) (vX : Vec Ideal S1x400x256 .bf16) : k1_pay36 v6 vX = k1_pay18 v6 vX := rfl
theorem pay9_eq (v6 : FVec Ideal S1024x256 .bf16) (vX : Vec Ideal S1x400x256 .bf16) (m : Vec Ideal S1x1024 .f32) :
    k1_pay9 (k1_pay37 v6 vX) m = mUpd (k1_pay18 v6 vX) m := by
  unfold k1_pay9; exact shapeCast_self _ _
theorem pay8_eq (v6 : FVec Ideal S1024x256 .bf16) (v7 : Vec Ideal S1x1x1024 .i32) (vX : Vec Ideal S1x400x256 .bf16) (m s : Vec Ideal S1x1024 .f32) :
    k1_pay8 v7 (k1_pay36 v6 vX) (k1_pay37 v6 vX) m s = sUpd (k1_pay6 (F := Ideal) v7) (k1_pay18 v6 vX) m s := by
  unfold k1_pay8; exact shapeCast_self _ _

section Spec
variable (X : Fin 10000 → Fin 256 → EReal) (A : Fin 1024 → Fin 256 → EReal) (y : Fin 1024 → BitVec 32)

theorem logits_spec (T : Fin 25) (v6 : FVec Ideal S1024x256 .bf16) (vX : Vec Ideal S1x400x256 .bf16)
    (hA : ∀ n k, v6 (ix2 n k) = A n k) (hX : ∀ j k, vX (ix3 (0 : Fin 1) j k) = X (Spec.row T j) k) (j : Fin 400) (n : Fin 1024) :
    k1_pay18 v6 vX (ix2 j n) = Spec.Lt X A T j n := by
  rw [logits_apply]
  unfold Spec.Lt Spec.logit Spec.dot
  refine congrArg (· * Spec.κ) (Finset.sum_congr rfl fun k _ => ?_)
  rw [hX, hA]

theorem stepA_m (T : Fin 25) (L : FVec Ideal S400x1024 .f32) (hL : ∀ j n, L (ix2 j n) = Spec.Lt X A T j n)
    (m : Vec Ideal S1x1024 .f32) (ms : (Fin 1024 → EReal) × (Fin 1024 → EReal)) (hm : ∀ n, m (ix2 (0 : Fin 1) n) = ms.1 n) (n : Fin 1024) :
    mUpd L m (ix2 (0 : Fin 1) n) = (Spec.stepA X A y T ms).1 n := by
  rw [mUpd_apply, hm]
  have hf : (fun j : Fin 400 => L (ix2 j n)) = fun j => Spec.Lt X A T j n := funext fun j => hL j n
  rw [hf]
  rfl

theorem stepA_s (T : Fin 25) (L : FVec Ideal S400x1024 .f32) (hL : ∀ j n, L (ix2 j n) = Spec.Lt X A T j n)
    (v8 : IVec S1x1024 32) (hy : ∀ n, v8 (ix2 (0 : Fin 1) n) = y n)
    (m s : Vec Ideal S1x1024 .f32) (ms : (Fin 1024 → EReal) × (Fin 1024 → EReal))
    (hm : ∀ n, m (ix2 (0 : Fin 1) n) = ms.1 n) (hs : ∀ n, s (ix2 (0 : Fin 1) n) = ms.2 n) (n : Fin 1024) :
    sUpd v8 L m s (ix2 (0 : Fin 1) n) = (Spec.stepA X A y T ms).2 n := by
  rw [sUpd_apply, stepA_m X A y T L hL m ms hm n, hm, hs, hy]
  have hf : (fun j : Fin 400 => Ideal.exp (L (ix2 j n) - (Spec.stepA X A y T ms).1 n) * (if y n = 1#32 then 0 else 1))
      = fun j => Ideal.exp (Spec.Lt X A T j n - (Spec.stepA X A y T ms).1 n) * (if y n = 1#32 then 0 else 1) :=
    funext fun j => by rw [hL j n]
  rw [hf]
  rfl

end Spec

end Cert.Val.R1

end
-- ==== Proof.Val.R1ChainA.lean ====
import proofs.«401957_j37563783971102_3_alg».proof.Proof.Gen.KernelIdeal.Skeleton
import proofs.«401957_j37563783971102_3_alg».proof.Proof.Spec
import proofs.«401957_j37563783971102_3_alg».proof.Proof.Val.R1PayA1
import Idealize.ShloMosaic.Lib.ValueIdx
import Idealize.ShloMosaic.Lib.ValueLayout
import Idealize.ShloMosaic.PureOps.Ideal.Laws

noncomputable section

open scoped BigOperators

namespace Cert.Val.R1

open Idealize.ShloMosaic Idealize.ShloMosaic.ValueIdx Cert.KernelIdeal Cert.KernelIdeal.Gen

section Chain
variable {F : FTy → Type} [FloatOps F] [Named F]
variable (v6 : FVec F S1024x256 .bf16) (v7 : Vec F S1x1x1024 .i32) (w0 w1 w2 w3 w4 : Vec F S1x400x256 .bf16) (m s : Vec F S1x1024 .f32)

def mA1 : FVec F S1x1024 .f32 := k1_pay21 v6 w0 m
def sA1 : FVec F S1x1024 .f32 := k1_pay20 v6 (k1_pay6 v7) w0 m s

def mA2 : FVec F S1x1024 .f32 := k1_pay25 v6 w1 (mA1 v6 w0 m)
def sA2 : FVec F S1x1024 .f32 := k1_pay24 v6 (k1_pay6 v7) w1 (mA1 v6 w0 m) (sA1 v6 v7 w0 m s)

def mA3 : FVec F S1x1024 .f32 := k1_pay31 (k1_pay26 w2) (k1_pay27 v6) (mA2 v6 w0 w1 m)
def sA3 : FVec F S1x1024 .f32 := k1_pay30 (k1_pay6 v7) (k1_pay26 w2) (k1_pay27 v6) (mA2 v6 w0 w1 m) (sA2 v6 v7 w0 w1 m s)

def mA4 : FVec F S1x1024 .f32 := k1_pay35 (k1_pay32 v6 w3) (mA3 v6 w0 w1 w2 m)
def sA4 : FVec F S1x1024 .f32 := k1_pay34 (k1_pay6 v7) (k1_pay32 v6 w3) (mA3 v6 w0 w1 w2 m) (sA3 v6 v7 w0 w1 w2 m s)

def mA5 : FVec F S1x1024 .f32 := k1_pay9 (k1_pay37 v6 w4) (mA4 v6 w0 w1 w2 w3 m)
def sA5 : FVec F S1x1024 .f32 := k1_pay8 v7 (k1_pay36 v6 w4) (k1_pay37 v6 w4) (mA4 v6 w0 w1 w2 w3 m) (sA4 v6 v7 w0 w1 w2 w3 m s)

end Chain

section ChainSpec
variable (X : Fin 10000 → Fin 256 → EReal) (A : Fin 1024 → Fin 256 → EReal) (y : Fin 1024 → BitVec 32)

private theorem passA_next (k : ℕ) (h : k < 25) : Spec.passA X A y (k + 1) = Spec.stepA X A y ⟨k, h⟩ (Spec.passA X A y k) := by
  rw [Spec.passA]; exact dif_pos h

theorem tileA_spec (T0 : ℕ) (hT : T0 + 4 < 25) (v5 : Vec Ideal S1x1024x256 .bf16) (v7 : Vec Ideal S1x1x1024 .i32)
    (w0 w1 w2 w3 w4 : Vec Ideal S1x400x256 .bf16) (m s : Vec Ideal S1x1024 .f32)
    (hA : ∀ n k, v5 (ix3 (0 : Fin 1) n k) = A n k) (hy : ∀ n, v7 (ix3 (0 : Fin 1) (0 : Fin 1) n) = y n)
    (hw0 : ∀ j k, w0 (ix3 (0 : Fin 1) j k) = X (Spec.row ⟨T0, by omega⟩ j) k)
    (hw1 : ∀ j k, w1 (ix3 (0 : Fin 1) j k) = X (Spec.row ⟨T0 + 1, by omega⟩ j) k)
    (hw2 : ∀ j k, w2 (ix3 (0 : Fin 1) j k) = X (Spec.row ⟨T0 + 2, by omega⟩ j) k)
    (hw3 : ∀ j k, w3 (ix3 (0 : Fin 1) j k) = X (Spec.row ⟨T0 + 3, by omega⟩ j) k)
    (hw4 : ∀ j k, w4 (ix3 (0 : Fin 1) j k) = X (Spec.row ⟨T0 + 4, by omega⟩ j) k)
    (hm : ∀ n, m (ix2 (0 : Fin 1) n) = (Spec.passA X A y T0).1 n) (hs : ∀ n, s (ix2 (0 : Fin 1) n) = (Spec.passA X A y T0).2 n) :
    (∀ n, mA5 (k1_pay5 v5) w0 w1 w2 w3 w4 m (ix2 (0 : Fin 1) n) = (Spec.passA X A y (T0 + 5)).1 n)
    ∧ (∀ n, sA5 (k1_pay5 v5) v7 w0 w1 w2 w3 w4 m s (ix2 (0 : Fin 1) n) = (Spec.passA X A y (T0 + 5)).2 n) := by
  have hA6 : ∀ n k, k1_pay5 v5 (ix2 n k) = A n k := fun n k => (pay5_apply v5 n k).trans (hA n k)
  have hy8 : ∀ n, k1_pay6 (F := Ideal) v7 (ix2 (0 : Fin 1) n) = y n := fun n => (pay6_apply v7 n).trans (hy n)
  have L0 := logits_spec X A ⟨T0, by omega⟩ (k1_pay5 v5) w0 hA6 hw0
  have L1 := logits_spec X A ⟨T0 + 1, by omega⟩ (k1_pay5 v5) w1 hA6 hw1
  have L2 := logits_spec X A ⟨T0 + 2, by omega⟩ (k1_pay5 v5) w2 hA6 hw2
  have L3 := logits_spec X A ⟨T0 + 3, by omega⟩ (k1_pay5 v5) w3 hA6 hw3
  have L4 := logits_spec X A ⟨T0 + 4, by omega⟩ (k1_pay5 v5) w4 hA6 hw4
  have m1 : ∀ n, mA1 (k1_pay5 v5) w0 m (ix2 (0 : Fin 1) n) = (Spec.passA X A y (T0 + 1)).1 n := fun n => by
    unfold mA1; rw [pay21_eq, passA_next X A y T0 (by omega)]; exact stepA_m X A y _ _ L0 m _ hm n
  have s1 : ∀ n, sA1 (k1_pay5 v5) v7 w0 m s (ix2 (0 : Fin 1) n) = (Spec.passA X A y (T0 + 1)).2 n := fun n => by
    unfold sA1; rw [pay20_eq, passA_next X A y T0 (by omega)]; exact stepA_s X A y _ _ L0 _ hy8 m s _ hm hs n
  have m2 : ∀ n, mA2 (k1_pay5 v5) w0 w1 m (ix2 (0 : Fin 1) n) = (Spec.passA X A y (T0 + 2)).1 n := fun n => by
    unfold mA2; rw [pay25_eq, passA_next X A y (T0 + 1) (by omega)]; exact stepA_m X A y _ _ L1 _ _ m1 n
  have s2 : ∀ n, sA2 (k1_pay5 v5) v7 w0 w1 m s (ix2 (0 : Fin 1) n) = (Spec.passA X A y (T0 + 2)).2 n := fun n => by
    unfold sA2; rw [pay24_eq, passA_next X A y (T0 + 1) (by omega)]; exact stepA_s X A y _ _ L1 _ hy8 _ _ _ m1 s1 n
  have m3 : ∀ n, mA3 (k1_pay5 v5) w0 w1 w2 m (ix2 (0 : Fin 1) n) = (Spec.passA X A y (T0 + 3)).1 n := fun n => by
    unfold mA3; rw [pay31_eq, passA_next X A y (T0 + 2) (by omega)]; exact stepA_m X A y _ _ L2 _ _ m2 n
  have s3 : ∀ n, sA3 (k1_pay5 v5) v7 w0 w1 w2 m s (ix2 (0 : Fin 1) n) = (Spec.passA X A y (T0 + 3)).2 n := fun n => by
    unfold sA3; rw [pay30_eq, passA_next X A y (T0 + 2) (by omega)]; exact stepA_s X A y _ _ L2 _ hy8 _ _ _ m2 s2 n
  have m4 : ∀ n, mA4 (k1_pay5 v5) w0 w1 w2 w3 m (ix2 (0 : Fin 1) n) = (Spec.passA X A y (T0 + 4)).1 n := fun n => by
    unfold mA4; rw [pay35_eq, passA_next X A y (T0 + 3) (by omega)]; exact stepA_m X A y _ _ L3 _ _ m3 n
  have s4 : ∀ n, sA4 (k1_pay5 v5) v7 w0 w1 w2 w3 m s (ix2 (0 : Fin 1) n) = (Spec.passA X A y (T0 + 4)).2 n := fun n => by
    unfold sA4; rw [pay34_eq, passA_next X A y (T0 + 3) (by omega)]; exact stepA_s X A y _ _ L3 _ hy8 _ _ _ m3 s3 n
  refine ⟨fun n => ?_, fun n => ?_⟩
  · unfold mA5; rw [pay9_eq, passA_next X A y (T0 + 4) (by omega)]; exact stepA_m X A y _ _ L4 _ _ m4 n
  · unfold sA5; rw [pay8_eq, passA_next X A y (T0 + 4) (by omega)]; exact stepA_s X A y _ _ L4 _ hy8 _ _ _ m4 s4 n

end ChainSpec

end Cert.Val.R1

end
-- ==== Proof.Val.R1PieceLib.lean ====
import proofs.«401957_j37563783971102_3_alg».proof.Proof.Gen.KernelIdeal.Skeleton
import Idealize.ShloMosaic.Lib.Pipeline.Value
import Idealize.ShloMosaic.Lib.ValueIdx

noncomputable section

namespace Cert.Val.R1

open Idealize.ShloMosaic Idealize.ShloMosaic.ValueIdx Cert.KernelIdeal Cert.KernelIdeal.Gen

variable {Val : EltTy → Type} {S : Shape} {e : EltTy}

theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

theorem hz2 : (![0, 0] : Fin 2 → Nat) = fun _ => 0 := funext fun a => by fin_cases a <;> rfl
theorem hz3 : (![0, 0, 0] : Fin 3 → Nat) = fun _ => 0 := funext fun a => by fin_cases a <;> rfl

/-- Rows `o` to `o + 399` lie inside a block of 2000 rows. -/
abbrev Fits (o : ℕ) : Prop := ∀ a, (![0, o, 0] : Fin 3 → Nat) a + S1x400x256.size a ≤ S1x2000x256.size a

/-- The 400 rows of a block from row `o` on. -/
abbrev sub {F : FTy → Type} (x0 : Vec F S1x2000x256 .bf16) (o : ℕ) (b : Fits o) : Vec F S1x400x256 .bf16 :=
  View.ld x0 (Rect.unit ![0, o, 0] S1x400x256.size b)

theorem ld_rows {F : FTy → Type} (x0 : Vec F S1x2000x256 .bf16) (o : ℕ) (b : Fits o)
    (j : Fin 400) (k : Fin 256) (r : Fin 2000) (hr : r.val = o + j.val) :
    sub x0 o b (ix3 (0 : Fin 1) j k) = x0 (ix3 (0 : Fin 1) r k) := by
  show x0 _ = x0 _
  congr 1; funext a; apply Fin.ext
  match a with
  | ⟨0, _⟩ => rfl
  | ⟨1, _⟩ => show o + 1 * j.val = r.val; omega
  | ⟨2, _⟩ => show 0 + 1 * k.val = k.val; omega

end Cert.Val.R1

end
-- ==== Proof.Val.R1PieceA.lean ====
import proofs.«401957_j37563783971102_3_alg».proof.Proof.KI.R1Runs
import proofs.«401957_j37563783971102_3_alg».proof.Proof.Val.R1ChainA
import proofs.«401957_j37563783971102_3_alg».proof.Proof.Val.R1PieceLib
import Idealize.ShloMosaic.Lib.Pipeline.Value

noncomputable section

namespace Cert.Val.R1

open Idealize.ShloMosaic Idealize.ShloMosaic.ValueIdx Idealize.ShloMosaic.TcCoe Idealize.ShloMosaic.Tactic Cert.KernelIdeal Cert.KernelIdeal.Gen Cert.KernelIdeal.Hand
open Idealize.SL Idealize.SL.Sem

variable {F : FTy → Type} [FloatOps F] [Named F]

theorem canonA_pos (c : Dev nD) {i : grid1.Coords} (o : Ops1) (hc : IsA i)
    (x0 : Vec F S1x2000x256 .bf16) (x1 : Vec F S1x1024x256 .bf16) (x2 : Vec F S1x1x1024 .i32)
    (b0 : Fits 0) (b1 : Fits 400) (b2 : Fits 800) (b3 : Fits 1200) (b4 : Fits 1600) :
    View.canon (runA c o hc x0 x1 x2).1
      = k1_pay3 (F := F) := by
  unfold runA
  dsimp only
  sl_unfold_words
  rw [View.canon_cons_unit_zero hz3]

theorem canonA_cnt (c : Dev nD) {i : grid1.Coords} (o : Ops1) (hc : IsA i)
    (x0 : Vec F S1x2000x256 .bf16) (x1 : Vec F S1x1024x256 .bf16) (x2 : Vec F S1x1x1024 .i32)
    (b0 : Fits 0) (b1 : Fits 400) (b2 : Fits 800) (b3 : Fits 1200) (b4 : Fits 1600) :
    View.canon (runA c o hc x0 x1 x2).2.1
      = k1_pay4 (F := F) := by
  unfold runA
  dsimp only
  sl_unfold_words
  rw [View.canon_cons_unit_zero hz3]

theorem canonA_m (c : Dev nD) {i : grid1.Coords} (o : Ops1) (hc : IsA i)
    (x0 : Vec F S1x2000x256 .bf16) (x1 : Vec F S1x1024x256 .bf16) (x2 : Vec F S1x1x1024 .i32)
    (b0 : Fits 0) (b1 : Fits 400) (b2 : Fits 800) (b3 : Fits 1200) (b4 : Fits 1600) :
    View.canon (runA c o hc x0 x1 x2).2.2.1
      = mA5 (k1_pay5 x1) (sub x0 0 b0) (sub x0 400 b1)
          (sub x0 800 b2) (sub x0 1200 b3)
          (sub x0 1600 b4) (k1_pay1 (F := F)) := by
  unfold runA
  dsimp only
  sl_unfold_words
  rw [View.canon_cons_unit_zero hz2]
  simp only [readCov_cons_unit_zero (S := S1x1024) _ hz2, View.readCov_unit_zero (S := S1x1024) _ hz2, View.readAt_eq_ld, o.h3.read_unread, o.h4.read_unread, o.h5.read_unread, o.h8.read_unread, o.h9.read_unread,
    View.ld_unit_zero (S := S1x1024) hz2, View.ld_unit_zero (S := S1x1024x256) hz3, View.ld_unit_zero (S := S1x1x1024) hz3]
  rfl

theorem canonA_s (c : Dev nD) {i : grid1.Coords} (o : Ops1) (hc : IsA i)
    (x0 : Vec F S1x2000x256 .bf16) (x1 : Vec F S1x1024x256 .bf16) (x2 : Vec F S1x1x1024 .i32)
    (b0 : Fits 0) (b1 : Fits 400) (b2 : Fits 800) (b3 : Fits 1200) (b4 : Fits 1600) :
    View.canon (runA c o hc x0 x1 x2).2.2.2.1
      = sA5 (k1_pay5 x1) x2 (sub x0 0 b0) (sub x0 400 b1)
          (sub x0 800 b2) (sub x0 1200 b3)
          (sub x0 1600 b4) (k1_pay1 (F := F)) (k1_pay2 (F := F)) := by
  unfold runA
  dsimp only
  sl_unfold_words
  rw [View.canon_cons_unit_zero hz2]
  simp only [readCov_cons_unit_zero (S := S1x1024) _ hz2, View.readCov_unit_zero (S := S1x1024) _ hz2, View.readAt_eq_ld, o.h3.read_unread, o.h4.read_unread, o.h5.read_unread, o.h8.read_unread, o.h9.read_unread,
    View.ld_unit_zero (S := S1x1024) hz2, View.ld_unit_zero (S := S1x1024x256) hz3, View.ld_unit_zero (S := S1x1x1024) hz3]
  rfl

end Cert.Val.R1

end
-- ==== Proof.Val.R1PieceB.lean ====
import proofs.«401957_j37563783971102_3_alg».proof.Proof.KI.R1Runs
import proofs.«401957_j37563783971102_3_alg».proof.Proof.Val.R1ChainA
import proofs.«401957_j37563783971102_3_alg».proof.Proof.Val.R1PieceLib
import Idealize.ShloMosaic.Lib.Pipeline.Value

noncomputable section

namespace Cert.Val.R1

open Idealize.ShloMosaic Idealize.ShloMosaic.ValueIdx Idealize.ShloMosaic.TcCoe Idealize.ShloMosaic.Tactic Cert.KernelIdeal Cert.KernelIdeal.Gen Cert.KernelIdeal.Hand
open Idealize.SL Idealize.SL.Sem

variable {F : FTy → Type} [FloatOps F] [Named F]

theorem canonB_m (c : Dev nD) {i : grid1.Coords} (o : Ops1) (hc : IsB i)
    (x0 : Vec F S1x2000x256 .bf16) (x1 : Vec F S1x1024x256 .bf16) (x2 : Vec F S1x1x1024 .i32) (xs8 : Vec F S1x1024 .f32) (xs9 : Vec F S1x1024 .f32)
    (b0 : Fits 0) (b1 : Fits 400) (b2 : Fits 800) (b3 : Fits 1200) (b4 : Fits 1600) :
    View.canon (runB c o hc x0 x1 x2 xs8 xs9).1
      = mA5 (k1_pay5 x1) (sub x0 0 b0) (sub x0 400 b1)
          (sub x0 800 b2) (sub x0 1200 b3)
          (sub x0 1600 b4) xs8 := by
  unfold runB
  dsimp only
  sl_unfold_words
  rw [View.canon_cons_unit_zero hz2]
  simp only [readCov_cons_unit_zero (S := S1x1024) _ hz2, View.readCov_unit_zero (S := S1x1024) _ hz2, View.readAt_eq_ld, o.h3.read_unread, o.h4.read_unread, o.h5.read_unread, o.h8.read_unread, o.h9.read_unread,
    View.ld_unit_zero (S := S1x1024) hz2, View.ld_unit_zero (S := S1x1024x256) hz3, View.ld_unit_zero (S := S1x1x1024) hz3]
  rfl

theorem canonB_s (c : Dev nD) {i : grid1.Coords} (o : Ops1) (hc : IsB i)
    (x0 : Vec F S1x2000x256 .bf16) (x1 : Vec F S1x1024x256 .bf16) (x2 : Vec F S1x1x1024 .i32) (xs8 : Vec F S1x1024 .f32) (xs9 : Vec F S1x1024 .f32)
    (b0 : Fits 0) (b1 : Fits 400) (b2 : Fits 800) (b3 : Fits 1200) (b4 : Fits 1600) :
    View.canon (runB c o hc x0 x1 x2 xs8 xs9).2.1
      = sA5 (k1_pay5 x1) x2 (sub x0 0 b0) (sub x0 400 b1)
          (sub x0 800 b2) (sub x0 1200 b3)
          (sub x0 1600 b4) xs8 xs9 := by
  unfold runB
  dsimp only
  sl_unfold_words
  rw [View.canon_cons_unit_zero hz2]
  simp only [readCov_cons_unit_zero (S := S1x1024) _ hz2, View.readCov_unit_zero (S := S1x1024) _ hz2, View.readAt_eq_ld, o.h3.read_unread, o.h4.read_unread, o.h5.read_unread, o.h8.read_unread, o.h9.read_unread,
    View.ld_unit_zero (S := S1x1024) hz2, View.ld_unit_zero (S := S1x1024x256) hz3, View.ld_unit_zero (S := S1x1x1024) hz3]
  rfl

end Cert.Val.R1

end
-- ==== Proof.Val.R1PieceC.lean ====
import proofs.«401957_j37563783971102_3_alg».proof.Proof.KI.R1Runs
import proofs.«401957_j37563783971102_3_alg».proof.Proof.Val.R1ChainA
import proofs.«401957_j37563783971102_3_alg».proof.Proof.Val.R1PieceLib
import Idealize.ShloMosaic.Lib.Pipeline.Value

noncomputable section

namespace Cert.Val.R1

open Idealize.ShloMosaic Idealize.ShloMosaic.ValueIdx Idealize.ShloMosaic.TcCoe Idealize.ShloMosaic.Tactic Cert.KernelIdeal Cert.KernelIdeal.Gen Cert.KernelIdeal.Hand
open Idealize.SL Idealize.SL.Sem

variable {F : FTy → Type} [FloatOps F] [Named F]

theorem canonC_m (c : Dev nD) {i : grid1.Coords} (o : Ops1) (hc : IsC i)
    (x0 : Vec F S1x2000x256 .bf16) (x1 : Vec F S1x1024x256 .bf16) (x2 : Vec F S1x1x1024 .i32) (xs8 : Vec F S1x1024 .f32) (xs9 : Vec F S1x1024 .f32)
    (b0 : Fits 0) (b1 : Fits 400) (b2 : Fits 800) (b3 : Fits 1200) (b4 : Fits 1600) :
    View.canon (runC c o hc x0 x1 x2 xs8 xs9).1
      = mA5 (k1_pay5 x1) (sub x0 0 b0) (sub x0 400 b1)
          (sub x0 800 b2) (sub x0 1200 b3)
          (sub x0 1600 b4) xs8 := by
  unfold runC
  dsimp only
  sl_unfold_words
  rw [View.canon_cons_unit_zero hz2]
  simp only [readCov_cons_unit_zero (S := S1x1024) _ hz2, View.readCov_unit_zero (S := S1x1024) _ hz2, View.readAt_eq_ld, o.h3.read_unread, o.h4.read_unread, o.h5.read_unread, o.h8.read_unread, o.h9.read_unread,
    View.ld_unit_zero (S := S1x1024) hz2, View.ld_unit_zero (S := S1x1024x256) hz3, View.ld_unit_zero (S := S1x1x1024) hz3]
  rfl

theorem canonC_s (c : Dev nD) {i : grid1.Coords} (o : Ops1) (hc : IsC i)
    (x0 : Vec F S1x2000x256 .bf16) (x1 : Vec F S1x1024x256 .bf16) (x2 : Vec F S1x1x1024 .i32) (xs8 : Vec F S1x1024 .f32) (xs9 : Vec F S1x1024 .f32)
    (b0 : Fits 0) (b1 : Fits 400) (b2 : Fits 800) (b3 : Fits 1200) (b4 : Fits 1600) :
    View.canon (runC c o hc x0 x1 x2 xs8 xs9).2.1
      = sA5 (k1_pay5 x1) x2 (sub x0 0 b0) (sub x0 400 b1)
          (sub x0 800 b2) (sub x0 1200 b3)
          (sub x0 1600 b4) xs8 xs9 := by
  unfold runC
  dsimp only
  sl_unfold_words
  rw [View.canon_cons_unit_zero hz2]
  simp only [readCov_cons_unit_zero (S := S1x1024) _ hz2, View.readCov_unit_zero (S := S1x1024) _ hz2, View.readAt_eq_ld, o.h3.read_unread, o.h4.read_unread, o.h5.read_unread, o.h8.read_unread, o.h9.read_unread,
    View.ld_unit_zero (S := S1x1024) hz2, View.ld_unit_zero (S := S1x1024x256) hz3, View.ld_unit_zero (S := S1x1x1024) hz3]
  rfl

theorem canonC_m0 (c : Dev nD) {i : grid1.Coords} (o : Ops1) (hc : IsC i)
    (x0 : Vec F S1x2000x256 .bf16) (x1 : Vec F S1x1024x256 .bf16) (x2 : Vec F S1x1x1024 .i32) (xs8 : Vec F S1x1024 .f32) (xs9 : Vec F S1x1024 .f32)
    (b0 : Fits 0) (b1 : Fits 400) (b2 : Fits 800) (b3 : Fits 1200) (b4 : Fits 1600) :
    View.canon (runC c o hc x0 x1 x2 xs8 xs9).2.2.1
      = k1_pay11 (mA5 (k1_pay5 x1) (sub x0 0 b0) (sub x0 400 b1)
          (sub x0 800 b2) (sub x0 1200 b3)
          (sub x0 1600 b4) xs8) := by
  unfold runC
  dsimp only
  sl_unfold_words
  rw [View.canon_cons_unit_zero hz2]
  simp only [readCov_cons_unit_zero (S := S1x1024) _ hz2, View.readCov_unit_zero (S := S1x1024) _ hz2, View.readAt_eq_ld, o.h3.read_unread, o.h4.read_unread, o.h5.read_unread, o.h8.read_unread, o.h9.read_unread,
    View.ld_unit_zero (S := S1x1024) hz2, View.ld_unit_zero (S := S1x1024x256) hz3, View.ld_unit_zero (S := S1x1x1024) hz3]
  rfl

theorem canonC_sf (c : Dev nD) {i : grid1.Coords} (o : Ops1) (hc : IsC i)
    (x0 : Vec F S1x2000x256 .bf16) (x1 : Vec F S1x1024x256 .bf16) (x2 : Vec F S1x1x1024 .i32) (xs8 : Vec F S1x1024 .f32) (xs9 : Vec F S1x1024 .f32)
    (b0 : Fits 0) (b1 : Fits 400) (b2 : Fits 800) (b3 : Fits 1200) (b4 : Fits 1600) :
    View.canon (runC c o hc x0 x1 x2 xs8 xs9).2.2.2.1
      = k1_pay12 x2 (mA5 (k1_pay5 x1) (sub x0 0 b0) (sub x0 400 b1)
          (sub x0 800 b2) (sub x0 1200 b3)
          (sub x0 1600 b4) xs8) (sA5 (k1_pay5 x1) x2 (sub x0 0 b0) (sub x0 400 b1)
          (sub x0 800 b2) (sub x0 1200 b3)
          (sub x0 1600 b4) xs8 xs9) := by
  unfold runC
  dsimp only
  sl_unfold_words
  rw [View.canon_cons_unit_zero hz2]
  simp only [readCov_cons_unit_zero (S := S1x1024) _ hz2, View.readCov_unit_zero (S := S1x1024) _ hz2, View.readAt_eq_ld, o.h3.read_unread, o.h4.read_unread, o.h5.read_unread, o.h8.read_unread, o.h9.read_unread,
    View.ld_unit_zero (S := S1x1024) hz2, View.ld_unit_zero (S := S1x1024x256) hz3, View.ld_unit_zero (S := S1x1x1024) hz3]
  rfl

end Cert.Val.R1

end
-- ==== Proof.Val.R1OutsA.lean ====
import proofs.«401957_j37563783971102_3_alg».proof.Proof.KI.R1
import proofs.«401957_j37563783971102_3_alg».proof.Proof.Val.R1PieceA
import proofs.«401957_j37563783971102_3_alg».proof.Proof.Val.R1PieceB
import proofs.«401957_j37563783971102_3_alg».proof.Proof.Val.R1PieceC

noncomputable section

namespace Cert.Val.R1

open Idealize.ShloMosaic Idealize.ShloMosaic.ValueIdx Idealize.ShloMosaic.TcCoe Cert.KernelIdeal Cert.KernelIdeal.Gen Cert.KernelIdeal.Hand
open Idealize.SL Idealize.SL.Sem

variable {F : FTy → Type} [FloatOps F] [Named F]

theorem out1_A_3_eq (c : Dev nD) {i : grid1.Coords} (o : Ops1) (hc : IsA i)
    (x0 : Vec F S1x2000x256 .bf16) (x1 : Vec F S1x1024x256 .bf16) (x2 : Vec F S1x1x1024 .i32) :
    out1_A_3 c o hc x0 x1 x2
      = k1_pay3 (F := F) := by
  unfold out1_A_3
  rw [View.read_writes_eq_canon _ _ _ (cover1_A_3 c o hc x0 x1 x2)]
  exact canonA_pos c o hc x0 x1 x2 (by decide) (by decide) (by decide) (by decide) (by decide)

theorem out1_A_4_eq (c : Dev nD) {i : grid1.Coords} (o : Ops1) (hc : IsA i)
    (x0 : Vec F S1x2000x256 .bf16) (x1 : Vec F S1x1024x256 .bf16) (x2 : Vec F S1x1x1024 .i32) :
    out1_A_4 c o hc x0 x1 x2
      = k1_pay4 (F := F) := by
  unfold out1_A_4
  rw [View.read_writes_eq_canon _ _ _ (cover1_A_4 c o hc x0 x1 x2)]
  exact canonA_cnt c o hc x0 x1 x2 (by decide) (by decide) (by decide) (by decide) (by decide)

theorem sout1_A_0_eq (c : Dev nD) {i : grid1.Coords} (o : Ops1) (hc : IsA i)
    (x0 : Vec F S1x2000x256 .bf16) (x1 : Vec F S1x1024x256 .bf16) (x2 : Vec F S1x1x1024 .i32) :
    sout1_A_0 c o hc x0 x1 x2
      = mA5 (k1_pay5 x1) (sub x0 0 (by decide)) (sub x0 400 (by decide))
          (sub x0 800 (by decide)) (sub x0 1200 (by decide))
          (sub x0 1600 (by decide)) (k1_pay1 (F := F)) := by
  unfold sout1_A_0
  rw [View.read_writes_eq_canon _ _ _ (scover1_A_0 c o hc x0 x1 x2)]
  exact canonA_m c o hc x0 x1 x2 (by decide) (by decide) (by decide) (by decide) (by decide)

theorem sout1_A_1_eq (c : Dev nD) {i : grid1.Coords} (o : Ops1) (hc : IsA i)
    (x0 : Vec F S1x2000x256 .bf16) (x1 : Vec F S1x1024x256 .bf16) (x2 : Vec F S1x1x1024 .i32) :
    sout1_A_1 c o hc x0 x1 x2
      = sA5 (k1_pay5 x1) x2 (sub x0 0 (by decide)) (sub x0 400 (by decide))
          (sub x0 800 (by decide)) (sub x0 1200 (by decide))
          (sub x0 1600 (by decide)) (k1_pay1 (F := F)) (k1_pay2 (F := F)) := by
  unfold sout1_A_1
  rw [View.read_writes_eq_canon _ _ _ (scover1_A_1 c o hc x0 x1 x2)]
  exact canonA_s c o hc x0 x1 x2 (by decide) (by decide) (by decide) (by decide) (by decide)

theorem sout1_B_0_eq (c : Dev nD) {i : grid1.Coords} (o : Ops1) (hc : IsB i)
    (x0 : Vec F S1x2000x256 .bf16) (x1 : Vec F S1x1024x256 .bf16) (x2 : Vec F S1x1x1024 .i32) (xs8 : Vec F S1x1024 .f32) (xs9 : Vec F S1x1024 .f32) :
    sout1_B_0 c o hc x0 x1 x2 xs8 xs9
      = mA5 (k1_pay5 x1) (sub x0 0 (by decide)) (sub x0 400 (by decide))
          (sub x0 800 (by decide)) (sub x0 1200 (by decide))
          (sub x0 1600 (by decide)) xs8 := by
  unfold sout1_B_0
  rw [View.read_writes_eq_canon _ _ _ (scover1_B_0 c o hc x0 x1 x2 xs8 xs9)]
  exact canonB_m c o hc x0 x1 x2 xs8 xs9 (by decide) (by decide) (by decide) (by decide) (by decide)

theorem sout1_B_1_eq (c : Dev nD) {i : grid1.Coords} (o : Ops1) (hc : IsB i)
    (x0 : Vec F S1x2000x256 .bf16) (x1 : Vec F S1x1024x256 .bf16) (x2 : Vec F S1x1x1024 .i32) (xs8 : Vec F S1x1024 .f32) (xs9 : Vec F S1x1024 .f32) :
    sout1_B_1 c o hc x0 x1 x2 xs8 xs9
      = sA5 (k1_pay5 x1) x2 (sub x0 0 (by decide)) (sub x0 400 (by decide))
          (sub x0 800 (by decide)) (sub x0 1200 (by decide))
          (sub x0 1600 (by decide)) xs8 xs9 := by
  unfold sout1_B_1
  rw [View.read_writes_eq_canon _ _ _ (scover1_B_1 c o hc x0 x1 x2 xs8 xs9)]
  exact canonB_s c o hc x0 x1 x2 xs8 xs9 (by decide) (by decide) (by decide) (by decide) (by decide)

theorem sout1_C_0_eq (c : Dev nD) {i : grid1.Coords} (o : Ops1) (hc : IsC i)
    (x0 : Vec F S1x2000x256 .bf16) (x1 : Vec F S1x1024x256 .bf16) (x2 : Vec F S1x1x1024 .i32) (xs8 : Vec F S1x1024 .f32) (xs9 : Vec F S1x1024 .f32) :
    sout1_C_0 c o hc x0 x1 x2 xs8 xs9
      = mA5 (k1_pay5 x1) (sub x0 0 (by decide)) (sub x0 400 (by decide))
          (sub x0 800 (by decide)) (sub x0 1200 (by decide))
          (sub x0 1600 (by decide)) xs8 := by
  unfold sout1_C_0
  rw [View.read_writes_eq_canon _ _ _ (scover1_C_0 c o hc x0 x1 x2 xs8 xs9)]
  exact canonC_m c o hc x0 x1 x2 xs8 xs9 (by decide) (by decide) (by decide) (by decide) (by decide)

theorem sout1_C_1_eq (c : Dev nD) {i : grid1.Coords} (o : Ops1) (hc : IsC i)
    (x0 : Vec F S1x2000x256 .bf16) (x1 : Vec F S1x1024x256 .bf16) (x2 : Vec F S1x1x1024 .i32) (xs8 : Vec F S1x1024 .f32) (xs9 : Vec F S1x1024 .f32) :
    sout1_C_1 c o hc x0 x1 x2 xs8 xs9
      = sA5 (k1_pay5 x1) x2 (sub x0 0 (by decide)) (sub x0 400 (by decide))
          (sub x0 800 (by decide)) (sub x0 1200 (by decide))
          (sub x0 1600 (by decide)) xs8 xs9 := by
  unfold sout1_C_1
  rw [View.read_writes_eq_canon _ _ _ (scover1_C_1 c o hc x0 x1 x2 xs8 xs9)]
  exact canonC_s c o hc x0 x1 x2 xs8 xs9 (by decide) (by decide) (by decide) (by decide) (by decide)

theorem sout1_C_2_eq (c : Dev nD) {i : grid1.Coords} (o : Ops1) (hc : IsC i)
    (x0 : Vec F S1x2000x256 .bf16) (x1 : Vec F S1x1024x256 .bf16) (x2 : Vec F S1x1x1024 .i32) (xs8 : Vec F S1x1024 .f32) (xs9 : Vec F S1x1024 .f32) :
    sout1_C_2 c o hc x0 x1 x2 xs8 xs9
      = k1_pay11 (mA5 (k1_pay5 x1) (sub x0 0 (by decide)) (sub x0 400 (by decide))
          (sub x0 800 (by decide)) (sub x0 1200 (by decide))
          (sub x0 1600 (by decide)) xs8) := by
  unfold sout1_C_2
  rw [View.read_writes_eq_canon _ _ _ (scover1_C_2 c o hc x0 x1 x2 xs8 xs9)]
  exact canonC_m0 c o hc x0 x1 x2 xs8 xs9 (by decide) (by decide) (by decide) (by decide) (by decide)

theorem sout1_C_3_eq (c : Dev nD) {i : grid1.Coords} (o : Ops1) (hc : IsC i)
    (x0 : Vec F S1x2000x256 .bf16) (x1 : Vec F S1x1024x256 .bf16) (x2 : Vec F S1x1x1024 .i32) (xs8 : Vec F S1x1024 .f32) (xs9 : Vec F S1x1024 .f32) :
    sout1_C_3 c o hc x0 x1 x2 xs8 xs9
      = k1_pay12 x2 (mA5 (k1_pay5 x1) (sub x0 0 (by decide)) (sub x0 400 (by decide))
          (sub x0 800 (by decide)) (sub x0 1200 (by decide))
          (sub x0 1600 (by decide)) xs8) (sA5 (k1_pay5 x1) x2 (sub x0 0 (by decide)) (sub x0 400 (by decide))
          (sub x0 800 (by decide)) (sub x0 1200 (by decide))
          (sub x0 1600 (by decide)) xs8 xs9) := by
  unfold sout1_C_3
  rw [View.read_writes_eq_canon _ _ _ (scover1_C_3 c o hc x0 x1 x2 xs8 xs9)]
  exact canonC_sf c o hc x0 x1 x2 xs8 xs9 (by decide) (by decide) (by decide) (by decide) (by decide)

end Cert.Val.R1

end
-- ==== Proof.Val.R1PayA2.lean ====
import proofs.«401957_j37563783971102_3_alg».proof.Proof.Gen.KernelIdeal.Skeleton
import proofs.«401957_j37563783971102_3_alg».proof.Proof.Spec
import proofs.«401957_j37563783971102_3_alg».proof.Proof.Val.R1PayA0
import Idealize.ShloMosaic.Lib.ValueIdx
import Idealize.ShloMosaic.Lib.ValueLayout
import Idealize.ShloMosaic.PureOps.Ideal.Laws

noncomputable section

open scoped BigOperators

namespace Cert.Val.R1

open Idealize.ShloMosaic Idealize.ShloMosaic.ValueIdx Cert.KernelIdeal Cert.KernelIdeal.Gen

theorem pay10_apply (v25 : Vec Ideal S1x1024 .f32) (n : Fin 1024) :
    k1_pay10 v25 (ix2 (0 : Fin 1) n) = max (v25 (ix2 (0 : Fin 1) n)) 0 := by
  unfold k1_pay10
  exact congrArg (max (v25 (ix2 (0 : Fin 1) n))) Ideal.ofBits_zero_f32

theorem pay11_apply (v25 : Vec Ideal S1x1024 .f32) (n : Fin 1024) :
    k1_pay11 v25 (ix2 (0 : Fin 1) n) = max (v25 (ix2 (0 : Fin 1) n)) 0 := by
  unfold k1_pay11
  refine (congrFun (shapeCast_self _ _) _).trans ?_
  exact pay10_apply v25 n

theorem pay12_apply (v7 : Vec Ideal S1x1x1024 .i32) (v25 v26 : Vec Ideal S1x1024 .f32) (n : Fin 1024) :
    k1_pay12 v7 v25 v26 (ix2 (0 : Fin 1) n)
      = v26 (ix2 (0 : Fin 1) n) * Ideal.exp (v25 (ix2 (0 : Fin 1) n) - max (v25 (ix2 (0 : Fin 1) n)) 0)
        + 10000 * Ideal.exp (-(max (v25 (ix2 (0 : Fin 1) n)) 0)) * (if v7 (ix3 (0 : Fin 1) (0 : Fin 1) n) = 0#32 then 0 else 1) := by
  unfold k1_pay12
  refine (congrFun (shapeCast_self _ _) _).trans ?_
  show v26 (ix2 (0 : Fin 1) n) * Ideal.exp (v25 (ix2 (0 : Fin 1) n) - k1_pay10 v25 (ix2 (0 : Fin 1) n))
      + Ideal.ofBits .f32 0x461C4000#32 * Ideal.exp (Ideal.ofBits .f32 0x00000000#32 - k1_pay10 v25 (ix2 (0 : Fin 1) n))
        * (FloatOps.sitofp .f32 ((IntOp.cmpi .ne (k1_pay6 (F := Ideal) v7 (ix2 (0 : Fin 1) n)) 0#32).setWidth 32) : Ideal .f32) = _
  rw [pay10_apply, pay6_apply, neg0_word, ofBits_1e4, Ideal.ofBits_zero_f32, zero_sub]

theorem pay13_apply (v7 : Vec Ideal S1x1x1024 .i32) (n : Fin 1024) :
    k1_pay13 (F := Ideal) v7 (ix2 (0 : Fin 1) n) = if v7 (ix3 (0 : Fin 1) (0 : Fin 1) n) = 0#32 then 1 else 0 := by
  unfold k1_pay13
  show (FloatOps.sitofp .f32 ((IntOp.cmpi .eq (k1_pay6 (F := Ideal) v7 (ix2 (0 : Fin 1) n)) 0#32).setWidth 32) : Ideal .f32) = _
  rw [pay6_apply, pos0_word]

theorem pay14_apply (v7 : Vec Ideal S1x1x1024 .i32) (v25 v26 : Vec Ideal S1x1024 .f32) (v39 : Vec Ideal S1x1x1024 .f32) (n : Fin 1024) :
    k1_pay14 v7 v25 v26 v39 (ix3 (0 : Fin 1) (0 : Fin 1) n)
      = v39 (ix3 (0 : Fin 1) (0 : Fin 1) n)
        + 10000 * (if v7 (ix3 (0 : Fin 1) (0 : Fin 1) n) = 0#32 then 1 else 0)
          * (-(v25 (ix2 (0 : Fin 1) n)) - Ideal.log (Ideal.exp (-(v25 (ix2 (0 : Fin 1) n))) + v26 (ix2 (0 : Fin 1) n))) := by
  unfold k1_pay14
  refine (shapeCast_ab_1ab_apply _ _ (0 : Fin 1) (0 : Fin 1) n).trans ?_
  show shapeCast S1x1024 v39 shapeCasts_S1x1x1024_S1x1024 (ix2 (0 : Fin 1) n)
      + Ideal.ofBits .f32 0x461C4000#32 * k1_pay13 (F := Ideal) v7 (ix2 (0 : Fin 1) n)
        * ((Ideal.ofBits .f32 0x00000000#32 - v25 (ix2 (0 : Fin 1) n))
          - Ideal.log (Ideal.exp (Ideal.ofBits .f32 0x00000000#32 - v25 (ix2 (0 : Fin 1) n)) + v26 (ix2 (0 : Fin 1) n))) = _
  rw [shapeCast_1ab_ab_apply, pay13_apply, ofBits_1e4, Ideal.ofBits_zero_f32, zero_sub]

theorem pay15_apply (v7 : Vec Ideal S1x1x1024 .i32) (v48 : Vec Ideal S1x1x1024 .f32) (n : Fin 1024) :
    k1_pay15 v7 v48 (ix3 (0 : Fin 1) (0 : Fin 1) n)
      = v48 (ix3 (0 : Fin 1) (0 : Fin 1) n) + 10000 * (if v7 (ix3 (0 : Fin 1) (0 : Fin 1) n) = 0#32 then 1 else 0) := by
  unfold k1_pay15
  refine (shapeCast_ab_1ab_apply _ _ (0 : Fin 1) (0 : Fin 1) n).trans ?_
  show shapeCast S1x1024 v48 shapeCasts_S1x1x1024_S1x1024 (ix2 (0 : Fin 1) n)
      + Ideal.ofBits .f32 0x461C4000#32 * k1_pay13 (F := Ideal) v7 (ix2 (0 : Fin 1) n) = _
  rw [shapeCast_1ab_ab_apply, pay13_apply, ofBits_1e4]

section Spec
variable (X : Fin 10000 → Fin 256 → EReal) (A : Fin 1024 → Fin 256 → EReal) (y : Fin 1024 → BitVec 32)

theorem fold_m0 (v25 : Vec Ideal S1x1024 .f32) (hm : ∀ n, v25 (ix2 (0 : Fin 1) n) = (Spec.passA X A y 25).1 n) (n : Fin 1024) :
    k1_pay11 v25 (ix2 (0 : Fin 1) n) = Spec.m0 X A y n := by
  rw [pay11_apply, hm]; rfl

theorem fold_sf (v7 : Vec Ideal S1x1x1024 .i32) (v25 v26 : Vec Ideal S1x1024 .f32)
    (hy : ∀ n, v7 (ix3 (0 : Fin 1) (0 : Fin 1) n) = y n)
    (hm : ∀ n, v25 (ix2 (0 : Fin 1) n) = (Spec.passA X A y 25).1 n) (hs : ∀ n, v26 (ix2 (0 : Fin 1) n) = (Spec.passA X A y 25).2 n)
    (n : Fin 1024) :
    k1_pay12 v7 v25 v26 (ix2 (0 : Fin 1) n) = Spec.sf X A y n := by
  rw [pay12_apply, hm, hs, hy]; rfl

theorem zero_pos (v7 : Vec Ideal S1x1x1024 .i32) (v25 v26 : Vec Ideal S1x1024 .f32) (v39 : Vec Ideal S1x1x1024 .f32)
    (hy : ∀ n, v7 (ix3 (0 : Fin 1) (0 : Fin 1) n) = y n)
    (hm : ∀ n, v25 (ix2 (0 : Fin 1) n) = Spec.m0 X A y n) (hs : ∀ n, v26 (ix2 (0 : Fin 1) n) = Spec.sf X A y n) (n : Fin 1024) :
    k1_pay14 v7 v25 v26 v39 (ix3 (0 : Fin 1) (0 : Fin 1) n)
      = v39 (ix3 (0 : Fin 1) (0 : Fin 1) n) + 10000 * Spec.pos0 y n * Spec.zlp X A y n := by
  rw [pay14_apply, hm, hs, hy]; rfl

theorem zero_cnt (v7 : Vec Ideal S1x1x1024 .i32) (v48 : Vec Ideal S1x1x1024 .f32)
    (hy : ∀ n, v7 (ix3 (0 : Fin 1) (0 : Fin 1) n) = y n) (n : Fin 1024) :
    k1_pay15 v7 v48 (ix3 (0 : Fin 1) (0 : Fin 1) n) = v48 (ix3 (0 : Fin 1) (0 : Fin 1) n) + 10000 * Spec.pos0 y n := by
  rw [pay15_apply, hy]; rfl

end Spec

end Cert.Val.R1

end
-- ==== Proof.Val.SpecUnroll.lean ====
import proofs.«401957_j37563783971102_3_alg».proof.Proof.Spec

noncomputable section

open scoped BigOperators

namespace Cert.Val.R1

variable (X : Fin 10000 → Fin 256 → EReal) (A : Fin 1024 → Fin 256 → EReal) (y : Fin 1024 → BitVec 32)

def subT (t i : Fin 5) : Fin 25 := ⟨5 * t.val + i.val, by have := t.isLt; have := i.isLt; omega⟩

theorem subT_val (t i : Fin 5) : (subT t i).val = 5 * t.val + i.val := rfl

theorem row_subT_val (t i : Fin 5) (j : Fin 400) : (Spec.row (subT t i) j).val = 2000 * t.val + 400 * i.val + j.val := by
  show (5 * t.val + i.val) * 400 + j.val = _
  omega

theorem passA_succ (k : ℕ) (h : k < 25) :
    Spec.passA X A y (k + 1) = Spec.stepA X A y ⟨k, h⟩ (Spec.passA X A y k) := by
  show (if h : k < 25 then Spec.stepA X A y ⟨k, h⟩ (Spec.passA X A y k) else Spec.passA X A y k) = _
  rw [dif_pos h]

theorem passB_succ (k : ℕ) (h : k < 25) :
    Spec.passB X A y (k + 1) = Spec.stepB X A y ⟨k, h⟩ (Spec.passB X A y k) := by
  show (if h : k < 25 then Spec.stepB X A y ⟨k, h⟩ (Spec.passB X A y k) else Spec.passB X A y k) = _
  rw [dif_pos h]

theorem passA_fin (T : Fin 25) : Spec.passA X A y (T.val + 1) = Spec.stepA X A y T (Spec.passA X A y T.val) :=
  passA_succ X A y T.val T.isLt

theorem passB_fin (T : Fin 25) : Spec.passB X A y (T.val + 1) = Spec.stepB X A y T (Spec.passB X A y T.val) :=
  passB_succ X A y T.val T.isLt

theorem passA_sub (t i : Fin 5) :
    Spec.passA X A y (5 * t.val + i.val + 1) = Spec.stepA X A y (subT t i) (Spec.passA X A y (5 * t.val + i.val)) :=
  passA_fin X A y (subT t i)

theorem passB_sub (t i : Fin 5) :
    Spec.passB X A y (5 * t.val + i.val + 1) = Spec.stepB X A y (subT t i) (Spec.passB X A y (5 * t.val + i.val)) :=
  passB_fin X A y (subT t i)

theorem passA_tile (t : Fin 5) :
    Spec.passA X A y (5 * t.val + 5)
      = Spec.stepA X A y (subT t 4) (Spec.stepA X A y (subT t 3) (Spec.stepA X A y (subT t 2)
          (Spec.stepA X A y (subT t 1) (Spec.stepA X A y (subT t 0) (Spec.passA X A y (5 * t.val)))))) := by
  have e4 : Spec.passA X A y (5 * t.val + 5) = _ := passA_sub X A y t 4
  have e3 : Spec.passA X A y (5 * t.val + 4) = _ := passA_sub X A y t 3
  have e2 : Spec.passA X A y (5 * t.val + 3) = _ := passA_sub X A y t 2
  have e1 : Spec.passA X A y (5 * t.val + 2) = _ := passA_sub X A y t 1
  have e0 : Spec.passA X A y (5 * t.val + 1) = _ := passA_sub X A y t 0
  exact e4.trans (congrArg _ (e3.trans (congrArg _ (e2.trans (congrArg _ (e1.trans (congrArg _ e0)))))))

theorem passB_tile (t : Fin 5) :
    Spec.passB X A y (5 * t.val + 5)
      = Spec.stepB X A y (subT t 4) (Spec.stepB X A y (subT t 3) (Spec.stepB X A y (subT t 2)
          (Spec.stepB X A y (subT t 1) (Spec.stepB X A y (subT t 0) (Spec.passB X A y (5 * t.val)))))) := by
  have e4 : Spec.passB X A y (5 * t.val + 5) = _ := passB_sub X A y t 4
  have e3 : Spec.passB X A y (5 * t.val + 4) = _ := passB_sub X A y t 3
  have e2 : Spec.passB X A y (5 * t.val + 3) = _ := passB_sub X A y t 2
  have e1 : Spec.passB X A y (5 * t.val + 2) = _ := passB_sub X A y t 1
  have e0 : Spec.passB X A y (5 * t.val + 1) = _ := passB_sub X A y t 0
  exact e4.trans (congrArg _ (e3.trans (congrArg _ (e2.trans (congrArg _ (e1.trans (congrArg _ e0)))))))

theorem passB_tile_fst (t : Fin 5) (n : Fin 1024) :
    (Spec.passB X A y (5 * t.val + 5)).1 n
      = (Spec.passB X A y (5 * t.val)).1 n
          + ∑ j : Fin 400, Spec.maskB y (subT t 0) j n * Spec.lp X A y (subT t 0) j n
          + ∑ j : Fin 400, Spec.maskB y (subT t 1) j n * Spec.lp X A y (subT t 1) j n
          + ∑ j : Fin 400, Spec.maskB y (subT t 2) j n * Spec.lp X A y (subT t 2) j n
          + ∑ j : Fin 400, Spec.maskB y (subT t 3) j n * Spec.lp X A y (subT t 3) j n
          + ∑ j : Fin 400, Spec.maskB y (subT t 4) j n * Spec.lp X A y (subT t 4) j n := by
  rw [passB_tile]; rfl

theorem passB_tile_snd (t : Fin 5) (n : Fin 1024) :
    (Spec.passB X A y (5 * t.val + 5)).2 n
      = (Spec.passB X A y (5 * t.val)).2 n
          + ∑ j : Fin 400, Spec.maskB y (subT t 0) j n
          + ∑ j : Fin 400, Spec.maskB y (subT t 1) j n
          + ∑ j : Fin 400, Spec.maskB y (subT t 2) j n
          + ∑ j : Fin 400, Spec.maskB y (subT t 3) j n
          + ∑ j : Fin 400, Spec.maskB y (subT t 4) j n := by
  rw [passB_tile]; rfl

theorem passA_zero : Spec.passA X A y 0 = (fun _ => ⊥, fun _ => 0) := rfl

theorem passB_zero :
    Spec.passB X A y 0
      = (fun n => 0 + 10000 * Spec.pos0 y n * Spec.zlp X A y n, fun n => 0 + 10000 * Spec.pos0 y n) := rfl

theorem passA_last : Spec.passA X A y (5 * (4 : Fin 5).val + 5) = Spec.passA X A y 25 := rfl
theorem passB_last : Spec.passB X A y (5 * (4 : Fin 5).val + 5) = Spec.passB X A y 25 := rfl

theorem tile_next (t : ℕ) : 5 * t + 5 = 5 * (t + 1) := by omega

theorem posK_eq (n : Fin 1024) : Spec.posK X A y n = (Spec.passB X A y 25).1 n := rfl
theorem cntK_eq (n : Fin 1024) : Spec.cntK X A y n = (Spec.passB X A y 25).2 n := rfl

end Cert.Val.R1

end
-- ==== Proof.Val.R1BlocksSub.lean ====
import proofs.«401957_j37563783971102_3_alg».proof.Proof.Val.R1Blocks
import proofs.«401957_j37563783971102_3_alg».proof.Proof.Val.SpecUnroll

noncomputable section

open Idealize.ShloMosaic Idealize.ShloMosaic.TcCoe Idealize.SL.Sem Idealize.ShloMosaic.ValueIdx

namespace Cert.Val.R1

open Cert.KernelIdeal Cert.KernelIdeal.Gen Cert.KernelIdeal.Hand

def subRow (i : Fin 5) (j : Fin 400) : Fin 2000 := ⟨400 * i.val + j.val, by have := i.isLt; have := j.isLt; omega⟩

theorem subRow_val (i : Fin 5) (j : Fin 400) : (subRow i j).val = 400 * i.val + j.val := rfl

theorem rowAt_subRow (t : Fin cfg1.N) (i : Fin 5) (j : Fin 400) :
    rowAt t (subRow i j) = Spec.row (subT (tileOf t) i) j := by
  apply Fin.ext
  rw [rowAt_val, subRow_val, row_subT_val, tileOf_val]
  omega

variable (V : (d : Dev nD) → (b : Ref sig .tc) → Buf (Elt Ideal) ((d : Thread nD τ).loc b))

theorem xblk_sub (d : Dev nD) (t : Fin cfg1.N) (i : Fin 5) (j : Fin 400) (k : Fin 256) :
    xblk V d t (ix3 (0 : Fin 1) (subRow i j) k) = Xp V d (probOf t) (Spec.row (subT (tileOf t) i) j) k := by
  rw [xblk_Xp, rowAt_subRow]

end Cert.Val.R1

end
-- ==== Proof.Val.R1InvABC.lean ====
import proofs.«401957_j37563783971102_3_alg».proof.Proof.Val.R1Inv
import proofs.«401957_j37563783971102_3_alg».proof.Proof.Val.R1OutsA
import proofs.«401957_j37563783971102_3_alg».proof.Proof.Val.R1PayA2
import proofs.«401957_j37563783971102_3_alg».proof.Proof.Val.R1BlocksSub

noncomputable section

namespace Cert.Val.R1

open Idealize.ShloMosaic Idealize.ShloMosaic.ValueIdx Idealize.ShloMosaic.TcCoe Cert.KernelIdeal Cert.KernelIdeal.Gen Cert.KernelIdeal.Hand

variable (V : (d : Dev nD) → (b : Ref sig .tc) → Buf (Elt Ideal) ((d : Thread nD τ).loc b))

/-- Sub-tile `s` of the tile the point reads is rows `5 (t mod 5) + s` of the problem's table. -/
theorem ld_sub (d : Dev nD) (t : Fin cfg1.N) (s o T : ℕ) (hs : s < 5) (ho : o = 400 * s) (hT : T < 25) (hTs : 5 * (t.val % 5) + s = T)
    (b : Fits o) (j : Fin 400) (k : Fin 256) : sub (xblk V d t) o b (ix3 (0 : Fin 1) j k) = XT V d t (Spec.row ⟨T, hT⟩ j) k :=
  (ld_rows (xblk V d t) o b j k (subRow ⟨s, hs⟩ j) (by subst ho; rfl)).trans
    ((xblk_sub V d t ⟨s, hs⟩ j k).trans (congrArg (fun T => XT V d t (Spec.row T j) k) (Fin.ext (by rw [subT_val, tileOf_val]; exact hTs))))

theorem inv_A (d : Dev nD) (t : Fin cfg1.N) (h : t.val % 10 = 0) (prev : Outs1 Ideal) : Inv V d t (step1 V d t prev) := by
  rw [step1_A V d t prev h, stepA]
  have hT : 5 * (t.val % 10) = 0 := by omega
  obtain ⟨hm, hs⟩ := tileA_spec (XT V d t) (AT V d t) (yT V d t) (5 * (t.val % 10)) (by omega) (ablk V d t) (yblk V d t)
    (sub (xblk V d t) 0 (by decide)) (sub (xblk V d t) 400 (by decide)) (sub (xblk V d t) 800 (by decide)) (sub (xblk V d t) 1200 (by decide)) (sub (xblk V d t) 1600 (by decide)) (k1_pay1 (F := Ideal)) (k1_pay2 (F := Ideal))
    (ablk_Ap V d t) (yblk_yp V d t)
    (ld_sub V d t 0 0 _ (by decide) rfl _ (by omega) _) (ld_sub V d t 1 400 _ (by decide) rfl _ (by omega) _) (ld_sub V d t 2 800 _ (by decide) rfl _ (by omega) _) (ld_sub V d t 3 1200 _ (by decide) rfl _ (by omega) _) (ld_sub V d t 4 1600 _ (by decide) rfl _ (by omega) _)
    (fun n => by rw [hT]; exact pay1_apply n) (fun n => by rw [hT]; exact pay2_apply n)
  unfold Inv
  dsimp only
  refine ⟨fun _ => ⟨fun k => ?_, fun k => ?_, fun k => ?_, fun k => ?_⟩, fun h4 => by omega, fun h5 => by omega⟩
  · exact (congrFun (out1_A_3_eq d (ops1 t) (hcA t h) (xblk V d t) (ablk V d t) (yblk V d t)) (ix3 (0 : Fin 1) (0 : Fin 1) k)).trans (pay3_apply k)
  · exact (congrFun (out1_A_4_eq d (ops1 t) (hcA t h) (xblk V d t) (ablk V d t) (yblk V d t)) (ix3 (0 : Fin 1) (0 : Fin 1) k)).trans (pay4_apply k)
  · exact (congrFun (sout1_A_0_eq d (ops1 t) (hcA t h) (xblk V d t) (ablk V d t) (yblk V d t)) (ix2 (0 : Fin 1) k)).trans (hm k)
  · exact (congrFun (sout1_A_1_eq d (ops1 t) (hcA t h) (xblk V d t) (ablk V d t) (yblk V d t)) (ix2 (0 : Fin 1) k)).trans (hs k)

theorem inv_B (d : Dev nD) (t : Fin cfg1.N) (h : 1 ≤ t.val % 10 ∧ t.val % 10 ≤ 3) (t' : Fin cfg1.N) (ht' : t'.val + 1 = t.val)
    (prev : Outs1 Ideal) (hp : Inv V d t' prev) : Inv V d t (step1 V d t prev) := by
  rw [step1_B V d t prev h, stepB]
  have hP : probOf t' = probOf t := probOf_pred t t' ht' (by omega)
  have hq : 5 * (t'.val % 10) + 5 = 5 * (t.val % 10) := by omega
  obtain ⟨hp0, hc0, hm0, hs0⟩ := hp.1 (by omega)
  unfold XT AT yT at hm0 hs0
  rw [hP, hq] at hm0 hs0
  obtain ⟨hm, hs⟩ := tileA_spec (XT V d t) (AT V d t) (yT V d t) (5 * (t.val % 10)) (by omega) (ablk V d t) (yblk V d t)
    (sub (xblk V d t) 0 (by decide)) (sub (xblk V d t) 400 (by decide)) (sub (xblk V d t) 800 (by decide)) (sub (xblk V d t) 1200 (by decide)) (sub (xblk V d t) 1600 (by decide)) prev.2.2.1 prev.2.2.2.1
    (ablk_Ap V d t) (yblk_yp V d t)
    (ld_sub V d t 0 0 _ (by decide) rfl _ (by omega) _) (ld_sub V d t 1 400 _ (by decide) rfl _ (by omega) _) (ld_sub V d t 2 800 _ (by decide) rfl _ (by omega) _) (ld_sub V d t 3 1200 _ (by decide) rfl _ (by omega) _) (ld_sub V d t 4 1600 _ (by decide) rfl _ (by omega) _) hm0 hs0
  unfold Inv
  dsimp only
  refine ⟨fun _ => ⟨hp0, hc0, fun k => ?_, fun k => ?_⟩, fun h4 => by omega, fun h5 => by omega⟩
  · exact (congrFun (sout1_B_0_eq d (ops1 t) (hcB t h) (xblk V d t) (ablk V d t) (yblk V d t) prev.2.2.1 prev.2.2.2.1) (ix2 (0 : Fin 1) k)).trans (hm k)
  · exact (congrFun (sout1_B_1_eq d (ops1 t) (hcB t h) (xblk V d t) (ablk V d t) (yblk V d t) prev.2.2.1 prev.2.2.2.1) (ix2 (0 : Fin 1) k)).trans (hs k)

theorem inv_C (d : Dev nD) (t : Fin cfg1.N) (h : t.val % 10 = 4) (t' : Fin cfg1.N) (ht' : t'.val + 1 = t.val)
    (prev : Outs1 Ideal) (hp : Inv V d t' prev) : Inv V d t (step1 V d t prev) := by
  rw [step1_C V d t prev h, stepC]
  have hP : probOf t' = probOf t := probOf_pred t t' ht' (by omega)
  have hq : 5 * (t'.val % 10) + 5 = 5 * (t.val % 10) := by omega
  obtain ⟨hp0, hc0, hm0, hs0⟩ := hp.1 (by omega)
  unfold XT AT yT at hm0 hs0
  rw [hP, hq] at hm0 hs0
  obtain ⟨hm, hs⟩ := tileA_spec (XT V d t) (AT V d t) (yT V d t) (5 * (t.val % 10)) (by omega) (ablk V d t) (yblk V d t)
    (sub (xblk V d t) 0 (by decide)) (sub (xblk V d t) 400 (by decide)) (sub (xblk V d t) 800 (by decide)) (sub (xblk V d t) 1200 (by decide)) (sub (xblk V d t) 1600 (by decide)) prev.2.2.1 prev.2.2.2.1
    (ablk_Ap V d t) (yblk_yp V d t)
    (ld_sub V d t 0 0 _ (by decide) rfl _ (by omega) _) (ld_sub V d t 1 400 _ (by decide) rfl _ (by omega) _) (ld_sub V d t 2 800 _ (by decide) rfl _ (by omega) _) (ld_sub V d t 3 1200 _ (by decide) rfl _ (by omega) _) (ld_sub V d t 4 1600 _ (by decide) rfl _ (by omega) _) hm0 hs0
  have h25 : 5 * (t.val % 10) + 5 = 25 := by omega
  rw [h25] at hm hs
  unfold Inv
  dsimp only
  refine ⟨fun _ => ⟨hp0, hc0, fun k => ?_, fun k => ?_⟩, fun _ => ⟨fun k => ?_, fun k => ?_⟩, fun h5 => by omega⟩
  · rw [h25]; exact (congrFun (sout1_C_0_eq d (ops1 t) (hcC t h) (xblk V d t) (ablk V d t) (yblk V d t) prev.2.2.1 prev.2.2.2.1) (ix2 (0 : Fin 1) k)).trans (hm k)
  · rw [h25]; exact (congrFun (sout1_C_1_eq d (ops1 t) (hcC t h) (xblk V d t) (ablk V d t) (yblk V d t) prev.2.2.1 prev.2.2.2.1) (ix2 (0 : Fin 1) k)).trans (hs k)
  · exact (congrFun (sout1_C_2_eq d (ops1 t) (hcC t h) (xblk V d t) (ablk V d t) (yblk V d t) prev.2.2.1 prev.2.2.2.1) (ix2 (0 : Fin 1) k)).trans
      (fold_m0 (XT V d t) (AT V d t) (yT V d t) _ hm k)
  · exact (congrFun (sout1_C_3_eq d (ops1 t) (hcC t h) (xblk V d t) (ablk V d t) (yblk V d t) prev.2.2.1 prev.2.2.2.1) (ix2 (0 : Fin 1) k)).trans
      (fold_sf (XT V d t) (AT V d t) (yT V d t) (yblk V d t) _ _ (yblk_yp V d t) hm hs k)

end Cert.Val.R1

end
-- ==== Proof.Val.R1OutsD.lean ====
import proofs.«401957_j37563783971102_3_alg».proof.Proof.KI.R1

noncomputable section

namespace Cert.Val.R1

open Idealize.ShloMosaic Idealize.ShloMosaic.TcCoe Cert.KernelIdeal Cert.KernelIdeal.Gen Cert.KernelIdeal.Hand
open Idealize.SL Idealize.SL.Sem

variable {F : FTy → Type} [FloatOps F] [Named F]

theorem out1_D_3_eq (c : Dev nD) {i : grid1.Coords} (o : Ops1) (hc : IsD i)
    (x0 : Vec F S1x2000x256 .bf16) (x1 : Vec F S1x1024x256 .bf16) (x2 : Vec F S1x1x1024 .i32) (xo6 : Vec F S1x1x1024 .f32) (xo7 : Vec F S1x1x1024 .f32) (xs10 : Vec F S1x1024 .f32) (xs11 : Vec F S1x1024 .f32) :
    out1_D_3 c o hc x0 x1 x2 xo6 xo7 xs10 xs11
      = View.canon (runD c o hc x0 x1 x2 xo6 xo7 xs10 xs11).1 := by
  unfold out1_D_3
  rw [View.read_writes_eq_canon _ _ _ (cover1_D_3 c o hc x0 x1 x2 xo6 xo7 xs10 xs11)]

theorem out1_D_4_eq (c : Dev nD) {i : grid1.Coords} (o : Ops1) (hc : IsD i)
    (x0 : Vec F S1x2000x256 .bf16) (x1 : Vec F S1x1024x256 .bf16) (x2 : Vec F S1x1x1024 .i32) (xo6 : Vec F S1x1x1024 .f32) (xo7 : Vec F S1x1x1024 .f32) (xs10 : Vec F S1x1024 .f32) (xs11 : Vec F S1x1024 .f32) :
    out1_D_4 c o hc x0 x1 x2 xo6 xo7 xs10 xs11
      = View.canon (runD c o hc x0 x1 x2 xo6 xo7 xs10 xs11).2.1 := by
  unfold out1_D_4
  rw [View.read_writes_eq_canon _ _ _ (cover1_D_4 c o hc x0 x1 x2 xo6 xo7 xs10 xs11)]

theorem out1_E_3_eq (c : Dev nD) {i : grid1.Coords} (o : Ops1) (hc : IsE i)
    (x0 : Vec F S1x2000x256 .bf16) (x1 : Vec F S1x1024x256 .bf16) (x2 : Vec F S1x1x1024 .i32) (xo6 : Vec F S1x1x1024 .f32) (xo7 : Vec F S1x1x1024 .f32) (xs10 : Vec F S1x1024 .f32) (xs11 : Vec F S1x1024 .f32) :
    out1_E_3 c o hc x0 x1 x2 xo6 xo7 xs10 xs11
      = View.canon (runE c o hc x0 x1 x2 xo6 xo7 xs10 xs11).1 := by
  unfold out1_E_3
  rw [View.read_writes_eq_canon _ _ _ (cover1_E_3 c o hc x0 x1 x2 xo6 xo7 xs10 xs11)]

theorem out1_E_4_eq (c : Dev nD) {i : grid1.Coords} (o : Ops1) (hc : IsE i)
    (x0 : Vec F S1x2000x256 .bf16) (x1 : Vec F S1x1024x256 .bf16) (x2 : Vec F S1x1x1024 .i32) (xo6 : Vec F S1x1x1024 .f32) (xo7 : Vec F S1x1x1024 .f32) (xs10 : Vec F S1x1024 .f32) (xs11 : Vec F S1x1024 .f32) :
    out1_E_4 c o hc x0 x1 x2 xo6 xo7 xs10 xs11
      = View.canon (runE c o hc x0 x1 x2 xo6 xo7 xs10 xs11).2.1 := by
  unfold out1_E_4
  rw [View.read_writes_eq_canon _ _ _ (cover1_E_4 c o hc x0 x1 x2 xo6 xo7 xs10 xs11)]

end Cert.Val.R1

end
-- ==== Proof.Val.R1PayB0.lean ====
import proofs.«401957_j37563783971102_3_alg».proof.Proof.Gen.KernelIdeal
import Idealize.ShloMosaic.Lib.ValueLayout
import Idealize.ShloMosaic.PureOps.Ideal.Laws

noncomputable section

open scoped BigOperators

namespace Cert.Val.R1

open Idealize.ShloMosaic Idealize.ShloMosaic.ValueIdx Cert.KernelIdeal Cert.KernelIdeal.Gen

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem colsum_apply (src : FVec Ideal S400x1024 .f32) (n : Fin 1024) :
    multiReduction (F := Ideal) .add [0] S1024 src 0x00000000#32 reduces_S400x1024_S1024 (.inl rfl) rfl (ix1 n)
      = ∑ j : Fin 400, src (ix2 j n) := by
  refine (Ideal.multiReduction_add_single src 0x00000000#32 reduces_S400x1024_S1024 (.inl rfl) rfl (ix1 n)).trans ?_
  refine Finset.sum_congr rfl fun j _ => congrArg src ?_
  funext a
  match a with
  | ⟨0, _⟩ => rfl
  | ⟨1, _⟩ => rfl

def accVec (old : FVec Ideal S1x1024 .f32) (src : FVec Ideal S400x1024 .f32) : FVec Ideal S1x1x1024 .f32 :=
  shapeCast S1x1x1024
    (addf old (shapeCast S1x1024
      (multiReduction (F := Ideal) .add [0] S1024 src 0x00000000#32 reduces_S400x1024_S1024 (.inl rfl) rfl)
      shapeCasts_S1024_S1x1024))
    shapeCasts_S1x1024_S1x1x1024

theorem accVec_apply (old : FVec Ideal S1x1024 .f32) (src : FVec Ideal S400x1024 .f32) (n : Fin 1024) :
    accVec old src (ix3 (0 : Fin 1) (0 : Fin 1) n) = old (ix2 (0 : Fin 1) n) + ∑ j : Fin 400, src (ix2 j n) := by
  unfold accVec
  rw [shapeCast_ab_1ab_apply, addf_apply, shapeCast_a_1a_apply, colsum_apply]

theorem oldCast_apply (old : Vec Ideal S1x1x1024 .f32) (n : Fin 1024) :
    shapeCast S1x1024 old shapeCasts_S1x1x1024_S1x1024 (ix2 (0 : Fin 1) n) = old (ix3 (0 : Fin 1) (0 : Fin 1) n) :=
  shapeCast_1ab_ab_apply old shapeCasts_S1x1x1024_S1x1024 (0 : Fin 1) n

def lpVec (lg : FVec Ideal S400x1024 .f32) (vm vs : FVec Ideal S1x1024 .f32) : FVec Ideal S400x1024 .f32 :=
  subf (subf lg (broadcastTo S400x1024 vm broadcasts_S1x1024_S400x1024))
    (log (addf (exp (subf lg (broadcastTo S400x1024 vm broadcasts_S1x1024_S400x1024)))
      (broadcastTo S400x1024 vs broadcasts_S1x1024_S400x1024)))

theorem lpVec_apply (lg : FVec Ideal S400x1024 .f32) (vm vs : FVec Ideal S1x1024 .f32) (j : Fin 400) (n : Fin 1024) :
    lpVec lg vm vs (ix2 j n)
      = (lg (ix2 j n) - vm (ix2 (0 : Fin 1) n))
        - Ideal.log (Ideal.exp (lg (ix2 j n) - vm (ix2 (0 : Fin 1) n)) + vs (ix2 (0 : Fin 1) n)) := by
  show (lg (ix2 j n) - broadcastTo S400x1024 vm broadcasts_S1x1024_S400x1024 (ix2 j n))
      - Ideal.log (Ideal.exp (lg (ix2 j n) - broadcastTo S400x1024 vm broadcasts_S1x1024_S400x1024 (ix2 j n))
        + broadcastTo S400x1024 vs broadcasts_S1x1024_S400x1024 (ix2 j n)) = _
  rw [broadcastTo_1b_ab_apply, broadcastTo_1b_ab_apply]

theorem cmpi_eq_of_eq {x y : BitVec 32} (h : x = y) : IntOp.cmpi .eq x y = 1#1 := by
  subst h; simp [IntOp.cmpi]
theorem cmpi_eq_of_ne {x y : BitVec 32} (h : ¬ x = y) : IntOp.cmpi .eq x y = 0#1 := by
  show BitVec.ofBool (x == y) = 0#1
  rw [beq_eq_false_iff_ne.mpr h]; rfl

theorem mask_word (r : BitVec 32) (b j n : ℕ) (hr : r.toNat = b) (hb : b + j < 2 ^ 32) (hj : j < 2 ^ 32) (hn : n < 2 ^ 32)
    (w : BitVec 32) :
    FloatOps.sitofp (F := Ideal) .f32
        ((IntOp.andi (IntOp.cmpi .eq 1#32 w)
          (IntOp.xori (IntOp.cmpi .eq (IntOp.addi r (BitVec.ofNat 32 j)) (BitVec.ofNat 32 n)) 1#1)).setWidth 32)
      = if w = 1#32 ∧ b + j ≠ n then (1 : EReal) else 0 := by
  have key : (IntOp.addi r (BitVec.ofNat 32 j) = BitVec.ofNat 32 n) ↔ b + j = n := by
    unfold IntOp.addi
    rw [← BitVec.toNat_inj, BitVec.toNat_add, BitVec.toNat_ofNat, BitVec.toNat_ofNat, hr,
      Nat.mod_eq_of_lt hj, Nat.mod_eq_of_lt hn, Nat.mod_eq_of_lt hb]
  have one : FloatOps.sitofp (F := Ideal) .f32 ((1#1 : BitVec 1).setWidth 32) = (1 : EReal) := by
    show (((BitVec.setWidth 32 (1#1 : BitVec 1)).toInt : ℝ) : EReal) = 1
    rw [show (BitVec.setWidth 32 (1#1 : BitVec 1)).toInt = 1 by decide]; simp
  have zero : FloatOps.sitofp (F := Ideal) .f32 ((0#1 : BitVec 1).setWidth 32) = (0 : EReal) := by
    show (((BitVec.setWidth 32 (0#1 : BitVec 1)).toInt : ℝ) : EReal) = 0
    rw [show (BitVec.setWidth 32 (0#1 : BitVec 1)).toInt = 0 by decide]; simp
  by_cases hw : w = 1#32
  · by_cases he : b + j = n
    · have h1 : IntOp.cmpi .eq (1#32) w = 1#1 := cmpi_eq_of_eq hw.symm
      have h2 : IntOp.cmpi .eq (IntOp.addi r (BitVec.ofNat 32 j)) (BitVec.ofNat 32 n) = 1#1 :=
        cmpi_eq_of_eq (key.mpr he)
      rw [h1, h2, if_neg (fun h => h.2 he)]
      exact zero
    · have h1 : IntOp.cmpi .eq (1#32) w = 1#1 := cmpi_eq_of_eq hw.symm
      have h2 : IntOp.cmpi .eq (IntOp.addi r (BitVec.ofNat 32 j)) (BitVec.ofNat 32 n) = 0#1 :=
        cmpi_eq_of_ne (fun h => he (key.mp h))
      rw [h1, h2, if_pos ⟨hw, he⟩]
      exact one
  · have h1 : IntOp.cmpi .eq (1#32) w = 0#1 := cmpi_eq_of_ne (fun h => hw h.symm)
    rw [h1, if_neg (fun h => hw h.1)]
    have : IntOp.andi (0#1 : BitVec 1)
        (IntOp.xori (IntOp.cmpi .eq (IntOp.addi r (BitVec.ofNat 32 j)) (BitVec.ofNat 32 n)) 1#1) = 0#1 := by
      simp [IntOp.andi]
    rw [this]
    exact zero

def maskVec (r : BitVec 32) (lbl col : IVec S1x1024 32) : FVec Ideal S400x1024 .f32 :=
  sitofp .f32 (extui 32
    (andi
      (cmpi .eq (broadcastTo S400x1024 (broadcast S400x1 (1#32 : BitVec 32)) broadcasts_S400x1_S400x1024)
        (broadcastTo S400x1024 lbl broadcasts_S1x1024_S400x1024))
      (xori
        (cmpi .eq
          (broadcastTo S400x1024 (addi (broadcast S400x1 r) (iota .tc S400x1 32 [0] iota_S400x1_d0_w32))
            broadcasts_S400x1_S400x1024)
          (broadcastTo S400x1024 col broadcasts_S1x1024_S400x1024))
        (constantI S400x1024 1 1#1)))
    natLt_1_32)

theorem maskVec_apply (r : BitVec 32) (b : ℕ) (hr : r.toNat = b) (hb : b + 400 ≤ 2 ^ 32) (lbl col : IVec S1x1024 32)
    (hcol : ∀ n : Fin 1024, col (ix2 (0 : Fin 1) n) = BitVec.ofNat 32 n.val) (j : Fin 400) (n : Fin 1024) :
    maskVec r lbl col (ix2 j n) = if lbl (ix2 (0 : Fin 1) n) = 1#32 ∧ b + j.val ≠ n.val then (1 : EReal) else 0 := by
  have e1 : broadcastTo S400x1024 lbl broadcasts_S1x1024_S400x1024 (ix2 j n) = lbl (ix2 (0 : Fin 1) n) :=
    broadcastTo_1b_ab_apply _ _ _ _
  have e2 : broadcastTo S400x1024 col broadcasts_S1x1024_S400x1024 (ix2 j n) = BitVec.ofNat 32 n.val :=
    (broadcastTo_1b_ab_apply _ _ _ _).trans (hcol n)
  have e3 : broadcastTo S400x1024 (addi (broadcast S400x1 r) (iota .tc S400x1 32 [0] iota_S400x1_d0_w32))
      broadcasts_S400x1_S400x1024 (ix2 j n) = IntOp.addi r (BitVec.ofNat 32 j.val) := by
    refine (broadcastTo_a1_ab_apply _ _ _ _).trans ?_
    show IntOp.addi r (iota .tc S400x1 32 [0] iota_S400x1_d0_w32 (ix2 j (0 : Fin 1))) = _
    rw [iota_single_apply]
  have e4 : broadcastTo S400x1024 (broadcast S400x1 (1#32 : BitVec 32)) broadcasts_S400x1_S400x1024 (ix2 j n) = 1#32 :=
    broadcastTo_a1_ab_apply _ _ _ _
  show FloatOps.sitofp (F := Ideal) .f32
      ((IntOp.andi
        (IntOp.cmpi .eq (broadcastTo S400x1024 (broadcast S400x1 (1#32 : BitVec 32)) broadcasts_S400x1_S400x1024 (ix2 j n))
          (broadcastTo S400x1024 lbl broadcasts_S1x1024_S400x1024 (ix2 j n)))
        (IntOp.xori
          (IntOp.cmpi .eq
            (broadcastTo S400x1024 (addi (broadcast S400x1 r) (iota .tc S400x1 32 [0] iota_S400x1_d0_w32))
              broadcasts_S400x1_S400x1024 (ix2 j n))
            (broadcastTo S400x1024 col broadcasts_S1x1024_S400x1024 (ix2 j n)))
          1#1)).setWidth 32) = _
  rw [e1, e2, e3, e4]
  have hj := j.isLt
  have hn := n.isLt
  exact mask_word r b j.val n.val hr (by omega) (by omega) (by omega) _

end Cert.Val.R1

end
-- ==== Proof.Val.R1PayB1.lean ====
import proofs.«401957_j37563783971102_3_alg».proof.Proof.Val.R1PayB0
import proofs.«401957_j37563783971102_3_alg».proof.Proof.Val.SpecUnroll

noncomputable section

open scoped BigOperators

namespace Cert.Val.R1

open Idealize.ShloMosaic Idealize.ShloMosaic.ValueIdx Cert.KernelIdeal Cert.KernelIdeal.Gen

variable (X : Fin 10000 → Fin 256 → EReal) (A : Fin 1024 → Fin 256 → EReal) (y : Fin 1024 → BitVec 32)

theorem posB_core (T : Fin 25) (r : BitVec 32) (hr : r.toNat = T.val * 400)
    (lg : FVec Ideal S400x1024 .f32) (hlg : ∀ (j : Fin 400) (n : Fin 1024), lg (ix2 j n) = Spec.Lt X A T j n)
    (lbl col : IVec S1x1024 32) (hy : ∀ n : Fin 1024, lbl (ix2 (0 : Fin 1) n) = y n)
    (hcol : ∀ n : Fin 1024, col (ix2 (0 : Fin 1) n) = BitVec.ofNat 32 n.val)
    (vm vs : FVec Ideal S1x1024 .f32) (hm : ∀ n : Fin 1024, vm (ix2 (0 : Fin 1) n) = Spec.m0 X A y n)
    (hs : ∀ n : Fin 1024, vs (ix2 (0 : Fin 1) n) = Spec.sf X A y n)
    (old : FVec Ideal S1x1024 .f32) (n : Fin 1024) :
    accVec old (mulf (maskVec r lbl col) (lpVec lg vm vs)) (ix3 (0 : Fin 1) (0 : Fin 1) n)
      = old (ix2 (0 : Fin 1) n) + ∑ j : Fin 400, Spec.maskB y T j n * Spec.lp X A y T j n := by
  rw [accVec_apply]
  refine congrArg (old (ix2 (0 : Fin 1) n) + ·) (Finset.sum_congr rfl fun j _ => ?_)
  have hb : T.val * 400 + 400 ≤ 2 ^ 32 := by have := T.isLt; omega
  rw [mulf_apply, maskVec_apply r (T.val * 400) hr hb lbl col hcol, lpVec_apply, hlg, hy, hm, hs]
  rfl

theorem cntB_core (T : Fin 25) (r : BitVec 32) (hr : r.toNat = T.val * 400)
    (lbl col : IVec S1x1024 32) (hy : ∀ n : Fin 1024, lbl (ix2 (0 : Fin 1) n) = y n)
    (hcol : ∀ n : Fin 1024, col (ix2 (0 : Fin 1) n) = BitVec.ofNat 32 n.val)
    (old : FVec Ideal S1x1024 .f32) (n : Fin 1024) :
    accVec old (maskVec r lbl col) (ix3 (0 : Fin 1) (0 : Fin 1) n)
      = old (ix2 (0 : Fin 1) n) + ∑ j : Fin 400, Spec.maskB y T j n := by
  rw [accVec_apply]
  refine congrArg (old (ix2 (0 : Fin 1) n) + ·) (Finset.sum_congr rfl fun j _ => ?_)
  have hb : T.val * 400 + 400 ≤ 2 ^ 32 := by have := T.isLt; omega
  rw [maskVec_apply r (T.val * 400) hr hb lbl col hcol, hy]
  rfl

theorem rowWord_toNat : ∀ t i : Fin 5,
    (Scalar.addi (Scalar.muli (BitVec.ofNat 32 t.val) 2000#32) (Scalar.muli (BitVec.ofNat 32 i.val) 400#32)).toNat
      = (subT t i).val * 400 := by decide

theorem col_iota (n : Fin 1024) :
    iota .tc S1x1024 32 [1] iota_S1x1024_d1_w32 (ix2 (0 : Fin 1) n) = BitVec.ofNat 32 n.val := by
  rw [iota_single_apply]

end Cert.Val.R1

end
-- ==== Proof.Val.R1PayB2.lean ====
import proofs.«401957_j37563783971102_3_alg».proof.Proof.Gen.KernelIdeal.Skeleton
import proofs.«401957_j37563783971102_3_alg».proof.Proof.Val.R1PayA0
import proofs.«401957_j37563783971102_3_alg».proof.Proof.Val.R1PayB1

noncomputable section

open scoped BigOperators

namespace Cert.Val.R1

open Idealize.ShloMosaic Idealize.ShloMosaic.ValueIdx Cert.KernelIdeal Cert.KernelIdeal.Gen

variable (X : Fin 10000 → Fin 256 → EReal) (A : Fin 1024 → Fin 256 → EReal) (y : Fin 1024 → BitVec 32)

theorem logitsB_spec (T : Fin 25) (v6 : FVec Ideal S1024x256 .bf16) (vX : Vec Ideal S1x400x256 .bf16)
    (hA : ∀ (n : Fin 1024) (k : Fin 256), v6 (ix2 n k) = A n k)
    (hX : ∀ (j : Fin 400) (k : Fin 256), vX (ix3 (0 : Fin 1) j k) = X (Spec.row T j) k) (j : Fin 400) (n : Fin 1024) :
    k1_pay18 v6 vX (ix2 j n) = Spec.Lt X A T j n := by
  rw [logits_apply]
  show _ = (∑ k : Fin 256, X (Spec.row T j) k * A n k) * Spec.κ
  exact congrArg (· * Spec.κ) (Finset.sum_congr rfl fun k _ => by rw [hX, hA])

abbrev rowWord (arg2 i : BitVec 32) : BitVec 32 := Scalar.addi (Scalar.muli arg2 2000#32) (Scalar.muli i 400#32)

section Tile

variable (t : Fin 5) (v6 : FVec Ideal S1024x256 .bf16) (v8 : IVec S1x1024 32) (v25 v26 : Vec Ideal S1x1024 .f32)
  (v27 : IVec S1x1024 32)
  (hA : ∀ (n : Fin 1024) (k : Fin 256), v6 (ix2 n k) = A n k)
  (hy : ∀ n : Fin 1024, v8 (ix2 (0 : Fin 1) n) = y n)
  (hm : ∀ n : Fin 1024, v25 (ix2 (0 : Fin 1) n) = Spec.m0 X A y n)
  (hs : ∀ n : Fin 1024, v26 (ix2 (0 : Fin 1) n) = Spec.sf X A y n)
  (hcol : ∀ n : Fin 1024, v27 (ix2 (0 : Fin 1) n) = BitVec.ofNat 32 n.val)

include hA hy hm hs hcol

theorem posB_shared (i : Fin 5) (vX : Vec Ideal S1x400x256 .bf16)
    (hX : ∀ (j : Fin 400) (k : Fin 256), vX (ix3 (0 : Fin 1) j k) = X (Spec.row (subT t i) j) k)
    (old : Vec Ideal S1x1x1024 .f32) (n : Fin 1024) :
    accVec (shapeCast S1x1024 old shapeCasts_S1x1x1024_S1x1024)
        (mulf (maskVec (rowWord (BitVec.ofNat 32 t.val) (BitVec.ofNat 32 i.val)) v8 v27) (lpVec (k1_pay18 v6 vX) v25 v26))
        (ix3 (0 : Fin 1) (0 : Fin 1) n)
      = old (ix3 (0 : Fin 1) (0 : Fin 1) n)
        + ∑ j : Fin 400, Spec.maskB y (subT t i) j n * Spec.lp X A y (subT t i) j n := by
  rw [posB_core X A y (subT t i) _ (rowWord_toNat t i) (k1_pay18 v6 vX) (logitsB_spec X A (subT t i) v6 vX hA hX)
    v8 v27 hy hcol v25 v26 hm hs, oldCast_apply]

omit hA hm hs in
theorem cntB_shared (i : Fin 5) (old : Vec Ideal S1x1x1024 .f32) (n : Fin 1024) :
    accVec (shapeCast S1x1024 old shapeCasts_S1x1x1024_S1x1024)
        (maskVec (rowWord (BitVec.ofNat 32 t.val) (BitVec.ofNat 32 i.val)) v8 v27) (ix3 (0 : Fin 1) (0 : Fin 1) n)
      = old (ix3 (0 : Fin 1) (0 : Fin 1) n) + ∑ j : Fin 400, Spec.maskB y (subT t i) j n := by
  rw [cntB_core y (subT t i) _ (rowWord_toNat t i) v8 v27 hy hcol, oldCast_apply]

theorem posB1 (vX : Vec Ideal S1x400x256 .bf16)
    (hX : ∀ (j : Fin 400) (k : Fin 256), vX (ix3 (0 : Fin 1) j k) = X (Spec.row (subT t 1) j) k)
    (old : Vec Ideal S1x1x1024 .f32) (n : Fin 1024) :
    k1_pay47 (k1_pay42 v6 v25 v26 vX) (k1_pay43 v8) (k1_pay44 (BitVec.ofNat 32 t.val)) (k1_pay45 v27) old
        (ix3 (0 : Fin 1) (0 : Fin 1) n)
      = old (ix3 (0 : Fin 1) (0 : Fin 1) n)
        + ∑ j : Fin 400, Spec.maskB y (subT t 1) j n * Spec.lp X A y (subT t 1) j n :=
  posB_shared X A y t v6 v8 v25 v26 v27 hA hy hm hs hcol 1 vX hX old n

omit hA hm hs in
theorem cntB1 (old : Vec Ideal S1x1x1024 .f32) (n : Fin 1024) :
    k1_pay48 (F := Ideal) (k1_pay43 v8) (k1_pay44 (BitVec.ofNat 32 t.val)) (k1_pay45 v27) old (ix3 (0 : Fin 1) (0 : Fin 1) n)
      = old (ix3 (0 : Fin 1) (0 : Fin 1) n) + ∑ j : Fin 400, Spec.maskB y (subT t 1) j n :=
  cntB_shared y t v8 v27 hy hcol 1 old n

theorem posB2 (vX : Vec Ideal S1x400x256 .bf16)
    (hX : ∀ (j : Fin 400) (k : Fin 256), vX (ix3 (0 : Fin 1) j k) = X (Spec.row (subT t 2) j) k)
    (old : Vec Ideal S1x1x1024 .f32) (n : Fin 1024) :
    k1_pay52 v8 v26 v27 (rowWord (BitVec.ofNat 32 t.val) 2#32) (k1_pay49 v6 vX) (k1_pay50 v25) old
        (ix3 (0 : Fin 1) (0 : Fin 1) n)
      = old (ix3 (0 : Fin 1) (0 : Fin 1) n)
        + ∑ j : Fin 400, Spec.maskB y (subT t 2) j n * Spec.lp X A y (subT t 2) j n :=
  posB_shared X A y t v6 v8 v25 v26 v27 hA hy hm hs hcol 2 vX hX old n

omit hA hm hs in
theorem cntB2 (old : Vec Ideal S1x1x1024 .f32) (n : Fin 1024) :
    k1_pay53 (F := Ideal) v8 v27 (rowWord (BitVec.ofNat 32 t.val) 2#32) old (ix3 (0 : Fin 1) (0 : Fin 1) n)
      = old (ix3 (0 : Fin 1) (0 : Fin 1) n) + ∑ j : Fin 400, Spec.maskB y (subT t 2) j n :=
  cntB_shared y t v8 v27 hy hcol 2 old n

theorem posB3 (vX : Vec Ideal S1x400x256 .bf16)
    (hX : ∀ (j : Fin 400) (k : Fin 256), vX (ix3 (0 : Fin 1) j k) = X (Spec.row (subT t 3) j) k)
    (old : Vec Ideal S1x1x1024 .f32) (n : Fin 1024) :
    k1_pay55 (BitVec.ofNat 32 t.val) v6 v8 v25 v26 v27 3#32 2000#32 vX old (ix3 (0 : Fin 1) (0 : Fin 1) n)
      = old (ix3 (0 : Fin 1) (0 : Fin 1) n)
        + ∑ j : Fin 400, Spec.maskB y (subT t 3) j n * Spec.lp X A y (subT t 3) j n :=
  posB_shared X A y t v6 v8 v25 v26 v27 hA hy hm hs hcol 3 vX hX old n

omit hA hm hs in
theorem cntB3 (old : Vec Ideal S1x1x1024 .f32) (n : Fin 1024) :
    k1_pay57 (k1_pay54 (F := Ideal) (BitVec.ofNat 32 t.val) v8 v27 3#32 2000#32) (k1_pay56 old) (ix3 (0 : Fin 1) (0 : Fin 1) n)
      = old (ix3 (0 : Fin 1) (0 : Fin 1) n) + ∑ j : Fin 400, Spec.maskB y (subT t 3) j n :=
  cntB_shared y t v8 v27 hy hcol 3 old n

theorem posB4 (vX : Vec Ideal S1x400x256 .bf16)
    (hX : ∀ (j : Fin 400) (k : Fin 256), vX (ix3 (0 : Fin 1) j k) = X (Spec.row (subT t 4) j) k)
    (old : Vec Ideal S1x1x1024 .f32) (n : Fin 1024) :
    k1_pay16 (k1_pay59 old) (k1_pay60 (BitVec.ofNat 32 t.val) v6 v8 v25 v26 v27 vX) (ix3 (0 : Fin 1) (0 : Fin 1) n)
      = old (ix3 (0 : Fin 1) (0 : Fin 1) n)
        + ∑ j : Fin 400, Spec.maskB y (subT t 4) j n * Spec.lp X A y (subT t 4) j n :=
  posB_shared X A y t v6 v8 v25 v26 v27 hA hy hm hs hcol 4 vX hX old n

omit hA hm hs in
theorem cntB4 (old : Vec Ideal S1x1x1024 .f32) (n : Fin 1024) :
    k1_pay17 (k1_pay58 (F := Ideal) (BitVec.ofNat 32 t.val) v8 v27) old (ix3 (0 : Fin 1) (0 : Fin 1) n)
      = old (ix3 (0 : Fin 1) (0 : Fin 1) n) + ∑ j : Fin 400, Spec.maskB y (subT t 4) j n :=
  cntB_shared y t v8 v27 hy hcol 4 old n

end Tile

section Tile0

variable (t : Fin 5) (v6 : FVec Ideal S1024x256 .bf16) (v8 : IVec S1x1024 32) (v25 v26 : Vec Ideal S1x1024 .f32)
  (hA : ∀ (n : Fin 1024) (k : Fin 256), v6 (ix2 n k) = A n k)
  (hy : ∀ n : Fin 1024, v8 (ix2 (0 : Fin 1) n) = y n)
  (hm : ∀ n : Fin 1024, v25 (ix2 (0 : Fin 1) n) = Spec.m0 X A y n)
  (hs : ∀ n : Fin 1024, v26 (ix2 (0 : Fin 1) n) = Spec.sf X A y n)

include hA hy hm hs in
theorem posB0 (vX : Vec Ideal S1x400x256 .bf16)
    (hX : ∀ (j : Fin 400) (k : Fin 256), vX (ix3 (0 : Fin 1) j k) = X (Spec.row (subT t 0) j) k)
    (old : Vec Ideal S1x1x1024 .f32) (n : Fin 1024) :
    k1_pay40 (k1_pay39 (BitVec.ofNat 32 t.val) v6 v8 v25 v26 vX old) (ix3 (0 : Fin 1) (0 : Fin 1) n)
      = old (ix3 (0 : Fin 1) (0 : Fin 1) n)
        + ∑ j : Fin 400, Spec.maskB y (subT t 0) j n * Spec.lp X A y (subT t 0) j n :=
  posB_shared X A y t v6 v8 v25 v26 (iota .tc S1x1024 32 [1] iota_S1x1024_d1_w32) hA hy hm hs col_iota 0 vX hX old n

include hy in
theorem cntB0 (old : Vec Ideal S1x1x1024 .f32) (n : Fin 1024) :
    k1_pay41 (k1_pay38 (F := Ideal) (BitVec.ofNat 32 t.val) v8) old (ix3 (0 : Fin 1) (0 : Fin 1) n)
      = old (ix3 (0 : Fin 1) (0 : Fin 1) n) + ∑ j : Fin 400, Spec.maskB y (subT t 0) j n :=
  cntB_shared y t v8 (iota .tc S1x1024 32 [1] iota_S1x1024_d1_w32) hy col_iota 0 old n

end Tile0

end Cert.Val.R1

end
-- ==== Proof.Val.R1ChainB.lean ====
import proofs.«401957_j37563783971102_3_alg».proof.Proof.Val.R1PayB2
import proofs.«401957_j37563783971102_3_alg».proof.Proof.Val.R1PieceLib

noncomputable section

open scoped BigOperators

namespace Cert.Val.R1

open Idealize.ShloMosaic Idealize.ShloMosaic.ValueIdx Cert.KernelIdeal Cert.KernelIdeal.Gen

section ChainB
variable {F : FTy → Type} [FloatOps F] [Named F]
variable (tw : BitVec 32) (v6 : FVec F S1024x256 .bf16) (v8 : IVec S1x1024 32) (v25 v26 : Vec F S1x1024 .f32)
  (w0 w1 w2 w3 w4 : Vec F S1x400x256 .bf16) (p q : Vec F S1x1x1024 .f32)

abbrev colsB : IVec S1x1024 32 := iota .tc S1x1024 32 [1] iota_S1x1024_d1_w32

def pB1 : FVec F S1x1x1024 .f32 := k1_pay40 (k1_pay39 tw v6 v8 v25 v26 w0 p)

def pB2 : FVec F S1x1x1024 .f32 :=
  k1_pay47 (k1_pay42 v6 v25 v26 w1) (k1_pay43 v8) (k1_pay44 tw) (k1_pay45 colsB) (pB1 tw v6 v8 v25 v26 w0 p)

def pB3 : FVec F S1x1x1024 .f32 :=
  k1_pay52 v8 v26 colsB (rowWord tw 2#32) (k1_pay49 v6 w2) (k1_pay50 v25) (pB2 tw v6 v8 v25 v26 w0 w1 p)

def pB4 : FVec F S1x1x1024 .f32 := k1_pay55 tw v6 v8 v25 v26 colsB 3#32 2000#32 w3 (pB3 tw v6 v8 v25 v26 w0 w1 w2 p)

def pB5 : FVec F S1x1x1024 .f32 :=
  k1_pay16 (k1_pay59 (pB4 tw v6 v8 v25 v26 w0 w1 w2 w3 p)) (k1_pay60 tw v6 v8 v25 v26 colsB w4)

def cB1 : FVec F S1x1x1024 .f32 := k1_pay41 (k1_pay38 (F := F) tw v8) q

def cB2 : FVec F S1x1x1024 .f32 := k1_pay48 (k1_pay43 v8) (k1_pay44 tw) (k1_pay45 colsB) (cB1 tw v8 q)

def cB3 : FVec F S1x1x1024 .f32 := k1_pay53 v8 colsB (rowWord tw 2#32) (cB2 tw v8 q)

def cB4 : FVec F S1x1x1024 .f32 := k1_pay57 (k1_pay54 (F := F) tw v8 colsB 3#32 2000#32) (k1_pay56 (cB3 tw v8 q))

def cB5 : FVec F S1x1x1024 .f32 := k1_pay17 (k1_pay58 (F := F) tw v8 colsB) (cB4 tw v8 q)

end ChainB

theorem rows_spec (X : Fin 10000 → Fin 256 → EReal) (x0 : Vec Ideal S1x2000x256 .bf16) (t : Fin 5)
    (hX : ∀ (r : Fin 2000) (k : Fin 256),
      x0 (ix3 (0 : Fin 1) r k) = X ⟨2000 * t.val + r.val, by have := t.isLt; have := r.isLt; omega⟩ k)
    (i : Fin 5) (o : ℕ) (ho : o = 400 * i.val)
    (b : Fits o) (j : Fin 400) (k : Fin 256) : sub x0 o b (ix3 (0 : Fin 1) j k) = X (Spec.row (subT t i) j) k := by
  have hr : o + j.val < 2000 := by have := i.isLt; have := j.isLt; omega
  rw [ld_rows x0 o b j k ⟨o + j.val, hr⟩ rfl, hX]
  congr 1; apply Fin.ext; rw [row_subT_val]
  show 2000 * t.val + (o + j.val) = _
  omega

section SpecB

variable (X : Fin 10000 → Fin 256 → EReal) (A : Fin 1024 → Fin 256 → EReal) (y : Fin 1024 → BitVec 32)
variable (t : Fin 5) (v6 : FVec Ideal S1024x256 .bf16) (v8 : IVec S1x1024 32) (v25 v26 : Vec Ideal S1x1024 .f32)
  (w0 w1 w2 w3 w4 : Vec Ideal S1x400x256 .bf16) (p q : Vec Ideal S1x1x1024 .f32)
  (hA : ∀ (n : Fin 1024) (k : Fin 256), v6 (ix2 n k) = A n k)
  (hy : ∀ n : Fin 1024, v8 (ix2 (0 : Fin 1) n) = y n)
  (hm : ∀ n : Fin 1024, v25 (ix2 (0 : Fin 1) n) = Spec.m0 X A y n)
  (hs : ∀ n : Fin 1024, v26 (ix2 (0 : Fin 1) n) = Spec.sf X A y n)
  (h0 : ∀ (j : Fin 400) (k : Fin 256), w0 (ix3 (0 : Fin 1) j k) = X (Spec.row (subT t 0) j) k)
  (h1 : ∀ (j : Fin 400) (k : Fin 256), w1 (ix3 (0 : Fin 1) j k) = X (Spec.row (subT t 1) j) k)
  (h2 : ∀ (j : Fin 400) (k : Fin 256), w2 (ix3 (0 : Fin 1) j k) = X (Spec.row (subT t 2) j) k)
  (h3 : ∀ (j : Fin 400) (k : Fin 256), w3 (ix3 (0 : Fin 1) j k) = X (Spec.row (subT t 3) j) k)
  (h4 : ∀ (j : Fin 400) (k : Fin 256), w4 (ix3 (0 : Fin 1) j k) = X (Spec.row (subT t 4) j) k)

include hA hy hm hs h0 h1 h2 h3 h4 in
theorem pB5_spec (hp : ∀ n : Fin 1024, p (ix3 (0 : Fin 1) (0 : Fin 1) n) = (Spec.passB X A y (5 * t.val)).1 n)
    (n : Fin 1024) :
    pB5 (BitVec.ofNat 32 t.val) v6 v8 v25 v26 w0 w1 w2 w3 w4 p (ix3 (0 : Fin 1) (0 : Fin 1) n)
      = (Spec.passB X A y (5 * t.val + 5)).1 n := by
  rw [passB_tile_fst]
  unfold pB5 pB4 pB3 pB2 pB1
  rw [posB4 X A y t v6 v8 v25 v26 colsB hA hy hm hs col_iota w4 h4,
    posB3 X A y t v6 v8 v25 v26 colsB hA hy hm hs col_iota w3 h3,
    posB2 X A y t v6 v8 v25 v26 colsB hA hy hm hs col_iota w2 h2,
    posB1 X A y t v6 v8 v25 v26 colsB hA hy hm hs col_iota w1 h1,
    posB0 X A y t v6 v8 v25 v26 hA hy hm hs w0 h0, hp]

include hy in
theorem cB5_spec (hq : ∀ n : Fin 1024, q (ix3 (0 : Fin 1) (0 : Fin 1) n) = (Spec.passB X A y (5 * t.val)).2 n)
    (n : Fin 1024) :
    cB5 (F := Ideal) (BitVec.ofNat 32 t.val) v8 q (ix3 (0 : Fin 1) (0 : Fin 1) n)
      = (Spec.passB X A y (5 * t.val + 5)).2 n := by
  rw [passB_tile_snd]
  unfold cB5 cB4 cB3 cB2 cB1
  rw [cntB4 y t v8 colsB hy col_iota, cntB3 y t v8 colsB hy col_iota, cntB2 y t v8 colsB hy col_iota,
    cntB1 y t v8 colsB hy col_iota, cntB0 y t v8 hy, hq]

end SpecB

end Cert.Val.R1

end
-- ==== Proof.Val.R1PieceD.lean ====
import proofs.«401957_j37563783971102_3_alg».proof.Proof.KI.R1Runs
import proofs.«401957_j37563783971102_3_alg».proof.Proof.Val.R1ChainB
import proofs.«401957_j37563783971102_3_alg».proof.Proof.Val.R1PayA2

noncomputable section

open scoped BigOperators

namespace Cert.Val.R1

open Idealize.ShloMosaic Idealize.ShloMosaic.ValueIdx Idealize.ShloMosaic.TcCoe Idealize.ShloMosaic.Tactic Cert.KernelIdeal Cert.KernelIdeal.Gen Cert.KernelIdeal.Hand
open Idealize.SL Idealize.SL.Sem

section NestD
variable {F : FTy → Type} [FloatOps F] [Named F]

theorem canonD_pos (c : Dev nD) {i : grid1.Coords} (o : Ops1) (hc : IsD i)
    (x0 : Vec F S1x2000x256 .bf16) (x1 : Vec F S1x1024x256 .bf16) (x2 : Vec F S1x1x1024 .i32) (xo6 : Vec F S1x1x1024 .f32) (xo7 : Vec F S1x1x1024 .f32) (xs10 : Vec F S1x1024 .f32) (xs11 : Vec F S1x1024 .f32)
    (b0 : Fits 0) (b1 : Fits 400) (b2 : Fits 800) (b3 : Fits 1200) (b4 : Fits 1600) :
    View.canon (runD c o hc x0 x1 x2 xo6 xo7 xs10 xs11).1
      = pB5 (BitVec.ofNat 32 (i 2).val) (k1_pay5 x1) (k1_pay6 x2) xs10 xs11 (sub x0 0 b0) (sub x0 400 b1) (sub x0 800 b2) (sub x0 1200 b3) (sub x0 1600 b4) (k1_pay14 x2 xs10 xs11 xo6) := by
  unfold runD
  dsimp only
  sl_unfold_run_names
  rw [View.canon_cons_unit_zero (S := S1x1x1024) hz3]
  simp only [readCov_cons_unit_zero (S := S1x1x1024) _ hz3, View.readCov_unit_zero (S := S1x1x1024) _ hz3, View.readAt_eq_ld, o.h3.read_unread, o.h4.read_unread, o.h5.read_unread, o.h6.read_unread, o.h7.read_unread, o.h10.read_unread, o.h11.read_unread,
    View.ld_unit_zero (S := S1x1024) hz2, View.ld_unit_zero (S := S1x1024x256) hz3, View.ld_unit_zero (S := S1x1x1024) hz3]
  rfl

theorem canonD_cnt (c : Dev nD) {i : grid1.Coords} (o : Ops1) (hc : IsD i)
    (x0 : Vec F S1x2000x256 .bf16) (x1 : Vec F S1x1024x256 .bf16) (x2 : Vec F S1x1x1024 .i32) (xo6 : Vec F S1x1x1024 .f32) (xo7 : Vec F S1x1x1024 .f32) (xs10 : Vec F S1x1024 .f32) (xs11 : Vec F S1x1024 .f32) :
    View.canon (runD c o hc x0 x1 x2 xo6 xo7 xs10 xs11).2.1
      = cB5 (BitVec.ofNat 32 (i 2).val) (k1_pay6 x2) (k1_pay15 x2 xo7) := by
  unfold runD
  dsimp only
  sl_unfold_run_names
  rw [View.canon_cons_unit_zero (S := S1x1x1024) hz3]
  simp only [readCov_cons_unit_zero (S := S1x1x1024) _ hz3, View.readCov_unit_zero (S := S1x1x1024) _ hz3, View.readAt_eq_ld, o.h3.read_unread, o.h4.read_unread, o.h5.read_unread, o.h6.read_unread, o.h7.read_unread, o.h10.read_unread, o.h11.read_unread,
    View.ld_unit_zero (S := S1x1024) hz2, View.ld_unit_zero (S := S1x1024x256) hz3, View.ld_unit_zero (S := S1x1x1024) hz3]
  rfl

end NestD

theorem pieceD_pos (c : Dev nD) {i : grid1.Coords} (o : Ops1) (hc : IsD i)
    (x0 : Vec Ideal S1x2000x256 .bf16) (x1 : Vec Ideal S1x1024x256 .bf16) (x2 : Vec Ideal S1x1x1024 .i32) (xo6 : Vec Ideal S1x1x1024 .f32) (xo7 : Vec Ideal S1x1x1024 .f32) (xs10 : Vec Ideal S1x1024 .f32) (xs11 : Vec Ideal S1x1024 .f32)
    (X : Fin 10000 → Fin 256 → EReal) (A : Fin 1024 → Fin 256 → EReal) (y : Fin 1024 → BitVec 32)
    (t : Fin 5) (ht : (i 2).val = t.val) (ht0 : t.val = 0)
    (hA : ∀ (n : Fin 1024) (k : Fin 256), x1 (ix3 (0 : Fin 1) n k) = A n k)
    (hy : ∀ n : Fin 1024, x2 (ix3 (0 : Fin 1) (0 : Fin 1) n) = y n)
    (hX : ∀ (r : Fin 2000) (k : Fin 256),
      x0 (ix3 (0 : Fin 1) r k) = X ⟨2000 * t.val + r.val, by have := t.isLt; have := r.isLt; omega⟩ k)
    (hm : ∀ n : Fin 1024, xs10 (ix2 (0 : Fin 1) n) = Spec.m0 X A y n)
    (hs : ∀ n : Fin 1024, xs11 (ix2 (0 : Fin 1) n) = Spec.sf X A y n)
    (hp : ∀ n : Fin 1024, xo6 (ix3 (0 : Fin 1) (0 : Fin 1) n) = 0) (n : Fin 1024) :
    View.canon (runD (F := Ideal) c o hc x0 x1 x2 xo6 xo7 xs10 xs11).1 (ix3 (0 : Fin 1) (0 : Fin 1) n)
      = (Spec.passB X A y (5 * t.val + 5)).1 n := by
  rw [canonD_pos c o hc x0 x1 x2 xo6 xo7 xs10 xs11
    (by decide) (by decide) (by decide) (by decide) (by decide), ht]
  exact pB5_spec X A y t (k1_pay5 x1) (k1_pay6 x2) xs10 xs11 _ _ _ _ _ (k1_pay14 x2 xs10 xs11 xo6)
    (fun n k => by rw [pay5_apply, hA]) (fun n => by rw [pay6_apply, hy]) hm hs
    (rows_spec X x0 t hX 0 0 (by decide) _) (rows_spec X x0 t hX 1 400 (by decide) _) (rows_spec X x0 t hX 2 800 (by decide) _)
    (rows_spec X x0 t hX 3 1200 (by decide) _) (rows_spec X x0 t hX 4 1600 (by decide) _)
    (fun n => by
      rw [zero_pos X A y x2 xs10 xs11 xo6 hy hm hs n, hp n, show 5 * t.val = 0 from by omega]; rfl) n

theorem pieceD_cnt (c : Dev nD) {i : grid1.Coords} (o : Ops1) (hc : IsD i)
    (x0 : Vec Ideal S1x2000x256 .bf16) (x1 : Vec Ideal S1x1024x256 .bf16) (x2 : Vec Ideal S1x1x1024 .i32) (xo6 : Vec Ideal S1x1x1024 .f32) (xo7 : Vec Ideal S1x1x1024 .f32) (xs10 : Vec Ideal S1x1024 .f32) (xs11 : Vec Ideal S1x1024 .f32)
    (y : Fin 1024 → BitVec 32) (X : Fin 10000 → Fin 256 → EReal) (A : Fin 1024 → Fin 256 → EReal)
    (t : Fin 5) (ht : (i 2).val = t.val) (ht0 : t.val = 0)
    (hy : ∀ n : Fin 1024, x2 (ix3 (0 : Fin 1) (0 : Fin 1) n) = y n)
    (hq : ∀ n : Fin 1024, xo7 (ix3 (0 : Fin 1) (0 : Fin 1) n) = 0) (n : Fin 1024) :
    View.canon (runD (F := Ideal) c o hc x0 x1 x2 xo6 xo7 xs10 xs11).2.1 (ix3 (0 : Fin 1) (0 : Fin 1) n)
      = (Spec.passB X A y (5 * t.val + 5)).2 n := by
  rw [canonD_cnt c o hc x0 x1 x2 xo6 xo7 xs10 xs11, ht]
  exact cB5_spec X A y t (k1_pay6 x2) (k1_pay15 x2 xo7) (fun n => by rw [pay6_apply, hy]) (fun n => by
      rw [zero_cnt y x2 xo7 hy n, hq n, show 5 * t.val = 0 from by omega]; rfl) n

end Cert.Val.R1

end
-- ==== Proof.Val.R1PieceE.lean ====
import proofs.«401957_j37563783971102_3_alg».proof.Proof.KI.R1Runs
import proofs.«401957_j37563783971102_3_alg».proof.Proof.Val.R1ChainB

noncomputable section

open scoped BigOperators

namespace Cert.Val.R1

open Idealize.ShloMosaic Idealize.ShloMosaic.ValueIdx Idealize.ShloMosaic.TcCoe Idealize.ShloMosaic.Tactic Cert.KernelIdeal Cert.KernelIdeal.Gen Cert.KernelIdeal.Hand
open Idealize.SL Idealize.SL.Sem

section NestE
variable {F : FTy → Type} [FloatOps F] [Named F]

theorem canonE_pos (c : Dev nD) {i : grid1.Coords} (o : Ops1) (hc : IsE i)
    (x0 : Vec F S1x2000x256 .bf16) (x1 : Vec F S1x1024x256 .bf16) (x2 : Vec F S1x1x1024 .i32) (xo6 : Vec F S1x1x1024 .f32) (xo7 : Vec F S1x1x1024 .f32) (xs10 : Vec F S1x1024 .f32) (xs11 : Vec F S1x1024 .f32)
    (b0 : Fits 0) (b1 : Fits 400) (b2 : Fits 800) (b3 : Fits 1200) (b4 : Fits 1600) :
    View.canon (runE c o hc x0 x1 x2 xo6 xo7 xs10 xs11).1
      = pB5 (BitVec.ofNat 32 (i 2).val) (k1_pay5 x1) (k1_pay6 x2) xs10 xs11 (sub x0 0 b0) (sub x0 400 b1) (sub x0 800 b2) (sub x0 1200 b3) (sub x0 1600 b4) xo6 := by
  unfold runE
  dsimp only
  sl_unfold_run_names
  rw [View.canon_cons_unit_zero (S := S1x1x1024) hz3]
  simp only [readCov_cons_unit_zero (S := S1x1x1024) _ hz3, View.readCov_unit_zero (S := S1x1x1024) _ hz3, View.readAt_eq_ld, o.h3.read_unread, o.h4.read_unread, o.h5.read_unread, o.h6.read_unread, o.h7.read_unread, o.h10.read_unread, o.h11.read_unread,
    View.ld_unit_zero (S := S1x1024) hz2, View.ld_unit_zero (S := S1x1024x256) hz3, View.ld_unit_zero (S := S1x1x1024) hz3]
  rfl

theorem canonE_cnt (c : Dev nD) {i : grid1.Coords} (o : Ops1) (hc : IsE i)
    (x0 : Vec F S1x2000x256 .bf16) (x1 : Vec F S1x1024x256 .bf16) (x2 : Vec F S1x1x1024 .i32) (xo6 : Vec F S1x1x1024 .f32) (xo7 : Vec F S1x1x1024 .f32) (xs10 : Vec F S1x1024 .f32) (xs11 : Vec F S1x1024 .f32) :
    View.canon (runE c o hc x0 x1 x2 xo6 xo7 xs10 xs11).2.1
      = cB5 (BitVec.ofNat 32 (i 2).val) (k1_pay6 x2) xo7 := by
  unfold runE
  dsimp only
  sl_unfold_run_names
  rw [View.canon_cons_unit_zero (S := S1x1x1024) hz3]
  simp only [readCov_cons_unit_zero (S := S1x1x1024) _ hz3, View.readCov_unit_zero (S := S1x1x1024) _ hz3, View.readAt_eq_ld, o.h3.read_unread, o.h4.read_unread, o.h5.read_unread, o.h6.read_unread, o.h7.read_unread, o.h10.read_unread, o.h11.read_unread,
    View.ld_unit_zero (S := S1x1024) hz2, View.ld_unit_zero (S := S1x1024x256) hz3, View.ld_unit_zero (S := S1x1x1024) hz3]
  rfl

end NestE

theorem pieceE_pos (c : Dev nD) {i : grid1.Coords} (o : Ops1) (hc : IsE i)
    (x0 : Vec Ideal S1x2000x256 .bf16) (x1 : Vec Ideal S1x1024x256 .bf16) (x2 : Vec Ideal S1x1x1024 .i32) (xo6 : Vec Ideal S1x1x1024 .f32) (xo7 : Vec Ideal S1x1x1024 .f32) (xs10 : Vec Ideal S1x1024 .f32) (xs11 : Vec Ideal S1x1024 .f32)
    (X : Fin 10000 → Fin 256 → EReal) (A : Fin 1024 → Fin 256 → EReal) (y : Fin 1024 → BitVec 32)
    (t : Fin 5) (ht : (i 2).val = t.val)
    (hA : ∀ (n : Fin 1024) (k : Fin 256), x1 (ix3 (0 : Fin 1) n k) = A n k)
    (hy : ∀ n : Fin 1024, x2 (ix3 (0 : Fin 1) (0 : Fin 1) n) = y n)
    (hX : ∀ (r : Fin 2000) (k : Fin 256),
      x0 (ix3 (0 : Fin 1) r k) = X ⟨2000 * t.val + r.val, by have := t.isLt; have := r.isLt; omega⟩ k)
    (hm : ∀ n : Fin 1024, xs10 (ix2 (0 : Fin 1) n) = Spec.m0 X A y n)
    (hs : ∀ n : Fin 1024, xs11 (ix2 (0 : Fin 1) n) = Spec.sf X A y n)
    (hp : ∀ n : Fin 1024, xo6 (ix3 (0 : Fin 1) (0 : Fin 1) n) = (Spec.passB X A y (5 * t.val)).1 n) (n : Fin 1024) :
    View.canon (runE (F := Ideal) c o hc x0 x1 x2 xo6 xo7 xs10 xs11).1 (ix3 (0 : Fin 1) (0 : Fin 1) n)
      = (Spec.passB X A y (5 * t.val + 5)).1 n := by
  rw [canonE_pos c o hc x0 x1 x2 xo6 xo7 xs10 xs11
    (by decide) (by decide) (by decide) (by decide) (by decide), ht]
  exact pB5_spec X A y t (k1_pay5 x1) (k1_pay6 x2) xs10 xs11 _ _ _ _ _ xo6
    (fun n k => by rw [pay5_apply, hA]) (fun n => by rw [pay6_apply, hy]) hm hs
    (rows_spec X x0 t hX 0 0 (by decide) _) (rows_spec X x0 t hX 1 400 (by decide) _) (rows_spec X x0 t hX 2 800 (by decide) _)
    (rows_spec X x0 t hX 3 1200 (by decide) _) (rows_spec X x0 t hX 4 1600 (by decide) _)
    hp n

theorem pieceE_cnt (c : Dev nD) {i : grid1.Coords} (o : Ops1) (hc : IsE i)
    (x0 : Vec Ideal S1x2000x256 .bf16) (x1 : Vec Ideal S1x1024x256 .bf16) (x2 : Vec Ideal S1x1x1024 .i32) (xo6 : Vec Ideal S1x1x1024 .f32) (xo7 : Vec Ideal S1x1x1024 .f32) (xs10 : Vec Ideal S1x1024 .f32) (xs11 : Vec Ideal S1x1024 .f32)
    (y : Fin 1024 → BitVec 32) (X : Fin 10000 → Fin 256 → EReal) (A : Fin 1024 → Fin 256 → EReal)
    (t : Fin 5) (ht : (i 2).val = t.val)
    (hy : ∀ n : Fin 1024, x2 (ix3 (0 : Fin 1) (0 : Fin 1) n) = y n)
    (hq : ∀ n : Fin 1024, xo7 (ix3 (0 : Fin 1) (0 : Fin 1) n) = (Spec.passB X A y (5 * t.val)).2 n) (n : Fin 1024) :
    View.canon (runE (F := Ideal) c o hc x0 x1 x2 xo6 xo7 xs10 xs11).2.1 (ix3 (0 : Fin 1) (0 : Fin 1) n)
      = (Spec.passB X A y (5 * t.val + 5)).2 n := by
  rw [canonE_cnt c o hc x0 x1 x2 xo6 xo7 xs10 xs11, ht]
  exact cB5_spec X A y t (k1_pay6 x2) xo7 (fun n => by rw [pay6_apply, hy]) hq n

end Cert.Val.R1

end
-- ==== Proof.Val.R1InvDE.lean ====
import proofs.«401957_j37563783971102_3_alg».proof.Proof.Val.R1Inv
import proofs.«401957_j37563783971102_3_alg».proof.Proof.Val.R1OutsD
import proofs.«401957_j37563783971102_3_alg».proof.Proof.Val.R1PieceD
import proofs.«401957_j37563783971102_3_alg».proof.Proof.Val.R1PieceE

noncomputable section

namespace Cert.Val.R1

open Idealize.ShloMosaic Idealize.ShloMosaic.ValueIdx Idealize.ShloMosaic.TcCoe Cert.KernelIdeal Cert.KernelIdeal.Gen Cert.KernelIdeal.Hand
open Idealize.SL Idealize.SL.Sem

theorem tileCoord_of_point : ∀ t : Fin cfg1.N, ((grid1.coords t) 2).val = t.val % 5 :=
  (by decide +kernel : ∀ t : Fin grid1.N, ((grid1.coords t) 2).val = t.val % 5)

variable (V : (d : Dev nD) → (b : Ref sig .tc) → Buf (Elt Ideal) ((d : Thread nD τ).loc b))

theorem inv_D (d : Dev nD) (t : Fin cfg1.N) (h : t.val % 10 = 5) (t' : Fin cfg1.N) (ht' : t'.val + 1 = t.val)
    (prev : Outs1 Ideal) (hp : Inv V d t' prev) : Inv V d t (step1 V d t prev) := by
  have hprob : probOf t' = probOf t := probOf_pred t t' ht' (by omega)
  have hXT : XT V d t' = XT V d t := congrArg (Xp V d) hprob
  have hAT : AT V d t' = AT V d t := congrArg (Ap V d) hprob
  have hyT : yT V d t' = yT V d t := congrArg (yp V d) hprob
  obtain ⟨hp1, hp2, -⟩ := hp
  obtain ⟨hpos0, hcnt0, -, -⟩ := hp1 (by omega)
  obtain ⟨hm0, hsf⟩ := hp2 (by omega)
  rw [hXT, hAT, hyT] at hm0 hsf
  have htile : ((grid1.coords t) 2).val = (tileOf t).val := (tileCoord_of_point t).trans (tileOf_val t).symm
  have ht0 : (tileOf t).val = 0 := by rw [tileOf_val]; omega
  have e : 5 * (t.val % 10 - 5) + 5 = 5 * (tileOf t).val + 5 := by rw [ht0]; omega
  rw [step1_D V d t prev h, stepD]
  unfold Inv
  dsimp only
  refine ⟨fun h' => absurd h' (by omega), fun _ => ⟨hm0, hsf⟩, fun _ => ⟨fun k => ?_, fun k => ?_⟩⟩
  · rw [e]
    refine (congrFun (out1_D_3_eq d (ops1 t) (hcD t h) (iblk1 V d 0 t) (iblk1 V d 1 t) (iblk1 V d 2 t) prev.1 prev.2.1 prev.2.2.2.2.1 prev.2.2.2.2.2) (ix3 (0 : Fin 1) (0 : Fin 1) k)).trans ?_
    exact pieceD_pos d (ops1 t) (hcD t h) (iblk1 V d 0 t) (iblk1 V d 1 t) (iblk1 V d 2 t) prev.1 prev.2.1 prev.2.2.2.2.1 prev.2.2.2.2.2
      (XT V d t) (AT V d t) (yT V d t) (tileOf t) htile ht0
      (fun n k => ablk_Ap V d t n k) (fun n => yblk_yp V d t n) (fun r k => xblk_Xp V d t r k) hm0 hsf hpos0 k
  · rw [e]
    refine (congrFun (out1_D_4_eq d (ops1 t) (hcD t h) (iblk1 V d 0 t) (iblk1 V d 1 t) (iblk1 V d 2 t) prev.1 prev.2.1 prev.2.2.2.2.1 prev.2.2.2.2.2) (ix3 (0 : Fin 1) (0 : Fin 1) k)).trans ?_
    exact pieceD_cnt d (ops1 t) (hcD t h) (iblk1 V d 0 t) (iblk1 V d 1 t) (iblk1 V d 2 t) prev.1 prev.2.1 prev.2.2.2.2.1 prev.2.2.2.2.2
      (yT V d t) (XT V d t) (AT V d t) (tileOf t) htile ht0
      (fun n => yblk_yp V d t n) hcnt0 k

theorem inv_E (d : Dev nD) (t : Fin cfg1.N) (h : 6 ≤ t.val % 10) (t' : Fin cfg1.N) (ht' : t'.val + 1 = t.val)
    (prev : Outs1 Ideal) (hp : Inv V d t' prev) : Inv V d t (step1 V d t prev) := by
  have hprob : probOf t' = probOf t := probOf_pred t t' ht' (by omega)
  have hXT : XT V d t' = XT V d t := congrArg (Xp V d) hprob
  have hAT : AT V d t' = AT V d t := congrArg (Ap V d) hprob
  have hyT : yT V d t' = yT V d t := congrArg (yp V d) hprob
  obtain ⟨-, hp2, hp3⟩ := hp
  obtain ⟨hm0, hsf⟩ := hp2 (by omega)
  obtain ⟨hpos, hcnt⟩ := hp3 (by omega)
  have e' : 5 * (t'.val % 10 - 5) + 5 = 5 * (tileOf t).val := by rw [tileOf_val]; omega
  rw [hXT, hAT, hyT] at hm0 hsf hpos hcnt
  rw [e'] at hpos hcnt
  have htile : ((grid1.coords t) 2).val = (tileOf t).val := (tileCoord_of_point t).trans (tileOf_val t).symm
  have e : 5 * (t.val % 10 - 5) + 5 = 5 * (tileOf t).val + 5 := by rw [tileOf_val]; omega
  rw [step1_E V d t prev h, stepE]
  unfold Inv
  dsimp only
  refine ⟨fun h' => absurd h' (by omega), fun _ => ⟨hm0, hsf⟩, fun _ => ⟨fun k => ?_, fun k => ?_⟩⟩
  · rw [e]
    refine (congrFun (out1_E_3_eq d (ops1 t) (hcE t h) (iblk1 V d 0 t) (iblk1 V d 1 t) (iblk1 V d 2 t) prev.1 prev.2.1 prev.2.2.2.2.1 prev.2.2.2.2.2) (ix3 (0 : Fin 1) (0 : Fin 1) k)).trans ?_
    exact pieceE_pos d (ops1 t) (hcE t h) (iblk1 V d 0 t) (iblk1 V d 1 t) (iblk1 V d 2 t) prev.1 prev.2.1 prev.2.2.2.2.1 prev.2.2.2.2.2
      (XT V d t) (AT V d t) (yT V d t) (tileOf t) htile
      (fun n k => ablk_Ap V d t n k) (fun n => yblk_yp V d t n) (fun r k => xblk_Xp V d t r k) hm0 hsf hpos k
  · rw [e]
    refine (congrFun (out1_E_4_eq d (ops1 t) (hcE t h) (iblk1 V d 0 t) (iblk1 V d 1 t) (iblk1 V d 2 t) prev.1 prev.2.1 prev.2.2.2.2.1 prev.2.2.2.2.2) (ix3 (0 : Fin 1) (0 : Fin 1) k)).trans ?_
    exact pieceE_cnt d (ops1 t) (hcE t h) (iblk1 V d 0 t) (iblk1 V d 1 t) (iblk1 V d 2 t) prev.1 prev.2.1 prev.2.2.2.2.1 prev.2.2.2.2.2
      (yT V d t) (XT V d t) (AT V d t) (tileOf t) htile
      (fun n => yblk_yp V d t n) hcnt k

end Cert.Val.R1

end
-- ==== Proof.Val.R1Val.lean ====
import proofs.«401957_j37563783971102_3_alg».proof.Proof.Val.R1InvABC
import proofs.«401957_j37563783971102_3_alg».proof.Proof.Val.R1InvDE

noncomputable section

namespace Cert.Val.R1

open Idealize.ShloMosaic Idealize.ShloMosaic.ValueIdx Idealize.ShloMosaic.TcCoe Cert.KernelIdeal Cert.KernelIdeal.Gen Cert.KernelIdeal.Hand

variable (V : (d : Dev nD) → (b : Ref sig .tc) → Buf (Elt Ideal) ((d : Thread nD τ).loc b))

theorem inv_all (d : Dev nD) : ∀ (n : ℕ) (hn : n < cfg1.N), Inv V d ⟨n, hn⟩ (outsAt1 V d n hn)
  | 0, hn => by
    show Inv V d ⟨0, hn⟩ (step1 V d ⟨0, hn⟩ junk1)
    exact inv_A V d ⟨0, hn⟩ rfl junk1
  | n + 1, hn => by
    have ih := inv_all d n (Nat.lt_of_succ_lt hn)
    show Inv V d ⟨n + 1, hn⟩ (step1 V d ⟨n + 1, hn⟩ (outsAt1 V d n (Nat.lt_of_succ_lt hn)))
    by_cases hA : (n + 1) % 10 = 0
    · exact inv_A V d ⟨n + 1, hn⟩ hA _
    by_cases hB : (n + 1) % 10 ≤ 3
    · exact inv_B V d ⟨n + 1, hn⟩ ⟨by show 1 ≤ (n + 1) % 10; omega, hB⟩ ⟨n, Nat.lt_of_succ_lt hn⟩ rfl _ ih
    by_cases hC : (n + 1) % 10 = 4
    · exact inv_C V d ⟨n + 1, hn⟩ hC ⟨n, Nat.lt_of_succ_lt hn⟩ rfl _ ih
    by_cases hD : (n + 1) % 10 = 5
    · exact inv_D V d ⟨n + 1, hn⟩ hD ⟨n, Nat.lt_of_succ_lt hn⟩ rfl _ ih
    · exact inv_E V d ⟨n + 1, hn⟩ (by show 6 ≤ (n + 1) % 10; omega) ⟨n, Nat.lt_of_succ_lt hn⟩ rfl _ ih

theorem outs_final (d : Dev nD) (t : Fin cfg1.N) (h9 : t.val % 10 = 9) (n : Fin 1024) :
    (outsAt1 V d t.val t.isLt).1 (ix3 (0 : Fin 1) (0 : Fin 1) n)
        = Spec.posK (Xp V d (probOf t)) (Ap V d (probOf t)) (yp V d (probOf t)) n
    ∧ (outsAt1 V d t.val t.isLt).2.1 (ix3 (0 : Fin 1) (0 : Fin 1) n)
        = Spec.cntK (Xp V d (probOf t)) (Ap V d (probOf t)) (yp V d (probOf t)) n := by
  obtain ⟨m, hm⟩ := t
  have h9' : m % 10 = 9 := h9
  have h := (inv_all V d m hm).2.2 (by show 5 ≤ m % 10; omega)
  have e : 5 * (m % 10 - 5) + 5 = 25 := by omega
  constructor
  · refine (h.1 n).trans ?_
    show (Spec.passB _ _ _ (5 * (m % 10 - 5) + 5)).1 n = _
    rw [e]; rfl
  · refine (h.2 n).trans ?_
    show (Spec.passB _ _ _ (5 * (m % 10 - 5) + 5)).2 n = _
    rw [e]; rfl

end Cert.Val.R1

end
-- ==== Proof.Val.Pre.lean ====
import proofs.«401957_j37563783971102_3_alg».proof.Pre_finite_inputs
import proofs.«401957_j37563783971102_3_alg».proof.Proof.Gen.Pre_finite_inputs
import Idealize.ShloMosaic.Lib.ReduceAll
import Idealize.ShloMosaic.Lib.ValueIdx
import Idealize.ShloMosaic.Lib.StableHlo.Predicate
import Idealize.ShloMosaic.PureOps.Ideal

namespace Cert.Val.Pre

open Idealize.ShloMosaic Cert.Pre_finite_inputs

instance : Subsingleton S_.Idx := ⟨fun a b => funext fun d => d.elim0⟩

theorem real_of_abs_lt_inf (x : Ideal .f32)
    (h : FloatOps.cmpf (F := Ideal) .olt (FloatOps.hostAbsf (F := Ideal) x)
          (FloatOps.ofBits (F := Ideal) .f32 0x7F800000#32) = 1#1) : ∃ r : ℝ, x = (r : EReal) := by
  induction x using EReal.rec with
  | bot => exfalso; revert h; simp [FloatOps.cmpf, FloatOps.hostAbsf, Ideal.cmp, Ideal.ofBits, Ideal.ieee]
  | coe r => exact ⟨r, rfl⟩
  | top => exfalso; revert h; simp [FloatOps.cmpf, FloatOps.hostAbsf, Ideal.cmp, Ideal.ofBits, Ideal.ieee]

theorem label_of_or (w : BitVec 32)
    (h : IntOp.ori (IntOp.cmpi .eq w 0#32) (IntOp.cmpi .eq w 1#32) = 1#1) : w = 0#32 ∨ w = 1#32 := by
  rcases IntOp.ori_eq_one.1 h with h | h
  · exact Or.inl (StableHlo.Predicate.cmpi_eq_iff.1 h)
  · exact Or.inr (StableHlo.Predicate.cmpi_eq_iff.1 h)

theorem all_real {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi (cmpf .olt (Host.absf x) (broadcastInDim s ![] hb (constant S_ .f32 0x7F800000#32)))
          (constantI S_ 1 1#1) hr h0 ValueIdx.ix0 = 1#1) (i : s.Idx) : ∃ r : ℝ, x i = (r : EReal) :=
  real_of_abs_lt_inf (x i) (Host.reduce_andi_all _ _ hr h0 ValueIdx.ix0 e i)

theorem all_label {s : Shape} {axes : List (Fin s.rank)} (y : IVec s 32)
    (hb : S_.BroadcastsInDim s (![] : Fin 0 → Fin s.rank)) (hr : s.ReducesTo axes S_) (h0 : 0 < S_.numel)
    (e : Host.reduce IntOp.andi (ori (cmpi .eq y (broadcastInDim s ![] hb (constantI S_ 32 0#32)))
            (cmpi .eq y (broadcastInDim s ![] hb (constantI S_ 32 1#32))))
          (constantI S_ 1 1#1) hr h0 ValueIdx.ix0 = 1#1) (i : s.Idx) : y i = 0#32 ∨ y i = 1#32 :=
  label_of_or (y i) (Host.reduce_andi_all _ _ hr h0 ValueIdx.ix0 e i)

variable [Facts]

theorem decode (a0 a1 a2 a3 : FVec Ideal S8x1x512x512 .f32) (a4 a5 : FVec Ideal S16x64x256 .f32)
    (a6 a7 : FVec Ideal S2x10000x256 .f32) (a8 a9 : IVec S16 32)
    (h : fn (F := Ideal) a0 a1 a2 a3 a4 a5 a6 a7 a8 a9 = fun _ => 1#1) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧
    (∀ i, a8 i = 0#32 ∨ a8 i = 1#32) ∧ (∀ i, a9 i = 0#32 ∨ a9 i = 1#32) := by
  have h0 := congrFun h ValueIdx.ix0
  dsimp only [fn, fn_part1, fn_part2, fn_part3, andi] at h0
  simp only [IntOp.andi_eq_one] at h0
  obtain ⟨⟨⟨⟨⟨⟨⟨⟨⟨e0, e1⟩, e2⟩, e3⟩, e4⟩, e5⟩, e6⟩, e7⟩, e8⟩, e9⟩ := h0
  exact ⟨all_real a0 _ _ _ e0, all_real a1 _ _ _ e1, all_real a2 _ _ _ e2, all_real a3 _ _ _ e3,
    all_real a4 _ _ _ e4, all_real a5 _ _ _ e5, all_real a6 _ _ _ e6, all_real a7 _ _ _ e7,
    all_label a8 _ _ _ e8, all_label a9 _ _ _ e9⟩

section Entries

variable {a0 a1 a2 a3 : FVec Ideal S8x1x512x512 .f32} {a4 a5 : FVec Ideal S16x64x256 .f32}
  {a6 a7 : FVec Ideal S2x10000x256 .f32} {a8 a9 : IVec S16 32}
  (h : fn (F := Ideal) a0 a1 a2 a3 a4 a5 a6 a7 a8 a9 = fun _ => 1#1)
include h

theorem real0 (i : S8x1x512x512.Idx) : ∃ r : ℝ, a0 i = (r : EReal) := (decode _ _ _ _ _ _ _ _ _ _ h).1 i
theorem real1 (i : S8x1x512x512.Idx) : ∃ r : ℝ, a1 i = (r : EReal) := (decode _ _ _ _ _ _ _ _ _ _ h).2.1 i
theorem real2 (i : S8x1x512x512.Idx) : ∃ r : ℝ, a2 i = (r : EReal) := (decode _ _ _ _ _ _ _ _ _ _ h).2.2.1 i
theorem real3 (i : S8x1x512x512.Idx) : ∃ r : ℝ, a3 i = (r : EReal) := (decode _ _ _ _ _ _ _ _ _ _ h).2.2.2.1 i
theorem real4 (i : S16x64x256.Idx) : ∃ r : ℝ, a4 i = (r : EReal) := (decode _ _ _ _ _ _ _ _ _ _ h).2.2.2.2.1 i
theorem real5 (i : S16x64x256.Idx) : ∃ r : ℝ, a5 i = (r : EReal) := (decode _ _ _ _ _ _ _ _ _ _ h).2.2.2.2.2.1 i
theorem real6 (i : S2x10000x256.Idx) : ∃ r : ℝ, a6 i = (r : EReal) := (decode _ _ _ _ _ _ _ _ _ _ h).2.2.2.2.2.2.1 i
theorem real7 (i : S2x10000x256.Idx) : ∃ r : ℝ, a7 i = (r : EReal) := (decode _ _ _ _ _ _ _ _ _ _ h).2.2.2.2.2.2.2.1 i
theorem label8 (i : S16.Idx) : a8 i = 0#32 ∨ a8 i = 1#32 := (decode _ _ _ _ _ _ _ _ _ _ h).2.2.2.2.2.2.2.2.1 i
theorem label9 (i : S16.Idx) : a9 i = 0#32 ∨ a9 i = 1#32 := (decode _ _ _ _ _ _ _ _ _ _ h).2.2.2.2.2.2.2.2.2 i

theorem pixel0 (b : Fin 8) (y x : Fin 512) : ∃ r : ℝ, a0 (ValueIdx.ix4 b 0 y x) = (r : EReal) := real0 h _
theorem pixel1 (b : Fin 8) (y x : Fin 512) : ∃ r : ℝ, a1 (ValueIdx.ix4 b 0 y x) = (r : EReal) := real1 h _
theorem pixel2 (b : Fin 8) (y x : Fin 512) : ∃ r : ℝ, a2 (ValueIdx.ix4 b 0 y x) = (r : EReal) := real2 h _
theorem pixel3 (b : Fin 8) (y x : Fin 512) : ∃ r : ℝ, a3 (ValueIdx.ix4 b 0 y x) = (r : EReal) := real3 h _

theorem queue6 (j : Fin 10000) (k : Fin 256) : ∃ r : ℝ, a6 (ValueIdx.ix3 1 j k) = (r : EReal) := real6 h _
theorem queue7 (j : Fin 10000) (k : Fin 256) : ∃ r : ℝ, a7 (ValueIdx.ix3 1 j k) = (r : EReal) := real7 h _

theorem anchor4 (n : Fin 1024) (k : Fin 256) :
    ∃ r : ℝ, a4 (ValueIdx.ix3 ⟨n.val % 16, Nat.mod_lt _ (by decide)⟩ ⟨n.val / 16, by have := n.isLt; omega⟩ k) = (r : EReal) :=
  real4 h _
theorem anchor5 (n : Fin 1024) (k : Fin 256) :
    ∃ r : ℝ, a5 (ValueIdx.ix3 ⟨n.val % 16, Nat.mod_lt _ (by decide)⟩ ⟨n.val / 16, by have := n.isLt; omega⟩ k) = (r : EReal) :=
  real5 h _

theorem tiled8 (n : Fin 1024) :
    a8 (ValueIdx.ix1 ⟨n.val % 16, Nat.mod_lt _ (by decide)⟩) = 0#32 ∨ a8 (ValueIdx.ix1 ⟨n.val % 16, Nat.mod_lt _ (by decide)⟩) = 1#32 :=
  label8 h _
theorem tiled9 (n : Fin 1024) :
    a9 (ValueIdx.ix1 ⟨n.val % 16, Nat.mod_lt _ (by decide)⟩) = 0#32 ∨ a9 (ValueIdx.ix1 ⟨n.val % 16, Nat.mod_lt _ (by decide)⟩) = 1#32 :=
  label9 h _

end Entries

end Cert.Val.Pre
-- ==== Proof.Val.RefWords.lean ====
import Idealize.ShloMosaic.Lib.IdealHost

namespace Cert.Val.Ref

open Idealize.ShloMosaic

theorem word_tenth : Ideal.ofBits .f32 0x3DCCCCCD#32 = ((13421773 / 134217728 : ℝ) : EReal) := by
  simp [Ideal.ofBits, Ideal.ieee, -EReal.coe_mul]; norm_num

theorem word_1024 : Ideal.ofBits .f32 0x44800000#32 = (1024 : EReal) := by
  rw [show (1024 : EReal) = ((1024 : ℝ) : EReal) by norm_cast]
  simp [Ideal.ofBits, Ideal.ieee, -EReal.coe_mul]; norm_num

theorem word_two_pow_21 : Ideal.ofBits .f32 0x4A000000#32 = (2097152 : EReal) := by
  rw [show (2097152 : EReal) = ((2097152 : ℝ) : EReal) by norm_cast]
  simp [Ideal.ofBits, Ideal.ieee, -EReal.coe_mul]; norm_num

theorem word_neg_inf : Ideal.ofBits .f32 0xFF800000#32 = (⊥ : EReal) := by
  simp [Ideal.ofBits, Ideal.ieee]

end Cert.Val.Ref
-- ==== Proof.Val.Host1.lean ====
import proofs.«401957_j37563783971102_3_alg».proof.Proof.Gen.KernelIdeal.Regions
import proofs.«401957_j37563783971102_3_alg».proof.Proof.Val.RefWords
import Idealize.ShloMosaic.Lib.StableHlo.Run
import Idealize.ShloMosaic.Lib.IdealHost
import Idealize.ShloMosaic.Lib.ValueLayout
import Idealize.ShloMosaic.Lib.Pipeline.Value

noncomputable section

open scoped BigOperators

namespace Cert.Val.Host

open Idealize.ShloMosaic Idealize.ShloMosaic.StableHlo Idealize.ShloMosaic.ValueIdx
open Cert.KernelIdeal Cert.KernelIdeal.Gen

section Chunks
variable {F : FTy → Type} [FloatOps F] [Named F]

abbrev h1a : List (HloOp τ sig (Elt F)) :=
  [ StableHlo.nullary main_cst (constant S_ .f32 0x00000000#32),
    StableHlo.binary main_v0_0 main_cst main_v1 ((fun x v => Host.reduceAdd x v reducesTo_S2x1x1_S_d0_1_2 h_S_) : (⟨S2x1x1, .f32⟩ : BufTy).Contents (Elt F) → (⟨S_, .f32⟩ : BufTy).Contents (Elt F) → (⟨S_, .f32⟩ : BufTy).Contents (Elt F)),
    StableHlo.nullary main_cst_0 (constant S_ .f32 0x4A000000#32),
    StableHlo.binary main_v1 main_cst_0 main_v2 (Host.divf : (⟨S_, .f32⟩ : BufTy).Contents (Elt F) → (⟨S_, .f32⟩ : BufTy).Contents (Elt F) → (⟨S_, .f32⟩ : BufTy).Contents (Elt F)),
    StableHlo.nullary main_cst_1 (constant S_ .f32 0x00000000#32),
    StableHlo.binary main_v0_1 main_cst_1 main_v3 ((fun x v => Host.reduceAdd x v reducesTo_S2x1x1_S_d0_1_2 h_S_) : (⟨S2x1x1, .f32⟩ : BufTy).Contents (Elt F) → (⟨S_, .f32⟩ : BufTy).Contents (Elt F) → (⟨S_, .f32⟩ : BufTy).Contents (Elt F)),
    StableHlo.nullary main_cst_2 (constant S_ .f32 0x4A000000#32),
    StableHlo.binary main_v3 main_cst_2 main_v4 (Host.divf : (⟨S_, .f32⟩ : BufTy).Contents (Elt F) → (⟨S_, .f32⟩ : BufTy).Contents (Elt F) → (⟨S_, .f32⟩ : BufTy).Contents (Elt F)),
    StableHlo.binary main_v2 main_v4 main_v5 (addf : (⟨S_, .f32⟩ : BufTy).Contents (Elt F) → (⟨S_, .f32⟩ : BufTy).Contents (Elt F) → (⟨S_, .f32⟩ : BufTy).Contents (Elt F)) ]

abbrev h1b : List (HloOp τ sig (Elt F)) :=
  [ StableHlo.unary main_arg6 main_v6 ((extractStridedSlice S1x10000x256 ![1, 0, 0] · slices_S2x10000x256_S1x10000x256_1_0_0) : (⟨S2x10000x256, .f32⟩ : BufTy).Contents (Elt F) → (⟨S1x10000x256, .f32⟩ : BufTy).Contents (Elt F)),
    StableHlo.reshape main_v6 main_v7 rfl shapeCasts_S1x10000x256_S10000x256,
    StableHlo.unary main_v7 main_v8 ((truncf .bf16 · bitsLt_bf16_f32) : (⟨S10000x256, .f32⟩ : BufTy).Contents (Elt F) → (⟨S10000x256, .bf16⟩ : BufTy).Contents (Elt F)),
    StableHlo.unary main_arg4 main_v9 ((transpose S64x16x256 [1, 0, 2] · transposes_S16x64x256_S64x16x256_1_0_2) : (⟨S16x64x256, .f32⟩ : BufTy).Contents (Elt F) → (⟨S64x16x256, .f32⟩ : BufTy).Contents (Elt F)),
    StableHlo.reshape main_v9 main_v10 rfl shapeCasts_S64x16x256_S1024x256,
    StableHlo.unary main_v10 main_v11 ((truncf .bf16 · bitsLt_bf16_f32) : (⟨S1024x256, .f32⟩ : BufTy).Contents (Elt F) → (⟨S1024x256, .bf16⟩ : BufTy).Contents (Elt F)),
    StableHlo.reshape main_arg8 main_v12 rfl shapeCasts_S16_S1x16,
    StableHlo.unary main_v12 main_v13 (broadcastInDim S64x16 ![0, 1] bcast_S1x16_S64x16_0_1 : (⟨S1x16, .i32⟩ : BufTy).Contents (Elt F) → (⟨S64x16, .i32⟩ : BufTy).Contents (Elt F)),
    StableHlo.reshape main_v13 main_v14 rfl shapeCasts_S64x16_S1024,
    StableHlo.reshape main_v14 main_v15 rfl shapeCasts_S1024_S1x1024 ]

abbrev h1c : List (HloOp τ sig (Elt F)) :=
  [ StableHlo.unary main_arg7 main_v16 ((extractStridedSlice S1x10000x256 ![1, 0, 0] · slices_S2x10000x256_S1x10000x256_1_0_0) : (⟨S2x10000x256, .f32⟩ : BufTy).Contents (Elt F) → (⟨S1x10000x256, .f32⟩ : BufTy).Contents (Elt F)),
    StableHlo.reshape main_v16 main_v17 rfl shapeCasts_S1x10000x256_S10000x256,
    StableHlo.unary main_v17 main_v18 ((truncf .bf16 · bitsLt_bf16_f32) : (⟨S10000x256, .f32⟩ : BufTy).Contents (Elt F) → (⟨S10000x256, .bf16⟩ : BufTy).Contents (Elt F)),
    StableHlo.unary main_arg5 main_v19 ((transpose S64x16x256 [1, 0, 2] · transposes_S16x64x256_S64x16x256_1_0_2) : (⟨S16x64x256, .f32⟩ : BufTy).Contents (Elt F) → (⟨S64x16x256, .f32⟩ : BufTy).Contents (Elt F)),
    StableHlo.reshape main_v19 main_v20 rfl shapeCasts_S64x16x256_S1024x256,
    StableHlo.unary main_v20 main_v21 ((truncf .bf16 · bitsLt_bf16_f32) : (⟨S1024x256, .f32⟩ : BufTy).Contents (Elt F) → (⟨S1024x256, .bf16⟩ : BufTy).Contents (Elt F)),
    StableHlo.reshape main_arg9 main_v22 rfl shapeCasts_S16_S1x16,
    StableHlo.unary main_v22 main_v23 (broadcastInDim S64x16 ![0, 1] bcast_S1x16_S64x16_0_1 : (⟨S1x16, .i32⟩ : BufTy).Contents (Elt F) → (⟨S64x16, .i32⟩ : BufTy).Contents (Elt F)),
    StableHlo.reshape main_v23 main_v24 rfl shapeCasts_S64x16_S1024,
    StableHlo.reshape main_v24 main_v25 rfl shapeCasts_S1024_S1x1024 ]

abbrev h1d : List (HloOp τ sig (Elt F)) :=
  [ StableHlo.unary main_v8 main_v26 (broadcastInDim S1x10000x256 ![1, 2] bcast_S10000x256_S1x10000x256_1_2 : (⟨S10000x256, .bf16⟩ : BufTy).Contents (Elt F) → (⟨S1x10000x256, .bf16⟩ : BufTy).Contents (Elt F)),
    StableHlo.unary main_v18 main_v27 (broadcastInDim S1x10000x256 ![1, 2] bcast_S10000x256_S1x10000x256_1_2 : (⟨S10000x256, .bf16⟩ : BufTy).Contents (Elt F) → (⟨S1x10000x256, .bf16⟩ : BufTy).Contents (Elt F)),
    StableHlo.binary main_v26 main_v27 main_v28 ((fun a b => concatenate S2x10000x256 0 [⟨S1x10000x256, a⟩, ⟨S1x10000x256, b⟩] concatenates_S1x10000x256_S1x10000x256_S2x10000x256_d0) : (⟨S1x10000x256, .bf16⟩ : BufTy).Contents (Elt F) → (⟨S1x10000x256, .bf16⟩ : BufTy).Contents (Elt F) → (⟨S2x10000x256, .bf16⟩ : BufTy).Contents (Elt F)),
    StableHlo.unary main_v11 main_v29 (broadcastInDim S1x1024x256 ![1, 2] bcast_S1024x256_S1x1024x256_1_2 : (⟨S1024x256, .bf16⟩ : BufTy).Contents (Elt F) → (⟨S1x1024x256, .bf16⟩ : BufTy).Contents (Elt F)),
    StableHlo.unary main_v21 main_v30 (broadcastInDim S1x1024x256 ![1, 2] bcast_S1024x256_S1x1024x256_1_2 : (⟨S1024x256, .bf16⟩ : BufTy).Contents (Elt F) → (⟨S1x1024x256, .bf16⟩ : BufTy).Contents (Elt F)),
    StableHlo.binary main_v29 main_v30 main_v31 ((fun a b => concatenate S2x1024x256 0 [⟨S1x1024x256, a⟩, ⟨S1x1024x256, b⟩] concatenates_S1x1024x256_S1x1024x256_S2x1024x256_d0) : (⟨S1x1024x256, .bf16⟩ : BufTy).Contents (Elt F) → (⟨S1x1024x256, .bf16⟩ : BufTy).Contents (Elt F) → (⟨S2x1024x256, .bf16⟩ : BufTy).Contents (Elt F)),
    StableHlo.unary main_v15 main_v32 (broadcastInDim S1x1x1024 ![1, 2] bcast_S1x1024_S1x1x1024_1_2 : (⟨S1x1024, .i32⟩ : BufTy).Contents (Elt F) → (⟨S1x1x1024, .i32⟩ : BufTy).Contents (Elt F)),
    StableHlo.unary main_v25 main_v33 (broadcastInDim S1x1x1024 ![1, 2] bcast_S1x1024_S1x1x1024_1_2 : (⟨S1x1024, .i32⟩ : BufTy).Contents (Elt F) → (⟨S1x1x1024, .i32⟩ : BufTy).Contents (Elt F)),
    StableHlo.binary main_v32 main_v33 main_v34 ((fun a b => concatenate S2x1x1024 0 [⟨S1x1x1024, a⟩, ⟨S1x1x1024, b⟩] concatenates_S1x1x1024_S1x1x1024_S2x1x1024_d0) : (⟨S1x1x1024, .i32⟩ : BufTy).Contents (Elt F) → (⟨S1x1x1024, .i32⟩ : BufTy).Contents (Elt F) → (⟨S2x1x1024, .i32⟩ : BufTy).Contents (Elt F)) ]

theorem hostOps1_eq : (hostOps1 : List (HloOp τ sig (Elt F))) = h1a ++ (h1b ++ (h1c ++ h1d)) := rfl

theorem after_hostOps1 (W : Valuation τ sig (Elt F)) :
    StableHlo.after hostOps1 W = StableHlo.after h1d (StableHlo.after h1c (StableHlo.after h1b (StableHlo.after h1a W))) := by
  rw [hostOps1_eq, StableHlo.after_append, StableHlo.after_append, StableHlo.after_append]

end Chunks

variable (W : Valuation τ sig (Elt Ideal))

abbrev acc0 : S2x1x1.Idx → EReal := W (Proc.devRef .tc main_v0_0)

abbrev acc1 : S2x1x1.Idx → EReal := W (Proc.devRef .tc main_v0_1)

abbrev que0 : S2x10000x256.Idx → EReal := W (Proc.devRef .tc main_arg6)

abbrev que1 : S2x10000x256.Idx → EReal := W (Proc.devRef .tc main_arg7)

abbrev anc0 : S16x64x256.Idx → EReal := W (Proc.devRef .tc main_arg4)

abbrev anc1 : S16x64x256.Idx → EReal := W (Proc.devRef .tc main_arg5)

abbrev lab0 : S16.Idx → BitVec 32 := W (Proc.devRef .tc main_arg8)

abbrev lab1 : S16.Idx → BitVec 32 := W (Proc.devRef .tc main_arg9)

def idxEquiv211 : (⟨3, ![2, 1, 1]⟩ : Shape).Idx ≃ Fin 2 where
  toFun i := i 0
  invFun a := ix3 a (0 : Fin 1) (0 : Fin 1)
  left_inv i := by
    funext d
    match d with
    | ⟨0, _⟩ => rfl
    | ⟨1, _⟩ => exact Subsingleton.elim (α := Fin 1) _ _
    | ⟨2, _⟩ => exact Subsingleton.elim (α := Fin 1) _ _
  right_inv _ := rfl

theorem sum_idx211 (x : (⟨3, ![2, 1, 1]⟩ : Shape).Idx → EReal) :
    ∑ i, x i = x (ix3 (0 : Fin 2) (0 : Fin 1) (0 : Fin 1)) + x (ix3 (1 : Fin 2) (0 : Fin 1) (0 : Fin 1)) := by
  rw [← Equiv.sum_comp idxEquiv211.symm x, Fin.sum_univ_two]
  rfl

theorem after1_v5 :
    (StableHlo.after (hostOps1 (F := Ideal)) W (Proc.devRef .tc main_v5) : S_.Idx → EReal) ix0
      = Ideal.div (0 + (acc0 W (ix3 (0 : Fin 2) (0 : Fin 1) (0 : Fin 1)) + acc0 W (ix3 (1 : Fin 2) (0 : Fin 1) (0 : Fin 1)))) 2097152
        + Ideal.div (0 + (acc1 W (ix3 (0 : Fin 2) (0 : Fin 1) (0 : Fin 1)) + acc1 W (ix3 (1 : Fin 2) (0 : Fin 1) (0 : Fin 1)))) 2097152 := by
  after_results
  rw [addf_apply, hostDivf_apply, hostDivf_apply, hostReduceAdd_apply, hostReduceAdd_apply, constant_apply, constant_apply,
    Ideal.hostReduceAdd_total _ (fun b => b.elim0), Ideal.hostReduceAdd_total _ (fun b => b.elim0), Ideal.ofBits_zero_f32,
    Cert.Val.Ref.word_two_pow_21, sum_idx211, sum_idx211]

section Pieces
variable (V : Valuation τ sig (Elt Ideal))

theorem keep_of_mem {F : FTy → Type} [FloatOps F] [Named F] (C : List (HloOp τ sig (Elt F)))
    (hC : ∀ op ∈ C, op ∈ (hostOps1 : List (HloOp τ sig (Elt F)))) (V : Valuation τ sig (Elt F)) {r : Ref sig .tc}
    (hr : r ∉ hostOps1_W) : StableHlo.after C V (Proc.devRef .tc r) = V (Proc.devRef .tc r) :=
  StableHlo.after_of_forall_not_mem C V fun op hop hb => by
    obtain ⟨y, hy, he⟩ := List.mem_map.mp (List.mem_toFinset.mp
      ((List.forall_iff_forall_mem.mp (hostOps1_writes (F := F))) op (hC op hop) hb))
    exact hr (Proc.devRef_injective _ he ▸ hy)

theorem h1a_mem {F : FTy → Type} [FloatOps F] [Named F] : ∀ op ∈ (h1a : List (HloOp τ sig (Elt F))), op ∈ (hostOps1 : List (HloOp τ sig (Elt F))) :=
  fun op h => by rw [hostOps1_eq]; exact List.mem_append_left _ h
theorem h1b_mem {F : FTy → Type} [FloatOps F] [Named F] : ∀ op ∈ (h1b : List (HloOp τ sig (Elt F))), op ∈ (hostOps1 : List (HloOp τ sig (Elt F))) :=
  fun op h => by rw [hostOps1_eq]; exact List.mem_append_right _ (List.mem_append_left _ h)
theorem h1c_mem {F : FTy → Type} [FloatOps F] [Named F] : ∀ op ∈ (h1c : List (HloOp τ sig (Elt F))), op ∈ (hostOps1 : List (HloOp τ sig (Elt F))) :=
  fun op h => by rw [hostOps1_eq]; exact List.mem_append_right _ (List.mem_append_right _ (List.mem_append_left _ h))

theorem h1b_v8 (j : Fin 10000) (k : Fin 256) :
    (StableHlo.after (h1b (F := Ideal)) V (Proc.devRef .tc main_v8) : S10000x256.Idx → EReal) (ix2 j k)
      = que0 V (ix3 (1 : Fin 2) j k) := by
  after_results
  show shapeCast S10000x256 (extractStridedSlice S1x10000x256 ![1, 0, 0] (que0 V) slices_S2x10000x256_S1x10000x256_1_0_0)
    shapeCasts_S1x10000x256_S10000x256 (ix2 j k) = _
  refine (shapeCast_1ab_ab_apply _ _ j k).trans ?_
  exact extractStridedSlice_apply _ _ _ _ _ (fun a => match a with
    | ⟨0, _⟩ => rfl | ⟨1, _⟩ => (Nat.zero_add _).symm | ⟨2, _⟩ => (Nat.zero_add _).symm)

theorem h1b_v11 (n : Fin 1024) (k : Fin 256) :
    (StableHlo.after (h1b (F := Ideal)) V (Proc.devRef .tc main_v11) : S1024x256.Idx → EReal) (ix2 n k)
      = anc0 V (ix3 (⟨n.val % 16, Nat.mod_lt _ (by decide)⟩ : Fin 16) (⟨n.val / 16, by have := n.isLt; omega⟩ : Fin 64) k) := by
  after_results
  show shapeCast S1024x256 (transpose S64x16x256 [1, 0, 2] (anc0 V) transposes_S16x64x256_S64x16x256_1_0_2)
    shapeCasts_S64x16x256_S1024x256 (ix2 n k) = _
  refine (shapeCast_apply _ _ _ (ix3 (⟨n.val / 16, by have := n.isLt; omega⟩ : Fin 64) (⟨n.val % 16, Nat.mod_lt _ (by decide)⟩ : Fin 16) k) ?_).trans ?_
  · rw [Shape.rowMajor_val_three, Shape.rowMajor_val_two]
    show (n.val / 16 * 16 + n.val % 16) * 256 + k.val = n.val * 256 + k.val
    omega
  · exact transpose_apply _ _ _ _ _ (fun b => match b with | ⟨0, _⟩ => rfl | ⟨1, _⟩ => rfl | ⟨2, _⟩ => rfl)

theorem h1b_v15 (u : Fin 1) (n : Fin 1024) :
    (StableHlo.after (h1b (F := Ideal)) V (Proc.devRef .tc main_v15) : S1x1024.Idx → BitVec 32) (ix2 u n)
      = lab0 V (ix1 (⟨n.val % 16, Nat.mod_lt _ (by decide)⟩ : Fin 16)) := by
  after_results
  show shapeCast S1x1024 (shapeCast S1024 (broadcastInDim S64x16 ![0, 1] bcast_S1x16_S64x16_0_1
      (shapeCast S1x16 (lab0 V) shapeCasts_S16_S1x16)) shapeCasts_S64x16_S1024) shapeCasts_S1024_S1x1024 (ix2 u n) = _
  refine (shapeCast_a_1a_apply _ _ u n).trans ?_
  refine (shapeCast_apply _ _ _ (ix2 (⟨n.val / 16, by have := n.isLt; omega⟩ : Fin 64) (⟨n.val % 16, Nat.mod_lt _ (by decide)⟩ : Fin 16)) ?_).trans ?_
  · rw [Shape.rowMajor_val_two, Shape.rowMajor_val_one]
    show n.val / 16 * 16 + n.val % 16 = n.val
    omega
  refine (broadcastInDim_apply _ _ _ _ (ix2 (0 : Fin 1) (⟨n.val % 16, Nat.mod_lt _ (by decide)⟩ : Fin 16))
    (fun a => match a with | ⟨0, _⟩ => rfl | ⟨1, _⟩ => rfl)).trans ?_
  exact shapeCast_a_1a_apply _ _ _ _

theorem h1c_v18 (j : Fin 10000) (k : Fin 256) :
    (StableHlo.after (h1c (F := Ideal)) V (Proc.devRef .tc main_v18) : S10000x256.Idx → EReal) (ix2 j k)
      = que1 V (ix3 (1 : Fin 2) j k) := by
  after_results
  show shapeCast S10000x256 (extractStridedSlice S1x10000x256 ![1, 0, 0] (que1 V) slices_S2x10000x256_S1x10000x256_1_0_0)
    shapeCasts_S1x10000x256_S10000x256 (ix2 j k) = _
  refine (shapeCast_1ab_ab_apply _ _ j k).trans ?_
  exact extractStridedSlice_apply _ _ _ _ _ (fun a => match a with
    | ⟨0, _⟩ => rfl | ⟨1, _⟩ => (Nat.zero_add _).symm | ⟨2, _⟩ => (Nat.zero_add _).symm)

theorem h1c_v21 (n : Fin 1024) (k : Fin 256) :
    (StableHlo.after (h1c (F := Ideal)) V (Proc.devRef .tc main_v21) : S1024x256.Idx → EReal) (ix2 n k)
      = anc1 V (ix3 (⟨n.val % 16, Nat.mod_lt _ (by decide)⟩ : Fin 16) (⟨n.val / 16, by have := n.isLt; omega⟩ : Fin 64) k) := by
  after_results
  show shapeCast S1024x256 (transpose S64x16x256 [1, 0, 2] (anc1 V) transposes_S16x64x256_S64x16x256_1_0_2)
    shapeCasts_S64x16x256_S1024x256 (ix2 n k) = _
  refine (shapeCast_apply _ _ _ (ix3 (⟨n.val / 16, by have := n.isLt; omega⟩ : Fin 64) (⟨n.val % 16, Nat.mod_lt _ (by decide)⟩ : Fin 16) k) ?_).trans ?_
  · rw [Shape.rowMajor_val_three, Shape.rowMajor_val_two]
    show (n.val / 16 * 16 + n.val % 16) * 256 + k.val = n.val * 256 + k.val
    omega
  · exact transpose_apply _ _ _ _ _ (fun b => match b with | ⟨0, _⟩ => rfl | ⟨1, _⟩ => rfl | ⟨2, _⟩ => rfl)

theorem h1c_v25 (u : Fin 1) (n : Fin 1024) :
    (StableHlo.after (h1c (F := Ideal)) V (Proc.devRef .tc main_v25) : S1x1024.Idx → BitVec 32) (ix2 u n)
      = lab1 V (ix1 (⟨n.val % 16, Nat.mod_lt _ (by decide)⟩ : Fin 16)) := by
  after_results
  show shapeCast S1x1024 (shapeCast S1024 (broadcastInDim S64x16 ![0, 1] bcast_S1x16_S64x16_0_1
      (shapeCast S1x16 (lab1 V) shapeCasts_S16_S1x16)) shapeCasts_S64x16_S1024) shapeCasts_S1024_S1x1024 (ix2 u n) = _
  refine (shapeCast_a_1a_apply _ _ u n).trans ?_
  refine (shapeCast_apply _ _ _ (ix2 (⟨n.val / 16, by have := n.isLt; omega⟩ : Fin 64) (⟨n.val % 16, Nat.mod_lt _ (by decide)⟩ : Fin 16)) ?_).trans ?_
  · rw [Shape.rowMajor_val_two, Shape.rowMajor_val_one]
    show n.val / 16 * 16 + n.val % 16 = n.val
    omega
  refine (broadcastInDim_apply _ _ _ _ (ix2 (0 : Fin 1) (⟨n.val % 16, Nat.mod_lt _ (by decide)⟩ : Fin 16))
    (fun a => match a with | ⟨0, _⟩ => rfl | ⟨1, _⟩ => rfl)).trans ?_
  exact shapeCast_a_1a_apply _ _ _ _

theorem h1c_keep_v8 : StableHlo.after (h1c (F := Ideal)) V (Proc.devRef .tc main_v8) = V (Proc.devRef .tc main_v8) := by
  after_results
theorem h1c_keep_v11 : StableHlo.after (h1c (F := Ideal)) V (Proc.devRef .tc main_v11) = V (Proc.devRef .tc main_v11) := by
  after_results
theorem h1c_keep_v15 : StableHlo.after (h1c (F := Ideal)) V (Proc.devRef .tc main_v15) = V (Proc.devRef .tc main_v15) := by
  after_results

theorem h1d_v28_0 (j : Fin 10000) (k : Fin 256) :
    (StableHlo.after (h1d (F := Ideal)) V (Proc.devRef .tc main_v28) : S2x10000x256.Idx → EReal) (ix3 (0 : Fin 2) j k)
      = (V (Proc.devRef .tc main_v8) : S10000x256.Idx → EReal) (ix2 j k) := by
  after_results
  refine (concatenate_pair_apply_left (t := S2x10000x256) (s₁ := S1x10000x256) (s₂ := S1x10000x256) (0 : Fin 3) _ _ _ (ix3 (0 : Fin 2) j k) rfl (ix3 (0 : Fin 1) j k)
    (fun b => match b with | ⟨0, _⟩ => rfl | ⟨1, _⟩ => rfl | ⟨2, _⟩ => rfl)).trans ?_
  exact broadcastInDim_apply _ _ _ _ (ix2 j k) (fun a => match a with | ⟨0, _⟩ => rfl | ⟨1, _⟩ => rfl)

theorem h1d_v28_1 (j : Fin 10000) (k : Fin 256) :
    (StableHlo.after (h1d (F := Ideal)) V (Proc.devRef .tc main_v28) : S2x10000x256.Idx → EReal) (ix3 (1 : Fin 2) j k)
      = (V (Proc.devRef .tc main_v18) : S10000x256.Idx → EReal) (ix2 j k) := by
  after_results
  refine (concatenate_pair_apply_right (t := S2x10000x256) (s₁ := S1x10000x256) (s₂ := S1x10000x256) (0 : Fin 3) _ _ _ (ix3 (1 : Fin 2) j k) rfl rfl (ix3 (0 : Fin 1) j k)
    (fun b hb => match b, hb with | ⟨0, _⟩, hb => (hb (Fin.ext rfl)).elim | ⟨1, _⟩, _ => rfl | ⟨2, _⟩, _ => rfl) rfl).trans ?_
  exact broadcastInDim_apply _ _ _ _ (ix2 j k) (fun a => match a with | ⟨0, _⟩ => rfl | ⟨1, _⟩ => rfl)

theorem h1d_v31_0 (n : Fin 1024) (k : Fin 256) :
    (StableHlo.after (h1d (F := Ideal)) V (Proc.devRef .tc main_v31) : S2x1024x256.Idx → EReal) (ix3 (0 : Fin 2) n k)
      = (V (Proc.devRef .tc main_v11) : S1024x256.Idx → EReal) (ix2 n k) := by
  after_results
  refine (concatenate_pair_apply_left (t := S2x1024x256) (s₁ := S1x1024x256) (s₂ := S1x1024x256) (0 : Fin 3) _ _ _ (ix3 (0 : Fin 2) n k) rfl (ix3 (0 : Fin 1) n k)
    (fun b => match b with | ⟨0, _⟩ => rfl | ⟨1, _⟩ => rfl | ⟨2, _⟩ => rfl)).trans ?_
  exact broadcastInDim_apply _ _ _ _ (ix2 n k) (fun a => match a with | ⟨0, _⟩ => rfl | ⟨1, _⟩ => rfl)

theorem h1d_v31_1 (n : Fin 1024) (k : Fin 256) :
    (StableHlo.after (h1d (F := Ideal)) V (Proc.devRef .tc main_v31) : S2x1024x256.Idx → EReal) (ix3 (1 : Fin 2) n k)
      = (V (Proc.devRef .tc main_v21) : S1024x256.Idx → EReal) (ix2 n k) := by
  after_results
  refine (concatenate_pair_apply_right (t := S2x1024x256) (s₁ := S1x1024x256) (s₂ := S1x1024x256) (0 : Fin 3) _ _ _ (ix3 (1 : Fin 2) n k) rfl rfl (ix3 (0 : Fin 1) n k)
    (fun b hb => match b, hb with | ⟨0, _⟩, hb => (hb (Fin.ext rfl)).elim | ⟨1, _⟩, _ => rfl | ⟨2, _⟩, _ => rfl) rfl).trans ?_
  exact broadcastInDim_apply _ _ _ _ (ix2 n k) (fun a => match a with | ⟨0, _⟩ => rfl | ⟨1, _⟩ => rfl)

theorem h1d_v34_0 (u : Fin 1) (n : Fin 1024) :
    (StableHlo.after (h1d (F := Ideal)) V (Proc.devRef .tc main_v34) : S2x1x1024.Idx → BitVec 32) (ix3 (0 : Fin 2) u n)
      = (V (Proc.devRef .tc main_v15) : S1x1024.Idx → BitVec 32) (ix2 (0 : Fin 1) n) := by
  after_results
  refine (concatenate_pair_apply_left (t := S2x1x1024) (s₁ := S1x1x1024) (s₂ := S1x1x1024) (0 : Fin 3) _ _ _ (ix3 (0 : Fin 2) u n) rfl (ix3 (0 : Fin 1) u n)
    (fun b => match b with | ⟨0, _⟩ => rfl | ⟨1, _⟩ => rfl | ⟨2, _⟩ => rfl)).trans ?_
  exact broadcastInDim_apply _ _ _ _ (ix2 (0 : Fin 1) n) (fun a => match a with | ⟨0, _⟩ => rfl | ⟨1, _⟩ => rfl)

theorem h1d_v34_1 (u : Fin 1) (n : Fin 1024) :
    (StableHlo.after (h1d (F := Ideal)) V (Proc.devRef .tc main_v34) : S2x1x1024.Idx → BitVec 32) (ix3 (1 : Fin 2) u n)
      = (V (Proc.devRef .tc main_v25) : S1x1024.Idx → BitVec 32) (ix2 (0 : Fin 1) n) := by
  after_results
  refine (concatenate_pair_apply_right (t := S2x1x1024) (s₁ := S1x1x1024) (s₂ := S1x1x1024) (0 : Fin 3) _ _ _ (ix3 (1 : Fin 2) u n) rfl rfl (ix3 (0 : Fin 1) u n)
    (fun b hb => match b, hb with | ⟨0, _⟩, hb => (hb (Fin.ext rfl)).elim | ⟨1, _⟩, _ => rfl | ⟨2, _⟩, _ => rfl) rfl).trans ?_
  exact broadcastInDim_apply _ _ _ _ (ix2 (0 : Fin 1) n) (fun a => match a with | ⟨0, _⟩ => rfl | ⟨1, _⟩ => rfl)

end Pieces

theorem after1_keep {r : Ref sig .tc} (hr : r ∉ hostOps1_W) :
    StableHlo.after (hostOps1 (F := Ideal)) W (Proc.devRef .tc r) = W (Proc.devRef .tc r) :=
  StableHlo.after_of_writes_sub hostOps1 W hostOps1_writes hr

theorem after1_v28_0 (j : Fin 10000) (k : Fin 256) :
    (StableHlo.after (hostOps1 (F := Ideal)) W (Proc.devRef .tc main_v28) : S2x10000x256.Idx → EReal) (ix3 (0 : Fin 2) j k)
      = que0 W (ix3 (1 : Fin 2) j k) := by
  rw [after_hostOps1]
  refine (h1d_v28_0 _ j k).trans ?_
  rw [h1c_keep_v8]
  refine (h1b_v8 _ j k).trans ?_
  exact congrFun (keep_of_mem h1a h1a_mem W (r := main_arg6) (by decide)) _

theorem after1_v28_1 (j : Fin 10000) (k : Fin 256) :
    (StableHlo.after (hostOps1 (F := Ideal)) W (Proc.devRef .tc main_v28) : S2x10000x256.Idx → EReal) (ix3 (1 : Fin 2) j k)
      = que1 W (ix3 (1 : Fin 2) j k) := by
  rw [after_hostOps1]
  refine (h1d_v28_1 _ j k).trans ?_
  refine (h1c_v18 _ j k).trans ?_
  refine (congrFun (keep_of_mem h1b h1b_mem _ (r := main_arg7) (by decide)) _).trans ?_
  exact congrFun (keep_of_mem h1a h1a_mem W (r := main_arg7) (by decide)) _

theorem after1_v31_0 (n : Fin 1024) (k : Fin 256) :
    (StableHlo.after (hostOps1 (F := Ideal)) W (Proc.devRef .tc main_v31) : S2x1024x256.Idx → EReal) (ix3 (0 : Fin 2) n k)
      = anc0 W (ix3 (⟨n.val % 16, Nat.mod_lt _ (by decide)⟩ : Fin 16) (⟨n.val / 16, by have := n.isLt; omega⟩ : Fin 64) k) := by
  rw [after_hostOps1]
  refine (h1d_v31_0 _ n k).trans ?_
  rw [h1c_keep_v11]
  refine (h1b_v11 _ n k).trans ?_
  exact congrFun (keep_of_mem h1a h1a_mem W (r := main_arg4) (by decide)) _

theorem after1_v31_1 (n : Fin 1024) (k : Fin 256) :
    (StableHlo.after (hostOps1 (F := Ideal)) W (Proc.devRef .tc main_v31) : S2x1024x256.Idx → EReal) (ix3 (1 : Fin 2) n k)
      = anc1 W (ix3 (⟨n.val % 16, Nat.mod_lt _ (by decide)⟩ : Fin 16) (⟨n.val / 16, by have := n.isLt; omega⟩ : Fin 64) k) := by
  rw [after_hostOps1]
  refine (h1d_v31_1 _ n k).trans ?_
  refine (h1c_v21 _ n k).trans ?_
  refine (congrFun (keep_of_mem h1b h1b_mem _ (r := main_arg5) (by decide)) _).trans ?_
  exact congrFun (keep_of_mem h1a h1a_mem W (r := main_arg5) (by decide)) _

theorem after1_v34_0 (u : Fin 1) (n : Fin 1024) :
    (StableHlo.after (hostOps1 (F := Ideal)) W (Proc.devRef .tc main_v34) : S2x1x1024.Idx → BitVec 32) (ix3 (0 : Fin 2) u n)
      = lab0 W (ix1 (⟨n.val % 16, Nat.mod_lt _ (by decide)⟩ : Fin 16)) := by
  rw [after_hostOps1]
  refine (h1d_v34_0 _ u n).trans ?_
  rw [h1c_keep_v15]
  refine (h1b_v15 _ _ n).trans ?_
  exact congrFun (keep_of_mem h1a h1a_mem W (r := main_arg8) (by decide)) _

theorem after1_v34_1 (u : Fin 1) (n : Fin 1024) :
    (StableHlo.after (hostOps1 (F := Ideal)) W (Proc.devRef .tc main_v34) : S2x1x1024.Idx → BitVec 32) (ix3 (1 : Fin 2) u n)
      = lab1 W (ix1 (⟨n.val % 16, Nat.mod_lt _ (by decide)⟩ : Fin 16)) := by
  rw [after_hostOps1]
  refine (h1d_v34_1 _ u n).trans ?_
  refine (h1c_v25 _ _ n).trans ?_
  refine (congrFun (keep_of_mem h1b h1b_mem _ (r := main_arg9) (by decide)) _).trans ?_
  exact congrFun (keep_of_mem h1a h1a_mem W (r := main_arg9) (by decide)) _

end Cert.Val.Host

end
-- ==== Proof.Val.Host2.lean ====
import proofs.«401957_j37563783971102_3_alg».proof.Proof.Gen.KernelIdeal.Regions
import proofs.«401957_j37563783971102_3_alg».proof.Proof.Val.RefWords
import proofs.«401957_j37563783971102_3_alg».proof.Proof.Spec
import Idealize.ShloMosaic.Lib.StableHlo.Run
import Idealize.ShloMosaic.Lib.IdealHost
import Idealize.ShloMosaic.Lib.ValueLayout
import Idealize.ShloMosaic.Lib.Pipeline.Value

noncomputable section

open scoped BigOperators

namespace Cert.Val.Host

open Idealize.ShloMosaic Idealize.ShloMosaic.StableHlo Idealize.ShloMosaic.ValueIdx
open Cert.KernelIdeal Cert.KernelIdeal.Gen

def wWord : EReal := Ideal.ofBits .f32 0x3DCCCCCD#32

def cTWord : EReal := Ideal.ofBits .f32 0xBFB6DB6E#32

def mlpp (pos cnt : S2x1x1024.Idx → EReal) (c : Fin 2) (n : Fin 1024) : EReal :=
  if 0 < cnt (ix3 c (0 : Fin 1) n) then Ideal.div (pos (ix3 c (0 : Fin 1) n)) (cnt (ix3 c (0 : Fin 1) n)) else 0

def lc (pos cnt : S2x1x1024.Idx → EReal) (c : Fin 2) : EReal :=
  Ideal.div (0 + ∑ n : Fin 1024, cTWord * mlpp pos cnt c n) 1024

theorem lc_eq_lossK (pos cnt : S2x1x1024.Idx → EReal) (c : Fin 2)
    (X : Fin 10000 → Fin 256 → EReal) (A : Fin 1024 → Fin 256 → EReal) (y : Fin 1024 → BitVec 32)
    (hp : ∀ n, pos (ix3 c (0 : Fin 1) n) = Cert.Spec.posK X A y n) (hc : ∀ n, cnt (ix3 c (0 : Fin 1) n) = Cert.Spec.cntK X A y n) :
    lc pos cnt c = Cert.Spec.lossK X A y cTWord := by
  unfold lc Cert.Spec.lossK
  refine congrArg (fun s => Ideal.div (0 + s) 1024) (Finset.sum_congr rfl fun n _ => ?_)
  unfold mlpp Cert.Spec.mlppK
  rw [hp n, hc n]

theorem select_cmp_ogt (x a b : EReal) : Scalar.select (Ideal.cmp .ogt x 0) a b = if 0 < x then a else b := by
  unfold Scalar.select Ideal.cmp
  by_cases h : (0 : EReal) < x
  · simp [h]
  · simp [h]

theorem shapeCast_1_scalar {α : Type} (x : S1.Idx → α) (h : S1.ShapeCasts S_) (i : S_.Idx) :
    shapeCast S_ x h i = x (ix1 (0 : Fin 1)) :=
  shapeCast_apply x h i _ (by
    rw [Shape.rowMajor_val_one]
    show (0 : ℕ) = (Shape.rowMajorPi _ i).val
    rw [Shape.rowMajorPi_zero])

theorem hostReduceAdd_2x1x1024 (h : S2x1x1024.ReducesTo [1, 2] S2) (x : S2x1x1024.Idx → EReal) (init : EReal) (c : Fin 2) :
    Ideal.hostReduceAdd h x init (ix1 c) = init + ∑ n : Fin 1024, x (ix3 c (0 : Fin 1) n) := by
  unfold Ideal.hostReduceAdd
  have hv : ∀ i : S2x1x1024.Idx, ((h.drop i 0 : Fin _) : ℕ) = ((i 0 : Fin _) : ℕ) :=
    fun i => Shape.ReducesTo.drop_apply_val_of_eq h i 0 0
  have hdrop : ∀ i : S2x1x1024.Idx, h.drop i = ix1 c ↔ (i 0 : Fin 2) = c := by
    intro i
    constructor
    · intro e
      have := hv i
      rw [e] at this
      exact Fin.ext this.symm
    · intro e
      funext b
      have hb : b = 0 := Subsingleton.elim (α := Fin 1) _ _
      subst hb
      exact Fin.ext ((hv i).trans (congrArg Fin.val e))
  have hback : ∀ i : S2x1x1024.Idx, (i 0 : Fin 2) = c → ix3 c (0 : Fin 1) (i 2 : Fin 1024) = i := fun i e => by
    funext b
    match b with
    | ⟨0, _⟩ => exact e.symm
    | ⟨1, _⟩ => exact Subsingleton.elim (α := Fin 1) _ _
    | ⟨2, _⟩ => rfl
  refine congrArg (init + ·) ?_
  refine Finset.sum_bij' (fun i _ => (i 2 : Fin 1024)) (fun n _ => ix3 c (0 : Fin 1) n) (fun _ _ => Finset.mem_univ _)
    (fun n _ => Finset.mem_filter.2 ⟨Finset.mem_univ _, (hdrop _).2 rfl⟩)
    (fun i hi => hback i ((hdrop i).1 (Finset.mem_filter.1 hi).2)) (fun _ _ => rfl) ?_
  intro i hi
  exact (congrArg x (hback i ((hdrop i).1 (Finset.mem_filter.1 hi).2))).symm

variable (V : Valuation τ sig (Elt Ideal))

abbrev posOut : S2x1x1024.Idx → EReal := V (Proc.devRef .tc main_v35_0)

abbrev cntOut : S2x1x1024.Idx → EReal := V (Proc.devRef .tc main_v35_1)

abbrev mseOut : S_.Idx → EReal := V (Proc.devRef .tc main_v5)

abbrev cmpBuf : S2x1x1024.Idx → BitVec 1 := V (Proc.devRef .tc main_v37)

abbrev quoBuf : S2x1x1024.Idx → EReal := V (Proc.devRef .tc main_v38)

abbrev zeroBuf : S_.Idx → EReal := V (Proc.devRef .tc main_cst_4)

abbrev selBuf : S2x1x1024.Idx → EReal := V (Proc.devRef .tc main_v39)

theorem h2_v37 (i : S2x1x1024.Idx) :
    cmpBuf (StableHlo.after (hostOps2 (F := Ideal)) V) i = Ideal.cmp .ogt (cntOut V i) 0 := by
  show (StableHlo.after (hostOps2 (F := Ideal)) V (Proc.devRef .tc main_v37) : S2x1x1024.Idx → BitVec 1) i = _
  after_results
  rw [cmpf_apply, broadcastInDim_scalar_apply, constant_apply, Ideal.ofBits_zero_f32]
  rfl
theorem h2_v38 (i : S2x1x1024.Idx) :
    quoBuf (StableHlo.after (hostOps2 (F := Ideal)) V) i = Ideal.div (posOut V i) (cntOut V i) := by
  show (StableHlo.after (hostOps2 (F := Ideal)) V (Proc.devRef .tc main_v38) : S2x1x1024.Idx → EReal) i = _
  after_results
  rfl
theorem h2_cst_4 (i : S_.Idx) : zeroBuf (StableHlo.after (hostOps2 (F := Ideal)) V) i = 0 := by
  show (StableHlo.after (hostOps2 (F := Ideal)) V (Proc.devRef .tc main_cst_4) : S_.Idx → EReal) i = _
  after_results
  rw [constant_apply, Ideal.ofBits_zero_f32]
theorem h2_keep_v5 : StableHlo.after (hostOps2 (F := Ideal)) V (Proc.devRef .tc main_v5) = V (Proc.devRef .tc main_v5) := by
  after_results

theorem h21_v39 (i : S2x1x1024.Idx) :
    selBuf (StableHlo.after (hostOps2_1 (F := Ideal)) V) i = Scalar.select (cmpBuf V i) (quoBuf V i) (zeroBuf V ix0) := by
  show (StableHlo.after (hostOps2_1 (F := Ideal)) V (Proc.devRef .tc main_v39) : S2x1x1024.Idx → EReal) i = _
  after_results
  simp only [TRef.ofBuf, TRef.toBuf, cast_eq]
  rw [select_apply, broadcastInDim_scalar_apply]
  rfl
theorem h21_keep_v5 : StableHlo.after (hostOps2_1 (F := Ideal)) V (Proc.devRef .tc main_v5) = V (Proc.devRef .tc main_v5) := by
  after_results

abbrev tailQ (x : S2x1x1024.Idx → EReal) : S2.Idx → EReal :=
  Host.divf (Host.reduceAdd (mulf (broadcastInDim S2x1x1024 ![] bcast_S_S2x1x1024 (constant (F := Ideal) S_ .f32 0xBFB6DB6E#32)) x)
      (constant S_ .f32 0x00000000#32) reducesTo_S2x1x1024_S2_d1_2 h_S_)
    (broadcastInDim S2 ![] bcast_S_S2 (constant S_ .f32 0x44800000#32))

theorem tailQ_apply (x : S2x1x1024.Idx → EReal) (c : Fin 2) :
    tailQ x (ix1 c) = Ideal.div (0 + ∑ n : Fin 1024, cTWord * x (ix3 c (0 : Fin 1) n)) 1024 := by
  unfold tailQ
  rw [hostDivf_apply, hostReduceAdd_apply, hostReduceAdd_2x1x1024, broadcastInDim_scalar_apply, constant_apply, constant_apply,
    Cert.Val.Ref.word_1024, Ideal.ofBits_zero_f32]
  rfl

theorem h22_v51 :
    (StableHlo.after (hostOps2_2 (F := Ideal)) V (Proc.devRef .tc main_v51) : S_.Idx → EReal) ix0
      = mseOut V ix0
        + wWord * (Ideal.div (0 + ∑ n : Fin 1024, cTWord * selBuf V (ix3 (0 : Fin 2) (0 : Fin 1) n)) 1024
                 + Ideal.div (0 + ∑ n : Fin 1024, cTWord * selBuf V (ix3 (1 : Fin 2) (0 : Fin 1) n)) 1024) := by
  after_results
  show mseOut V ix0 + wWord * (shapeCast S_ (extractStridedSlice S1 ![0] (tailQ (selBuf V)) slices_S2_S1_0) shapeCasts_S1_S_ ix0
      + shapeCast S_ (extractStridedSlice S1 ![1] (tailQ (selBuf V)) slices_S2_S1_1) shapeCasts_S1_S_ ix0) = _
  rw [shapeCast_1_scalar, shapeCast_1_scalar,
    extractStridedSlice_apply _ _ slices_S2_S1_0 (ix1 (0 : Fin 1)) (ix1 (0 : Fin 2)) (fun a => match a with | ⟨0, _⟩ => rfl),
    extractStridedSlice_apply _ _ slices_S2_S1_1 (ix1 (0 : Fin 1)) (ix1 (1 : Fin 2)) (fun a => match a with | ⟨0, _⟩ => rfl),
    tailQ_apply, tailQ_apply]

theorem sel_eq (i : S2x1x1024.Idx) :
    selBuf (StableHlo.after (hostOps2_1 (F := Ideal)) (StableHlo.after (hostOps2 (F := Ideal)) V)) i
      = if 0 < cntOut V i then Ideal.div (posOut V i) (cntOut V i) else 0 := by
  rw [h21_v39, h2_v37, h2_v38, h2_cst_4, select_cmp_ogt]

theorem tail_v51 :
    (StableHlo.after (hostOps2_2 (F := Ideal)) (StableHlo.after (hostOps2_1 (F := Ideal)) (StableHlo.after (hostOps2 (F := Ideal)) V))
        (Proc.devRef .tc main_v51) : S_.Idx → EReal) ix0
      = mseOut V ix0 + wWord * (lc (posOut V) (cntOut V) (0 : Fin 2) + lc (posOut V) (cntOut V) (1 : Fin 2)) := by
  rw [h22_v51]
  have e5 : mseOut (StableHlo.after (hostOps2_1 (F := Ideal)) (StableHlo.after (hostOps2 (F := Ideal)) V)) = mseOut V :=
    (h21_keep_v5 _).trans (h2_keep_v5 V)
  rw [e5]
  refine congrArg (fun s => mseOut V ix0 + wWord * s) ?_
  refine congrArg₂ (· + ·) ?_ ?_
  · exact congrArg (fun s => Ideal.div (0 + s) 1024) (Finset.sum_congr rfl fun n _ => congrArg (cTWord * ·) (sel_eq V _))
  · exact congrArg (fun s => Ideal.div (0 + s) 1024) (Finset.sum_congr rfl fun n _ => congrArg (cTWord * ·) (sel_eq V _))

theorem tail_keep {r : Ref sig .tc} (h2 : r ∉ hostOps2_W) (h21 : r ∉ hostOps2_1_W) (h22 : r ∉ hostOps2_2_W) :
    StableHlo.after (hostOps2_2 (F := Ideal)) (StableHlo.after (hostOps2_1 (F := Ideal)) (StableHlo.after (hostOps2 (F := Ideal)) V))
        (Proc.devRef .tc r) = V (Proc.devRef .tc r) :=
  ((StableHlo.after_of_writes_sub hostOps2_2 _ hostOps2_2_writes h22).trans
    (StableHlo.after_of_writes_sub hostOps2_1 _ hostOps2_1_writes h21)).trans
    (StableHlo.after_of_writes_sub hostOps2 _ hostOps2_writes h2)

end Cert.Val.Host

end
-- ==== Proof.Val.RefMse.lean ====
import Idealize.ShloMosaic.PureOps.Ideal

noncomputable section

open scoped BigOperators

namespace Cert.Val.Ref

open Idealize.ShloMosaic

def refMse (s t : (⟨4, ![8, 1, 512, 512]⟩ : Shape).Idx → EReal) : EReal :=
  Ideal.div (0 + ∑ j : (⟨4, ![8, 1, 512, 512]⟩ : Shape).Idx, (s j - t j) * (s j - t j)) 2097152

end Cert.Val.Ref

end
-- ==== Proof.Val.RefThin.lean ====
import proofs.«401957_j37563783971102_3_alg».proof.Proof.Gen.ReferenceIdeal.Read

noncomputable section

namespace Cert.Val.Ref

open Cert.ReferenceIdeal Cert.ReferenceIdeal.Gen Cert.ReferenceIdeal.Read Idealize.ShloMosaic Idealize.ShloMosaic.StableHlo

theorem thin_v68 (x7 : (⟨S2x10000x256, .f32⟩ : BufTy).Contents (Elt Ideal)) :
    val_main_v68 (F := Ideal) x7 = val_main_v9 (F := Ideal) x7 := rfl
theorem thin_v69 (x7 : (⟨S2x10000x256, .f32⟩ : BufTy).Contents (Elt Ideal)) :
    val_main_v69 (F := Ideal) x7 = val_main_v10 (F := Ideal) x7 := by
  unfold val_main_v69 val_main_v10; rw [thin_v68]
theorem thin_cst_15 :
    val_main_cst_15 (F := Ideal) = val_main_cst_3 (F := Ideal) := rfl
theorem thin_v70 :
    val_main_v70 (F := Ideal) = val_main_v11 (F := Ideal) := by
  unfold val_main_v70 val_main_v11; rw [thin_cst_15]
theorem thin_v71 (x7 : (⟨S2x10000x256, .f32⟩ : BufTy).Contents (Elt Ideal)) :
    val_main_v71 (F := Ideal) x7 = val_main_v12 (F := Ideal) x7 := by
  unfold val_main_v71 val_main_v12; rw [thin_v69, thin_v70]
theorem thin_v72 :
    val_main_v72 (F := Ideal) = val_main_v13 (F := Ideal) := rfl
theorem thin_c_16 :
    val_main_c_16 (F := Ideal) = val_main_c (F := Ideal) := rfl
theorem thin_v73 :
    val_main_v73 (F := Ideal) = val_main_v14 (F := Ideal) := by
  unfold val_main_v73 val_main_v14; rw [thin_c_16]
theorem thin_v74 :
    val_main_v74 (F := Ideal) = val_main_v15 (F := Ideal) := by
  unfold val_main_v74 val_main_v15; rw [thin_v73, thin_v72]
theorem thin_v75 :
    val_main_v75 (F := Ideal) = val_main_v16 (F := Ideal) := by
  unfold val_main_v75 val_main_v16; rw [thin_v74]
theorem thin_v76 :
    val_main_v76 (F := Ideal) = val_main_v17 (F := Ideal) := by
  unfold val_main_v76 val_main_v17; rw [thin_v75]
theorem thin_c_17 :
    val_main_c_17 (F := Ideal) = val_main_c_4 (F := Ideal) := rfl
theorem thin_v77 :
    val_main_v77 (F := Ideal) = val_main_v18 (F := Ideal) := by
  unfold val_main_v77 val_main_v18; rw [thin_c_17]
theorem thin_v78 :
    val_main_v78 (F := Ideal) = val_main_v19 (F := Ideal) := by
  unfold val_main_v78 val_main_v19; rw [thin_v76, thin_v77]
theorem thin_v79 (x5 : (⟨S16x64x256, .f32⟩ : BufTy).Contents (Elt Ideal)) :
    val_main_v79 (F := Ideal) x5 = val_main_v20 (F := Ideal) x5 := rfl
theorem thin_v80 (x5 : (⟨S16x64x256, .f32⟩ : BufTy).Contents (Elt Ideal)) :
    val_main_v80 (F := Ideal) x5 = val_main_v21 (F := Ideal) x5 := by
  unfold val_main_v80 val_main_v21; rw [thin_v79]
theorem thin_v81 (x9 : (⟨S16, .i32⟩ : BufTy).Contents (Elt Ideal)) :
    val_main_v81 (F := Ideal) x9 = val_main_v22 (F := Ideal) x9 := rfl
theorem thin_v82 :
    val_main_v82 (F := Ideal) = val_main_v23 (F := Ideal) := by
  unfold val_main_v82 val_main_v23; rw [thin_v78]
theorem thin_v83 (x9 : (⟨S16, .i32⟩ : BufTy).Contents (Elt Ideal)) :
    val_main_v83 (F := Ideal) x9 = val_main_v24 (F := Ideal) x9 := by
  unfold val_main_v83 val_main_v24; rw [thin_v81]
theorem thin_v84 :
    val_main_v84 (F := Ideal) = val_main_v25 (F := Ideal) := by
  unfold val_main_v84 val_main_v25; rw [thin_v82]
theorem thin_v85 (x9 : (⟨S16, .i32⟩ : BufTy).Contents (Elt Ideal)) :
    val_main_v85 (F := Ideal) x9 = val_main_v26 (F := Ideal) x9 := by
  unfold val_main_v85 val_main_v26; rw [thin_v83, thin_v84]
theorem thin_v86 (x9 : (⟨S16, .i32⟩ : BufTy).Contents (Elt Ideal)) :
    val_main_v86 (F := Ideal) x9 = val_main_v27 (F := Ideal) x9 := by
  unfold val_main_v86 val_main_v27; rw [thin_v85]
theorem thin_v87 (x7 : (⟨S2x10000x256, .f32⟩ : BufTy).Contents (Elt Ideal)) :
    val_main_v87 (F := Ideal) x7 = val_main_v28 (F := Ideal) x7 := by
  unfold val_main_v87 val_main_v28; rw [thin_v71]
theorem thin_v88 (x5 : (⟨S16x64x256, .f32⟩ : BufTy).Contents (Elt Ideal)) (x7 : (⟨S2x10000x256, .f32⟩ : BufTy).Contents (Elt Ideal)) :
    val_main_v88 (F := Ideal) x5 x7 = val_main_v29 (F := Ideal) x5 x7 := by
  unfold val_main_v88 val_main_v29; rw [thin_v80, thin_v87]
theorem thin_cst_18 :
    val_main_cst_18 (F := Ideal) = val_main_cst_5 (F := Ideal) := rfl
theorem thin_v89 :
    val_main_v89 (F := Ideal) = val_main_v30 (F := Ideal) := by
  unfold val_main_v89 val_main_v30; rw [thin_cst_18]
theorem thin_v90 (x5 : (⟨S16x64x256, .f32⟩ : BufTy).Contents (Elt Ideal)) (x7 : (⟨S2x10000x256, .f32⟩ : BufTy).Contents (Elt Ideal)) :
    val_main_v90 (F := Ideal) x5 x7 = val_main_v31 (F := Ideal) x5 x7 := by
  unfold val_main_v90 val_main_v31; rw [thin_v88, thin_v89]
theorem thin_cst_19 :
    val_main_cst_19 (F := Ideal) = val_main_cst_6 (F := Ideal) := rfl
theorem thin_v91 (x5 : (⟨S16x64x256, .f32⟩ : BufTy).Contents (Elt Ideal)) (x7 : (⟨S2x10000x256, .f32⟩ : BufTy).Contents (Elt Ideal)) :
    val_main_v91 (F := Ideal) x5 x7 = val_main_v32 (F := Ideal) x5 x7 := by
  unfold val_main_v91 val_main_v32; rw [thin_v90, thin_cst_19]
theorem thin_v92 (x5 : (⟨S16x64x256, .f32⟩ : BufTy).Contents (Elt Ideal)) (x7 : (⟨S2x10000x256, .f32⟩ : BufTy).Contents (Elt Ideal)) :
    val_main_v92 (F := Ideal) x5 x7 = val_main_v33 (F := Ideal) x5 x7 := by
  unfold val_main_v92 val_main_v33; rw [thin_v91]
theorem thin_v93 (x5 : (⟨S16x64x256, .f32⟩ : BufTy).Contents (Elt Ideal)) (x7 : (⟨S2x10000x256, .f32⟩ : BufTy).Contents (Elt Ideal)) :
    val_main_v93 (F := Ideal) x5 x7 = val_main_v34 (F := Ideal) x5 x7 := by
  unfold val_main_v93 val_main_v34; rw [thin_v92]
theorem thin_v94 (x5 : (⟨S16x64x256, .f32⟩ : BufTy).Contents (Elt Ideal)) (x7 : (⟨S2x10000x256, .f32⟩ : BufTy).Contents (Elt Ideal)) :
    val_main_v94 (F := Ideal) x5 x7 = val_main_v35 (F := Ideal) x5 x7 := by
  unfold val_main_v94 val_main_v35; rw [thin_v90, thin_v93]
theorem thin_v95 (x9 : (⟨S16, .i32⟩ : BufTy).Contents (Elt Ideal)) :
    val_main_v95 (F := Ideal) x9 = val_main_v36 (F := Ideal) x9 := by
  unfold val_main_v95 val_main_v36; rw [thin_v86]
theorem thin_v96 (x9 : (⟨S16, .i32⟩ : BufTy).Contents (Elt Ideal)) :
    val_main_v96 (F := Ideal) x9 = val_main_v37 (F := Ideal) x9 := by
  unfold val_main_v96 val_main_v37; rw [thin_v95]
theorem thin_v97 (x9 : (⟨S16, .i32⟩ : BufTy).Contents (Elt Ideal)) :
    val_main_v97 (F := Ideal) x9 = val_main_v38 (F := Ideal) x9 := by
  unfold val_main_v97 val_main_v38; rw [thin_v96]
theorem thin_cst_20 :
    val_main_cst_20 (F := Ideal) = val_main_cst_7 (F := Ideal) := rfl
theorem thin_v98 :
    val_main_v98 (F := Ideal) = val_main_v39 (F := Ideal) := by
  unfold val_main_v98 val_main_v39; rw [thin_cst_20]
theorem thin_v99 (x9 : (⟨S16, .i32⟩ : BufTy).Contents (Elt Ideal)) :
    val_main_v99 (F := Ideal) x9 = val_main_v40 (F := Ideal) x9 := by
  unfold val_main_v99 val_main_v40; rw [thin_v98, thin_v97]
theorem thin_v100 :
    val_main_v100 (F := Ideal) = val_main_v41 (F := Ideal) := rfl
theorem thin_v101 :
    val_main_v101 (F := Ideal) = val_main_v42 (F := Ideal) := by
  unfold val_main_v101 val_main_v42; rw [thin_v100]
theorem thin_v102 :
    val_main_v102 (F := Ideal) = val_main_v43 (F := Ideal) := rfl
theorem thin_v103 :
    val_main_v103 (F := Ideal) = val_main_v44 (F := Ideal) := by
  unfold val_main_v103 val_main_v44; rw [thin_v102]
theorem thin_v104 :
    val_main_v104 (F := Ideal) = val_main_v45 (F := Ideal) := by
  unfold val_main_v104 val_main_v45; rw [thin_v101]
theorem thin_v105 :
    val_main_v105 (F := Ideal) = val_main_v46 (F := Ideal) := by
  unfold val_main_v105 val_main_v46; rw [thin_v103]
theorem thin_v106 :
    val_main_v106 (F := Ideal) = val_main_v47 (F := Ideal) := by
  unfold val_main_v106 val_main_v47; rw [thin_v104, thin_v105]
theorem thin_v107 :
    val_main_v107 (F := Ideal) = val_main_v48 (F := Ideal) := by
  unfold val_main_v107 val_main_v48; rw [thin_v106]
theorem thin_cst_21 :
    val_main_cst_21 (F := Ideal) = val_main_cst_8 (F := Ideal) := rfl
theorem thin_v108 :
    val_main_v108 (F := Ideal) = val_main_v49 (F := Ideal) := by
  unfold val_main_v108 val_main_v49; rw [thin_cst_21]
theorem thin_v109 :
    val_main_v109 (F := Ideal) = val_main_v50 (F := Ideal) := by
  unfold val_main_v109 val_main_v50; rw [thin_v108, thin_v107]
theorem thin_v110 (x9 : (⟨S16, .i32⟩ : BufTy).Contents (Elt Ideal)) :
    val_main_v110 (F := Ideal) x9 = val_main_v51 (F := Ideal) x9 := by
  unfold val_main_v110 val_main_v51; rw [thin_v97, thin_v109]
theorem thin_v111 (x5 : (⟨S16x64x256, .f32⟩ : BufTy).Contents (Elt Ideal)) (x7 : (⟨S2x10000x256, .f32⟩ : BufTy).Contents (Elt Ideal)) :
    val_main_v111 (F := Ideal) x5 x7 = val_main_v52 (F := Ideal) x5 x7 := by
  unfold val_main_v111 val_main_v52; rw [thin_v94]
theorem thin_v112 (x5 : (⟨S16x64x256, .f32⟩ : BufTy).Contents (Elt Ideal)) (x7 : (⟨S2x10000x256, .f32⟩ : BufTy).Contents (Elt Ideal)) (x9 : (⟨S16, .i32⟩ : BufTy).Contents (Elt Ideal)) :
    val_main_v112 (F := Ideal) x5 x7 x9 = val_main_v53 (F := Ideal) x5 x7 x9 := by
  unfold val_main_v112 val_main_v53; rw [thin_v111, thin_v99]
theorem thin_cst_22 :
    val_main_cst_22 (F := Ideal) = val_main_cst_9 (F := Ideal) := rfl
theorem thin_v113 (x5 : (⟨S16x64x256, .f32⟩ : BufTy).Contents (Elt Ideal)) (x7 : (⟨S2x10000x256, .f32⟩ : BufTy).Contents (Elt Ideal)) (x9 : (⟨S16, .i32⟩ : BufTy).Contents (Elt Ideal)) :
    val_main_v113 (F := Ideal) x5 x7 x9 = val_main_v54 (F := Ideal) x5 x7 x9 := by
  unfold val_main_v113 val_main_v54; rw [thin_v112, thin_cst_22]
theorem thin_v114 (x5 : (⟨S16x64x256, .f32⟩ : BufTy).Contents (Elt Ideal)) (x7 : (⟨S2x10000x256, .f32⟩ : BufTy).Contents (Elt Ideal)) (x9 : (⟨S16, .i32⟩ : BufTy).Contents (Elt Ideal)) :
    val_main_v114 (F := Ideal) x5 x7 x9 = val_main_v55 (F := Ideal) x5 x7 x9 := by
  unfold val_main_v114 val_main_v55; rw [thin_v113]
theorem thin_v115 (x5 : (⟨S16x64x256, .f32⟩ : BufTy).Contents (Elt Ideal)) (x7 : (⟨S2x10000x256, .f32⟩ : BufTy).Contents (Elt Ideal)) (x9 : (⟨S16, .i32⟩ : BufTy).Contents (Elt Ideal)) :
    val_main_v115 (F := Ideal) x5 x7 x9 = val_main_v56 (F := Ideal) x5 x7 x9 := by
  unfold val_main_v115 val_main_v56; rw [thin_v114]
theorem thin_v116 (x5 : (⟨S16x64x256, .f32⟩ : BufTy).Contents (Elt Ideal)) (x7 : (⟨S2x10000x256, .f32⟩ : BufTy).Contents (Elt Ideal)) (x9 : (⟨S16, .i32⟩ : BufTy).Contents (Elt Ideal)) :
    val_main_v116 (F := Ideal) x5 x7 x9 = val_main_v57 (F := Ideal) x5 x7 x9 := by
  unfold val_main_v116 val_main_v57; rw [thin_v111, thin_v115]
theorem thin_v117 (x5 : (⟨S16x64x256, .f32⟩ : BufTy).Contents (Elt Ideal)) (x7 : (⟨S2x10000x256, .f32⟩ : BufTy).Contents (Elt Ideal)) (x9 : (⟨S16, .i32⟩ : BufTy).Contents (Elt Ideal)) :
    val_main_v117 (F := Ideal) x5 x7 x9 = val_main_v58 (F := Ideal) x5 x7 x9 := by
  unfold val_main_v117 val_main_v58; rw [thin_v116]
theorem thin_v118 (x5 : (⟨S16x64x256, .f32⟩ : BufTy).Contents (Elt Ideal)) (x7 : (⟨S2x10000x256, .f32⟩ : BufTy).Contents (Elt Ideal)) (x9 : (⟨S16, .i32⟩ : BufTy).Contents (Elt Ideal)) :
    val_main_v118 (F := Ideal) x5 x7 x9 = val_main_v59 (F := Ideal) x5 x7 x9 := by
  unfold val_main_v118 val_main_v59; rw [thin_v94, thin_v117]
theorem thin_v119 (x5 : (⟨S16x64x256, .f32⟩ : BufTy).Contents (Elt Ideal)) (x7 : (⟨S2x10000x256, .f32⟩ : BufTy).Contents (Elt Ideal)) (x9 : (⟨S16, .i32⟩ : BufTy).Contents (Elt Ideal)) :
    val_main_v119 (F := Ideal) x5 x7 x9 = val_main_v60 (F := Ideal) x5 x7 x9 := by
  unfold val_main_v119 val_main_v60; rw [thin_v110, thin_v118]
theorem thin_cst_23 :
    val_main_cst_23 (F := Ideal) = val_main_cst_10 (F := Ideal) := rfl
theorem thin_v120 (x5 : (⟨S16x64x256, .f32⟩ : BufTy).Contents (Elt Ideal)) (x7 : (⟨S2x10000x256, .f32⟩ : BufTy).Contents (Elt Ideal)) (x9 : (⟨S16, .i32⟩ : BufTy).Contents (Elt Ideal)) :
    val_main_v120 (F := Ideal) x5 x7 x9 = val_main_v61 (F := Ideal) x5 x7 x9 := by
  unfold val_main_v120 val_main_v61; rw [thin_v119, thin_cst_23]
theorem thin_cst_24 :
    val_main_cst_24 (F := Ideal) = val_main_cst_11 (F := Ideal) := rfl
theorem thin_v121 (x9 : (⟨S16, .i32⟩ : BufTy).Contents (Elt Ideal)) :
    val_main_v121 (F := Ideal) x9 = val_main_v62 (F := Ideal) x9 := by
  unfold val_main_v121 val_main_v62; rw [thin_v110, thin_cst_24]
theorem thin_v122 (x5 : (⟨S16x64x256, .f32⟩ : BufTy).Contents (Elt Ideal)) (x7 : (⟨S2x10000x256, .f32⟩ : BufTy).Contents (Elt Ideal)) (x9 : (⟨S16, .i32⟩ : BufTy).Contents (Elt Ideal)) :
    val_main_v122 (F := Ideal) x5 x7 x9 = val_main_v63 (F := Ideal) x5 x7 x9 := by
  unfold val_main_v122 val_main_v63; rw [thin_v120, thin_v121]
theorem thin_cst_25 :
    val_main_cst_25 (F := Ideal) = val_main_cst_12 (F := Ideal) := rfl
theorem thin_v123 :
    val_main_v123 (F := Ideal) = val_main_v64 (F := Ideal) := by
  unfold val_main_v123 val_main_v64; rw [thin_cst_25]
theorem thin_v124 (x5 : (⟨S16x64x256, .f32⟩ : BufTy).Contents (Elt Ideal)) (x7 : (⟨S2x10000x256, .f32⟩ : BufTy).Contents (Elt Ideal)) (x9 : (⟨S16, .i32⟩ : BufTy).Contents (Elt Ideal)) :
    val_main_v124 (F := Ideal) x5 x7 x9 = val_main_v65 (F := Ideal) x5 x7 x9 := by
  unfold val_main_v124 val_main_v65; rw [thin_v123, thin_v122]
theorem thin_cst_26 :
    val_main_cst_26 (F := Ideal) = val_main_cst_13 (F := Ideal) := rfl
theorem thin_v125 (x5 : (⟨S16x64x256, .f32⟩ : BufTy).Contents (Elt Ideal)) (x7 : (⟨S2x10000x256, .f32⟩ : BufTy).Contents (Elt Ideal)) (x9 : (⟨S16, .i32⟩ : BufTy).Contents (Elt Ideal)) :
    val_main_v125 (F := Ideal) x5 x7 x9 = val_main_v66 (F := Ideal) x5 x7 x9 := by
  unfold val_main_v125 val_main_v66; rw [thin_v124, thin_cst_26]
theorem thin_cst_27 :
    val_main_cst_27 (F := Ideal) = val_main_cst_14 (F := Ideal) := rfl
theorem thin_v126 (x5 : (⟨S16x64x256, .f32⟩ : BufTy).Contents (Elt Ideal)) (x7 : (⟨S2x10000x256, .f32⟩ : BufTy).Contents (Elt Ideal)) (x9 : (⟨S16, .i32⟩ : BufTy).Contents (Elt Ideal)) :
    val_main_v126 (F := Ideal) x5 x7 x9 = val_main_v67 (F := Ideal) x5 x7 x9 := by
  unfold val_main_v126 val_main_v67; rw [thin_v125, thin_cst_27]

end Cert.Val.Ref

end
-- ==== Proof.Val.RefLayout.lean ====
import proofs.«401957_j37563783971102_3_alg».proof.Proof.Gen.ReferenceIdeal.Read
import proofs.«401957_j37563783971102_3_alg».proof.Proof.Spec
import proofs.«401957_j37563783971102_3_alg».proof.Proof.Val.RefWords

noncomputable section

open scoped BigOperators

namespace Cert.Val.Ref

open Cert.ReferenceIdeal Cert.ReferenceIdeal.Gen Cert.ReferenceIdeal.Read Idealize.ShloMosaic Idealize.ShloMosaic.ValueIdx
  Idealize.ShloMosaic.StableHlo

abbrev Queue : Type := (⟨S2x10000x256, .f32⟩ : BufTy).Contents (Elt Ideal)
abbrev Anchors : Type := (⟨S16x64x256, .f32⟩ : BufTy).Contents (Elt Ideal)
abbrev Labels : Type := (⟨S16, .i32⟩ : BufTy).Contents (Elt Ideal)
abbrev Images : Type := (⟨S8x1x512x512, .f32⟩ : BufTy).Contents (Elt Ideal)

def tblX (q : Queue) : Fin 10000 → Fin 256 → EReal := fun j k => q (ix3 (1 : Fin 2) j k)

def tblA (x : Anchors) : Fin 1024 → Fin 256 → EReal := fun n k =>
  x (ix3 (⟨n.val % 16, Nat.mod_lt _ (by decide)⟩ : Fin 16) (⟨n.val / 16, by have := n.isLt; omega⟩ : Fin 64) k)

def tblY (y : Labels) : Fin 1024 → BitVec 32 := fun n => y (ix1 (⟨n.val % 16, Nat.mod_lt _ (by decide)⟩ : Fin 16))

theorem rows_apply (q : Queue) (j : Fin 10000) (k : Fin 256) : val_main_v10 (F := Ideal) q (ix2 j k) = tblX q j k := by
  rw [val_main_v10_apply, val_main_v9_apply]
  refine congrArg q (funext fun a => Fin.ext ?_)
  have hj := j.isLt; have hk := k.isLt
  match a with
  | ⟨0, _⟩ => rfl
  | ⟨1, _⟩ => show (j.val * 256 + k.val) / 256 % 10000 = j.val; omega
  | ⟨2, _⟩ => show (j.val * 256 + k.val) % 256 = k.val; omega

theorem table_apply (q : Queue) (r : Fin 20000) (k : Fin 256) :
    val_main_v12 (F := Ideal) q (ix2 r k) = if h : r.val < 10000 then tblX q ⟨r.val, h⟩ k else 0 := by
  unfold val_main_v12
  by_cases h : r.val < 10000
  · rw [dif_pos h, concatenate_pair_apply_left (0 : Fin S20000x256.rank) _ _ concatenates_S10000x256_S10000x256_S20000x256_d0
      (ix2 r k) rfl (ix2 (⟨r.val, h⟩ : Fin 10000) k) (fun b => by match b with | ⟨0, _⟩ => rfl | ⟨1, _⟩ => rfl)]
    exact rows_apply q ⟨r.val, h⟩ k
  · have hr := r.isLt
    rw [dif_neg h, concatenate_pair_apply_right (0 : Fin S20000x256.rank) _ _ concatenates_S10000x256_S10000x256_S20000x256_d0
      (ix2 r k) rfl rfl (ix2 (⟨r.val - 10000, by omega⟩ : Fin 10000) k)
      (fun b hb => by match b with | ⟨0, _⟩ => exact absurd rfl hb | ⟨1, _⟩ => rfl)
      (by show r.val - 10000 + 10000 = r.val; omega)]
    rw [val_main_v11_apply, val_main_cst_3_apply]
    exact Ideal.ofBits_zero_f32

theorem anchors_apply (x : Anchors) (n : Fin 1024) (k : Fin 256) : val_main_v21 (F := Ideal) x (ix2 n k) = tblA x n k := by
  rw [val_main_v21_apply, val_main_v20_apply]
  refine congrArg x (funext fun a => Fin.ext ?_)
  have hn := n.isLt; have hk := k.isLt
  match a with
  | ⟨0, _⟩ => show (n.val * 256 + k.val) / 256 % 16 = n.val % 16; omega
  | ⟨1, _⟩ => show (n.val * 256 + k.val) / 4096 = n.val / 16; omega
  | ⟨2, _⟩ => show (n.val * 256 + k.val) % 256 = k.val; omega

theorem tableT_apply (q : Queue) (k : Fin 256) (r : Fin 20000) :
    val_main_v28 (F := Ideal) q (ix2 k r) = if h : r.val < 10000 then tblX q ⟨r.val, h⟩ k else 0 := by
  rw [val_main_v28_apply, ← table_apply q r k]
  exact congrArg _ (funext fun a => Fin.ext (by match a with | ⟨0, _⟩ => rfl | ⟨1, _⟩ => rfl))

theorem ones_apply (j : Fin 10000) : val_main_v17 (F := Ideal) (ix1 j) = 1#32 := by
  rw [val_main_v17_apply, val_main_v16_apply, val_main_v15_apply, val_main_v14_apply, val_main_c_apply, val_main_v13_apply]
  rfl

theorem rowLabel_apply (r : Fin 20000) :
    val_main_v19 (F := Ideal) (ix1 r) = if r.val < 10000 then 1#32 else 0#32 := by
  unfold val_main_v19
  by_cases h : r.val < 10000
  · rw [if_pos h, concatenate_pair_apply_left (0 : Fin S20000.rank) _ _ concatenates_S10000_S10000_S20000_d0
      (ix1 r) rfl (ix1 (⟨r.val, h⟩ : Fin 10000)) (fun b => by match b with | ⟨0, _⟩ => rfl)]
    exact ones_apply ⟨r.val, h⟩
  · have hr := r.isLt
    rw [if_neg h, concatenate_pair_apply_right (0 : Fin S20000.rank) _ _ concatenates_S10000_S10000_S20000_d0
      (ix1 r) rfl rfl (ix1 (⟨r.val - 10000, by omega⟩ : Fin 10000))
      (fun b hb => by match b with | ⟨0, _⟩ => exact absurd rfl hb)
      (by show r.val - 10000 + 10000 = r.val; omega)]
    rw [val_main_v18_apply, val_main_c_4_apply]

end Cert.Val.Ref

end
-- ==== Proof.Val.RefHalf.lean ====
import proofs.«401957_j37563783971102_3_alg».proof.Proof.Val.RefLayout

noncomputable section

open scoped BigOperators

namespace Cert.Val.Ref

open Cert.ReferenceIdeal Cert.ReferenceIdeal.Gen Cert.ReferenceIdeal.Read Idealize.ShloMosaic Idealize.ShloMosaic.ValueIdx
  Idealize.ShloMosaic.StableHlo

theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

theorem convert_eq (a b : BitVec 32) :
    FloatOps.uitofp (F := Ideal) .f32 (IntOp.cmpi .eq a b) = if a = b then (1 : EReal) else 0 := by
  show (((BitVec.ofBool (a == b)).toNat : ℝ) : EReal) = _
  by_cases h : a = b
  · rw [if_pos h, show (a == b) = true from beq_iff_eq.mpr h]; simp
  · rw [if_neg h, show (a == b) = false from beq_eq_false_iff_ne.mpr h]; simp

variable (x : Anchors) (q : Queue) (y : Labels)

theorem dots_apply (n : Fin 1024) (r : Fin 20000) :
    val_main_v29 (F := Ideal) x q (ix2 n r)
      = ∑ k : Fin 256, tblA x n k * (if h : r.val < 10000 then tblX q ⟨r.val, h⟩ k else 0) := by
  rw [val_main_v29_apply]
  refine Finset.sum_congr rfl fun k _ => ?_
  have el : lidx_main_v29 (ix2 n r) k = ix2 n k :=
    funext fun a => Fin.ext (by match a with | ⟨0, _⟩ => rfl | ⟨1, _⟩ => rfl)
  have er : ridx_main_v29 (ix2 n r) k = ix2 k r :=
    funext fun a => Fin.ext (by match a with | ⟨0, _⟩ => rfl | ⟨1, _⟩ => rfl)
  rw [el, er, anchors_apply, tableT_apply]

theorem logit_apply (n : Fin 1024) (r : Fin 20000) :
    val_main_v31 (F := Ideal) x q (ix2 n r) = Spec.rlogit (tblX q) (tblA x) r n := by
  rw [val_main_v31_apply, val_main_v30_apply, val_main_cst_5_apply, dots_apply]
  show Ideal.div _ (Ideal.ofBits .f32 0x3DCCCCCD#32) = _
  rw [word_tenth]
  unfold Spec.rlogit
  by_cases h : r.val < 10000
  · simp only [dif_pos h]
  · simp only [dif_neg h]

theorem lift_row (h : S1024x20000.Reduces [1] S1024) (n : Fin 1024) (k : Fin (S1024x20000.size 1)) :
    h.lift (ix1 n) k = ix2 n (⟨k.val, k.isLt⟩ : Fin 20000) := by
  funext c; apply Fin.ext
  fin_cases c <;> rfl

theorem max_apply (n : Fin 1024) :
    val_main_v32 (F := Ideal) x q (ix1 n) = Spec.refMax (tblX q) (tblA x) n := by
  have h : S1024x20000.Reduces [1] S1024 := by decide
  unfold val_main_v32
  rw [Host.reduce_eq_fold_single FloatOps.maximumf _ _ reducesTo_S1024x20000_S1024_d1 h h_S_]
  unfold Spec.refMax
  have hb : val_main_cst_6 (F := Ideal) (Shape.Idx.first h_S_) = (⊥ : EReal) := word_neg_inf
  rw [hb]
  exact congrArg (fun f => Finset.fold max (⊥ : EReal) f (Finset.univ : Finset (Fin 20000)))
    (funext fun r => by
      show val_main_v31 (F := Ideal) x q (h.lift (ix1 n) r) = _
      rw [lift_row h n r, logit_apply]
      rfl)

theorem centered_apply (n : Fin 1024) (r : Fin 20000) :
    val_main_v35 (F := Ideal) x q (ix2 n r)
      = Spec.rlogit (tblX q) (tblA x) r n - Spec.refMax (tblX q) (tblA x) n := by
  have e : idx_main_v33 (idx_main_v34 (ix2 n r)) = ix1 n :=
    funext fun a => Fin.ext (by match a with | ⟨0, _⟩ => rfl)
  rw [val_main_v35_apply, val_main_v34_apply, val_main_v33_apply, logit_apply, e, max_apply]
  rfl

theorem exp_apply (n : Fin 1024) (r : Fin 20000) :
    val_main_v52 (F := Ideal) x q (ix2 n r)
      = Ideal.exp (Spec.rlogit (tblX q) (tblA x) r n - Spec.refMax (tblX q) (tblA x) n) := by
  rw [val_main_v52_apply, centered_apply]
  rfl

theorem same16_apply (a : Fin 16) (r : Fin 20000) :
    val_main_v27 (F := Ideal) y (ix2 a r)
      = if y (ix1 a) = (if r.val < 10000 then 1#32 else 0#32) then (1 : EReal) else 0 := by
  have e1 : idx_main_v22 (idx_main_v24 (ix2 a r)) = ix1 a :=
    funext fun d => Fin.ext (by match d with | ⟨0, _⟩ => rfl)
  have e2 : idx_main_v23 (idx_main_v25 (ix2 a r)) = ix1 r :=
    funext fun d => Fin.ext (by match d with | ⟨0, _⟩ => rfl)
  rw [val_main_v27_apply, val_main_v26_apply, val_main_v24_apply, val_main_v22_apply, val_main_v25_apply,
    val_main_v23_apply, convert_eq, e1, e2, rowLabel_apply]

theorem same_apply (n : Fin 1024) (r : Fin 20000) :
    val_main_v38 (F := Ideal) y (ix2 n r) = Spec.rsame (tblY y) r n := by
  have e : idx_main_v36 (idx_main_v37 (idx_main_v38 (ix2 n r)))
      = ix2 (⟨n.val % 16, Nat.mod_lt _ (by decide)⟩ : Fin 16) r := by
    have hn := n.isLt; have hr := r.isLt
    refine funext fun d => Fin.ext ?_
    match d with
    | ⟨0, _⟩ =>
      show (((0 * 16 + (n.val * 20000 + r.val) / 20000 % 16) * 1 + 0) * 20000 + (n.val * 20000 + r.val) % 20000) / 20000
        = n.val % 16
      omega
    | ⟨1, _⟩ =>
      show (((0 * 16 + (n.val * 20000 + r.val) / 20000 % 16) * 1 + 0) * 20000 + (n.val * 20000 + r.val) % 20000) % 20000
        = r.val
      omega
  rw [val_main_v38_apply, val_main_v37_apply, val_main_v36_apply, e, same16_apply]
  rfl

theorem other_apply (n : Fin 1024) (r : Fin 20000) :
    val_main_v40 (F := Ideal) y (ix2 n r) = 1 - Spec.rsame (tblY y) r n := by
  rw [val_main_v40_apply, val_main_v39_apply, val_main_cst_7_apply, same_apply]
  show Ideal.ofBits .f32 0x3F800000#32 - _ = _
  rw [Ideal.ofBits_one_f32]

theorem diag_apply (n : Fin 1024) (r : Fin 20000) :
    val_main_v48 (F := Ideal) (ix2 n r) = if n.val = r.val then (1 : EReal) else 0 := by
  rw [val_main_v48_apply, val_main_v47_apply, val_main_v45_apply, val_main_v42_apply, val_main_v41_apply,
    val_main_v46_apply, val_main_v44_apply, val_main_v43_apply, convert_eq]
  show (if BitVec.ofNat 32 n.val = BitVec.ofNat 32 r.val then (1 : EReal) else 0) = _
  have hn : n.val < 2 ^ 32 := Nat.lt_trans n.isLt (by decide)
  have hr : r.val < 2 ^ 32 := Nat.lt_trans r.isLt (by decide)
  by_cases h : n.val = r.val
  · rw [if_pos h, if_pos (by rw [h])]
  · rw [if_neg h, if_neg]
    intro e
    have e' := congrArg BitVec.toNat e
    rw [BitVec.toNat_ofNat, BitVec.toNat_ofNat, Nat.mod_eq_of_lt hn, Nat.mod_eq_of_lt hr] at e'
    exact h e'

theorem mask_apply (n : Fin 1024) (r : Fin 20000) :
    val_main_v51 (F := Ideal) y (ix2 n r) = Spec.rmask (tblY y) r n := by
  rw [val_main_v51_apply, val_main_v50_apply, val_main_v49_apply, val_main_cst_8_apply, same_apply, diag_apply]
  show _ * (Ideal.ofBits .f32 0x3F800000#32 - _) = _
  rw [Ideal.ofBits_one_f32]
  rfl

theorem negSum_apply (n : Fin 1024) :
    val_main_v54 (F := Ideal) x q y (ix1 n) = Spec.refNeg (tblX q) (tblA x) (tblY y) n := by
  rw [val_main_v54_apply, val_main_cst_9_apply]
  unfold Spec.refNeg
  show Ideal.ofBits .f32 0x00000000#32 + _ = _
  rw [Ideal.ofBits_zero_f32]
  refine congrArg (0 + ·) (Finset.sum_congr rfl fun r _ => ?_)
  have e : idx_main_v54 (ix1 n) r = ix2 n r :=
    funext fun a => Fin.ext (by match a with | ⟨0, _⟩ => rfl | ⟨1, _⟩ => rfl)
  rw [e, val_main_v53_apply, exp_apply, other_apply]
  rfl

theorem logProb_apply (n : Fin 1024) (r : Fin 20000) :
    val_main_v59 (F := Ideal) x q y (ix2 n r) = Spec.rlp (tblX q) (tblA x) (tblY y) r n := by
  have e : idx_main_v55 (idx_main_v56 (ix2 n r)) = ix1 n :=
    funext fun a => Fin.ext (by match a with | ⟨0, _⟩ => rfl)
  rw [val_main_v59_apply, val_main_v58_apply, val_main_v57_apply, val_main_v56_apply, val_main_v55_apply,
    centered_apply, exp_apply, e, negSum_apply]
  rfl

theorem posSum_apply (n : Fin 1024) :
    val_main_v61 (F := Ideal) x q y (ix1 n) = Spec.refPos (tblX q) (tblA x) (tblY y) n := by
  rw [val_main_v61_apply, val_main_cst_10_apply]
  unfold Spec.refPos
  show Ideal.ofBits .f32 0x00000000#32 + _ = _
  rw [Ideal.ofBits_zero_f32]
  refine congrArg (0 + ·) (Finset.sum_congr rfl fun r _ => ?_)
  have e : idx_main_v61 (ix1 n) r = ix2 n r :=
    funext fun a => Fin.ext (by match a with | ⟨0, _⟩ => rfl | ⟨1, _⟩ => rfl)
  rw [e, val_main_v60_apply, mask_apply, logProb_apply]
  rfl

theorem count_apply (n : Fin 1024) :
    val_main_v62 (F := Ideal) y (ix1 n) = Spec.refCnt (tblY y) n := by
  rw [val_main_v62_apply, val_main_cst_11_apply]
  unfold Spec.refCnt
  show Ideal.ofBits .f32 0x00000000#32 + _ = _
  rw [Ideal.ofBits_zero_f32]
  refine congrArg (0 + ·) (Finset.sum_congr rfl fun r _ => ?_)
  have e : idx_main_v62 (ix1 n) r = ix2 n r :=
    funext fun a => Fin.ext (by match a with | ⟨0, _⟩ => rfl | ⟨1, _⟩ => rfl)
  rw [e, mask_apply]

theorem loss_apply (i : S_.Idx) :
    val_main_v67 (F := Ideal) x q y i
      = Spec.lossR (tblX q) (tblA x) (tblY y) (Ideal.ofBits .f32 0xBFB6DB6E#32) := by
  rw [val_main_v67_apply, val_main_v66_apply, val_main_cst_13_apply, val_main_cst_14_apply]
  unfold Spec.lossR
  show Ideal.div (Ideal.ofBits .f32 0x00000000#32 + _) (Ideal.ofBits .f32 0x44800000#32) = _
  rw [Ideal.ofBits_zero_f32, word_1024, sum_idx1]
  refine congrArg (fun s => Ideal.div (0 + s) 1024) (Finset.sum_congr rfl fun n _ => ?_)
  rw [val_main_v65_apply, val_main_v64_apply, val_main_cst_12_apply, val_main_v63_apply, posSum_apply, count_apply]
  rfl

end Cert.Val.Ref

end
-- ==== Proof.Val.Ref.lean ====
import proofs.«401957_j37563783971102_3_alg».proof.Proof.Gen.ReferenceIdeal.Run
import proofs.«401957_j37563783971102_3_alg».proof.Proof.Gen.ReferenceIdeal.Read
import proofs.«401957_j37563783971102_3_alg».proof.Proof.Spec
import proofs.«401957_j37563783971102_3_alg».proof.Proof.Val.RefMse
import proofs.«401957_j37563783971102_3_alg».proof.Proof.Val.RefThin
import proofs.«401957_j37563783971102_3_alg».proof.Proof.Val.RefHalf

noncomputable section

open scoped BigOperators

namespace Cert.Val.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

theorem mse_thick_apply (s t : Images) (i : S_.Idx) : val_main_v3 (F := Ideal) s t i = refMse s t := by
  rw [val_main_v3_apply, val_main_v2_apply, val_main_cst_apply, val_main_cst_0_apply]
  unfold refMse
  show Ideal.div (Ideal.ofBits .f32 0x00000000#32 + _) (Ideal.ofBits .f32 0x4A000000#32) = _
  rw [Ideal.ofBits_zero_f32, word_two_pow_21]
  refine congrArg (fun z => Ideal.div (0 + z) 2097152) (Finset.sum_congr rfl fun j _ => ?_)
  rfl

theorem mse_thin_apply (s t : Images) (i : S_.Idx) : val_main_v7 (F := Ideal) s t i = refMse s t := by
  rw [val_main_v7_apply, val_main_v6_apply, val_main_cst_1_apply, val_main_cst_2_apply]
  unfold refMse
  show Ideal.div (Ideal.ofBits .f32 0x00000000#32 + _) (Ideal.ofBits .f32 0x4A000000#32) = _
  rw [Ideal.ofBits_zero_f32, word_two_pow_21]
  refine congrArg (fun z => Ideal.div (0 + z) 2097152) (Finset.sum_congr rfl fun j _ => ?_)
  rfl

def refValue (s0 s1 t0 t1 : Images) (a0 a1 : Anchors) (q0 q1 : Queue) (y0 y1 : Labels) : EReal :=
  (refMse s0 t0 + refMse s1 t1)
    + Ideal.ofBits .f32 0x3DCCCCCD#32
      * (Spec.lossR (tblX q0) (tblA a0) (tblY y0) (Ideal.ofBits .f32 0xBFB6DB6E#32)
        + Spec.lossR (tblX q1) (tblA a1) (tblY y1) (Ideal.ofBits .f32 0xBFB6DB6E#32))

theorem ref_val (s0 s1 t0 t1 : Images) (a0 a1 : Anchors) (q0 q1 : Queue) (y0 y1 : Labels) (i : S_.Idx) :
    val_main_v129 (F := Ideal) s0 s1 t0 t1 a0 a1 q0 q1 y0 y1 i = refValue s0 s1 t0 t1 a0 a1 q0 q1 y0 y1 := by
  rw [val_main_v129_apply, val_main_v8_apply, val_main_v128_apply, val_main_v127_apply, val_main_cst_28_apply,
    mse_thick_apply, mse_thin_apply, thin_v126, loss_apply, loss_apply]
  rfl

theorem ref_value (m : (ℓ : Loc nD τ sig) → Buf (Elt Ideal) ℓ) (c : Dev nD) :
    Cert.ReferenceIdeal.Value.res_main_v129 m c
      = ((fun _ => refValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) : (⟨S_, .f32⟩ : BufTy).Contents (Elt Ideal)) := by
  rw [val_main_v129_eq]
  exact funext fun i => ref_val _ _ _ _ _ _ _ _ _ _ i

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v129)
        = ((fun _ => refValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) : (⟨S_, .f32⟩ : BufTy).Contents (Elt Ideal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (ref_value m c), (h c).2⟩)
    (Cert.ReferenceIdeal.Value.run (F := Ideal) m ρ)

end Cert.Val.Ref

end
-- ==== Proof.Val.MathRef1.lean ====
import proofs.«401957_j37563783971102_3_alg».proof.Proof.Spec
import Mathlib.Data.EReal.Operations
import Mathlib.Algebra.BigOperators.Fin

noncomputable section

open scoped BigOperators

namespace Cert.Spec

open Idealize.ShloMosaic

variable (X : Fin 10000 → Fin 256 → EReal) (A : Fin 1024 → Fin 256 → EReal) (y : Fin 1024 → BitVec 32)

def lo (j : Fin 10000) : Fin 20000 := ⟨j.val, by have := j.isLt; omega⟩

def hi (j : Fin 10000) : Fin 20000 := ⟨10000 + j.val, by have := j.isLt; omega⟩

theorem sum_split (f : Fin 20000 → EReal) :
    ∑ r : Fin 20000, f r = ∑ j : Fin 10000, f (lo j) + ∑ j : Fin 10000, f (hi j) := by
  have h := Fin.sum_univ_add (a := 10000) (b := 10000) (f : Fin (10000 + 10000) → EReal)
  exact h

theorem div_tau (x : EReal) : Ideal.div x ((13421773 / 134217728 : ℝ) : EReal) = x * κ := by
  rw [Ideal.div_coe (by norm_num) x, κ]
  norm_num

theorem rlogit_lo (j : Fin 10000) (n : Fin 1024) : rlogit X A (lo j) n = logit X A j n := by
  have h : (lo j).val < 10000 := j.isLt
  rw [rlogit, dif_pos h, div_tau, logit, dot]
  congr 1
  exact Finset.sum_congr rfl (fun k _ => mul_comm _ _)

theorem rlogit_hi (j : Fin 10000) (n : Fin 1024) : rlogit X A (hi j) n = 0 := by
  have h : ¬ (hi j).val < 10000 := by simp [hi]
  rw [rlogit, dif_neg h, div_tau]
  simp

end Cert.Spec

end
-- ==== Proof.Val.MathDefs.lean ====
import proofs.«401957_j37563783971102_3_alg».proof.Proof.Spec
import Mathlib.Analysis.SpecialFunctions.Log.Basic
import Mathlib.Algebra.BigOperators.Fin
import Mathlib.Order.Fin.Basic

noncomputable section

open scoped BigOperators

namespace Cert.Spec

variable (x : Fin 10000 → Fin 256 → ℝ) (a : Fin 1024 → Fin 256 → ℝ) (y : Fin 1024 → BitVec 32)

def lgt (j : Fin 10000) (n : Fin 1024) : ℝ := (∑ k : Fin 256, x j k * a n k) * (134217728 / 13421773)

def MxR (n : Fin 1024) : ℝ :=
  max ((Finset.univ : Finset (Fin 10000)).sup' Finset.univ_nonempty (fun j => lgt x a j n)) 0

def neg1R (n : Fin 1024) : ℝ := if y n = 1#32 then 0 else 1
def pos1R (n : Fin 1024) : ℝ := if y n = 1#32 then 1 else 0
def neg0R (n : Fin 1024) : ℝ := if y n = 0#32 then 0 else 1
def pos0R (n : Fin 1024) : ℝ := if y n = 0#32 then 1 else 0

def SR (n : Fin 1024) : ℝ :=
  (∑ j : Fin 10000, Real.exp (lgt x a j n - MxR x a n) * neg1R y n)
    + 10000 * Real.exp (-(MxR x a n)) * neg0R y n

def zlpR (n : Fin 1024) : ℝ := -(MxR x a n) - Real.log (Real.exp (-(MxR x a n)) + SR x a y n)

def lpR (j : Fin 10000) (n : Fin 1024) : ℝ :=
  (lgt x a j n - MxR x a n) - Real.log (Real.exp (lgt x a j n - MxR x a n) + SR x a y n)

def mskR (j : Fin 10000) (n : Fin 1024) : ℝ := if y n = 1#32 ∧ j.val ≠ n.val then 1 else 0

def posC (n : Fin 1024) : ℝ :=
  10000 * pos0R y n * zlpR x a y n + ∑ j : Fin 10000, mskR y j n * lpR x a y j n

def cntC (n : Fin 1024) : ℝ := 10000 * pos0R y n + ∑ j : Fin 10000, mskR y j n

@[norm_cast] theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem SR_nonneg (n : Fin 1024) : 0 ≤ SR x a y n := by
  unfold SR
  have h1 : 0 ≤ neg1R y n := by unfold neg1R; split <;> norm_num
  have h0 : 0 ≤ neg0R y n := by unfold neg0R; split <;> norm_num
  have : 0 ≤ ∑ j : Fin 10000, Real.exp (lgt x a j n - MxR x a n) * neg1R y n :=
    Finset.sum_nonneg (fun j _ => mul_nonneg (Real.exp_pos _).le h1)
  have h2 : 0 ≤ 10000 * Real.exp (-(MxR x a n)) * neg0R y n :=
    mul_nonneg (mul_nonneg (by norm_num) (Real.exp_pos _).le) h0
  linarith

end Cert.Spec

end
-- ==== Proof.Val.MathRef2.lean ====
import proofs.«401957_j37563783971102_3_alg».proof.Proof.Val.MathRef1
import proofs.«401957_j37563783971102_3_alg».proof.Proof.Val.MathDefs

noncomputable section

open scoped BigOperators

namespace Cert.Spec

open Idealize.ShloMosaic

theorem one_sub_one_ereal : (1 : EReal) - 1 = 0 := by
  rw [← EReal.coe_one, ← EReal.coe_sub, sub_self, EReal.coe_zero]

theorem one_sub_zero_ereal : (1 : EReal) - 0 = 1 := by
  rw [← EReal.coe_one, ← EReal.coe_zero, ← EReal.coe_sub, sub_zero]

theorem zero_sub_real (M : ℝ) : (0 : EReal) - (M : EReal) = ((-M : ℝ) : EReal) := by
  rw [← EReal.coe_zero, ← EReal.coe_sub, zero_sub]

theorem exp_sub_real (l M : ℝ) : Ideal.exp ((l : EReal) - (M : EReal)) = ((Real.exp (l - M) : ℝ) : EReal) := by
  rw [← EReal.coe_sub, Ideal.exp_coe]

theorem log_pos_real {r : ℝ} (h : 0 < r) : Ideal.log (r : EReal) = ((Real.log r : ℝ) : EReal) := by
  rw [Ideal.log_coe, if_neg (not_le.mpr h)]

variable {X : Fin 10000 → Fin 256 → EReal} {A : Fin 1024 → Fin 256 → EReal} (y : Fin 1024 → BitVec 32)
variable {x : Fin 10000 → Fin 256 → ℝ} {a : Fin 1024 → Fin 256 → ℝ}

theorem rsame_lo (j : Fin 10000) (n : Fin 1024) : rsame y (lo j) n = if y n = 1#32 then 1 else 0 := by
  have h : (lo j).val < 10000 := j.isLt
  rw [rsame, if_pos h]

theorem rsame_hi (j : Fin 10000) (n : Fin 1024) : rsame y (hi j) n = if y n = 0#32 then 1 else 0 := by
  have h : ¬ (hi j).val < 10000 := by simp [hi]
  rw [rsame, if_neg h]

theorem one_sub_rsame_lo (j : Fin 10000) (n : Fin 1024) :
    (1 : EReal) - rsame y (lo j) n = ((neg1R y n : ℝ) : EReal) := by
  rw [rsame_lo, neg1R]
  by_cases h : y n = 1#32
  · rw [if_pos h, if_pos h, one_sub_one_ereal, EReal.coe_zero]
  · rw [if_neg h, if_neg h, one_sub_zero_ereal, EReal.coe_one]

theorem one_sub_rsame_hi (j : Fin 10000) (n : Fin 1024) :
    (1 : EReal) - rsame y (hi j) n = ((neg0R y n : ℝ) : EReal) := by
  rw [rsame_hi, neg0R]
  by_cases h : y n = 0#32
  · rw [if_pos h, if_pos h, one_sub_one_ereal, EReal.coe_zero]
  · rw [if_neg h, if_neg h, one_sub_zero_ereal, EReal.coe_one]

theorem rmask_lo (j : Fin 10000) (n : Fin 1024) : rmask y (lo j) n = ((mskR y j n : ℝ) : EReal) := by
  rw [rmask, rsame_lo, mskR]
  have hv : (lo j).val = j.val := rfl
  rw [hv]
  by_cases h1 : y n = 1#32
  · by_cases h2 : n.val = j.val
    · have h3 : ¬ (y n = 1#32 ∧ j.val ≠ n.val) := fun h => h.2 h2.symm
      rw [if_pos h1, if_pos h2, if_neg h3, one_sub_one_ereal, mul_zero, EReal.coe_zero]
    · have h3 : y n = 1#32 ∧ j.val ≠ n.val := ⟨h1, fun e => h2 e.symm⟩
      rw [if_pos h1, if_neg h2, if_pos h3, one_sub_zero_ereal, mul_one, EReal.coe_one]
  · have h3 : ¬ (y n = 1#32 ∧ j.val ≠ n.val) := fun h => h1 h.1
    rw [if_neg h1, if_neg h3, zero_mul, EReal.coe_zero]

theorem rmask_hi (j : Fin 10000) (n : Fin 1024) : rmask y (hi j) n = ((pos0R y n : ℝ) : EReal) := by
  have hne : ¬ (n.val = (hi j).val) := by
    have := n.isLt
    have hv : (hi j).val = 10000 + j.val := rfl
    omega
  rw [rmask, rsame_hi, if_neg hne, one_sub_zero_ereal, mul_one, pos0R]
  by_cases h : y n = 0#32
  · rw [if_pos h, if_pos h, EReal.coe_one]
  · rw [if_neg h, if_neg h, EReal.coe_zero]

section Real

variable (hX : ∀ j k, X j k = (x j k : EReal)) (hA : ∀ n k, A n k = (a n k : EReal))
include hX hA

theorem logit_real (j : Fin 10000) (n : Fin 1024) : logit X A j n = ((lgt x a j n : ℝ) : EReal) := by
  rw [logit, dot, lgt, κ, EReal.coe_mul, coe_sum]
  congr 1
  exact Finset.sum_congr rfl (fun k _ => by rw [hX, hA, EReal.coe_mul])

theorem refMax_real (n : Fin 1024) : refMax X A n = ((MxR x a n : ℝ) : EReal) := by
  have hfold : refMax X A n = (Finset.univ : Finset (Fin 20000)).sup (fun r => rlogit X A r n) := rfl
  rw [hfold]
  apply le_antisymm
  · apply Finset.sup_le
    intro r _
    by_cases h : r.val < 10000
    · have hr : r = lo ⟨r.val, h⟩ := rfl
      rw [hr, rlogit_lo, logit_real hX hA, EReal.coe_le_coe_iff]
      exact le_max_of_le_left (Finset.le_sup' (fun j => lgt x a j n) (Finset.mem_univ _))
    · have hr : r = hi ⟨r.val - 10000, by have := r.isLt; omega⟩ := by
        apply Fin.ext
        show r.val = 10000 + (r.val - 10000)
        omega
      rw [hr, rlogit_hi, ← EReal.coe_zero, EReal.coe_le_coe_iff]
      exact le_max_right _ _
  · unfold MxR
    rcases le_total ((Finset.univ : Finset (Fin 10000)).sup' Finset.univ_nonempty (fun j => lgt x a j n)) 0
      with h | h
    · rw [max_eq_right h, EReal.coe_zero, ← rlogit_hi X A ⟨0, by norm_num⟩ n]
      exact Finset.le_sup (f := fun r => rlogit X A r n) (Finset.mem_univ _)
    · rw [max_eq_left h]
      obtain ⟨j, _, hj⟩ := Finset.exists_mem_eq_sup' Finset.univ_nonempty (fun j => lgt x a j n)
      rw [hj, ← logit_real hX hA, ← rlogit_lo]
      exact Finset.le_sup (f := fun r => rlogit X A r n) (Finset.mem_univ _)

theorem refNeg_real (n : Fin 1024) : refNeg X A y n = ((SR x a y n : ℝ) : EReal) := by
  have h1 : ∀ j : Fin 10000, Ideal.exp (rlogit X A (lo j) n - refMax X A n) * (1 - rsame y (lo j) n)
      = ((Real.exp (lgt x a j n - MxR x a n) * neg1R y n : ℝ) : EReal) := by
    intro j
    rw [rlogit_lo, logit_real hX hA, refMax_real hX hA, exp_sub_real, one_sub_rsame_lo, EReal.coe_mul]
  have h2 : ∀ j : Fin 10000, Ideal.exp (rlogit X A (hi j) n - refMax X A n) * (1 - rsame y (hi j) n)
      = ((Real.exp (-(MxR x a n)) * neg0R y n : ℝ) : EReal) := by
    intro j
    rw [rlogit_hi, refMax_real hX hA, zero_sub_real, Ideal.exp_coe, one_sub_rsame_hi, EReal.coe_mul]
  rw [refNeg, zero_add, sum_split, Finset.sum_congr rfl (fun j _ => h1 j), Finset.sum_congr rfl (fun j _ => h2 j),
    ← coe_sum, ← coe_sum, ← EReal.coe_add]
  congr 1
  rw [SR, Finset.sum_const, Finset.card_univ, Fintype.card_fin, nsmul_eq_mul]
  push_cast
  ring

theorem rlp_lo (j : Fin 10000) (n : Fin 1024) : rlp X A y (lo j) n = ((lpR x a y j n : ℝ) : EReal) := by
  have hpos : 0 < Real.exp (lgt x a j n - MxR x a n) + SR x a y n :=
    add_pos_of_pos_of_nonneg (Real.exp_pos _) (SR_nonneg x a y n)
  rw [rlp, rlogit_lo, logit_real hX hA, refMax_real hX hA, refNeg_real y hX hA, exp_sub_real,
    ← EReal.coe_add, log_pos_real hpos, ← EReal.coe_sub, ← EReal.coe_sub, lpR]

theorem rlp_hi (j : Fin 10000) (n : Fin 1024) : rlp X A y (hi j) n = ((zlpR x a y n : ℝ) : EReal) := by
  have hpos : 0 < Real.exp (-(MxR x a n)) + SR x a y n :=
    add_pos_of_pos_of_nonneg (Real.exp_pos _) (SR_nonneg x a y n)
  rw [rlp, rlogit_hi, refMax_real hX hA, refNeg_real y hX hA, zero_sub_real, Ideal.exp_coe,
    ← EReal.coe_add, log_pos_real hpos, ← EReal.coe_sub, zlpR]

theorem refPos_real (n : Fin 1024) : refPos X A y n = ((posC x a y n : ℝ) : EReal) := by
  have h1 : ∀ j : Fin 10000, rmask y (lo j) n * rlp X A y (lo j) n
      = ((mskR y j n * lpR x a y j n : ℝ) : EReal) := by
    intro j
    rw [rmask_lo, rlp_lo y hX hA, EReal.coe_mul]
  have h2 : ∀ j : Fin 10000, rmask y (hi j) n * rlp X A y (hi j) n
      = ((pos0R y n * zlpR x a y n : ℝ) : EReal) := by
    intro j
    rw [rmask_hi, rlp_hi y hX hA, EReal.coe_mul]
  rw [refPos, zero_add, sum_split, Finset.sum_congr rfl (fun j _ => h1 j), Finset.sum_congr rfl (fun j _ => h2 j),
    ← coe_sum, ← coe_sum, ← EReal.coe_add]
  congr 1
  rw [posC, Finset.sum_const, Finset.card_univ, Fintype.card_fin, nsmul_eq_mul]
  push_cast
  ring

end Real

theorem refCnt_real (n : Fin 1024) : refCnt y n = ((cntC y n : ℝ) : EReal) := by
  rw [refCnt, zero_add, sum_split, Finset.sum_congr rfl (fun j _ => rmask_lo y j n),
    Finset.sum_congr rfl (fun j _ => rmask_hi y j n), ← coe_sum, ← coe_sum, ← EReal.coe_add]
  congr 1
  rw [cntC, Finset.sum_const, Finset.card_univ, Fintype.card_fin, nsmul_eq_mul]
  push_cast
  ring

theorem cntC_pos (n : Fin 1024) (hy : y n = 0#32 ∨ y n = 1#32) : 0 < cntC y n := by
  unfold cntC
  have hnn : ∀ j : Fin 10000, 0 ≤ mskR y j n := fun j => by unfold mskR; split <;> norm_num
  have hs : 0 ≤ ∑ j : Fin 10000, mskR y j n := Finset.sum_nonneg (fun j _ => hnn j)
  rcases hy with h | h
  · have hp : pos0R y n = 1 := by rw [pos0R, if_pos h]
    rw [hp]
    linarith
  · have hp : 0 ≤ pos0R y n := by unfold pos0R; split <;> norm_num
    have hne : (5000 : ℕ) ≠ n.val := by have := n.isLt; omega
    have h1 : mskR y (⟨5000, by norm_num⟩ : Fin 10000) n = 1 := by
      rw [mskR, if_pos ⟨h, hne⟩]
    have h2 := Finset.single_le_sum (f := fun j : Fin 10000 => mskR y j n) (fun j _ => hnn j)
      (Finset.mem_univ (⟨5000, by norm_num⟩ : Fin 10000))
    have h3 : (1 : ℝ) ≤ ∑ j : Fin 10000, mskR y j n := by rw [← h1]; exact h2
    nlinarith

theorem bridge_of (cT : EReal) (hX : ∀ j k, X j k = (x j k : EReal)) (hA : ∀ n k, A n k = (a n k : EReal))
    (hy : ∀ n, y n = 0#32 ∨ y n = 1#32)
    (hpos : ∀ n, posK X A y n = ((posC x a y n : ℝ) : EReal))
    (hcnt : ∀ n, cntK X A y n = ((cntC y n : ℝ) : EReal)) :
    lossK X A y cT = lossR X A y cT := by
  have hm : ∀ n : Fin 1024, mlppK X A y n = Ideal.div (refPos X A y n) (refCnt y n) := by
    intro n
    have hc : (0 : EReal) < ((cntC y n : ℝ) : EReal) := by
      rw [← EReal.coe_zero, EReal.coe_lt_coe_iff]
      exact cntC_pos y n (hy n)
    rw [mlppK, hcnt n, hpos n, if_pos hc, refPos_real y hX hA, refCnt_real y]
  rw [lossK, lossR, Finset.sum_congr rfl (fun n _ => by rw [hm n])]

end Cert.Spec

end
-- ==== Proof.Val.MathK1.lean ====
import proofs.«401957_j37563783971102_3_alg».proof.Proof.Val.MathDefs
import Mathlib.Logic.Equiv.Fin.Basic
import Mathlib.Data.Fintype.BigOperators
import Mathlib.Data.Finset.Lattice.Fold

noncomputable section

open scoped BigOperators

namespace Cert.Spec

open Idealize.ShloMosaic

theorem coe_max' (r s : ℝ) : ((max r s : ℝ) : EReal) = max (r : EReal) (s : EReal) :=
  Monotone.map_max EReal.coe_strictMono.monotone

theorem fold_max_coe {ι : Type*} (s : Finset ι) (hs : s.Nonempty) (f : ι → ℝ) :
    s.fold max ⊥ (fun i => (f i : EReal)) = ((s.sup' hs f : ℝ) : EReal) := by
  have h : s.fold max ⊥ (fun i => (f i : EReal)) = s.sup (fun i => (f i : EReal)) := rfl
  rw [h]
  apply le_antisymm
  · apply Finset.sup_le
    intro i hi
    exact EReal.coe_le_coe_iff.2 (Finset.le_sup' f hi)
  · obtain ⟨i, hi, e⟩ := Finset.exists_mem_eq_sup' hs f
    rw [e]
    exact Finset.le_sup (f := fun i => (f i : EReal)) hi

theorem coe_tenK : ((10000 : ℝ) : EReal) = (10000 : EReal) := rfl

theorem row_surj (j : Fin 10000) : ∃ (T : Fin 25) (i : Fin 400), row T i = j := by
  refine ⟨⟨j.val / 400, by have := j.isLt; omega⟩, ⟨j.val % 400, Nat.mod_lt _ (by norm_num)⟩, ?_⟩
  apply Fin.ext
  simp only [row]
  omega

theorem sum_rows {M : Type*} [AddCommMonoid M] (f : Fin 10000 → M) :
    ∑ j : Fin 10000, f j = ∑ T : Fin 25, ∑ i : Fin 400, f (row T i) := by
  have e : ∑ j : Fin 10000, f j = ∑ p : Fin 25 × Fin 400, f (finProdFinEquiv p) :=
    (Equiv.sum_comp (finProdFinEquiv (m := 25) (n := 400)) f).symm
  rw [e, Fintype.sum_prod_type]
  refine Finset.sum_congr rfl (fun T _ => Finset.sum_congr rfl (fun i _ => ?_))
  congr 1
  apply Fin.ext
  simp only [finProdFinEquiv_apply_val, row]
  omega

theorem sum_rows_range {M : Type*} [AddCommMonoid M] (f : Fin 10000 → M) :
    ∑ j : Fin 10000, f j
      = ∑ T ∈ Finset.range 25, if h : T < 25 then ∑ i : Fin 400, f (row ⟨T, h⟩ i) else 0 := by
  rw [sum_rows, ← Fin.sum_univ_eq_sum_range (fun T => if h : T < 25 then ∑ i : Fin 400, f (row ⟨T, h⟩ i) else 0) 25]
  refine Finset.sum_congr rfl (fun T _ => ?_)
  rw [dif_pos T.isLt]

variable {X : Fin 10000 → Fin 256 → EReal} {A : Fin 1024 → Fin 256 → EReal} (y : Fin 1024 → BitVec 32)
variable {x : Fin 10000 → Fin 256 → ℝ} {a : Fin 1024 → Fin 256 → ℝ}

theorem logit_coe (hX : ∀ j k, X j k = (x j k : EReal)) (hA : ∀ n k, A n k = (a n k : EReal))
    (j : Fin 10000) (n : Fin 1024) : logit X A j n = ((lgt x a j n : ℝ) : EReal) := by
  unfold logit dot lgt κ
  rw [EReal.coe_mul, coe_sum]
  congr 1
  refine Finset.sum_congr rfl (fun k _ => ?_)
  rw [hX, hA, EReal.coe_mul]

theorem Lt_coe (hX : ∀ j k, X j k = (x j k : EReal)) (hA : ∀ n k, A n k = (a n k : EReal))
    (T : Fin 25) (i : Fin 400) (n : Fin 1024) : Lt X A T i n = ((lgt x a (row T i) n : ℝ) : EReal) :=
  logit_coe hX hA (row T i) n

def tmR (x : Fin 10000 → Fin 256 → ℝ) (a : Fin 1024 → Fin 256 → ℝ) (T : Fin 25) (n : Fin 1024) : ℝ :=
  (Finset.univ : Finset (Fin 400)).sup' Finset.univ_nonempty (fun i => lgt x a (row T i) n)

theorem tileMax_coe (hX : ∀ j k, X j k = (x j k : EReal)) (hA : ∀ n k, A n k = (a n k : EReal))
    (T : Fin 25) (n : Fin 1024) : tileMax X A T n = ((tmR x a T n : ℝ) : EReal) := by
  unfold tileMax tmR
  rw [← fold_max_coe]
  congr 1
  funext i
  exact Lt_coe hX hA T i n

theorem neg1_coe (n : Fin 1024) : neg1 y n = ((neg1R y n : ℝ) : EReal) := by
  unfold neg1 neg1R; split <;> simp
theorem pos1_coe (n : Fin 1024) : pos1 y n = ((pos1R y n : ℝ) : EReal) := by
  unfold pos1 pos1R; split <;> simp
theorem neg0_coe (n : Fin 1024) : neg0 y n = ((neg0R y n : ℝ) : EReal) := by
  unfold neg0 neg0R; split <;> simp
theorem pos0_coe (n : Fin 1024) : pos0 y n = ((pos0R y n : ℝ) : EReal) := by
  unfold pos0 pos0R; split <;> simp
theorem maskB_coe (T : Fin 25) (i : Fin 400) (n : Fin 1024) :
    maskB y T i n = ((mskR y (row T i) n : ℝ) : EReal) := by
  unfold maskB mskR; split <;> simp

end Cert.Spec

end
-- ==== Proof.Val.MathK2.lean ====
import proofs.«401957_j37563783971102_3_alg».proof.Proof.Val.MathK1

noncomputable section

open scoped BigOperators

namespace Cert.Spec

open Idealize.ShloMosaic

def gN (x : Fin 10000 → Fin 256 → ℝ) (a : Fin 1024 → Fin 256 → ℝ) (n : Fin 1024) (T : ℕ) (i : Fin 400) : ℝ :=
  if h : T < 25 then lgt x a (row ⟨T, h⟩ i) n else 0

theorem gN_pos {x : Fin 10000 → Fin 256 → ℝ} {a : Fin 1024 → Fin 256 → ℝ} (n : Fin 1024) {T : ℕ} (h : T < 25)
    (i : Fin 400) : gN x a n T i = lgt x a (row ⟨T, h⟩ i) n := dif_pos h

variable {X : Fin 10000 → Fin 256 → EReal} {A : Fin 1024 → Fin 256 → EReal} (y : Fin 1024 → BitVec 32)
variable {x : Fin 10000 → Fin 256 → ℝ} {a : Fin 1024 → Fin 256 → ℝ}

theorem passA_succ (k : ℕ) (h : k < 25) :
    passA X A y (k + 1) = stepA X A y ⟨k, h⟩ (passA X A y k) := by
  rw [passA, dif_pos h]

theorem passA_inv (hX : ∀ j k, X j k = (x j k : EReal)) (hA : ∀ n k, A n k = (a n k : EReal))
    (n : Fin 1024) (k : ℕ) (hk1 : 1 ≤ k) (hk : k ≤ 25) :
    ∃ M : ℝ, (passA X A y k).1 n = (M : EReal) ∧ (∀ T, T < k → ∀ i, gN x a n T i ≤ M)
      ∧ (∃ T, T < k ∧ ∃ i, gN x a n T i = M)
      ∧ (passA X A y k).2 n
          = ((∑ T ∈ Finset.range k, ∑ i : Fin 400, Real.exp (gN x a n T i - M) * neg1R y n : ℝ) : EReal) := by
  induction k, hk1 using Nat.le_induction with
  | base =>
    have h0 : (0 : ℕ) < 25 := by norm_num
    have e : passA X A y 1 = stepA X A y ⟨0, h0⟩ (passA X A y 0) := passA_succ y 0 h0
    refine ⟨tmR x a ⟨0, h0⟩ n, ?_, ?_, ?_, ?_⟩
    · rw [e]
      simp only [stepA, passA]
      rw [tileMax_coe hX hA, max_eq_right bot_le]
    · intro T hT i
      have hT0 : T = 0 := by omega
      rw [hT0, gN_pos n h0]
      exact Finset.le_sup' (fun i => lgt x a (row ⟨0, h0⟩ i) n) (Finset.mem_univ i)
    · obtain ⟨i, _, e'⟩ :=
        Finset.exists_mem_eq_sup' Finset.univ_nonempty (fun i => lgt x a (row ⟨0, h0⟩ i) n)
      exact ⟨0, by norm_num, i, by rw [gN_pos n h0]; exact e'.symm⟩
    · rw [e]
      simp only [stepA, passA]
      rw [tileMax_coe hX hA, max_eq_right bot_le, mul_zero, zero_add, Finset.sum_range_one, coe_sum]
      refine Finset.sum_congr rfl (fun i _ => ?_)
      rw [Lt_coe hX hA, neg1_coe, ← EReal.coe_sub, Ideal.exp_coe, ← EReal.coe_mul, gN_pos n h0]
  | succ k hk1 ih =>
    have h : k < 25 := by omega
    obtain ⟨M, hm, hub, hatt, hs⟩ := ih (by omega)
    have e := passA_succ (X := X) (A := A) y k h
    refine ⟨max M (tmR x a ⟨k, h⟩ n), ?_, ?_, ?_, ?_⟩
    · rw [e]
      simp only [stepA]
      rw [hm, tileMax_coe hX hA, coe_max']
    · intro T hT i
      rcases Nat.lt_succ_iff_lt_or_eq.1 hT with hT | hT
      · exact le_trans (hub T hT i) (le_max_left _ _)
      · rw [hT, gN_pos n h]
        exact le_trans (Finset.le_sup' (fun i => lgt x a (row ⟨k, h⟩ i) n) (Finset.mem_univ i))
          (le_max_right _ _)
    · rcases max_choice M (tmR x a ⟨k, h⟩ n) with hc | hc
      · obtain ⟨T, hT, i, hi⟩ := hatt
        exact ⟨T, by omega, i, by rw [hc]; exact hi⟩
      · obtain ⟨i, _, e'⟩ :=
          Finset.exists_mem_eq_sup' Finset.univ_nonempty (fun i => lgt x a (row ⟨k, h⟩ i) n)
        exact ⟨k, by omega, i, by rw [hc, gN_pos n h]; exact e'.symm⟩
    · rw [e]
      simp only [stepA]
      rw [hm, hs, tileMax_coe hX hA, ← coe_max', neg1_coe]
      simp only [Lt_coe hX hA, ← EReal.coe_sub, Ideal.exp_coe, ← EReal.coe_mul, ← coe_sum, ← EReal.coe_add]
      congr 1
      rw [Finset.sum_range_succ, Finset.mul_sum]
      congr 1
      · refine Finset.sum_congr rfl (fun T _ => ?_)
        rw [Finset.mul_sum]
        refine Finset.sum_congr rfl (fun i _ => ?_)
        rw [← mul_assoc, ← Real.exp_add]
        congr 2
        ring
      · refine Finset.sum_congr rfl (fun i _ => ?_)
        rw [gN_pos n h]

theorem passA25 (hX : ∀ j k, X j k = (x j k : EReal)) (hA : ∀ n k, A n k = (a n k : EReal)) (n : Fin 1024) :
    (passA X A y 25).1 n
        = (((Finset.univ : Finset (Fin 10000)).sup' Finset.univ_nonempty (fun j => lgt x a j n) : ℝ) : EReal)
      ∧ (passA X A y 25).2 n
        = ((∑ j : Fin 10000, Real.exp (lgt x a j n
              - (Finset.univ : Finset (Fin 10000)).sup' Finset.univ_nonempty (fun j => lgt x a j n))
              * neg1R y n : ℝ) : EReal) := by
  obtain ⟨M, hm, hub, hatt, hs⟩ := passA_inv y hX hA n 25 (by norm_num) le_rfl
  have hMP : M = (Finset.univ : Finset (Fin 10000)).sup' Finset.univ_nonempty (fun j => lgt x a j n) := by
    apply le_antisymm
    · obtain ⟨T, hT, i, hi⟩ := hatt
      rw [← hi, gN_pos n hT]
      exact Finset.le_sup' (fun j => lgt x a j n) (Finset.mem_univ _)
    · apply Finset.sup'_le
      intro j _
      obtain ⟨T, i, rfl⟩ := row_surj j
      have hle := hub T.val T.isLt i
      rw [gN_pos n T.isLt] at hle
      exact hle
  rw [hMP] at hm hs
  refine ⟨hm, ?_⟩
  rw [hs]
  congr 1
  rw [sum_rows_range]
  refine Finset.sum_congr rfl (fun T hT => ?_)
  have hT' : T < 25 := Finset.mem_range.1 hT
  rw [dif_pos hT']
  refine Finset.sum_congr rfl (fun i _ => ?_)
  rw [gN_pos n hT']

theorem m0_eq (hX : ∀ j k, X j k = (x j k : EReal)) (hA : ∀ n k, A n k = (a n k : EReal)) (n : Fin 1024) :
    m0 X A y n = ((MxR x a n : ℝ) : EReal) := by
  unfold m0 MxR
  rw [(passA25 y hX hA n).1, coe_max', EReal.coe_zero]

theorem sf_eq (hX : ∀ j k, X j k = (x j k : EReal)) (hA : ∀ n k, A n k = (a n k : EReal)) (n : Fin 1024) :
    sf X A y n = ((SR x a y n : ℝ) : EReal) := by
  unfold sf
  rw [m0_eq y hX hA n, (passA25 y hX hA n).1, (passA25 y hX hA n).2, neg0_coe, ← coe_tenK]
  simp only [← EReal.coe_sub, ← EReal.coe_neg, Ideal.exp_coe, ← EReal.coe_mul, ← EReal.coe_add]
  congr 1
  unfold SR
  congr 1
  rw [Finset.sum_mul]
  refine Finset.sum_congr rfl (fun j _ => ?_)
  rw [mul_right_comm, ← Real.exp_add]
  congr 2
  ring

end Cert.Spec

end
-- ==== Proof.Val.MathK3.lean ====
import proofs.«401957_j37563783971102_3_alg».proof.Proof.Val.MathK2

noncomputable section

open scoped BigOperators

namespace Cert.Spec

open Idealize.ShloMosaic

def gB (X : Fin 10000 → Fin 256 → EReal) (A : Fin 1024 → Fin 256 → EReal) (y : Fin 1024 → BitVec 32)
    (n : Fin 1024) (T : ℕ) : EReal :=
  if h : T < 25 then ∑ j : Fin 400, maskB y ⟨T, h⟩ j n * lp X A y ⟨T, h⟩ j n else 0

def gC (y : Fin 1024 → BitVec 32) (n : Fin 1024) (T : ℕ) : EReal :=
  if h : T < 25 then ∑ j : Fin 400, maskB y ⟨T, h⟩ j n else 0

variable {X : Fin 10000 → Fin 256 → EReal} {A : Fin 1024 → Fin 256 → EReal} (y : Fin 1024 → BitVec 32)
variable {x : Fin 10000 → Fin 256 → ℝ} {a : Fin 1024 → Fin 256 → ℝ}

theorem passB_succ (k : ℕ) (h : k < 25) :
    passB X A y (k + 1) = stepB X A y ⟨k, h⟩ (passB X A y k) := by
  rw [passB, dif_pos h]

theorem passB_closed (n : Fin 1024) (k : ℕ) (hk : k ≤ 25) :
    (passB X A y k).1 n = (0 + 10000 * pos0 y n * zlp X A y n) + ∑ T ∈ Finset.range k, gB X A y n T
      ∧ (passB X A y k).2 n = (0 + 10000 * pos0 y n) + ∑ T ∈ Finset.range k, gC y n T := by
  induction k with
  | zero =>
    rw [Finset.range_zero, Finset.sum_empty, Finset.sum_empty, add_zero, add_zero]
    exact ⟨rfl, rfl⟩
  | succ k ih =>
    have h : k < 25 := by omega
    obtain ⟨ih1, ih2⟩ := ih (by omega)
    rw [passB_succ y k h, Finset.sum_range_succ, Finset.sum_range_succ, ← add_assoc, ← add_assoc, ← ih1, ← ih2]
    simp only [stepB, gB, gC, dif_pos h]
    exact ⟨trivial, trivial⟩

theorem zlp_eq (hX : ∀ j k, X j k = (x j k : EReal)) (hA : ∀ n k, A n k = (a n k : EReal)) (n : Fin 1024) :
    zlp X A y n = ((zlpR x a y n : ℝ) : EReal) := by
  unfold zlp zlpR
  rw [m0_eq y hX hA n, sf_eq y hX hA n]
  have hpos : 0 < Real.exp (-(MxR x a n)) + SR x a y n :=
    add_pos_of_pos_of_nonneg (Real.exp_pos _) (SR_nonneg x a y n)
  rw [← EReal.coe_neg, Ideal.exp_coe, ← EReal.coe_add, Ideal.log_coe, if_neg (not_le.2 hpos), ← EReal.coe_sub]

theorem lp_eq (hX : ∀ j k, X j k = (x j k : EReal)) (hA : ∀ n k, A n k = (a n k : EReal))
    (T : Fin 25) (i : Fin 400) (n : Fin 1024) :
    lp X A y T i n = ((lpR x a y (row T i) n : ℝ) : EReal) := by
  unfold lp lpR
  rw [m0_eq y hX hA n, sf_eq y hX hA n, Lt_coe hX hA]
  have hpos : 0 < Real.exp (lgt x a (row T i) n - MxR x a n) + SR x a y n :=
    add_pos_of_pos_of_nonneg (Real.exp_pos _) (SR_nonneg x a y n)
  rw [← EReal.coe_sub, Ideal.exp_coe, ← EReal.coe_add, Ideal.log_coe, if_neg (not_le.2 hpos), ← EReal.coe_sub]

theorem posK_eq (hX : ∀ j k, X j k = (x j k : EReal)) (hA : ∀ n k, A n k = (a n k : EReal)) (n : Fin 1024) :
    posK X A y n = ((posC x a y n : ℝ) : EReal) := by
  unfold posK posC
  rw [(passB_closed y n 25 le_rfl).1, zero_add, pos0_coe, zlp_eq y hX hA n, ← coe_tenK,
    sum_rows_range (fun j => mskR y j n * lpR x a y j n), EReal.coe_add, coe_sum, EReal.coe_mul, EReal.coe_mul]
  congr 1
  refine Finset.sum_congr rfl (fun T hT => ?_)
  have hT' : T < 25 := Finset.mem_range.1 hT
  rw [gB, dif_pos hT', dif_pos hT', coe_sum]
  refine Finset.sum_congr rfl (fun j _ => ?_)
  rw [maskB_coe, lp_eq y hX hA, EReal.coe_mul]

theorem cntK_eq (n : Fin 1024) : cntK (X := X) (A := A) y n = ((cntC y n : ℝ) : EReal) := by
  unfold cntK cntC
  rw [(passB_closed y n 25 le_rfl).2, zero_add, pos0_coe, ← coe_tenK,
    sum_rows_range (fun j => mskR y j n), EReal.coe_add, coe_sum, EReal.coe_mul]
  congr 1
  refine Finset.sum_congr rfl (fun T hT => ?_)
  have hT' : T < 25 := Finset.mem_range.1 hT
  rw [gC, dif_pos hT', dif_pos hT', coe_sum]
  refine Finset.sum_congr rfl (fun j _ => ?_)
  rw [maskB_coe]

end Cert.Spec

end
-- ==== Proof.Val.MathRef.lean ====
import proofs.«401957_j37563783971102_3_alg».proof.Proof.Val.MathRef2
import proofs.«401957_j37563783971102_3_alg».proof.Proof.Val.MathK3

noncomputable section

namespace Cert.Spec

theorem bridge (X : Fin 10000 → Fin 256 → EReal) (A : Fin 1024 → Fin 256 → EReal) (y : Fin 1024 → BitVec 32)
    (cT : EReal) : Bridge X A y cT := by
  intro hX hA hy
  choose x hx using hX
  choose a ha using hA
  exact bridge_of y cT hx ha hy (fun n => posK_eq y hx ha n) (fun n => cntK_eq y n)

end Cert.Spec

end
-- ==== Proof.Val.GlueMath.lean ====
import proofs.«401957_j37563783971102_3_alg».proof.Proof.Val.Ref
import proofs.«401957_j37563783971102_3_alg».proof.Proof.Val.MathRef
import proofs.«401957_j37563783971102_3_alg».proof.Proof.Val.R0Core

noncomputable section

open scoped BigOperators

namespace Cert.Val.Glue

open Idealize.ShloMosaic Idealize.ShloMosaic.ValueIdx Cert.Val.Ref Cert.Val.R0

def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

theorem sum_sqImg (S T : (⟨4, ![8, 1, 512, 512]⟩ : Shape).Idx → EReal) :
    ∑ n : Fin 8, sqImg S T n = ∑ j, (S j - T j) * (S j - T j) := by
  rw [sum_idx4 (fun j => (S j - T j) * (S j - T j))]
  refine Finset.sum_congr rfl fun n _ => ?_
  rw [Fin.sum_univ_one]
  rfl

theorem mse_link (S T : (⟨4, ![8, 1, 512, 512]⟩ : Shape).Idx → EReal) :
    Ideal.div (0 + (mseCoreAt S T 0 + mseCoreAt S T 1)) 2097152 = refMse S T := by
  unfold refMse
  rw [mseCoreAt_add, sum_sqImg]

theorem value_eq (s0 s1 t0 t1 : Images) (a0 a1 : Anchors) (q0 q1 : Queue) (y0 y1 : Labels)
    (hq0 : ∀ j k, ∃ r : ℝ, tblX q0 j k = (r : EReal)) (hq1 : ∀ j k, ∃ r : ℝ, tblX q1 j k = (r : EReal))
    (ha0 : ∀ n k, ∃ r : ℝ, tblA a0 n k = (r : EReal)) (ha1 : ∀ n k, ∃ r : ℝ, tblA a1 n k = (r : EReal))
    (hy0 : ∀ n, tblY y0 n = 0#32 ∨ tblY y0 n = 1#32) (hy1 : ∀ n, tblY y1 n = 0#32 ∨ tblY y1 n = 1#32) :
    (Ideal.div (0 + (mseCoreAt s0 t0 0 + mseCoreAt s0 t0 1)) 2097152
        + Ideal.div (0 + (mseCoreAt s1 t1 0 + mseCoreAt s1 t1 1)) 2097152)
      + Ideal.ofBits .f32 0x3DCCCCCD#32
        * (Spec.lossK (tblX q0) (tblA a0) (tblY y0) (Ideal.ofBits .f32 0xBFB6DB6E#32)
          + Spec.lossK (tblX q1) (tblA a1) (tblY y1) (Ideal.ofBits .f32 0xBFB6DB6E#32))
      = refValue s0 s1 t0 t1 a0 a1 q0 q1 y0 y1 := by
  unfold refValue
  rw [mse_link, mse_link, Spec.bridge (tblX q0) (tblA a0) (tblY y0) _ hq0 ha0 hy0,
    Spec.bridge (tblX q1) (tblA a1) (tblY y1) _ hq1 ha1 hy1]

end Cert.Val.Glue

end
-- ==== Proof.Val.GlueTail.lean ====
import proofs.«401957_j37563783971102_3_alg».proof.Proof.Val.Host1
import proofs.«401957_j37563783971102_3_alg».proof.Proof.Val.Host2
import proofs.«401957_j37563783971102_3_alg».proof.Proof.Val.GlueMath

noncomputable section

open scoped BigOperators

namespace Cert.Val.Glue

open Idealize.ShloMosaic Idealize.ShloMosaic.StableHlo Idealize.ShloMosaic.ValueIdx
open Cert.KernelIdeal Cert.KernelIdeal.Gen Cert.Val.Host Cert.Val.Ref Cert.Val.R0

theorem tail_value (W1 W3 : Valuation τ sig (Elt Ideal))
    (s0 s1 t0 t1 : Images) (a0 a1 : Anchors) (q0 q1 : Queue) (y0 y1 : Labels)
    (hv0 : (W1 (Proc.devRef .tc main_v0_0) : S2x1x1.Idx → EReal) = mseCore s0 t0)
    (hv1 : (W1 (Proc.devRef .tc main_v0_1) : S2x1x1.Idx → EReal) = mseCore s1 t1)
    (h4 : (W1 (Proc.devRef .tc main_arg4) : S16x64x256.Idx → EReal) = a0)
    (h5 : (W1 (Proc.devRef .tc main_arg5) : S16x64x256.Idx → EReal) = a1)
    (h6 : (W1 (Proc.devRef .tc main_arg6) : S2x10000x256.Idx → EReal) = q0)
    (h7 : (W1 (Proc.devRef .tc main_arg7) : S2x10000x256.Idx → EReal) = q1)
    (h8 : (W1 (Proc.devRef .tc main_arg8) : S16.Idx → BitVec 32) = y0)
    (h9 : (W1 (Proc.devRef .tc main_arg9) : S16.Idx → BitVec 32) = y1)
    (hmse : W3 (Proc.devRef .tc main_v5) = StableHlo.after (hostOps1 (F := Ideal)) W1 (Proc.devRef .tc main_v5))
    (hpos : ∀ (p : Fin 2) (n : Fin 1024), posOut W3 (ix3 p (0 : Fin 1) n)
        = Spec.posK
            (fun j k => (StableHlo.after (hostOps1 (F := Ideal)) W1 (Proc.devRef .tc main_v28) : S2x10000x256.Idx → EReal) (ix3 p j k))
            (fun n k => (StableHlo.after (hostOps1 (F := Ideal)) W1 (Proc.devRef .tc main_v31) : S2x1024x256.Idx → EReal) (ix3 p n k))
            (fun n => (StableHlo.after (hostOps1 (F := Ideal)) W1 (Proc.devRef .tc main_v34) : S2x1x1024.Idx → BitVec 32) (ix3 p (0 : Fin 1) n)) n)
    (hcnt : ∀ (p : Fin 2) (n : Fin 1024), cntOut W3 (ix3 p (0 : Fin 1) n)
        = Spec.cntK
            (fun j k => (StableHlo.after (hostOps1 (F := Ideal)) W1 (Proc.devRef .tc main_v28) : S2x10000x256.Idx → EReal) (ix3 p j k))
            (fun n k => (StableHlo.after (hostOps1 (F := Ideal)) W1 (Proc.devRef .tc main_v31) : S2x1024x256.Idx → EReal) (ix3 p n k))
            (fun n => (StableHlo.after (hostOps1 (F := Ideal)) W1 (Proc.devRef .tc main_v34) : S2x1x1024.Idx → BitVec 32) (ix3 p (0 : Fin 1) n)) n)
    (hq0 : ∀ j k, ∃ r : ℝ, tblX q0 j k = (r : EReal)) (hq1 : ∀ j k, ∃ r : ℝ, tblX q1 j k = (r : EReal))
    (ha0 : ∀ n k, ∃ r : ℝ, tblA a0 n k = (r : EReal)) (ha1 : ∀ n k, ∃ r : ℝ, tblA a1 n k = (r : EReal))
    (hy0 : ∀ n, tblY y0 n = 0#32 ∨ tblY y0 n = 1#32) (hy1 : ∀ n, tblY y1 n = 0#32 ∨ tblY y1 n = 1#32) :
    (StableHlo.after (hostOps2_2 (F := Ideal)) (StableHlo.after (hostOps2_1 (F := Ideal)) (StableHlo.after (hostOps2 (F := Ideal)) W3))
        (Proc.devRef .tc main_v51) : S_.Idx → EReal) ix0
      = refValue s0 s1 t0 t1 a0 a1 q0 q1 y0 y1 := by
  have eX0 : (fun (j : Fin 10000) (k : Fin 256) =>
      (StableHlo.after (hostOps1 (F := Ideal)) W1 (Proc.devRef .tc main_v28) : S2x10000x256.Idx → EReal) (ix3 (0 : Fin 2) j k)) = tblX q0 := by
    funext j k
    rw [after1_v28_0 W1 j k]
    show (W1 (Proc.devRef .tc main_arg6) : S2x10000x256.Idx → EReal) _ = _
    rw [h6]; rfl
  have eX1 : (fun (j : Fin 10000) (k : Fin 256) =>
      (StableHlo.after (hostOps1 (F := Ideal)) W1 (Proc.devRef .tc main_v28) : S2x10000x256.Idx → EReal) (ix3 (1 : Fin 2) j k)) = tblX q1 := by
    funext j k
    rw [after1_v28_1 W1 j k]
    show (W1 (Proc.devRef .tc main_arg7) : S2x10000x256.Idx → EReal) _ = _
    rw [h7]; rfl
  have eA0 : (fun (n : Fin 1024) (k : Fin 256) =>
      (StableHlo.after (hostOps1 (F := Ideal)) W1 (Proc.devRef .tc main_v31) : S2x1024x256.Idx → EReal) (ix3 (0 : Fin 2) n k)) = tblA a0 := by
    funext n k
    rw [after1_v31_0 W1 n k]
    show (W1 (Proc.devRef .tc main_arg4) : S16x64x256.Idx → EReal) _ = _
    rw [h4]; rfl
  have eA1 : (fun (n : Fin 1024) (k : Fin 256) =>
      (StableHlo.after (hostOps1 (F := Ideal)) W1 (Proc.devRef .tc main_v31) : S2x1024x256.Idx → EReal) (ix3 (1 : Fin 2) n k)) = tblA a1 := by
    funext n k
    rw [after1_v31_1 W1 n k]
    show (W1 (Proc.devRef .tc main_arg5) : S16x64x256.Idx → EReal) _ = _
    rw [h5]; rfl
  have eY0 : (fun (n : Fin 1024) =>
      (StableHlo.after (hostOps1 (F := Ideal)) W1 (Proc.devRef .tc main_v34) : S2x1x1024.Idx → BitVec 32) (ix3 (0 : Fin 2) (0 : Fin 1) n)) = tblY y0 := by
    funext n
    rw [after1_v34_0 W1 0 n]
    show (W1 (Proc.devRef .tc main_arg8) : S16.Idx → BitVec 32) _ = _
    rw [h8]; rfl
  have eY1 : (fun (n : Fin 1024) =>
      (StableHlo.after (hostOps1 (F := Ideal)) W1 (Proc.devRef .tc main_v34) : S2x1x1024.Idx → BitVec 32) (ix3 (1 : Fin 2) (0 : Fin 1) n)) = tblY y1 := by
    funext n
    rw [after1_v34_1 W1 0 n]
    show (W1 (Proc.devRef .tc main_arg9) : S16.Idx → BitVec 32) _ = _
    rw [h9]; rfl
  have hp0 := hpos 0; have hp1 := hpos 1; have hc0 := hcnt 0; have hc1 := hcnt 1
  rw [eX0, eA0, eY0] at hp0 hc0
  rw [eX1, eA1, eY1] at hp1 hc1
  have e5 : mseOut W3 ix0
      = Ideal.div (0 + (mseCoreAt s0 t0 0 + mseCoreAt s0 t0 1)) 2097152
        + Ideal.div (0 + (mseCoreAt s1 t1 0 + mseCoreAt s1 t1 1)) 2097152 := by
    show (W3 (Proc.devRef .tc main_v5) : S_.Idx → EReal) ix0 = _
    rw [hmse, after1_v5 W1]
    unfold acc0 acc1
    rw [hv0, hv1, mseCore_apply, mseCore_apply, mseCore_apply, mseCore_apply]
  rw [tail_v51 W3, e5, lc_eq_lossK (posOut W3) (cntOut W3) 0 _ _ _ hp0 hc0,
    lc_eq_lossK (posOut W3) (cntOut W3) 1 _ _ _ hp1 hc1]
  exact value_eq s0 s1 t0 t1 a0 a1 q0 q1 y0 y1 hq0 hq1 ha0 ha1 hy0 hy1

end Cert.Val.Glue

end
-- ==== Proof.Val.Glue.lean ====
import proofs.«401957_j37563783971102_3_alg».proof.Defs
import proofs.«401957_j37563783971102_3_alg».proof.Proof.KI.Chain
import proofs.«401957_j37563783971102_3_alg».proof.Proof.Val.R0Val
import proofs.«401957_j37563783971102_3_alg».proof.Proof.Val.R1Final
import proofs.«401957_j37563783971102_3_alg».proof.Proof.Val.R1Val
import proofs.«401957_j37563783971102_3_alg».proof.Proof.Val.Pre
import proofs.«401957_j37563783971102_3_alg».proof.Proof.Val.GlueTail

noncomputable section

open scoped BigOperators

namespace Cert.Val.Glue

open Idealize.ShloMosaic Idealize.ShloMosaic.TcCoe Idealize.SL.Sem Idealize.ShloMosaic.StableHlo Idealize.ShloMosaic.ValueIdx
open Cert.KernelIdeal Cert.KernelIdeal.Gen Cert.KernelIdeal.Hand Cert.Val.Host Cert.Val.Ref Cert.Val.R0 Cert.Val.R1

theorem kernel_value (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (c : Dev Cert.KernelIdeal.nD) :
    Cert.KernelIdeal.Hand.W6 m ρ c (Proc.devRef .tc Cert.KernelIdeal.main_v51) = Cert.ReferenceIdeal.Value.res_main_v129 m' c := by
  obtain ⟨e0, e1, e2, e3, e4, e5, e6, e7, e8, e9⟩ := hagree c
  rw [Cert.Val.Ref.ref_value m' c, e0, e1, e2, e3, e4, e5, e6, e7, e8, e9]
  funext i
  rw [eq_ix0 i]
  have hv0 : (W1 m ρ c (Proc.devRef .tc main_v0_0) : S2x1x1.Idx → EReal) = mseCore (m ((c.tc : Thread nD τ).loc main_arg0)) (m ((c.tc : Thread nD τ).loc main_arg2)) :=
    (W1_main_v0_0 m ρ c).trans (final4 (V0 m ρ) c)
  have hv1 : (W1 m ρ c (Proc.devRef .tc main_v0_1) : S2x1x1.Idx → EReal) = mseCore (m ((c.tc : Thread nD τ).loc main_arg1)) (m ((c.tc : Thread nD τ).loc main_arg3)) :=
    (W1_main_v0_1 m ρ c).trans (final5 (V0 m ρ) c)
  have h4 : (W1 m ρ c (Proc.devRef .tc main_arg4) : S16x64x256.Idx → EReal) = (m ((c.tc : Thread nD τ).loc main_arg4)) := W1_of_ne m ρ c main_arg4 (by decide)
  have h5 : (W1 m ρ c (Proc.devRef .tc main_arg5) : S16x64x256.Idx → EReal) = (m ((c.tc : Thread nD τ).loc main_arg5)) := W1_of_ne m ρ c main_arg5 (by decide)
  have h6 : (W1 m ρ c (Proc.devRef .tc main_arg6) : S2x10000x256.Idx → EReal) = (m ((c.tc : Thread nD τ).loc main_arg6)) := W1_of_ne m ρ c main_arg6 (by decide)
  have h7 : (W1 m ρ c (Proc.devRef .tc main_arg7) : S2x10000x256.Idx → EReal) = (m ((c.tc : Thread nD τ).loc main_arg7)) := W1_of_ne m ρ c main_arg7 (by decide)
  have h8 : (W1 m ρ c (Proc.devRef .tc main_arg8) : S16.Idx → BitVec 32) = (m ((c.tc : Thread nD τ).loc main_arg8)) := W1_of_ne m ρ c main_arg8 (by decide)
  have h9 : (W1 m ρ c (Proc.devRef .tc main_arg9) : S16.Idx → BitVec 32) = (m ((c.tc : Thread nD τ).loc main_arg9)) := W1_of_ne m ρ c main_arg9 (by decide)
  have hmse : W3 m ρ c (Proc.devRef .tc main_v5) = StableHlo.after (hostOps1 (F := Ideal)) (W1 m ρ c) (Proc.devRef .tc main_v5) :=
    W3_of_ne m ρ c main_v5 (by decide)
  have hpos : ∀ (p : Fin 2) (n : Fin 1024), posOut (W3 m ρ c) (ix3 p (0 : Fin 1) n)
      = Spec.posK
          (fun j k => (StableHlo.after (hostOps1 (F := Ideal)) (W1 m ρ c) (Proc.devRef .tc main_v28) : S2x10000x256.Idx → EReal) (ix3 p j k))
          (fun n k => (StableHlo.after (hostOps1 (F := Ideal)) (W1 m ρ c) (Proc.devRef .tc main_v31) : S2x1024x256.Idx → EReal) (ix3 p n k))
          (fun n => (StableHlo.after (hostOps1 (F := Ideal)) (W1 m ρ c) (Proc.devRef .tc main_v34) : S2x1x1024.Idx → BitVec 32) (ix3 p (0 : Fin 1) n)) n :=
    fun p n => by
      show (W3 m ρ c (Proc.devRef .tc main_v35_0) : S2x1x1024.Idx → EReal) (ix3 p (0 : Fin 1) n) = _
      rw [W3_main_v35_0 m ρ c, arrAt3_eq (V2 m ρ) c (outs_final (V2 m ρ) c)]
      rfl
  have hcnt : ∀ (p : Fin 2) (n : Fin 1024), cntOut (W3 m ρ c) (ix3 p (0 : Fin 1) n)
      = Spec.cntK
          (fun j k => (StableHlo.after (hostOps1 (F := Ideal)) (W1 m ρ c) (Proc.devRef .tc main_v28) : S2x10000x256.Idx → EReal) (ix3 p j k))
          (fun n k => (StableHlo.after (hostOps1 (F := Ideal)) (W1 m ρ c) (Proc.devRef .tc main_v31) : S2x1024x256.Idx → EReal) (ix3 p n k))
          (fun n => (StableHlo.after (hostOps1 (F := Ideal)) (W1 m ρ c) (Proc.devRef .tc main_v34) : S2x1x1024.Idx → BitVec 32) (ix3 p (0 : Fin 1) n)) n :=
    fun p n => by
      show (W3 m ρ c (Proc.devRef .tc main_v35_1) : S2x1x1024.Idx → EReal) (ix3 p (0 : Fin 1) n) = _
      rw [W3_main_v35_1 m ρ c, arrAt4_eq (V2 m ρ) c (outs_final (V2 m ρ) c)]
      rfl
  exact tail_value (W1 m ρ c) (W3 m ρ c) _ _ _ _ _ _ _ _ _ _ hv0 hv1 h4 h5 h6 h7 h8 h9 hmse hpos hcnt
    (fun j k => Cert.Val.Pre.queue6 (hpre c) j k) (fun j k => Cert.Val.Pre.queue7 (hpre c) j k)
    (fun n k => Cert.Val.Pre.anchor4 (hpre c) n k) (fun n k => Cert.Val.Pre.anchor5 (hpre c) n k)
    (fun n => Cert.Val.Pre.tiled8 (hpre c) n) (fun n => Cert.Val.Pre.tiled9 (hpre c) n)

end Cert.Val.Glue

end
-- ==== Proof.lean ====
/-
  A fused loss against its reference, over the extended reals: the mean squared error of two image pairs plus two
  weighted supervised-contrastive terms over a queue of rows. The kernel program's two grids are run point by point.
  Its contrastive term keeps a running maximum and a rescaled running sum of exponentials; for finite inputs that is
  the reference's maximum and sum over all rows, because exp (a - b) * exp (b - c) = exp (a - c).
-/
import proofs.«401957_j37563783971102_3_alg».proof.Defs
import proofs.«401957_j37563783971102_3_alg».proof.Proof.Gen.Kernel
import proofs.«401957_j37563783971102_3_alg».proof.Proof.Gen.KernelIdeal
import proofs.«401957_j37563783971102_3_alg».proof.Proof.Gen.ReferenceIdeal
import proofs.«401957_j37563783971102_3_alg».proof.Proof.Gen.Pre_finite_inputs
import proofs.«401957_j37563783971102_3_alg».proof.Proof.KB.Main
import proofs.«401957_j37563783971102_3_alg».proof.Proof.KI.Main
import proofs.«401957_j37563783971102_3_alg».proof.Proof.Val.Glue

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem scale_named : IdealRules.named_const.Statement Cert.KernelIdeal.κ "inv_t" .f32 0x41200000#32 ((134217728 / 13421773 : ℝ) : EReal) :=
  IdealRules.named_const.statement Cert.KernelIdeal.κ "inv_t" .f32 0x41200000#32 ((134217728 / 13421773 : ℝ) : EReal) rfl

theorem preserves : Cert.preserves_Kernel_KernelIdeal :=
  ⟨scale_named, scale_named, scale_named, scale_named, scale_named, scale_named, scale_named, scale_named, scale_named, scale_named⟩

theorem algebraic : Cert.algebraic_KernelIdeal_ReferenceIdeal := by
  intro m ρ m' ρ' hpre hagree
  refine ⟨fun c => Cert.ReferenceIdeal.Value.res_main_v129 m' c, ?_, Cert.ReferenceIdeal.Value.run (F := Ideal) m' ρ'⟩
  exact (θ_run Cert.KernelIdeal.defs _ _).mono
    (fun r h c => ⟨(h c).1.trans (Cert.Val.Glue.kernel_value m ρ m' hpre hagree c), (h c).2⟩)
    (Cert.KernelIdeal.Hand.run_result (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
